-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v203)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v203) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v437) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x1536x2048 : Shape := ⟨4, ![1, 3, 1536, 2048]⟩
abbrev S_ : Shape := ⟨0, ![]⟩

class Facts : Prop where
  bcast_S_S1x3x1536x2048 : S_.BroadcastsInDim S1x3x1536x2048 (![] : Fin 0 → Fin S1x3x1536x2048.rank)
  reducesTo_S1x3x1536x2048_S_d0_1_2_3 : S1x3x1536x2048.ReducesTo [0, 1, 2, 3] S_
  h_S_ : 0 < S_.numel

variable [Facts]

def fn {F : FTy → Type} [FloatOps F] (main_arg0 : FVec F S1x3x1536x2048 .f32) (main_arg1 : FVec F S1x3x1536x2048 .f32) : IVec S_ 1 :=
  let main_v0 : FVec F S1x3x1536x2048 .f32 := Host.absf main_arg0
  let main_cst : FVec F S_ .f32 := constant S_ .f32 0x7F800000#32
  let main_v1 : FVec F S1x3x1536x2048 .f32 := broadcastInDim S1x3x1536x2048 ![] bcast_S_S1x3x1536x2048 main_cst
  let main_v2 : IVec S1x3x1536x2048 1 := cmpf .olt main_v0 main_v1
  let main_c : IVec S_ 1 := constantI S_ 1 1#1
  let main_v3 : IVec S_ 1 := (fun x v => Host.reduce IntOp.andi x v reducesTo_S1x3x1536x2048_S_d0_1_2_3 h_S_) main_v2 main_c
  let main_v4 : FVec F S1x3x1536x2048 .f32 := Host.absf main_arg1
  let main_cst_0 : FVec F S_ .f32 := constant S_ .f32 0x7F800000#32
  let main_v5 : FVec F S1x3x1536x2048 .f32 := broadcastInDim S1x3x1536x2048 ![] bcast_S_S1x3x1536x2048 main_cst_0
  let main_v6 : IVec S1x3x1536x2048 1 := cmpf .olt main_v4 main_v5
  let main_c_1 : IVec S_ 1 := constantI S_ 1 1#1
  let main_v7 : IVec S_ 1 := (fun x v => Host.reduce IntOp.andi x v reducesTo_S1x3x1536x2048_S_d0_1_2_3 h_S_) main_v6 main_c_1
  let main_v8 : IVec S_ 1 := andi main_v3 main_v7
  main_v8
-- ==== Kernel.lean ====
abbrev S1x3x1536x2048 : Shape := ⟨4, ![1, 3, 1536, 2048]⟩
abbrev S3x3 : Shape := ⟨2, ![3, 3]⟩
abbrev S3 : Shape := ⟨1, ![3]⟩
abbrev S3145728x3 : Shape := ⟨2, ![3145728, 3]⟩
abbrev S1x3 : Shape := ⟨2, ![1, 3]⟩
abbrev S3x1536x2048 : Shape := ⟨3, ![3, 1536, 2048]⟩
abbrev S_ : Shape := ⟨0, ![]⟩
abbrev S3x1552x2048 : Shape := ⟨3, ![3, 1552, 2048]⟩
abbrev S1x48 : Shape := ⟨2, ![1, 48]⟩
abbrev S3x272x2048 : Shape := ⟨3, ![3, 272, 2048]⟩
abbrev S256x1 : Shape := ⟨2, ![256, 1]⟩
abbrev S256x2046 : Shape := ⟨2, ![256, 2046]⟩
abbrev S1x256x2046 : Shape := ⟨3, ![1, 256, 2046]⟩
abbrev S1 : Shape := ⟨1, ![1]⟩
abbrev S1x1x1 : Shape := ⟨3, ![1, 1, 1]⟩
abbrev S1x1 : Shape := ⟨2, ![1, 1]⟩
abbrev S256x2047 : Shape := ⟨2, ![256, 2047]⟩
abbrev S1x256x2047 : Shape := ⟨3, ![1, 256, 2047]⟩
abbrev S256x2048 : Shape := ⟨2, ![256, 2048]⟩
abbrev S1x256x2048 : Shape := ⟨3, ![1, 256, 2048]⟩
abbrev S24x2 : Shape := ⟨2, ![24, 2]⟩

abbrev nBuf : Space → Nat
  | .hbm => 261
  | .vmem => 3
  | .smem => 0
  | _ => 0

abbrev hbmTy0_0 (i : Nat) : BufTy := match i % 128 with
  | 0 => ⟨S1x3x1536x2048, .f32⟩
  | 1 => ⟨S1x3x1536x2048, .f32⟩
  | 2 => ⟨S3x3, .f32⟩
  | 3 => ⟨S3, .f32⟩
  | 4 => ⟨S3145728x3, .f32⟩
  | 5 => ⟨S3145728x3, .f32⟩
  | 6 => ⟨S1x3, .f32⟩
  | 7 => ⟨S3145728x3, .f32⟩
  | 8 => ⟨S3145728x3, .f32⟩
  | 9 => ⟨S1x3x1536x2048, .f32⟩
  | 10 => ⟨S3x1536x2048, .f32⟩
  | 11 => ⟨S3x1536x2048, .f32⟩
  | 12 => ⟨S_, .i32⟩
  | 13 => ⟨S_, .f32⟩
  | 14 => ⟨S3x1552x2048, .f32⟩
  | 15 => ⟨S_, .i32⟩
  | 16 => ⟨S_, .f32⟩
  | 17 => ⟨S3x1552x2048, .f32⟩
  | 18 => ⟨S1x48, .f32⟩
  | 19 => ⟨S24x2, .f32⟩
  | 20 => ⟨S1x1, .f32⟩
  | 21 => ⟨S_, .f32⟩
  | 22 => ⟨S_, .f32⟩
  | 23 => ⟨S_, .f32⟩
  | 24 => ⟨S1x1, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S1x1, .f32⟩
  | 32 => ⟨S_, .f32⟩
  | 33 => ⟨S_, .f32⟩
  | 34 => ⟨S_, .f32⟩
  | 35 => ⟨S1x1, .f32⟩
  | 36 => ⟨S_, .f32⟩
  | 37 => ⟨S_, .f32⟩
  | 38 => ⟨S_, .f32⟩
  | 39 => ⟨S_, .f32⟩
  | 40 => ⟨S_, .f32⟩
  | 41 => ⟨S1x1, .f32⟩
  | 42 => ⟨S_, .f32⟩
  | 43 => ⟨S_, .f32⟩
  | 44 => ⟨S_, .f32⟩
  | 45 => ⟨S1x1, .f32⟩
  | 46 => ⟨S_, .f32⟩
  | 47 => ⟨S_, .f32⟩
  | 48 => ⟨S_, .f32⟩
  | 49 => ⟨S_, .f32⟩
  | 50 => ⟨S_, .f32⟩
  | 51 => ⟨S1x1, .f32⟩
  | 52 => ⟨S_, .f32⟩
  | 53 => ⟨S_, .f32⟩
  | 54 => ⟨S_, .f32⟩
  | 55 => ⟨S1x1, .f32⟩
  | 56 => ⟨S_, .f32⟩
  | 57 => ⟨S_, .f32⟩
  | 58 => ⟨S_, .f32⟩
  | 59 => ⟨S_, .f32⟩
  | 60 => ⟨S_, .f32⟩
  | 61 => ⟨S1x1, .f32⟩
  | 62 => ⟨S_, .f32⟩
  | 63 => ⟨S_, .f32⟩
  | 64 => ⟨S_, .f32⟩
  | 65 => ⟨S1x1, .f32⟩
  | 66 => ⟨S_, .f32⟩
  | 67 => ⟨S_, .f32⟩
  | 68 => ⟨S_, .f32⟩
  | 69 => ⟨S_, .f32⟩
  | 70 => ⟨S_, .f32⟩
  | 71 => ⟨S1x1, .f32⟩
  | 72 => ⟨S_, .f32⟩
  | 73 => ⟨S_, .f32⟩
  | 74 => ⟨S_, .f32⟩
  | 75 => ⟨S1x1, .f32⟩
  | 76 => ⟨S_, .f32⟩
  | 77 => ⟨S_, .f32⟩
  | 78 => ⟨S_, .f32⟩
  | 79 => ⟨S_, .f32⟩
  | 80 => ⟨S_, .f32⟩
  | 81 => ⟨S1x1, .f32⟩
  | 82 => ⟨S_, .f32⟩
  | 83 => ⟨S_, .f32⟩
  | 84 => ⟨S_, .f32⟩
  | 85 => ⟨S1x1, .f32⟩
  | 86 => ⟨S_, .f32⟩
  | 87 => ⟨S_, .f32⟩
  | 88 => ⟨S_, .f32⟩
  | 89 => ⟨S_, .f32⟩
  | 90 => ⟨S_, .f32⟩
  | 91 => ⟨S1x1, .f32⟩
  | 92 => ⟨S_, .f32⟩
  | 93 => ⟨S_, .f32⟩
  | 94 => ⟨S_, .f32⟩
  | 95 => ⟨S1x1, .f32⟩
  | 96 => ⟨S_, .f32⟩
  | 97 => ⟨S_, .f32⟩
  | 98 => ⟨S_, .f32⟩
  | 99 => ⟨S_, .f32⟩
  | 100 => ⟨S_, .f32⟩
  | 101 => ⟨S1x1, .f32⟩
  | 102 => ⟨S_, .f32⟩
  | 103 => ⟨S_, .f32⟩
  | 104 => ⟨S_, .f32⟩
  | 105 => ⟨S1x1, .f32⟩
  | 106 => ⟨S_, .f32⟩
  | 107 => ⟨S_, .f32⟩
  | 108 => ⟨S_, .f32⟩
  | 109 => ⟨S_, .f32⟩
  | 110 => ⟨S_, .f32⟩
  | 111 => ⟨S1x1, .f32⟩
  | 112 => ⟨S_, .f32⟩
  | 113 => ⟨S_, .f32⟩
  | 114 => ⟨S_, .f32⟩
  | 115 => ⟨S1x1, .f32⟩
  | 116 => ⟨S_, .f32⟩
  | 117 => ⟨S_, .f32⟩
  | 118 => ⟨S_, .f32⟩
  | 119 => ⟨S_, .f32⟩
  | 120 => ⟨S_, .f32⟩
  | 121 => ⟨S1x1, .f32⟩
  | 122 => ⟨S_, .f32⟩
  | 123 => ⟨S_, .f32⟩
  | 124 => ⟨S_, .f32⟩
  | 125 => ⟨S1x1, .f32⟩
  | 126 => ⟨S_, .f32⟩
  | 127 => ⟨S_, .f32⟩
  | _ => ⟨S1x3x1536x2048, .f32⟩

abbrev hbmTy0_1 (i : Nat) : BufTy := match i % 128 with
  | 0 => ⟨S_, .f32⟩
  | 1 => ⟨S_, .f32⟩
  | 2 => ⟨S_, .f32⟩
  | 3 => ⟨S1x1, .f32⟩
  | 4 => ⟨S_, .f32⟩
  | 5 => ⟨S_, .f32⟩
  | 6 => ⟨S_, .f32⟩
  | 7 => ⟨S1x1, .f32⟩
  | 8 => ⟨S_, .f32⟩
  | 9 => ⟨S_, .f32⟩
  | 10 => ⟨S_, .f32⟩
  | 11 => ⟨S_, .f32⟩
  | 12 => ⟨S_, .f32⟩
  | 13 => ⟨S1x1, .f32⟩
  | 14 => ⟨S_, .f32⟩
  | 15 => ⟨S_, .f32⟩
  | 16 => ⟨S_, .f32⟩
  | 17 => ⟨S1x1, .f32⟩
  | 18 => ⟨S_, .f32⟩
  | 19 => ⟨S_, .f32⟩
  | 20 => ⟨S_, .f32⟩
  | 21 => ⟨S_, .f32⟩
  | 22 => ⟨S_, .f32⟩
  | 23 => ⟨S1x1, .f32⟩
  | 24 => ⟨S_, .f32⟩
  | 25 => ⟨S_, .f32⟩
  | 26 => ⟨S_, .f32⟩
  | 27 => ⟨S1x1, .f32⟩
  | 28 => ⟨S_, .f32⟩
  | 29 => ⟨S_, .f32⟩
  | 30 => ⟨S_, .f32⟩
  | 31 => ⟨S_, .f32⟩
  | 32 => ⟨S_, .f32⟩
  | 33 => ⟨S1x1, .f32⟩
  | 34 => ⟨S_, .f32⟩
  | 35 => ⟨S_, .f32⟩
  | 36 => ⟨S_, .f32⟩
  | 37 => ⟨S1x1, .f32⟩
  | 38 => ⟨S_, .f32⟩
  | 39 => ⟨S_, .f32⟩
  | 40 => ⟨S_, .f32⟩
  | 41 => ⟨S_, .f32⟩
  | 42 => ⟨S_, .f32⟩
  | 43 => ⟨S1x1, .f32⟩
  | 44 => ⟨S_, .f32⟩
  | 45 => ⟨S_, .f32⟩
  | 46 => ⟨S_, .f32⟩
  | 47 => ⟨S1x1, .f32⟩
  | 48 => ⟨S_, .f32⟩
  | 49 => ⟨S_, .f32⟩
  | 50 => ⟨S_, .f32⟩
  | 51 => ⟨S_, .f32⟩
  | 52 => ⟨S_, .f32⟩
  | 53 => ⟨S1x1, .f32⟩
  | 54 => ⟨S_, .f32⟩
  | 55 => ⟨S_, .f32⟩
  | 56 => ⟨S_, .f32⟩
  | 57 => ⟨S1x1, .f32⟩
  | 58 => ⟨S_, .f32⟩
  | 59 => ⟨S_, .f32⟩
  | 60 => ⟨S_, .f32⟩
  | 61 => ⟨S_, .f32⟩
  | 62 => ⟨S_, .f32⟩
  | 63 => ⟨S1x1, .f32⟩
  | 64 => ⟨S_, .f32⟩
  | 65 => ⟨S_, .f32⟩
  | 66 => ⟨S_, .f32⟩
  | 67 => ⟨S1x1, .f32⟩
  | 68 => ⟨S_, .f32⟩
  | 69 => ⟨S_, .f32⟩
  | 70 => ⟨S_, .f32⟩
  | 71 => ⟨S_, .f32⟩
  | 72 => ⟨S_, .f32⟩
  | 73 => ⟨S1x1, .f32⟩
  | 74 => ⟨S_, .f32⟩
  | 75 => ⟨S_, .f32⟩
  | 76 => ⟨S_, .f32⟩
  | 77 => ⟨S1x1, .f32⟩
  | 78 => ⟨S_, .f32⟩
  | 79 => ⟨S_, .f32⟩
  | 80 => ⟨S_, .f32⟩
  | 81 => ⟨S_, .f32⟩
  | 82 => ⟨S_, .f32⟩
  | 83 => ⟨S1x1, .f32⟩
  | 84 => ⟨S_, .f32⟩
  | 85 => ⟨S_, .f32⟩
  | 86 => ⟨S_, .f32⟩
  | 87 => ⟨S1x1, .f32⟩
  | 88 => ⟨S_, .f32⟩
  | 89 => ⟨S_, .f32⟩
  | 90 => ⟨S_, .f32⟩
  | 91 => ⟨S_, .f32⟩
  | 92 => ⟨S_, .f32⟩
  | 93 => ⟨S1x1, .f32⟩
  | 94 => ⟨S_, .f32⟩
  | 95 => ⟨S_, .f32⟩
  | 96 => ⟨S_, .f32⟩
  | 97 => ⟨S1x1, .f32⟩
  | 98 => ⟨S_, .f32⟩
  | 99 => ⟨S_, .f32⟩
  | 100 => ⟨S_, .f32⟩
  | 101 => ⟨S_, .f32⟩
  | 102 => ⟨S_, .f32⟩
  | 103 => ⟨S1x1, .f32⟩
  | 104 => ⟨S_, .f32⟩
  | 105 => ⟨S_, .f32⟩
  | 106 => ⟨S_, .f32⟩
  | 107 => ⟨S1x1, .f32⟩
  | 108 => ⟨S_, .f32⟩
  | 109 => ⟨S_, .f32⟩
  | 110 => ⟨S_, .f32⟩
  | 111 => ⟨S_, .f32⟩
  | 112 => ⟨S_, .f32⟩
  | 113 => ⟨S1x1, .f32⟩
  | 114 => ⟨S_, .f32⟩
  | 115 => ⟨S_, .f32⟩
  | 116 => ⟨S_, .f32⟩
  | 117 => ⟨S1x1, .f32⟩
  | 118 => ⟨S_, .f32⟩
  | 119 => ⟨S_, .f32⟩
  | 120 => ⟨S_, .f32⟩
  | 121 => ⟨S_, .f32⟩
  | 122 => ⟨S_, .f32⟩
  | 123 => ⟨S1x1, .f32⟩
  | 124 => ⟨S_, .f32⟩
  | 125 => ⟨S_, .f32⟩
  | 126 => ⟨S_, .f32⟩
  | 127 => ⟨S1x1, .f32⟩
  | _ => ⟨S1x3x1536x2048, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S1x3x1536x2048, .f32⟩

abbrev hbmTy (i : Nat) : BufTy := match i / 128 with
  | 0 => hbmTy0_0 i
  | 1 => hbmTy0_1 i
  | 2 => hbmTy0_2 i
  | _ => ⟨S1x3x1536x2048, .f32⟩

abbrev bufTy : (tb : Table) → Fin (tcTables nBuf tb) → BufTy
  | .hbm, ⟨i, _⟩ => hbmTy i
  | .local _ .vmem, ⟨0, _⟩ => ⟨S1x48, .f32⟩
  | .local _ .vmem, ⟨1, _⟩ => ⟨S3x272x2048, .f32⟩
  | .local _ .vmem, ⟨2, _⟩ => ⟨S3x272x2048, .f32⟩
  | _, _ => ⟨S1x3x1536x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_1 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_17 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_18 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_19 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_20 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_21 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_22 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_23 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_24 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_25 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_26 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_27 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_28 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_29 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_30 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_31 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_32 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_33 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_34 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_35 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_36 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_37 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_38 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_39 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_40 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_cst_41 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_42 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_43 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_44 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_45 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_46 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_cst_47 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_48 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_cst_49 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_cst_50 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := ⟨1, ![6], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 3 → Nat :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := v0
  let c0_i32_0 : BitVec 32 := 0#32
  ![0, v1.toNat, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  shapeCasts_S1x3x1536x2048_S3145728x3 : S1x3x1536x2048.ShapeCasts S3145728x3
  bcast_S3_S1x3_1 : S3.BroadcastsInDim S1x3 (![1] : Fin 1 → Fin S1x3.rank)
  bcast_S1x3_S3145728x3_0_1 : S1x3.BroadcastsInDim S3145728x3 (![0, 1] : Fin 2 → Fin S3145728x3.rank)
  shapeCasts_S3145728x3_S1x3x1536x2048 : S3145728x3.ShapeCasts S1x3x1536x2048
  shapeCasts_S1x3x1536x2048_S3x1536x2048 : S1x3x1536x2048.ShapeCasts S3x1536x2048
  pads_S3x1536x2048_S3x1552x2048_000_880_000 : S3x1536x2048.Pads (![0, 8, 0] : Fin 3 → Nat) ![0, 8, 0] ![0, 0, 0] S3x1552x2048
  h_S_ : 0 < S_.numel
  inb_S1x48_S1x48_0_0 : ∀ a, (![0, 0] : Fin 2 → Nat) a + S1x48.size a ≤ S1x48.size a
  h_S1x48 : 0 < S1x48.numel
  iota_S256x1_d0_w32 : S256x1.Iotas .tc 32 [0]
  natLt_1_32 : 1 < 32
  inb_S3x272x2048_S1x256x2046_0_8_2 : ∀ a, (![0, 8, 2] : Fin 3 → Nat) a + S1x256x2046.size a ≤ S3x272x2048.size a
  h_S1x256x2046 : 0 < S1x256x2046.numel
  shapeCasts_S1x256x2046_S256x2046 : S1x256x2046.ShapeCasts S256x2046
  inb_S3x272x2048_S1x256x2046_0_6_0 : ∀ a, (![0, 6, 0] : Fin 3 → Nat) a + S1x256x2046.size a ≤ S3x272x2048.size a
  inb_S3x272x2048_S1x256x2046_1_8_2 : ∀ a, (![1, 8, 2] : Fin 3 → Nat) a + S1x256x2046.size a ≤ S3x272x2048.size a
  inb_S3x272x2048_S1x256x2046_1_6_0 : ∀ a, (![1, 6, 0] : Fin 3 → Nat) a + S1x256x2046.size a ≤ S3x272x2048.size a
  inb_S3x272x2048_S1x256x2046_2_8_2 : ∀ a, (![2, 8, 2] : Fin 3 → Nat) a + S1x256x2046.size a ≤ S3x272x2048.size a
  inb_S3x272x2048_S1x256x2046_2_6_0 : ∀ a, (![2, 6, 0] : Fin 3 → Nat) a + S1x256x2046.size a ≤ S3x272x2048.size a
  broadcasts_S256x1_S256x2046 : S256x1.Broadcasts S256x2046
  shapeCasts_S256x2046_S1x256x2046 : S256x2046.ShapeCasts S1x256x2046
  reduces_S1x256x2046_S1 : S1x256x2046.Reduces [1, 2] S1
  shapeCasts_S1_S1x1x1 : S1.ShapeCasts S1x1x1
  inpos_S1x1x1_p0_0_0 : ∀ a, (![0, 0, 0] : Fin 3 → Nat) a < S1x1x1.size a
  inb_S3x272x2048_S1x256x2047_0_8_1 : ∀ a, (![0, 8, 1] : Fin 3 → Nat) a + S1x256x2047.size a ≤ S3x272x2048.size a
  h_S1x256x2047 : 0 < S1x256x2047.numel
  shapeCasts_S1x256x2047_S256x2047 : S1x256x2047.ShapeCasts S256x2047
  inb_S3x272x2048_S1x256x2047_0_6_0 : ∀ a, (![0, 6, 0] : Fin 3 → Nat) a + S1x256x2047.size a ≤ S3x272x2048.size a
  inb_S3x272x2048_S1x256x2047_1_8_1 : ∀ a, (![1, 8, 1] : Fin 3 → Nat) a + S1x256x2047.size a ≤ S3x272x2048.size a
  inb_S3x272x2048_S1x256x2047_1_6_0 : ∀ a, (![1, 6, 0] : Fin 3 → Nat) a + S1x256x2047.size a ≤ S3x272x2048.size a
  inb_S3x272x2048_S1x256x2047_2_8_1 : ∀ a, (![2, 8, 1] : Fin 3 → Nat) a + S1x256x2047.size a ≤ S3x272x2048.size a
  inb_S3x272x2048_S1x256x2047_2_6_0 : ∀ a, (![2, 6, 0] : Fin 3 → Nat) a + S1x256x2047.size a ≤ S3x272x2048.size a
  broadcasts_S256x1_S256x2047 : S256x1.Broadcasts S256x2047
  shapeCasts_S256x2047_S1x256x2047 : S256x2047.ShapeCasts S1x256x2047
  reduces_S1x256x2047_S1 : S1x256x2047.Reduces [1, 2] S1
  inb_S3x272x2048_S1x256x2048_0_8_0 : ∀ a, (![0, 8, 0] : Fin 3 → Nat) a + S1x256x2048.size a ≤ S3x272x2048.size a
  h_S1x256x2048 : 0 < S1x256x2048.numel
  shapeCasts_S1x256x2048_S256x2048 : S1x256x2048.ShapeCasts S256x2048
  inb_S3x272x2048_S1x256x2048_0_6_0 : ∀ a, (![0, 6, 0] : Fin 3 → Nat) a + S1x256x2048.size a ≤ S3x272x2048.size a
  inb_S3x272x2048_S1x256x2048_1_8_0 : ∀ a, (![1, 8, 0] : Fin 3 → Nat) a + S1x256x2048.size a ≤ S3x272x2048.size a
  inb_S3x272x2048_S1x256x2048_1_6_0 : ∀ a, (![1, 6, 0] : Fin 3 → Nat) a + S1x256x2048.size a ≤ S3x272x2048.size a
  inb_S3x272x2048_S1x256x2048_2_8_0 : ∀ a, (![2, 8, 0] : Fin 3 → Nat) a + S1x256x2048.size a ≤ S3x272x2048.size a
  inb_S3x272x2048_S1x256x2048_2_6_0 : ∀ a, (![2, 6, 0] : Fin 3 → Nat) a + S1x256x2048.size a ≤ S3x272x2048.size a
  broadcasts_S256x1_S256x2048 : S256x1.Broadcasts S256x2048
  shapeCasts_S256x2048_S1x256x2048 : S256x2048.ShapeCasts S1x256x2048
  reduces_S1x256x2048_S1 : S1x256x2048.Reduces [1, 2] S1
  inb_S3x272x2048_S1x256x2047_0_8_0 : ∀ a, (![0, 8, 0] : Fin 3 → Nat) a + S1x256x2047.size a ≤ S3x272x2048.size a
  inb_S3x272x2048_S1x256x2047_0_6_1 : ∀ a, (![0, 6, 1] : Fin 3 → Nat) a + S1x256x2047.size a ≤ S3x272x2048.size a
  inb_S3x272x2048_S1x256x2047_1_8_0 : ∀ a, (![1, 8, 0] : Fin 3 → Nat) a + S1x256x2047.size a ≤ S3x272x2048.size a
  inb_S3x272x2048_S1x256x2047_1_6_1 : ∀ a, (![1, 6, 1] : Fin 3 → Nat) a + S1x256x2047.size a ≤ S3x272x2048.size a
  inb_S3x272x2048_S1x256x2047_2_8_0 : ∀ a, (![2, 8, 0] : Fin 3 → Nat) a + S1x256x2047.size a ≤ S3x272x2048.size a
  inb_S3x272x2048_S1x256x2047_2_6_1 : ∀ a, (![2, 6, 1] : Fin 3 → Nat) a + S1x256x2047.size a ≤ S3x272x2048.size a
  inb_S3x272x2048_S1x256x2046_0_8_0 : ∀ a, (![0, 8, 0] : Fin 3 → Nat) a + S1x256x2046.size a ≤ S3x272x2048.size a
  inb_S3x272x2048_S1x256x2046_0_6_2 : ∀ a, (![0, 6, 2] : Fin 3 → Nat) a + S1x256x2046.size a ≤ S3x272x2048.size a
  inb_S3x272x2048_S1x256x2046_1_8_0 : ∀ a, (![1, 8, 0] : Fin 3 → Nat) a + S1x256x2046.size a ≤ S3x272x2048.size a
  inb_S3x272x2048_S1x256x2046_1_6_2 : ∀ a, (![1, 6, 2] : Fin 3 → Nat) a + S1x256x2046.size a ≤ S3x272x2048.size a
  inb_S3x272x2048_S1x256x2046_2_8_0 : ∀ a, (![2, 8, 0] : Fin 3 → Nat) a + S1x256x2046.size a ≤ S3x272x2048.size a
  inb_S3x272x2048_S1x256x2046_2_6_2 : ∀ a, (![2, 6, 2] : Fin 3 → Nat) a + S1x256x2046.size a ≤ S3x272x2048.size a
  inb_S3x272x2048_S1x256x2046_0_7_0 : ∀ a, (![0, 7, 0] : Fin 3 → Nat) a + S1x256x2046.size a ≤ S3x272x2048.size a
  inb_S3x272x2048_S1x256x2046_1_7_0 : ∀ a, (![1, 7, 0] : Fin 3 → Nat) a + S1x256x2046.size a ≤ S3x272x2048.size a
  inb_S3x272x2048_S1x256x2046_2_7_0 : ∀ a, (![2, 7, 0] : Fin 3 → Nat) a + S1x256x2046.size a ≤ S3x272x2048.size a
  inb_S3x272x2048_S1x256x2047_0_7_0 : ∀ a, (![0, 7, 0] : Fin 3 → Nat) a + S1x256x2047.size a ≤ S3x272x2048.size a
  inb_S3x272x2048_S1x256x2047_1_7_0 : ∀ a, (![1, 7, 0] : Fin 3 → Nat) a + S1x256x2047.size a ≤ S3x272x2048.size a
  inb_S3x272x2048_S1x256x2047_2_7_0 : ∀ a, (![2, 7, 0] : Fin 3 → Nat) a + S1x256x2047.size a ≤ S3x272x2048.size a
  inb_S3x272x2048_S1x256x2048_0_7_0 : ∀ a, (![0, 7, 0] : Fin 3 → Nat) a + S1x256x2048.size a ≤ S3x272x2048.size a
  inb_S3x272x2048_S1x256x2048_1_7_0 : ∀ a, (![1, 7, 0] : Fin 3 → Nat) a + S1x256x2048.size a ≤ S3x272x2048.size a
  inb_S3x272x2048_S1x256x2048_2_7_0 : ∀ a, (![2, 7, 0] : Fin 3 → Nat) a + S1x256x2048.size a ≤ S3x272x2048.size a
  inb_S3x272x2048_S1x256x2047_0_7_1 : ∀ a, (![0, 7, 1] : Fin 3 → Nat) a + S1x256x2047.size a ≤ S3x272x2048.size a
  inb_S3x272x2048_S1x256x2047_1_7_1 : ∀ a, (![1, 7, 1] : Fin 3 → Nat) a + S1x256x2047.size a ≤ S3x272x2048.size a
  inb_S3x272x2048_S1x256x2047_2_7_1 : ∀ a, (![2, 7, 1] : Fin 3 → Nat) a + S1x256x2047.size a ≤ S3x272x2048.size a
  inb_S3x272x2048_S1x256x2046_0_7_2 : ∀ a, (![0, 7, 2] : Fin 3 → Nat) a + S1x256x2046.size a ≤ S3x272x2048.size a
  inb_S3x272x2048_S1x256x2046_1_7_2 : ∀ a, (![1, 7, 2] : Fin 3 → Nat) a + S1x256x2046.size a ≤ S3x272x2048.size a
  inb_S3x272x2048_S1x256x2046_2_7_2 : ∀ a, (![2, 7, 2] : Fin 3 → Nat) a + S1x256x2046.size a ≤ S3x272x2048.size a
  inb_S3x272x2048_S1x256x2046_0_9_0 : ∀ a, (![0, 9, 0] : Fin 3 → Nat) a + S1x256x2046.size a ≤ S3x272x2048.size a
  inb_S3x272x2048_S1x256x2046_1_9_0 : ∀ a, (![1, 9, 0] : Fin 3 → Nat) a + S1x256x2046.size a ≤ S3x272x2048.size a
  inb_S3x272x2048_S1x256x2046_2_9_0 : ∀ a, (![2, 9, 0] : Fin 3 → Nat) a + S1x256x2046.size a ≤ S3x272x2048.size a
  inb_S3x272x2048_S1x256x2047_0_9_0 : ∀ a, (![0, 9, 0] : Fin 3 → Nat) a + S1x256x2047.size a ≤ S3x272x2048.size a
  inb_S3x272x2048_S1x256x2047_1_9_0 : ∀ a, (![1, 9, 0] : Fin 3 → Nat) a + S1x256x2047.size a ≤ S3x272x2048.size a
  inb_S3x272x2048_S1x256x2047_2_9_0 : ∀ a, (![2, 9, 0] : Fin 3 → Nat) a + S1x256x2047.size a ≤ S3x272x2048.size a
  inb_S3x272x2048_S1x256x2048_0_9_0 : ∀ a, (![0, 9, 0] : Fin 3 → Nat) a + S1x256x2048.size a ≤ S3x272x2048.size a
  inb_S3x272x2048_S1x256x2048_1_9_0 : ∀ a, (![1, 9, 0] : Fin 3 → Nat) a + S1x256x2048.size a ≤ S3x272x2048.size a
  inb_S3x272x2048_S1x256x2048_2_9_0 : ∀ a, (![2, 9, 0] : Fin 3 → Nat) a + S1x256x2048.size a ≤ S3x272x2048.size a
  inb_S3x272x2048_S1x256x2047_0_9_1 : ∀ a, (![0, 9, 1] : Fin 3 → Nat) a + S1x256x2047.size a ≤ S3x272x2048.size a
  inb_S3x272x2048_S1x256x2047_1_9_1 : ∀ a, (![1, 9, 1] : Fin 3 → Nat) a + S1x256x2047.size a ≤ S3x272x2048.size a
  inb_S3x272x2048_S1x256x2047_2_9_1 : ∀ a, (![2, 9, 1] : Fin 3 → Nat) a + S1x256x2047.size a ≤ S3x272x2048.size a
  inb_S3x272x2048_S1x256x2046_0_9_2 : ∀ a, (![0, 9, 2] : Fin 3 → Nat) a + S1x256x2046.size a ≤ S3x272x2048.size a
  inb_S3x272x2048_S1x256x2046_1_9_2 : ∀ a, (![1, 9, 2] : Fin 3 → Nat) a + S1x256x2046.size a ≤ S3x272x2048.size a
  inb_S3x272x2048_S1x256x2046_2_9_2 : ∀ a, (![2, 9, 2] : Fin 3 → Nat) a + S1x256x2046.size a ≤ S3x272x2048.size a
  inb_S3x272x2048_S1x256x2046_0_10_0 : ∀ a, (![0, 10, 0] : Fin 3 → Nat) a + S1x256x2046.size a ≤ S3x272x2048.size a
  inb_S3x272x2048_S1x256x2046_1_10_0 : ∀ a, (![1, 10, 0] : Fin 3 → Nat) a + S1x256x2046.size a ≤ S3x272x2048.size a
  inb_S3x272x2048_S1x256x2046_2_10_0 : ∀ a, (![2, 10, 0] : Fin 3 → Nat) a + S1x256x2046.size a ≤ S3x272x2048.size a
  inb_S3x272x2048_S1x256x2047_0_10_0 : ∀ a, (![0, 10, 0] : Fin 3 → Nat) a + S1x256x2047.size a ≤ S3x272x2048.size a
  inb_S3x272x2048_S1x256x2047_1_10_0 : ∀ a, (![1, 10, 0] : Fin 3 → Nat) a + S1x256x2047.size a ≤ S3x272x2048.size a
  inb_S3x272x2048_S1x256x2047_2_10_0 : ∀ a, (![2, 10, 0] : Fin 3 → Nat) a + S1x256x2047.size a ≤ S3x272x2048.size a
  inb_S3x272x2048_S1x256x2048_0_10_0 : ∀ a, (![0, 10, 0] : Fin 3 → Nat) a + S1x256x2048.size a ≤ S3x272x2048.size a
  inb_S3x272x2048_S1x256x2048_1_10_0 : ∀ a, (![1, 10, 0] : Fin 3 → Nat) a + S1x256x2048.size a ≤ S3x272x2048.size a
  inb_S3x272x2048_S1x256x2048_2_10_0 : ∀ a, (![2, 10, 0] : Fin 3 → Nat) a + S1x256x2048.size a ≤ S3x272x2048.size a
  inb_S3x272x2048_S1x256x2047_0_10_1 : ∀ a, (![0, 10, 1] : Fin 3 → Nat) a + S1x256x2047.size a ≤ S3x272x2048.size a
  inb_S3x272x2048_S1x256x2047_1_10_1 : ∀ a, (![1, 10, 1] : Fin 3 → Nat) a + S1x256x2047.size a ≤ S3x272x2048.size a
  inb_S3x272x2048_S1x256x2047_2_10_1 : ∀ a, (![2, 10, 1] : Fin 3 → Nat) a + S1x256x2047.size a ≤ S3x272x2048.size a
  inb_S3x272x2048_S1x256x2046_0_10_2 : ∀ a, (![0, 10, 2] : Fin 3 → Nat) a + S1x256x2046.size a ≤ S3x272x2048.size a
  inb_S3x272x2048_S1x256x2046_1_10_2 : ∀ a, (![1, 10, 2] : Fin 3 → Nat) a + S1x256x2046.size a ≤ S3x272x2048.size a
  inb_S3x272x2048_S1x256x2046_2_10_2 : ∀ a, (![2, 10, 2] : Fin 3 → Nat) a + S1x256x2046.size a ≤ S3x272x2048.size a
  concatenates_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x48_d1 : Shape.Concatenates (S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: S1x1 :: []) S1x48 1
  shapeCasts_S1x48_S1x48 : S1x48.ShapeCasts S1x48
  shapeCasts_S1x48_S24x2 : S1x48.ShapeCasts S24x2
  slices_S24x2_S1x1_0_0 : S24x2.Slices ![0, 0] S1x1
  shapeCasts_S1x1_S_ : S1x1.ShapeCasts S_
  slices_S24x2_S1x1_0_1 : S24x2.Slices ![0, 1] S1x1
  slices_S24x2_S1x1_1_0 : S24x2.Slices ![1, 0] S1x1
  slices_S24x2_S1x1_1_1 : S24x2.Slices ![1, 1] S1x1
  slices_S24x2_S1x1_2_0 : S24x2.Slices ![2, 0] S1x1
  slices_S24x2_S1x1_2_1 : S24x2.Slices ![2, 1] S1x1
  slices_S24x2_S1x1_3_0 : S24x2.Slices ![3, 0] S1x1
  slices_S24x2_S1x1_3_1 : S24x2.Slices ![3, 1] S1x1
  slices_S24x2_S1x1_4_0 : S24x2.Slices ![4, 0] S1x1
  slices_S24x2_S1x1_4_1 : S24x2.Slices ![4, 1] S1x1
  slices_S24x2_S1x1_5_0 : S24x2.Slices ![5, 0] S1x1
  slices_S24x2_S1x1_5_1 : S24x2.Slices ![5, 1] S1x1
  slices_S24x2_S1x1_6_0 : S24x2.Slices ![6, 0] S1x1
  slices_S24x2_S1x1_6_1 : S24x2.Slices ![6, 1] S1x1
  slices_S24x2_S1x1_7_0 : S24x2.Slices ![7, 0] S1x1
  slices_S24x2_S1x1_7_1 : S24x2.Slices ![7, 1] S1x1
  slices_S24x2_S1x1_8_0 : S24x2.Slices ![8, 0] S1x1
  slices_S24x2_S1x1_8_1 : S24x2.Slices ![8, 1] S1x1
  slices_S24x2_S1x1_9_0 : S24x2.Slices ![9, 0] S1x1
  slices_S24x2_S1x1_9_1 : S24x2.Slices ![9, 1] S1x1
  slices_S24x2_S1x1_10_0 : S24x2.Slices ![10, 0] S1x1
  slices_S24x2_S1x1_10_1 : S24x2.Slices ![10, 1] S1x1
  slices_S24x2_S1x1_11_0 : S24x2.Slices ![11, 0] S1x1
  slices_S24x2_S1x1_11_1 : S24x2.Slices ![11, 1] S1x1
  slices_S24x2_S1x1_12_0 : S24x2.Slices ![12, 0] S1x1
  slices_S24x2_S1x1_12_1 : S24x2.Slices ![12, 1] S1x1
  slices_S24x2_S1x1_13_0 : S24x2.Slices ![13, 0] S1x1
  slices_S24x2_S1x1_13_1 : S24x2.Slices ![13, 1] S1x1
  slices_S24x2_S1x1_14_0 : S24x2.Slices ![14, 0] S1x1
  slices_S24x2_S1x1_14_1 : S24x2.Slices ![14, 1] S1x1
  slices_S24x2_S1x1_15_0 : S24x2.Slices ![15, 0] S1x1
  slices_S24x2_S1x1_15_1 : S24x2.Slices ![15, 1] S1x1
  slices_S24x2_S1x1_16_0 : S24x2.Slices ![16, 0] S1x1
  slices_S24x2_S1x1_16_1 : S24x2.Slices ![16, 1] S1x1
  slices_S24x2_S1x1_17_0 : S24x2.Slices ![17, 0] S1x1
  slices_S24x2_S1x1_17_1 : S24x2.Slices ![17, 1] S1x1
  slices_S24x2_S1x1_18_0 : S24x2.Slices ![18, 0] S1x1
  slices_S24x2_S1x1_18_1 : S24x2.Slices ![18, 1] S1x1
  slices_S24x2_S1x1_19_0 : S24x2.Slices ![19, 0] S1x1
  slices_S24x2_S1x1_19_1 : S24x2.Slices ![19, 1] S1x1
  slices_S24x2_S1x1_20_0 : S24x2.Slices ![20, 0] S1x1
  slices_S24x2_S1x1_20_1 : S24x2.Slices ![20, 1] S1x1
  slices_S24x2_S1x1_21_0 : S24x2.Slices ![21, 0] S1x1
  slices_S24x2_S1x1_21_1 : S24x2.Slices ![21, 1] S1x1
  slices_S24x2_S1x1_22_0 : S24x2.Slices ![22, 0] S1x1
  slices_S24x2_S1x1_22_1 : S24x2.Slices ![22, 1] S1x1
  slices_S24x2_S1x1_23_0 : S24x2.Slices ![23, 0] S1x1
  slices_S24x2_S1x1_23_1 : S24x2.Slices ![23, 1] S1x1
  dot_S3145728x3_S3x3_S3145728x3_1_0_0_1_n_n_wf : DotDims.WF S3145728x3 S3x3 S3145728x3 [1] [0] [0] [1] [] []
  hcc0_scratch2 : 1 + S_.numel ≤ 3
  hcc0_scratch3 : 2 + S_.numel ≤ 3
  hrank0 : 0 < grid0.rank
  k0_mult1_dvd : ∀ i : grid0.Coords, 8 ∣ (k0_mult1 i).toNat
  k0_off1_inb : ∀ i : grid0.Coords, ∀ a, (k0_off1 i) a + S3x272x2048.size a ≤ S3x1552x2048.size a
  hstage0_0 : ∀ j, (stage0_0 j).IsWhole
  nbuf0_0 : grid0.bufCount reads0_0 true = 1
  hreads0_0 : ∀ i i' : grid0.Coords, (∀ a, reads0_0 a = true → i a = i' a) → cc0_transform_2 i = cc0_transform_2 i'
  hinb0_0 : ∀ (i : grid0.Coords) a, (cc0_transform_2 i a + 1) * S1x48.size a ≤ S1x48.size a
  hwx0_0 : ∀ i : grid0.Coords, EltTy.bits .f32 = 32 ∨ (Rect.block (s := S1x48) S1x48.size (cc0_transform_2 i) (hinb0_0 i)).WholeWords (EltTy.packing .f32)

variable [Facts₀]

abbrev cc0_scratch2 : DmaSems sig S_ := SemArray.consecutive 1 S_ hcc0_scratch2
abbrev cc0_scratch3 : DmaSems sig S_ := SemArray.consecutive 2 S_ hcc0_scratch3
def dot_S3145728x3_S3x3_S3145728x3_1_0_0_1_n_n : DotDims S3145728x3 S3x3 S3145728x3 where
  lhsContracting := [1]
  rhsContracting := [0]
  lhsNonContracting := [0]
  rhsNonContracting := [1]
  lhsBatch := []
  rhsBatch := []
  wf := dot_S3145728x3_S3x3_S3145728x3_1_0_0_1_n_n_wf

abbrev win0_0 : Pipeline.Window sig grid0 :=
  Pipeline.Window.ofSpec (Memref.whole main_v10) S1x48.size cc0_transform_2 reads0_0 true true 1 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S1x3x1536x2048 : Shape := ⟨4, ![1, 3, 1536, 2048]⟩
abbrev S3x3 : Shape := ⟨2, ![3, 3]⟩
abbrev S3 : Shape := ⟨1, ![3]⟩
abbrev S3145728x3 : Shape := ⟨2, ![3145728, 3]⟩
abbrev S1x3 : Shape := ⟨2, ![1, 3]⟩
abbrev S1x3x1535x2048 : Shape := ⟨4, ![1, 3, 1535, 2048]⟩
abbrev S_ : Shape := ⟨0, ![]⟩
abbrev S1x1535x2048 : Shape := ⟨3, ![1, 1535, 2048]⟩
abbrev S1x3x1536x2047 : Shape := ⟨4, ![1, 3, 1536, 2047]⟩
abbrev S1x1536x2047 : Shape := ⟨3, ![1, 1536, 2047]⟩
abbrev S1x3x1535x2047 : Shape := ⟨4, ![1, 3, 1535, 2047]⟩
abbrev S1x1535x2047 : Shape := ⟨3, ![1, 1535, 2047]⟩
abbrev S1x3x1534x2048 : Shape := ⟨4, ![1, 3, 1534, 2048]⟩
abbrev S1x1534x2048 : Shape := ⟨3, ![1, 1534, 2048]⟩
abbrev S1x3x1536x2046 : Shape := ⟨4, ![1, 3, 1536, 2046]⟩
abbrev S1x1536x2046 : Shape := ⟨3, ![1, 1536, 2046]⟩
abbrev S1x3x1534x2047 : Shape := ⟨4, ![1, 3, 1534, 2047]⟩
abbrev S1x1534x2047 : Shape := ⟨3, ![1, 1534, 2047]⟩
abbrev S1x3x1535x2046 : Shape := ⟨4, ![1, 3, 1535, 2046]⟩
abbrev S1x1535x2046 : Shape := ⟨3, ![1, 1535, 2046]⟩
abbrev S1x3x1534x2046 : Shape := ⟨4, ![1, 3, 1534, 2046]⟩
abbrev S1x1534x2046 : Shape := ⟨3, ![1, 1534, 2046]⟩

abbrev nBuf : Space → Nat
  | .hbm => 587
  | .vmem => 0
  | .smem => 0
  | _ => 0

abbrev hbmTy0_0 (i : Nat) : BufTy := match i % 128 with
  | 0 => ⟨S1x3x1536x2048, .f32⟩
  | 1 => ⟨S1x3x1536x2048, .f32⟩
  | 2 => ⟨S3x3, .f32⟩
  | 3 => ⟨S3, .f32⟩
  | 4 => ⟨S3145728x3, .f32⟩
  | 5 => ⟨S3145728x3, .f32⟩
  | 6 => ⟨S1x3, .f32⟩
  | 7 => ⟨S3145728x3, .f32⟩
  | 8 => ⟨S3145728x3, .f32⟩
  | 9 => ⟨S1x3x1536x2048, .f32⟩
  | 10 => ⟨S1x3x1535x2048, .f32⟩
  | 11 => ⟨S1x3x1535x2048, .f32⟩
  | 12 => ⟨S1x3x1535x2048, .f32⟩
  | 13 => ⟨S1x3x1535x2048, .f32⟩
  | 14 => ⟨S_, .f32⟩
  | 15 => ⟨S1x1535x2048, .f32⟩
  | 16 => ⟨S_, .f32⟩
  | 17 => ⟨S1x1535x2048, .f32⟩
  | 18 => ⟨S1x1535x2048, .f32⟩
  | 19 => ⟨S1x1535x2048, .f32⟩
  | 20 => ⟨S1x3x1535x2048, .f32⟩
  | 21 => ⟨S1x3x1535x2048, .f32⟩
  | 22 => ⟨S1x3x1535x2048, .f32⟩
  | 23 => ⟨S1x3x1535x2048, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1x3x1535x2048, .f32⟩
  | 36 => ⟨S1x3x1535x2048, .f32⟩
  | 37 => ⟨S1x3x1535x2048, .f32⟩
  | 38 => ⟨S1x3x1535x2048, .f32⟩
  | 39 => ⟨S_, .f32⟩
  | 40 => ⟨S1x1535x2048, .f32⟩
  | 41 => ⟨S_, .f32⟩
  | 42 => ⟨S1x1535x2048, .f32⟩
  | 43 => ⟨S1x1535x2048, .f32⟩
  | 44 => ⟨S1x1535x2048, .f32⟩
  | 45 => ⟨S1x3x1535x2048, .f32⟩
  | 46 => ⟨S1x3x1535x2048, .f32⟩
  | 47 => ⟨S1x3x1535x2048, .f32⟩
  | 48 => ⟨S1x3x1535x2048, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S1x3x1536x2047, .f32⟩
  | 60 => ⟨S1x3x1536x2047, .f32⟩
  | 61 => ⟨S1x3x1536x2047, .f32⟩
  | 62 => ⟨S1x3x1536x2047, .f32⟩
  | 63 => ⟨S_, .f32⟩
  | 64 => ⟨S1x1536x2047, .f32⟩
  | 65 => ⟨S_, .f32⟩
  | 66 => ⟨S1x1536x2047, .f32⟩
  | 67 => ⟨S1x1536x2047, .f32⟩
  | 68 => ⟨S1x1536x2047, .f32⟩
  | 69 => ⟨S1x3x1536x2047, .f32⟩
  | 70 => ⟨S1x3x1536x2047, .f32⟩
  | 71 => ⟨S1x3x1536x2047, .f32⟩
  | 72 => ⟨S1x3x1536x2047, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1x3x1536x2047, .f32⟩
  | 84 => ⟨S1x3x1536x2047, .f32⟩
  | 85 => ⟨S1x3x1536x2047, .f32⟩
  | 86 => ⟨S1x3x1536x2047, .f32⟩
  | 87 => ⟨S_, .f32⟩
  | 88 => ⟨S1x1536x2047, .f32⟩
  | 89 => ⟨S_, .f32⟩
  | 90 => ⟨S1x1536x2047, .f32⟩
  | 91 => ⟨S1x1536x2047, .f32⟩
  | 92 => ⟨S1x1536x2047, .f32⟩
  | 93 => ⟨S1x3x1536x2047, .f32⟩
  | 94 => ⟨S1x3x1536x2047, .f32⟩
  | 95 => ⟨S1x3x1536x2047, .f32⟩
  | 96 => ⟨S1x3x1536x2047, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1x3x1535x2047, .f32⟩
  | 108 => ⟨S1x3x1535x2047, .f32⟩
  | 109 => ⟨S1x3x1535x2047, .f32⟩
  | 110 => ⟨S1x3x1535x2047, .f32⟩
  | 111 => ⟨S_, .f32⟩
  | 112 => ⟨S1x1535x2047, .f32⟩
  | 113 => ⟨S_, .f32⟩
  | 114 => ⟨S1x1535x2047, .f32⟩
  | 115 => ⟨S1x1535x2047, .f32⟩
  | 116 => ⟨S1x1535x2047, .f32⟩
  | 117 => ⟨S1x3x1535x2047, .f32⟩
  | 118 => ⟨S1x3x1535x2047, .f32⟩
  | 119 => ⟨S1x3x1535x2047, .f32⟩
  | 120 => ⟨S1x3x1535x2047, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x3x1536x2048, .f32⟩

abbrev hbmTy0_1 (i : Nat) : BufTy := match i % 128 with
  | 0 => ⟨S_, .f32⟩
  | 1 => ⟨S_, .f32⟩
  | 2 => ⟨S_, .f32⟩
  | 3 => ⟨S1x3x1535x2047, .f32⟩
  | 4 => ⟨S1x3x1535x2047, .f32⟩
  | 5 => ⟨S1x3x1535x2047, .f32⟩
  | 6 => ⟨S1x3x1535x2047, .f32⟩
  | 7 => ⟨S_, .f32⟩
  | 8 => ⟨S1x1535x2047, .f32⟩
  | 9 => ⟨S_, .f32⟩
  | 10 => ⟨S1x1535x2047, .f32⟩
  | 11 => ⟨S1x1535x2047, .f32⟩
  | 12 => ⟨S1x1535x2047, .f32⟩
  | 13 => ⟨S1x3x1535x2047, .f32⟩
  | 14 => ⟨S1x3x1535x2047, .f32⟩
  | 15 => ⟨S1x3x1535x2047, .f32⟩
  | 16 => ⟨S1x3x1535x2047, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1x3x1535x2047, .f32⟩
  | 28 => ⟨S1x3x1535x2047, .f32⟩
  | 29 => ⟨S1x3x1535x2047, .f32⟩
  | 30 => ⟨S1x3x1535x2047, .f32⟩
  | 31 => ⟨S_, .f32⟩
  | 32 => ⟨S1x1535x2047, .f32⟩
  | 33 => ⟨S_, .f32⟩
  | 34 => ⟨S1x1535x2047, .f32⟩
  | 35 => ⟨S1x1535x2047, .f32⟩
  | 36 => ⟨S1x1535x2047, .f32⟩
  | 37 => ⟨S1x3x1535x2047, .f32⟩
  | 38 => ⟨S1x3x1535x2047, .f32⟩
  | 39 => ⟨S1x3x1535x2047, .f32⟩
  | 40 => ⟨S1x3x1535x2047, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x3x1535x2047, .f32⟩
  | 52 => ⟨S1x3x1535x2047, .f32⟩
  | 53 => ⟨S1x3x1535x2047, .f32⟩
  | 54 => ⟨S1x3x1535x2047, .f32⟩
  | 55 => ⟨S_, .f32⟩
  | 56 => ⟨S1x1535x2047, .f32⟩
  | 57 => ⟨S_, .f32⟩
  | 58 => ⟨S1x1535x2047, .f32⟩
  | 59 => ⟨S1x1535x2047, .f32⟩
  | 60 => ⟨S1x1535x2047, .f32⟩
  | 61 => ⟨S1x3x1535x2047, .f32⟩
  | 62 => ⟨S1x3x1535x2047, .f32⟩
  | 63 => ⟨S1x3x1535x2047, .f32⟩
  | 64 => ⟨S1x3x1535x2047, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S1x3x1534x2048, .f32⟩
  | 76 => ⟨S1x3x1534x2048, .f32⟩
  | 77 => ⟨S1x3x1534x2048, .f32⟩
  | 78 => ⟨S1x3x1534x2048, .f32⟩
  | 79 => ⟨S_, .f32⟩
  | 80 => ⟨S1x1534x2048, .f32⟩
  | 81 => ⟨S_, .f32⟩
  | 82 => ⟨S1x1534x2048, .f32⟩
  | 83 => ⟨S1x1534x2048, .f32⟩
  | 84 => ⟨S1x1534x2048, .f32⟩
  | 85 => ⟨S1x3x1534x2048, .f32⟩
  | 86 => ⟨S1x3x1534x2048, .f32⟩
  | 87 => ⟨S1x3x1534x2048, .f32⟩
  | 88 => ⟨S1x3x1534x2048, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S1x3x1534x2048, .f32⟩
  | 100 => ⟨S1x3x1534x2048, .f32⟩
  | 101 => ⟨S1x3x1534x2048, .f32⟩
  | 102 => ⟨S1x3x1534x2048, .f32⟩
  | 103 => ⟨S_, .f32⟩
  | 104 => ⟨S1x1534x2048, .f32⟩
  | 105 => ⟨S_, .f32⟩
  | 106 => ⟨S1x1534x2048, .f32⟩
  | 107 => ⟨S1x1534x2048, .f32⟩
  | 108 => ⟨S1x1534x2048, .f32⟩
  | 109 => ⟨S1x3x1534x2048, .f32⟩
  | 110 => ⟨S1x3x1534x2048, .f32⟩
  | 111 => ⟨S1x3x1534x2048, .f32⟩
  | 112 => ⟨S1x3x1534x2048, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1x3x1536x2046, .f32⟩
  | 124 => ⟨S1x3x1536x2046, .f32⟩
  | 125 => ⟨S1x3x1536x2046, .f32⟩
  | 126 => ⟨S1x3x1536x2046, .f32⟩
  | 127 => ⟨S_, .f32⟩
  | _ => ⟨S1x3x1536x2048, .f32⟩

abbrev hbmTy0_2 (i : Nat) : BufTy := match i % 128 with
  | 0 => ⟨S1x1536x2046, .f32⟩
  | 1 => ⟨S_, .f32⟩
  | 2 => ⟨S1x1536x2046, .f32⟩
  | 3 => ⟨S1x1536x2046, .f32⟩
  | 4 => ⟨S1x1536x2046, .f32⟩
  | 5 => ⟨S1x3x1536x2046, .f32⟩
  | 6 => ⟨S1x3x1536x2046, .f32⟩
  | 7 => ⟨S1x3x1536x2046, .f32⟩
  | 8 => ⟨S1x3x1536x2046, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1x3x1536x2046, .f32⟩
  | 20 => ⟨S1x3x1536x2046, .f32⟩
  | 21 => ⟨S1x3x1536x2046, .f32⟩
  | 22 => ⟨S1x3x1536x2046, .f32⟩
  | 23 => ⟨S_, .f32⟩
  | 24 => ⟨S1x1536x2046, .f32⟩
  | 25 => ⟨S_, .f32⟩
  | 26 => ⟨S1x1536x2046, .f32⟩
  | 27 => ⟨S1x1536x2046, .f32⟩
  | 28 => ⟨S1x1536x2046, .f32⟩
  | 29 => ⟨S1x3x1536x2046, .f32⟩
  | 30 => ⟨S1x3x1536x2046, .f32⟩
  | 31 => ⟨S1x3x1536x2046, .f32⟩
  | 32 => ⟨S1x3x1536x2046, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S1x3x1534x2047, .f32⟩
  | 44 => ⟨S1x3x1534x2047, .f32⟩
  | 45 => ⟨S1x3x1534x2047, .f32⟩
  | 46 => ⟨S1x3x1534x2047, .f32⟩
  | 47 => ⟨S_, .f32⟩
  | 48 => ⟨S1x1534x2047, .f32⟩
  | 49 => ⟨S_, .f32⟩
  | 50 => ⟨S1x1534x2047, .f32⟩
  | 51 => ⟨S1x1534x2047, .f32⟩
  | 52 => ⟨S1x1534x2047, .f32⟩
  | 53 => ⟨S1x3x1534x2047, .f32⟩
  | 54 => ⟨S1x3x1534x2047, .f32⟩
  | 55 => ⟨S1x3x1534x2047, .f32⟩
  | 56 => ⟨S1x3x1534x2047, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S1x3x1534x2047, .f32⟩
  | 68 => ⟨S1x3x1534x2047, .f32⟩
  | 69 => ⟨S1x3x1534x2047, .f32⟩
  | 70 => ⟨S1x3x1534x2047, .f32⟩
  | 71 => ⟨S_, .f32⟩
  | 72 => ⟨S1x1534x2047, .f32⟩
  | 73 => ⟨S_, .f32⟩
  | 74 => ⟨S1x1534x2047, .f32⟩
  | 75 => ⟨S1x1534x2047, .f32⟩
  | 76 => ⟨S1x1534x2047, .f32⟩
  | 77 => ⟨S1x3x1534x2047, .f32⟩
  | 78 => ⟨S1x3x1534x2047, .f32⟩
  | 79 => ⟨S1x3x1534x2047, .f32⟩
  | 80 => ⟨S1x3x1534x2047, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S1x3x1534x2047, .f32⟩
  | 92 => ⟨S1x3x1534x2047, .f32⟩
  | 93 => ⟨S1x3x1534x2047, .f32⟩
  | 94 => ⟨S1x3x1534x2047, .f32⟩
  | 95 => ⟨S_, .f32⟩
  | 96 => ⟨S1x1534x2047, .f32⟩
  | 97 => ⟨S_, .f32⟩
  | 98 => ⟨S1x1534x2047, .f32⟩
  | 99 => ⟨S1x1534x2047, .f32⟩
  | 100 => ⟨S1x1534x2047, .f32⟩
  | 101 => ⟨S1x3x1534x2047, .f32⟩
  | 102 => ⟨S1x3x1534x2047, .f32⟩
  | 103 => ⟨S1x3x1534x2047, .f32⟩
  | 104 => ⟨S1x3x1534x2047, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1x3x1534x2047, .f32⟩
  | 116 => ⟨S1x3x1534x2047, .f32⟩
  | 117 => ⟨S1x3x1534x2047, .f32⟩
  | 118 => ⟨S1x3x1534x2047, .f32⟩
  | 119 => ⟨S_, .f32⟩
  | 120 => ⟨S1x1534x2047, .f32⟩
  | 121 => ⟨S_, .f32⟩
  | 122 => ⟨S1x1534x2047, .f32⟩
  | 123 => ⟨S1x1534x2047, .f32⟩
  | 124 => ⟨S1x1534x2047, .f32⟩
  | 125 => ⟨S1x3x1534x2047, .f32⟩
  | 126 => ⟨S1x3x1534x2047, .f32⟩
  | 127 => ⟨S1x3x1534x2047, .f32⟩
  | _ => ⟨S1x3x1536x2048, .f32⟩

abbrev hbmTy0_3 (i : Nat) : BufTy := match i % 128 with
  | 0 => ⟨S1x3x1534x2047, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S1x3x1535x2046, .f32⟩
  | 12 => ⟨S1x3x1535x2046, .f32⟩
  | 13 => ⟨S1x3x1535x2046, .f32⟩
  | 14 => ⟨S1x3x1535x2046, .f32⟩
  | 15 => ⟨S_, .f32⟩
  | 16 => ⟨S1x1535x2046, .f32⟩
  | 17 => ⟨S_, .f32⟩
  | 18 => ⟨S1x1535x2046, .f32⟩
  | 19 => ⟨S1x1535x2046, .f32⟩
  | 20 => ⟨S1x1535x2046, .f32⟩
  | 21 => ⟨S1x3x1535x2046, .f32⟩
  | 22 => ⟨S1x3x1535x2046, .f32⟩
  | 23 => ⟨S1x3x1535x2046, .f32⟩
  | 24 => ⟨S1x3x1535x2046, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S1x3x1535x2046, .f32⟩
  | 36 => ⟨S1x3x1535x2046, .f32⟩
  | 37 => ⟨S1x3x1535x2046, .f32⟩
  | 38 => ⟨S1x3x1535x2046, .f32⟩
  | 39 => ⟨S_, .f32⟩
  | 40 => ⟨S1x1535x2046, .f32⟩
  | 41 => ⟨S_, .f32⟩
  | 42 => ⟨S1x1535x2046, .f32⟩
  | 43 => ⟨S1x1535x2046, .f32⟩
  | 44 => ⟨S1x1535x2046, .f32⟩
  | 45 => ⟨S1x3x1535x2046, .f32⟩
  | 46 => ⟨S1x3x1535x2046, .f32⟩
  | 47 => ⟨S1x3x1535x2046, .f32⟩
  | 48 => ⟨S1x3x1535x2046, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S1x3x1535x2046, .f32⟩
  | 60 => ⟨S1x3x1535x2046, .f32⟩
  | 61 => ⟨S1x3x1535x2046, .f32⟩
  | 62 => ⟨S1x3x1535x2046, .f32⟩
  | 63 => ⟨S_, .f32⟩
  | 64 => ⟨S1x1535x2046, .f32⟩
  | 65 => ⟨S_, .f32⟩
  | 66 => ⟨S1x1535x2046, .f32⟩
  | 67 => ⟨S1x1535x2046, .f32⟩
  | 68 => ⟨S1x1535x2046, .f32⟩
  | 69 => ⟨S1x3x1535x2046, .f32⟩
  | 70 => ⟨S1x3x1535x2046, .f32⟩
  | 71 => ⟨S1x3x1535x2046, .f32⟩
  | 72 => ⟨S1x3x1535x2046, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1x3x1535x2046, .f32⟩
  | 84 => ⟨S1x3x1535x2046, .f32⟩
  | 85 => ⟨S1x3x1535x2046, .f32⟩
  | 86 => ⟨S1x3x1535x2046, .f32⟩
  | 87 => ⟨S_, .f32⟩
  | 88 => ⟨S1x1535x2046, .f32⟩
  | 89 => ⟨S_, .f32⟩
  | 90 => ⟨S1x1535x2046, .f32⟩
  | 91 => ⟨S1x1535x2046, .f32⟩
  | 92 => ⟨S1x1535x2046, .f32⟩
  | 93 => ⟨S1x3x1535x2046, .f32⟩
  | 94 => ⟨S1x3x1535x2046, .f32⟩
  | 95 => ⟨S1x3x1535x2046, .f32⟩
  | 96 => ⟨S1x3x1535x2046, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S1x3x1534x2046, .f32⟩
  | 108 => ⟨S1x3x1534x2046, .f32⟩
  | 109 => ⟨S1x3x1534x2046, .f32⟩
  | 110 => ⟨S1x3x1534x2046, .f32⟩
  | 111 => ⟨S_, .f32⟩
  | 112 => ⟨S1x1534x2046, .f32⟩
  | 113 => ⟨S_, .f32⟩
  | 114 => ⟨S1x1534x2046, .f32⟩
  | 115 => ⟨S1x1534x2046, .f32⟩
  | 116 => ⟨S1x1534x2046, .f32⟩
  | 117 => ⟨S1x3x1534x2046, .f32⟩
  | 118 => ⟨S1x3x1534x2046, .f32⟩
  | 119 => ⟨S1x3x1534x2046, .f32⟩
  | 120 => ⟨S1x3x1534x2046, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x3x1536x2048, .f32⟩

abbrev hbmTy0_4 (i : Nat) : BufTy := match i % 128 with
  | 0 => ⟨S_, .f32⟩
  | 1 => ⟨S_, .f32⟩
  | 2 => ⟨S_, .f32⟩
  | 3 => ⟨S1x3x1534x2046, .f32⟩
  | 4 => ⟨S1x3x1534x2046, .f32⟩
  | 5 => ⟨S1x3x1534x2046, .f32⟩
  | 6 => ⟨S1x3x1534x2046, .f32⟩
  | 7 => ⟨S_, .f32⟩
  | 8 => ⟨S1x1534x2046, .f32⟩
  | 9 => ⟨S_, .f32⟩
  | 10 => ⟨S1x1534x2046, .f32⟩
  | 11 => ⟨S1x1534x2046, .f32⟩
  | 12 => ⟨S1x1534x2046, .f32⟩
  | 13 => ⟨S1x3x1534x2046, .f32⟩
  | 14 => ⟨S1x3x1534x2046, .f32⟩
  | 15 => ⟨S1x3x1534x2046, .f32⟩
  | 16 => ⟨S1x3x1534x2046, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S1x3x1534x2046, .f32⟩
  | 28 => ⟨S1x3x1534x2046, .f32⟩
  | 29 => ⟨S1x3x1534x2046, .f32⟩
  | 30 => ⟨S1x3x1534x2046, .f32⟩
  | 31 => ⟨S_, .f32⟩
  | 32 => ⟨S1x1534x2046, .f32⟩
  | 33 => ⟨S_, .f32⟩
  | 34 => ⟨S1x1534x2046, .f32⟩
  | 35 => ⟨S1x1534x2046, .f32⟩
  | 36 => ⟨S1x1534x2046, .f32⟩
  | 37 => ⟨S1x3x1534x2046, .f32⟩
  | 38 => ⟨S1x3x1534x2046, .f32⟩
  | 39 => ⟨S1x3x1534x2046, .f32⟩
  | 40 => ⟨S1x3x1534x2046, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x3x1534x2046, .f32⟩
  | 52 => ⟨S1x3x1534x2046, .f32⟩
  | 53 => ⟨S1x3x1534x2046, .f32⟩
  | 54 => ⟨S1x3x1534x2046, .f32⟩
  | 55 => ⟨S_, .f32⟩
  | 56 => ⟨S1x1534x2046, .f32⟩
  | 57 => ⟨S_, .f32⟩
  | 58 => ⟨S1x1534x2046, .f32⟩
  | 59 => ⟨S1x1534x2046, .f32⟩
  | 60 => ⟨S1x1534x2046, .f32⟩
  | 61 => ⟨S1x3x1534x2046, .f32⟩
  | 62 => ⟨S1x3x1534x2046, .f32⟩
  | 63 => ⟨S1x3x1534x2046, .f32⟩
  | 64 => ⟨S1x3x1534x2046, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | _ => ⟨S1x3x1536x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x3x1536x2048, .f32⟩

abbrev bufTy : (tb : Table) → Fin (tcTables nBuf tb) → BufTy
  | .hbm, ⟨i, _⟩ => hbmTy i
  | _, _ => ⟨S1x3x1536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_8 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩
abbrev main_cst_12 : Ref sig .tc := ⟨.hbm, 53, rfl⟩
abbrev main_v38 : Ref sig .tc := ⟨.hbm, 54, rfl⟩
abbrev main_cst_13 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_16 : Ref sig .tc := ⟨.hbm, 73, rfl⟩
abbrev main_v54 : Ref sig .tc := ⟨.hbm, 74, rfl⟩
abbrev main_cst_17 : Ref sig .tc := ⟨.hbm, 75, rfl⟩
abbrev main_v55 : Ref sig .tc := ⟨.hbm, 76, rfl⟩
abbrev main_cst_18 : Ref sig .tc := ⟨.hbm, 77, rfl⟩
abbrev main_v56 : Ref sig .tc := ⟨.hbm, 78, rfl⟩
abbrev main_cst_19 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_20 : Ref sig .tc := ⟨.hbm, 87, rfl⟩
abbrev main_v64 : Ref sig .tc := ⟨.hbm, 88, rfl⟩
abbrev main_cst_21 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_22 : Ref sig .tc := ⟨.hbm, 97, rfl⟩
abbrev main_v72 : Ref sig .tc := ⟨.hbm, 98, rfl⟩
abbrev main_cst_23 : Ref sig .tc := ⟨.hbm, 99, rfl⟩
abbrev main_v73 : Ref sig .tc := ⟨.hbm, 100, rfl⟩
abbrev main_cst_24 : Ref sig .tc := ⟨.hbm, 101, rfl⟩
abbrev main_v74 : Ref sig .tc := ⟨.hbm, 102, rfl⟩
abbrev main_cst_25 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_26 : Ref sig .tc := ⟨.hbm, 111, rfl⟩
abbrev main_v82 : Ref sig .tc := ⟨.hbm, 112, rfl⟩
abbrev main_cst_27 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_28 : Ref sig .tc := ⟨.hbm, 121, rfl⟩
abbrev main_v90 : Ref sig .tc := ⟨.hbm, 122, rfl⟩
abbrev main_cst_29 : Ref sig .tc := ⟨.hbm, 123, rfl⟩
abbrev main_v91 : Ref sig .tc := ⟨.hbm, 124, rfl⟩
abbrev main_cst_30 : Ref sig .tc := ⟨.hbm, 125, rfl⟩
abbrev main_v92 : Ref sig .tc := ⟨.hbm, 126, rfl⟩
abbrev main_cst_31 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_32 : Ref sig .tc := ⟨.hbm, 135, rfl⟩
abbrev main_v100 : Ref sig .tc := ⟨.hbm, 136, rfl⟩
abbrev main_cst_33 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_34 : Ref sig .tc := ⟨.hbm, 145, rfl⟩
abbrev main_v108 : Ref sig .tc := ⟨.hbm, 146, rfl⟩
abbrev main_cst_35 : Ref sig .tc := ⟨.hbm, 147, rfl⟩
abbrev main_v109 : Ref sig .tc := ⟨.hbm, 148, rfl⟩
abbrev main_cst_36 : Ref sig .tc := ⟨.hbm, 149, rfl⟩
abbrev main_v110 : Ref sig .tc := ⟨.hbm, 150, rfl⟩
abbrev main_cst_37 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_38 : Ref sig .tc := ⟨.hbm, 159, rfl⟩
abbrev main_v118 : Ref sig .tc := ⟨.hbm, 160, rfl⟩
abbrev main_cst_39 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_40 : Ref sig .tc := ⟨.hbm, 169, rfl⟩
abbrev main_v126 : Ref sig .tc := ⟨.hbm, 170, rfl⟩
abbrev main_cst_41 : Ref sig .tc := ⟨.hbm, 171, rfl⟩
abbrev main_v127 : Ref sig .tc := ⟨.hbm, 172, rfl⟩
abbrev main_cst_42 : Ref sig .tc := ⟨.hbm, 173, rfl⟩
abbrev main_v128 : Ref sig .tc := ⟨.hbm, 174, rfl⟩
abbrev main_cst_43 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_44 : Ref sig .tc := ⟨.hbm, 183, rfl⟩
abbrev main_v136 : Ref sig .tc := ⟨.hbm, 184, rfl⟩
abbrev main_cst_45 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_46 : Ref sig .tc := ⟨.hbm, 193, rfl⟩
abbrev main_v144 : Ref sig .tc := ⟨.hbm, 194, rfl⟩
abbrev main_cst_47 : Ref sig .tc := ⟨.hbm, 195, rfl⟩
abbrev main_v145 : Ref sig .tc := ⟨.hbm, 196, rfl⟩
abbrev main_cst_48 : Ref sig .tc := ⟨.hbm, 197, rfl⟩
abbrev main_v146 : Ref sig .tc := ⟨.hbm, 198, rfl⟩
abbrev main_cst_49 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_50 : Ref sig .tc := ⟨.hbm, 207, rfl⟩
abbrev main_v154 : Ref sig .tc := ⟨.hbm, 208, rfl⟩
abbrev main_cst_51 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_52 : Ref sig .tc := ⟨.hbm, 217, rfl⟩
abbrev main_v162 : Ref sig .tc := ⟨.hbm, 218, rfl⟩
abbrev main_cst_53 : Ref sig .tc := ⟨.hbm, 219, rfl⟩
abbrev main_v163 : Ref sig .tc := ⟨.hbm, 220, rfl⟩
abbrev main_cst_54 : Ref sig .tc := ⟨.hbm, 221, rfl⟩
abbrev main_v164 : Ref sig .tc := ⟨.hbm, 222, rfl⟩
abbrev main_cst_55 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_56 : Ref sig .tc := ⟨.hbm, 231, rfl⟩
abbrev main_v172 : Ref sig .tc := ⟨.hbm, 232, rfl⟩
abbrev main_cst_57 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_58 : Ref sig .tc := ⟨.hbm, 241, rfl⟩
abbrev main_v180 : Ref sig .tc := ⟨.hbm, 242, rfl⟩
abbrev main_cst_59 : Ref sig .tc := ⟨.hbm, 243, rfl⟩
abbrev main_v181 : Ref sig .tc := ⟨.hbm, 244, rfl⟩
abbrev main_cst_60 : Ref sig .tc := ⟨.hbm, 245, rfl⟩
abbrev main_v182 : Ref sig .tc := ⟨.hbm, 246, rfl⟩
abbrev main_cst_61 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_cst_62 : Ref sig .tc := ⟨.hbm, 255, rfl⟩
abbrev main_v190 : Ref sig .tc := ⟨.hbm, 256, rfl⟩
abbrev main_cst_63 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_cst_64 : Ref sig .tc := ⟨.hbm, 265, rfl⟩
abbrev main_v198 : Ref sig .tc := ⟨.hbm, 266, rfl⟩
abbrev main_cst_65 : Ref sig .tc := ⟨.hbm, 267, rfl⟩
abbrev main_v199 : Ref sig .tc := ⟨.hbm, 268, rfl⟩
abbrev main_cst_66 : Ref sig .tc := ⟨.hbm, 269, rfl⟩
abbrev main_v200 : Ref sig .tc := ⟨.hbm, 270, rfl⟩
abbrev main_cst_67 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_68 : Ref sig .tc := ⟨.hbm, 279, rfl⟩
abbrev main_v208 : Ref sig .tc := ⟨.hbm, 280, rfl⟩
abbrev main_cst_69 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_cst_70 : Ref sig .tc := ⟨.hbm, 289, rfl⟩
abbrev main_v216 : Ref sig .tc := ⟨.hbm, 290, rfl⟩
abbrev main_cst_71 : Ref sig .tc := ⟨.hbm, 291, rfl⟩
abbrev main_v217 : Ref sig .tc := ⟨.hbm, 292, rfl⟩
abbrev main_cst_72 : Ref sig .tc := ⟨.hbm, 293, rfl⟩
abbrev main_v218 : Ref sig .tc := ⟨.hbm, 294, rfl⟩
abbrev main_cst_73 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_cst_74 : Ref sig .tc := ⟨.hbm, 303, rfl⟩
abbrev main_v226 : Ref sig .tc := ⟨.hbm, 304, rfl⟩
abbrev main_cst_75 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_cst_76 : Ref sig .tc := ⟨.hbm, 313, rfl⟩
abbrev main_v234 : Ref sig .tc := ⟨.hbm, 314, rfl⟩
abbrev main_cst_77 : Ref sig .tc := ⟨.hbm, 315, rfl⟩
abbrev main_v235 : Ref sig .tc := ⟨.hbm, 316, rfl⟩
abbrev main_cst_78 : Ref sig .tc := ⟨.hbm, 317, rfl⟩
abbrev main_v236 : Ref sig .tc := ⟨.hbm, 318, rfl⟩
abbrev main_cst_79 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_cst_80 : Ref sig .tc := ⟨.hbm, 327, rfl⟩
abbrev main_v244 : Ref sig .tc := ⟨.hbm, 328, rfl⟩
abbrev main_cst_81 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_cst_82 : Ref sig .tc := ⟨.hbm, 337, rfl⟩
abbrev main_v252 : Ref sig .tc := ⟨.hbm, 338, rfl⟩
abbrev main_cst_83 : Ref sig .tc := ⟨.hbm, 339, rfl⟩
abbrev main_v253 : Ref sig .tc := ⟨.hbm, 340, rfl⟩
abbrev main_cst_84 : Ref sig .tc := ⟨.hbm, 341, rfl⟩
abbrev main_v254 : Ref sig .tc := ⟨.hbm, 342, rfl⟩
abbrev main_cst_85 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_cst_86 : Ref sig .tc := ⟨.hbm, 351, rfl⟩
abbrev main_v262 : Ref sig .tc := ⟨.hbm, 352, rfl⟩
abbrev main_cst_87 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_v269 : Ref sig .tc := ⟨.hbm, 360, rfl⟩
abbrev main_cst_88 : Ref sig .tc := ⟨.hbm, 361, rfl⟩
abbrev main_v270 : Ref sig .tc := ⟨.hbm, 362, rfl⟩
abbrev main_cst_89 : Ref sig .tc := ⟨.hbm, 363, rfl⟩
abbrev main_v271 : Ref sig .tc := ⟨.hbm, 364, rfl⟩
abbrev main_cst_90 : Ref sig .tc := ⟨.hbm, 365, rfl⟩
abbrev main_v272 : Ref sig .tc := ⟨.hbm, 366, rfl⟩
abbrev main_cst_91 : Ref sig .tc := ⟨.hbm, 367, rfl⟩
abbrev main_v273 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_v279 : Ref sig .tc := ⟨.hbm, 374, rfl⟩
abbrev main_cst_92 : Ref sig .tc := ⟨.hbm, 375, rfl⟩
abbrev main_v280 : Ref sig .tc := ⟨.hbm, 376, rfl⟩
abbrev main_cst_93 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_cst_94 : Ref sig .tc := ⟨.hbm, 385, rfl⟩
abbrev main_v288 : Ref sig .tc := ⟨.hbm, 386, rfl⟩
abbrev main_cst_95 : Ref sig .tc := ⟨.hbm, 387, rfl⟩
abbrev main_v289 : Ref sig .tc := ⟨.hbm, 388, rfl⟩
abbrev main_cst_96 : Ref sig .tc := ⟨.hbm, 389, rfl⟩
abbrev main_v290 : Ref sig .tc := ⟨.hbm, 390, rfl⟩
abbrev main_cst_97 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_v295 : Ref sig .tc := ⟨.hbm, 396, rfl⟩
abbrev main_v296 : Ref sig .tc := ⟨.hbm, 397, rfl⟩
abbrev main_v297 : Ref sig .tc := ⟨.hbm, 398, rfl⟩
abbrev main_cst_98 : Ref sig .tc := ⟨.hbm, 399, rfl⟩
abbrev main_v298 : Ref sig .tc := ⟨.hbm, 400, rfl⟩
abbrev main_cst_99 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_v304 : Ref sig .tc := ⟨.hbm, 407, rfl⟩
abbrev main_v305 : Ref sig .tc := ⟨.hbm, 408, rfl⟩
abbrev main_cst_100 : Ref sig .tc := ⟨.hbm, 409, rfl⟩
abbrev main_v306 : Ref sig .tc := ⟨.hbm, 410, rfl⟩
abbrev main_cst_101 : Ref sig .tc := ⟨.hbm, 411, rfl⟩
abbrev main_v307 : Ref sig .tc := ⟨.hbm, 412, rfl⟩
abbrev main_cst_102 : Ref sig .tc := ⟨.hbm, 413, rfl⟩
abbrev main_v308 : Ref sig .tc := ⟨.hbm, 414, rfl⟩
abbrev main_cst_103 : Ref sig .tc := ⟨.hbm, 415, rfl⟩
abbrev main_v309 : Ref sig .tc := ⟨.hbm, 416, rfl⟩
abbrev main_v310 : Ref sig .tc := ⟨.hbm, 417, rfl⟩
abbrev main_v311 : Ref sig .tc := ⟨.hbm, 418, rfl⟩
abbrev main_v312 : Ref sig .tc := ⟨.hbm, 419, rfl⟩
abbrev main_v313 : Ref sig .tc := ⟨.hbm, 420, rfl⟩
abbrev main_v314 : Ref sig .tc := ⟨.hbm, 421, rfl⟩
abbrev main_v315 : Ref sig .tc := ⟨.hbm, 422, rfl⟩
abbrev main_cst_104 : Ref sig .tc := ⟨.hbm, 423, rfl⟩
abbrev main_v316 : Ref sig .tc := ⟨.hbm, 424, rfl⟩
abbrev main_cst_105 : Ref sig .tc := ⟨.hbm, 425, rfl⟩
abbrev main_v317 : Ref sig .tc := ⟨.hbm, 426, rfl⟩
abbrev main_v318 : Ref sig .tc := ⟨.hbm, 427, rfl⟩
abbrev main_v319 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_cst_106 : Ref sig .tc := ⟨.hbm, 433, rfl⟩
abbrev main_v324 : Ref sig .tc := ⟨.hbm, 434, rfl⟩
abbrev main_cst_107 : Ref sig .tc := ⟨.hbm, 435, rfl⟩
abbrev main_v325 : Ref sig .tc := ⟨.hbm, 436, rfl⟩
abbrev main_cst_108 : Ref sig .tc := ⟨.hbm, 437, rfl⟩
abbrev main_v326 : Ref sig .tc := ⟨.hbm, 438, rfl⟩
abbrev main_cst_109 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_v331 : Ref sig .tc := ⟨.hbm, 444, rfl⟩
abbrev main_v332 : Ref sig .tc := ⟨.hbm, 445, rfl⟩
abbrev main_v333 : Ref sig .tc := ⟨.hbm, 446, rfl⟩
abbrev main_cst_110 : Ref sig .tc := ⟨.hbm, 447, rfl⟩
abbrev main_v334 : Ref sig .tc := ⟨.hbm, 448, rfl⟩
abbrev main_cst_111 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_cst_112 : Ref sig .tc := ⟨.hbm, 457, rfl⟩
abbrev main_v342 : Ref sig .tc := ⟨.hbm, 458, rfl⟩
abbrev main_cst_113 : Ref sig .tc := ⟨.hbm, 459, rfl⟩
abbrev main_v343 : Ref sig .tc := ⟨.hbm, 460, rfl⟩
abbrev main_cst_114 : Ref sig .tc := ⟨.hbm, 461, rfl⟩
abbrev main_v344 : Ref sig .tc := ⟨.hbm, 462, rfl⟩
abbrev main_cst_115 : Ref sig .tc := ⟨.hbm, 463, rfl⟩
abbrev main_v345 : Ref sig .tc := ⟨.hbm, 464, rfl⟩
abbrev main_v346 : Ref sig .tc := ⟨.hbm, 465, rfl⟩
abbrev main_v347 : Ref sig .tc := ⟨.hbm, 466, rfl⟩
abbrev main_v348 : Ref sig .tc := ⟨.hbm, 467, rfl⟩
abbrev main_v349 : Ref sig .tc := ⟨.hbm, 468, rfl⟩
abbrev main_v350 : Ref sig .tc := ⟨.hbm, 469, rfl⟩
abbrev main_v351 : Ref sig .tc := ⟨.hbm, 470, rfl⟩
abbrev main_cst_116 : Ref sig .tc := ⟨.hbm, 471, rfl⟩
abbrev main_v352 : Ref sig .tc := ⟨.hbm, 472, rfl⟩
abbrev main_cst_117 : Ref sig .tc := ⟨.hbm, 473, rfl⟩
abbrev main_v353 : Ref sig .tc := ⟨.hbm, 474, rfl⟩
abbrev main_v354 : Ref sig .tc := ⟨.hbm, 475, rfl⟩
abbrev main_v355 : Ref sig .tc := ⟨.hbm, 476, rfl⟩
abbrev main_v356 : Ref sig .tc := ⟨.hbm, 477, rfl⟩
abbrev main_v357 : Ref sig .tc := ⟨.hbm, 478, rfl⟩
abbrev main_v358 : Ref sig .tc := ⟨.hbm, 479, rfl⟩
abbrev main_v359 : Ref sig .tc := ⟨.hbm, 480, rfl⟩
abbrev main_cst_118 : Ref sig .tc := ⟨.hbm, 481, rfl⟩
abbrev main_v360 : Ref sig .tc := ⟨.hbm, 482, rfl⟩
abbrev main_cst_119 : Ref sig .tc := ⟨.hbm, 483, rfl⟩
abbrev main_v361 : Ref sig .tc := ⟨.hbm, 484, rfl⟩
abbrev main_cst_120 : Ref sig .tc := ⟨.hbm, 485, rfl⟩
abbrev main_v362 : Ref sig .tc := ⟨.hbm, 486, rfl⟩
abbrev main_cst_121 : Ref sig .tc := ⟨.hbm, 487, rfl⟩
abbrev main_v363 : Ref sig .tc := ⟨.hbm, 488, rfl⟩
abbrev main_v364 : Ref sig .tc := ⟨.hbm, 489, rfl⟩
abbrev main_v365 : Ref sig .tc := ⟨.hbm, 490, rfl⟩
abbrev main_v366 : Ref sig .tc := ⟨.hbm, 491, rfl⟩
abbrev main_v367 : Ref sig .tc := ⟨.hbm, 492, rfl⟩
abbrev main_v368 : Ref sig .tc := ⟨.hbm, 493, rfl⟩
abbrev main_v369 : Ref sig .tc := ⟨.hbm, 494, rfl⟩
abbrev main_cst_122 : Ref sig .tc := ⟨.hbm, 495, rfl⟩
abbrev main_v370 : Ref sig .tc := ⟨.hbm, 496, rfl⟩
abbrev main_cst_123 : Ref sig .tc := ⟨.hbm, 497, rfl⟩
abbrev main_v371 : Ref sig .tc := ⟨.hbm, 498, rfl⟩
abbrev main_v372 : Ref sig .tc := ⟨.hbm, 499, rfl⟩
abbrev main_v373 : Ref sig .tc := ⟨.hbm, 500, rfl⟩
abbrev main_v374 : Ref sig .tc := ⟨.hbm, 501, rfl⟩
abbrev main_v375 : Ref sig .tc := ⟨.hbm, 502, rfl⟩
abbrev main_v376 : Ref sig .tc := ⟨.hbm, 503, rfl⟩
abbrev main_v377 : Ref sig .tc := ⟨.hbm, 504, rfl⟩
abbrev main_cst_124 : Ref sig .tc := ⟨.hbm, 505, rfl⟩
abbrev main_v378 : Ref sig .tc := ⟨.hbm, 506, rfl⟩
abbrev main_cst_125 : Ref sig .tc := ⟨.hbm, 507, rfl⟩
abbrev main_v379 : Ref sig .tc := ⟨.hbm, 508, rfl⟩
abbrev main_cst_126 : Ref sig .tc := ⟨.hbm, 509, rfl⟩
abbrev main_v380 : Ref sig .tc := ⟨.hbm, 510, rfl⟩
abbrev main_cst_127 : Ref sig .tc := ⟨.hbm, 511, rfl⟩
abbrev main_v381 : Ref sig .tc := ⟨.hbm, 512, rfl⟩
abbrev main_v382 : Ref sig .tc := ⟨.hbm, 513, rfl⟩
abbrev main_v383 : Ref sig .tc := ⟨.hbm, 514, rfl⟩
abbrev main_v384 : Ref sig .tc := ⟨.hbm, 515, rfl⟩
abbrev main_v385 : Ref sig .tc := ⟨.hbm, 516, rfl⟩
abbrev main_v386 : Ref sig .tc := ⟨.hbm, 517, rfl⟩
abbrev main_v387 : Ref sig .tc := ⟨.hbm, 518, rfl⟩
abbrev main_cst_128 : Ref sig .tc := ⟨.hbm, 519, rfl⟩
abbrev main_v388 : Ref sig .tc := ⟨.hbm, 520, rfl⟩
abbrev main_cst_129 : Ref sig .tc := ⟨.hbm, 521, rfl⟩
abbrev main_v389 : Ref sig .tc := ⟨.hbm, 522, rfl⟩
abbrev main_v390 : Ref sig .tc := ⟨.hbm, 523, rfl⟩
abbrev main_v391 : Ref sig .tc := ⟨.hbm, 524, rfl⟩
abbrev main_v392 : Ref sig .tc := ⟨.hbm, 525, rfl⟩
abbrev main_v393 : Ref sig .tc := ⟨.hbm, 526, rfl⟩
abbrev main_v394 : Ref sig .tc := ⟨.hbm, 527, rfl⟩
abbrev main_v395 : Ref sig .tc := ⟨.hbm, 528, rfl⟩
abbrev main_cst_130 : Ref sig .tc := ⟨.hbm, 529, rfl⟩
abbrev main_v396 : Ref sig .tc := ⟨.hbm, 530, rfl⟩
abbrev main_cst_131 : Ref sig .tc := ⟨.hbm, 531, rfl⟩
abbrev main_v397 : Ref sig .tc := ⟨.hbm, 532, rfl⟩
abbrev main_cst_132 : Ref sig .tc := ⟨.hbm, 533, rfl⟩
abbrev main_v398 : Ref sig .tc := ⟨.hbm, 534, rfl⟩
abbrev main_cst_133 : Ref sig .tc := ⟨.hbm, 535, rfl⟩
abbrev main_v399 : Ref sig .tc := ⟨.hbm, 536, rfl⟩
abbrev main_v400 : Ref sig .tc := ⟨.hbm, 537, rfl⟩
abbrev main_v401 : Ref sig .tc := ⟨.hbm, 538, rfl⟩
abbrev main_v402 : Ref sig .tc := ⟨.hbm, 539, rfl⟩
abbrev main_v403 : Ref sig .tc := ⟨.hbm, 540, rfl⟩
abbrev main_v404 : Ref sig .tc := ⟨.hbm, 541, rfl⟩
abbrev main_v405 : Ref sig .tc := ⟨.hbm, 542, rfl⟩
abbrev main_cst_134 : Ref sig .tc := ⟨.hbm, 543, rfl⟩
abbrev main_v406 : Ref sig .tc := ⟨.hbm, 544, rfl⟩
abbrev main_cst_135 : Ref sig .tc := ⟨.hbm, 545, rfl⟩
abbrev main_v407 : Ref sig .tc := ⟨.hbm, 546, rfl⟩
abbrev main_v408 : Ref sig .tc := ⟨.hbm, 547, rfl⟩
abbrev main_v409 : Ref sig .tc := ⟨.hbm, 548, rfl⟩
abbrev main_v410 : Ref sig .tc := ⟨.hbm, 549, rfl⟩
abbrev main_v411 : Ref sig .tc := ⟨.hbm, 550, rfl⟩
abbrev main_v412 : Ref sig .tc := ⟨.hbm, 551, rfl⟩
abbrev main_v413 : Ref sig .tc := ⟨.hbm, 552, rfl⟩
abbrev main_cst_136 : Ref sig .tc := ⟨.hbm, 553, rfl⟩
abbrev main_v414 : Ref sig .tc := ⟨.hbm, 554, rfl⟩
abbrev main_cst_137 : Ref sig .tc := ⟨.hbm, 555, rfl⟩
abbrev main_v415 : Ref sig .tc := ⟨.hbm, 556, rfl⟩
abbrev main_cst_138 : Ref sig .tc := ⟨.hbm, 557, rfl⟩
abbrev main_v416 : Ref sig .tc := ⟨.hbm, 558, rfl⟩
abbrev main_cst_139 : Ref sig .tc := ⟨.hbm, 559, rfl⟩
abbrev main_v417 : Ref sig .tc := ⟨.hbm, 560, rfl⟩
abbrev main_v418 : Ref sig .tc := ⟨.hbm, 561, rfl⟩
abbrev main_v419 : Ref sig .tc := ⟨.hbm, 562, rfl⟩
abbrev main_v420 : Ref sig .tc := ⟨.hbm, 563, rfl⟩
abbrev main_v421 : Ref sig .tc := ⟨.hbm, 564, rfl⟩
abbrev main_v422 : Ref sig .tc := ⟨.hbm, 565, rfl⟩
abbrev main_v423 : Ref sig .tc := ⟨.hbm, 566, rfl⟩
abbrev main_cst_140 : Ref sig .tc := ⟨.hbm, 567, rfl⟩
abbrev main_v424 : Ref sig .tc := ⟨.hbm, 568, rfl⟩
abbrev main_cst_141 : Ref sig .tc := ⟨.hbm, 569, rfl⟩
abbrev main_v425 : Ref sig .tc := ⟨.hbm, 570, rfl⟩
abbrev main_v426 : Ref sig .tc := ⟨.hbm, 571, rfl⟩
abbrev main_v427 : Ref sig .tc := ⟨.hbm, 572, rfl⟩
abbrev main_v428 : Ref sig .tc := ⟨.hbm, 573, rfl⟩
abbrev main_v429 : Ref sig .tc := ⟨.hbm, 574, rfl⟩
abbrev main_v430 : Ref sig .tc := ⟨.hbm, 575, rfl⟩
abbrev main_v431 : Ref sig .tc := ⟨.hbm, 576, rfl⟩
abbrev main_cst_142 : Ref sig .tc := ⟨.hbm, 577, rfl⟩
abbrev main_v432 : Ref sig .tc := ⟨.hbm, 578, rfl⟩
abbrev main_cst_143 : Ref sig .tc := ⟨.hbm, 579, rfl⟩
abbrev main_v433 : Ref sig .tc := ⟨.hbm, 580, rfl⟩
abbrev main_cst_144 : Ref sig .tc := ⟨.hbm, 581, rfl⟩
abbrev main_v434 : Ref sig .tc := ⟨.hbm, 582, rfl⟩
abbrev main_cst_145 : Ref sig .tc := ⟨.hbm, 583, rfl⟩
abbrev main_v435 : Ref sig .tc := ⟨.hbm, 584, rfl⟩
abbrev main_v436 : Ref sig .tc := ⟨.hbm, 585, rfl⟩
abbrev main_v437 : Ref sig .tc := ⟨.hbm, 586, rfl⟩

abbrev nD : Nat := 1
abbrev τ : Topo := Topo.v7x

variable {F : FTy → Type} [FloatOps F]

class Facts₀ : Prop where
  shapeCasts_S1x3x1536x2048_S3145728x3 : S1x3x1536x2048.ShapeCasts S3145728x3
  bcast_S3_S1x3_1 : S3.BroadcastsInDim S1x3 (![1] : Fin 1 → Fin S1x3.rank)
  bcast_S1x3_S3145728x3_0_1 : S1x3.BroadcastsInDim S3145728x3 (![0, 1] : Fin 2 → Fin S3145728x3.rank)
  shapeCasts_S3145728x3_S1x3x1536x2048 : S3145728x3.ShapeCasts S1x3x1536x2048
  slices_S1x3x1536x2048_S1x3x1535x2048_0_0_1_0 : S1x3x1536x2048.Slices ![0, 0, 1, 0] S1x3x1535x2048
  slices_S1x3x1536x2048_S1x3x1535x2048_0_0_0_0 : S1x3x1536x2048.Slices ![0, 0, 0, 0] S1x3x1535x2048
  reducesTo_S1x3x1535x2048_S1x1535x2048_d1 : S1x3x1535x2048.ReducesTo [1] S1x1535x2048
  h_S_ : 0 < S_.numel
  bcast_S_S1x1535x2048 : S_.BroadcastsInDim S1x1535x2048 (![] : Fin 0 → Fin S1x1535x2048.rank)
  reducesTo_S1x3x1535x2048_S_d0_1_2_3 : S1x3x1535x2048.ReducesTo [0, 1, 2, 3] S_
  reducesTo_S1x1535x2048_S_d0_1_2 : S1x1535x2048.ReducesTo [0, 1, 2] S_
  slices_S1x3x1536x2048_S1x3x1536x2047_0_0_0_1 : S1x3x1536x2048.Slices ![0, 0, 0, 1] S1x3x1536x2047
  slices_S1x3x1536x2048_S1x3x1536x2047_0_0_0_0 : S1x3x1536x2048.Slices ![0, 0, 0, 0] S1x3x1536x2047
  reducesTo_S1x3x1536x2047_S1x1536x2047_d1 : S1x3x1536x2047.ReducesTo [1] S1x1536x2047
  bcast_S_S1x1536x2047 : S_.BroadcastsInDim S1x1536x2047 (![] : Fin 0 → Fin S1x1536x2047.rank)
  reducesTo_S1x3x1536x2047_S_d0_1_2_3 : S1x3x1536x2047.ReducesTo [0, 1, 2, 3] S_
  reducesTo_S1x1536x2047_S_d0_1_2 : S1x1536x2047.ReducesTo [0, 1, 2] S_
  slices_S1x3x1536x2048_S1x3x1535x2047_0_0_0_0 : S1x3x1536x2048.Slices ![0, 0, 0, 0] S1x3x1535x2047
  slices_S1x3x1536x2048_S1x3x1535x2047_0_0_1_1 : S1x3x1536x2048.Slices ![0, 0, 1, 1] S1x3x1535x2047
  reducesTo_S1x3x1535x2047_S1x1535x2047_d1 : S1x3x1535x2047.ReducesTo [1] S1x1535x2047
  bcast_S_S1x1535x2047 : S_.BroadcastsInDim S1x1535x2047 (![] : Fin 0 → Fin S1x1535x2047.rank)
  reducesTo_S1x3x1535x2047_S_d0_1_2_3 : S1x3x1535x2047.ReducesTo [0, 1, 2, 3] S_
  reducesTo_S1x1535x2047_S_d0_1_2 : S1x1535x2047.ReducesTo [0, 1, 2] S_
  slices_S1x3x1536x2048_S1x3x1535x2047_0_0_1_0 : S1x3x1536x2048.Slices ![0, 0, 1, 0] S1x3x1535x2047
  slices_S1x3x1536x2048_S1x3x1535x2047_0_0_0_1 : S1x3x1536x2048.Slices ![0, 0, 0, 1] S1x3x1535x2047
  slices_S1x3x1536x2048_S1x3x1534x2048_0_0_2_0 : S1x3x1536x2048.Slices ![0, 0, 2, 0] S1x3x1534x2048
  slices_S1x3x1536x2048_S1x3x1534x2048_0_0_0_0 : S1x3x1536x2048.Slices ![0, 0, 0, 0] S1x3x1534x2048
  reducesTo_S1x3x1534x2048_S1x1534x2048_d1 : S1x3x1534x2048.ReducesTo [1] S1x1534x2048
  bcast_S_S1x1534x2048 : S_.BroadcastsInDim S1x1534x2048 (![] : Fin 0 → Fin S1x1534x2048.rank)
  reducesTo_S1x3x1534x2048_S_d0_1_2_3 : S1x3x1534x2048.ReducesTo [0, 1, 2, 3] S_
  reducesTo_S1x1534x2048_S_d0_1_2 : S1x1534x2048.ReducesTo [0, 1, 2] S_
  slices_S1x3x1536x2048_S1x3x1536x2046_0_0_0_2 : S1x3x1536x2048.Slices ![0, 0, 0, 2] S1x3x1536x2046
  slices_S1x3x1536x2048_S1x3x1536x2046_0_0_0_0 : S1x3x1536x2048.Slices ![0, 0, 0, 0] S1x3x1536x2046
  reducesTo_S1x3x1536x2046_S1x1536x2046_d1 : S1x3x1536x2046.ReducesTo [1] S1x1536x2046
  bcast_S_S1x1536x2046 : S_.BroadcastsInDim S1x1536x2046 (![] : Fin 0 → Fin S1x1536x2046.rank)
  reducesTo_S1x3x1536x2046_S_d0_1_2_3 : S1x3x1536x2046.ReducesTo [0, 1, 2, 3] S_
  reducesTo_S1x1536x2046_S_d0_1_2 : S1x1536x2046.ReducesTo [0, 1, 2] S_
  slices_S1x3x1536x2048_S1x3x1534x2047_0_0_0_0 : S1x3x1536x2048.Slices ![0, 0, 0, 0] S1x3x1534x2047
  slices_S1x3x1536x2048_S1x3x1534x2047_0_0_2_1 : S1x3x1536x2048.Slices ![0, 0, 2, 1] S1x3x1534x2047
  reducesTo_S1x3x1534x2047_S1x1534x2047_d1 : S1x3x1534x2047.ReducesTo [1] S1x1534x2047
  bcast_S_S1x1534x2047 : S_.BroadcastsInDim S1x1534x2047 (![] : Fin 0 → Fin S1x1534x2047.rank)
  reducesTo_S1x3x1534x2047_S_d0_1_2_3 : S1x3x1534x2047.ReducesTo [0, 1, 2, 3] S_
  reducesTo_S1x1534x2047_S_d0_1_2 : S1x1534x2047.ReducesTo [0, 1, 2] S_
  slices_S1x3x1536x2048_S1x3x1534x2047_0_0_2_0 : S1x3x1536x2048.Slices ![0, 0, 2, 0] S1x3x1534x2047
  slices_S1x3x1536x2048_S1x3x1534x2047_0_0_0_1 : S1x3x1536x2048.Slices ![0, 0, 0, 1] S1x3x1534x2047
  slices_S1x3x1536x2048_S1x3x1535x2046_0_0_0_0 : S1x3x1536x2048.Slices ![0, 0, 0, 0] S1x3x1535x2046
  slices_S1x3x1536x2048_S1x3x1535x2046_0_0_1_2 : S1x3x1536x2048.Slices ![0, 0, 1, 2] S1x3x1535x2046
  reducesTo_S1x3x1535x2046_S1x1535x2046_d1 : S1x3x1535x2046.ReducesTo [1] S1x1535x2046
  bcast_S_S1x1535x2046 : S_.BroadcastsInDim S1x1535x2046 (![] : Fin 0 → Fin S1x1535x2046.rank)
  reducesTo_S1x3x1535x2046_S_d0_1_2_3 : S1x3x1535x2046.ReducesTo [0, 1, 2, 3] S_
  reducesTo_S1x1535x2046_S_d0_1_2 : S1x1535x2046.ReducesTo [0, 1, 2] S_
  slices_S1x3x1536x2048_S1x3x1535x2046_0_0_1_0 : S1x3x1536x2048.Slices ![0, 0, 1, 0] S1x3x1535x2046
  slices_S1x3x1536x2048_S1x3x1535x2046_0_0_0_2 : S1x3x1536x2048.Slices ![0, 0, 0, 2] S1x3x1535x2046
  slices_S1x3x1536x2048_S1x3x1534x2046_0_0_0_0 : S1x3x1536x2048.Slices ![0, 0, 0, 0] S1x3x1534x2046
  slices_S1x3x1536x2048_S1x3x1534x2046_0_0_2_2 : S1x3x1536x2048.Slices ![0, 0, 2, 2] S1x3x1534x2046
  reducesTo_S1x3x1534x2046_S1x1534x2046_d1 : S1x3x1534x2046.ReducesTo [1] S1x1534x2046
  bcast_S_S1x1534x2046 : S_.BroadcastsInDim S1x1534x2046 (![] : Fin 0 → Fin S1x1534x2046.rank)
  reducesTo_S1x3x1534x2046_S_d0_1_2_3 : S1x3x1534x2046.ReducesTo [0, 1, 2, 3] S_
  reducesTo_S1x1534x2046_S_d0_1_2 : S1x1534x2046.ReducesTo [0, 1, 2] S_
  slices_S1x3x1536x2048_S1x3x1534x2046_0_0_2_0 : S1x3x1536x2048.Slices ![0, 0, 2, 0] S1x3x1534x2046
  slices_S1x3x1536x2048_S1x3x1534x2046_0_0_0_2 : S1x3x1536x2048.Slices ![0, 0, 0, 2] S1x3x1534x2046
  dot_S3145728x3_S3x3_S3145728x3_1_0_0_1_n_n_wf : DotDims.WF S3145728x3 S3x3 S3145728x3 [1] [0] [0] [1] [] []

variable [Facts₀]

def dot_S3145728x3_S3x3_S3145728x3_1_0_0_1_n_n : DotDims S3145728x3 S3x3 S3145728x3 where
  lhsContracting := [1]
  rhsContracting := [0]
  lhsNonContracting := [0]
  rhsNonContracting := [1]
  lhsBatch := []
  rhsBatch := []
  wf := dot_S3145728x3_S3x3_S3145728x3_1_0_0_1_n_n_wf

class Facts : Prop extends Facts₀ where

variable [Facts]
-- ==== Proof.K.Names.lean ====
import proofs.«143054_j12300786336339_1_alg».proof.Proof.Gen.Kernel.Launch
import proofs.«143054_j12300786336339_1_alg».proof.Proof.Gen.Kernel.Skeleton
import proofs.«143054_j12300786336339_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 6 = 0 := (by decide +kernel : ∀ t : Fin grid0.N, cond0_0 (grid0.coords t) ↔ t.val % 6 = 0)

abbrev VO0_0 : View sig .tc .vmem S1x48 .f32 := (Memref.whole cc0_stg0_0 : Memref sig .tc .vmem S1x48 .f32).view

abbrev ms0_0 (t : Fin cfg0.N) : Memref sig .tc .vmem S1x48 .f32 := win0_0.stage (cfg0.slots t 0)
abbrev hs0_0 (t : Fin cfg0.N) : (ms0_0 t).IsWhole := hstage0_0 ((cfg0.slots t 0).cast nbuf0_0)

abbrev scM0_0 : Memref sig .tc .vmem S3x272x2048 .f32 := Memref.whole cc0_scratch0
abbrev scM0_1 : Memref sig .tc .vmem S3x272x2048 .f32 := Memref.whole cc0_scratch1
abbrev hbM0_0 : Memref sig .tc .hbm S3x1552x2048 .f32 := Memref.whole main_v8
abbrev hbM0_1 : Memref sig .tc .hbm S3x1552x2048 .f32 := Memref.whole main_v9

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 := M.view.loc (c : Thread nD τ) ↦{fullShare} f

abbrev osem0 : Fin 2 → SemLoc sig := fun j => (![SemLoc.dma 1, SemLoc.dma 2] : Fin 2 → SemLoc sig) j
theorem ownSemFacts0 : Pipeline.OwnSemFacts spec0 osem0 := by decide

def H0 : Finset (Ref sig .tc) := {main_v8, main_v9}
theorem H0_sub : H0 ⊆ Pipeline.restRefs sig spec0 := by decide

end Cert.Kernel.Hand
end
-- ==== Proof.K.Kit.lean ====
import proofs.«143054_j12300786336339_1_alg».proof.Proof.K.Names

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; rfl
theorem hostOps0_3_fresh : (hostOps0_3 : List (HloOp τ sig (Elt F))).Forall fun op => op.fresh = ∅ := by
  simp only [List.Forall]; repeat' constructor

abbrev keep4 : List (Ref sig .tc) := [main_v8, main_v9, main_arg0, main_arg1]

abbrev keep5 : List (Ref sig .tc) := main_v10 :: keep4

theorem devRef_ne_of_mem {L : List (Ref sig .tc)} {r y : Ref sig .tc} (hr : r ∈ L) (hy : y ∉ L) :
    Proc.devRef (τ := τ) .tc r ≠ Proc.devRef .tc y := fun e => hy (Proc.devRef_injective _ e ▸ hr)

structure Away (op : HloOp τ sig (Elt F)) : Prop where
  fresh : op.fresh = ∅
  bufs : ∀ r ∈ keep4, Proc.devRef .tc r ∉ op.bufs
  writes : Proc.devRef .tc main_v10 ∉ op.writes

theorem Away.nullary {y : Ref sig .tc} {v : y.ty.Contents (Elt F)} {hy} (h : y ∉ keep5) :
    Away (StableHlo.nullary (τ := τ) y v hy) where
  fresh := rfl
  bufs r hr := by
    rw [StableHlo.nullary_bufs, Finset.mem_singleton]
    exact devRef_ne_of_mem hr fun h4 => h (List.mem_cons_of_mem _ h4)
  writes := by
    rw [StableHlo.nullary_writes, Finset.mem_singleton]
    exact StableHlo.devRef_ne_of_ne fun e => h (by subst e; exact List.mem_cons_self)

theorem Away.unary {x y : Ref sig .tc} {f : x.ty.Contents (Elt F) → y.ty.Contents (Elt F)} {hx hy} (h₁ : x ∉ keep4) (h : y ∉ keep5) :
    Away (StableHlo.unary (τ := τ) x y f hx hy) where
  fresh := rfl
  bufs r hr := by
    rw [StableHlo.unary_bufs, Finset.mem_insert, Finset.mem_singleton, not_or]
    exact ⟨devRef_ne_of_mem hr h₁, devRef_ne_of_mem hr fun h4 => h (List.mem_cons_of_mem _ h4)⟩
  writes := by
    rw [StableHlo.unary_writes, Finset.mem_singleton]
    exact StableHlo.devRef_ne_of_ne fun e => h (by subst e; exact List.mem_cons_self)

theorem Away.reshape {x y : Ref sig .tc} {he hn hx hy} (h₁ : x ∉ keep4) (h : y ∉ keep5) :
    Away (StableHlo.reshape (τ := τ) (Val := Elt F) x y he hn hx hy) where
  fresh := rfl
  bufs r hr := by
    rw [StableHlo.reshape_bufs, Finset.mem_insert, Finset.mem_singleton, not_or]
    exact ⟨devRef_ne_of_mem hr h₁, devRef_ne_of_mem hr fun h4 => h (List.mem_cons_of_mem _ h4)⟩
  writes := by
    rw [StableHlo.reshape_writes, Finset.mem_singleton]
    exact StableHlo.devRef_ne_of_ne fun e => h (by subst e; exact List.mem_cons_self)

theorem Away.binary {a b y : Ref sig .tc} {f : a.ty.Contents (Elt F) → b.ty.Contents (Elt F) → y.ty.Contents (Elt F)} {ha hb hy}
    (h₁ : a ∉ keep4) (h₂ : b ∉ keep4) (h : y ∉ keep5) :
    Away (StableHlo.binary (τ := τ) a b y f ha hb hy) where
  fresh := rfl
  bufs r hr := by
    rw [StableHlo.binary_bufs, Finset.mem_insert, Finset.mem_insert, Finset.mem_singleton, not_or, not_or]
    exact ⟨devRef_ne_of_mem hr h₁, devRef_ne_of_mem hr h₂, devRef_ne_of_mem hr fun h4 => h (List.mem_cons_of_mem _ h4)⟩
  writes := by
    rw [StableHlo.binary_writes, Finset.mem_singleton]
    exact StableHlo.devRef_ne_of_ne fun e => h (by subst e; exact List.mem_cons_self)

set_option maxHeartbeats 40000000 in
theorem hostOps1_away : (hostOps1 : List (HloOp τ sig (Elt F))).Forall Away := by
  repeat' first
    | exact .reshape (by decide) (by decide) | exact .unary (by decide) (by decide) | exact .nullary (by decide)
    | exact .binary (by decide) (by decide) (by decide) | refine ⟨?_, ?_⟩

theorem away_of_mem {op : HloOp τ sig (Elt F)} (hop : op ∈ (hostOps1 : List (HloOp τ sig (Elt F)))) : Away op :=
  (List.forall_iff_forall_mem.mp hostOps1_away) op hop

theorem H0_keep4 : ∀ b ∈ H0, b ∈ keep4 := by decide
theorem arrRef0_eq : ∀ w, Pipeline.arrRef spec0 w = main_v10 := by decide

theorem pre_sub : ([hostOps0, hostOps0_1, hostOps0_2, hostOps0_3] : List (List (HloOp τ sig (Elt F)))).Forall fun ops => ops.Forall fun op => op.bufs ⊆ StableHlo.tcRefs τ sig :=
  ⟨hostOps0_sub, hostOps0_1_sub, hostOps0_2_sub, hostOps0_3_sub⟩
theorem pre_fresh : ([hostOps0, hostOps0_1, hostOps0_2, hostOps0_3] : List (List (HloOp τ sig (Elt F)))).Forall fun ops => ops.Forall fun op => op.fresh = ∅ :=
  ⟨hostOps0_fresh, hostOps0_1_fresh, hostOps0_2_fresh, hostOps0_3_fresh⟩

theorem main_chain' (c : Dev nD) : main (F := F) c = Pipeline.chain (([hostOps0, hostOps0_1, hostOps0_2, hostOps0_3] : List (List (HloOp τ sig (Elt F)))).map StableHlo.seq
    ++ [Prog.lift (.customCall (Pipeline.entry 0) ())] ++ ([hostOps1] : List (List (HloOp τ sig (Elt F)))).map StableHlo.seq) :=
  main_chain c

set_option maxRecDepth 400000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1] pre_sub pre_fresh main_chain'

theorem sfx_sub : ∀ ops ∈ ([hostOps1] : List (List (HloOp τ sig (Elt F)))), ∀ op ∈ ops,
    op.bufs ⊆ Pipeline.tailRefsBut sig Pipeline.Prefetch.none spec0 H0 := by
  intro ops hops op hop
  rw [List.mem_singleton] at hops
  subst hops
  exact Pipeline.sub_tailRefsBut Pipeline.Prefetch.none spec0 H0 op ((List.forall_iff_forall_mem.mp hostOps1_sub) op hop)
    (fun k => k.elim0) (fun b hb => (away_of_mem hop).bufs b (H0_keep4 b hb))

theorem sfx_fresh : ∀ ops ∈ ([hostOps1] : List (List (HloOp τ sig (Elt F)))), ∀ op ∈ ops, op.fresh = ∅ := by
  intro ops hops op hop
  rw [List.mem_singleton] at hops
  subst hops
  exact (away_of_mem hop).fresh

theorem sfx_keeps : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  rw [arrRef0_eq w]
  exact (away_of_mem hop).writes

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem W_keep (dats : (p : Fin 1) → (c : Dev nD) → Dat τ (Elt F) Unit ℕ (Pipeline.UD sig nD τ) ℕ (cfgs p) c) (c : Dev nD)
    (b : Ref sig .tc) (hb : b ∈ keep4) :
    Pipeline.afterTail₀ cfgs dats 0 (V0 m) [hostOps1] c b = V m c b := by
  unfold Pipeline.afterTail₀
  have hnot : ∀ op ∈ ([hostOps1] : List (List (HloOp τ sig (Elt F)))).flatten, Proc.devRef .tc b ∉ op.writes := by
    intro op hop hw
    rw [List.flatten_cons, List.flatten_nil, List.append_nil] at hop
    exact (away_of_mem hop).bufs b hb (op.writes_sub hw)
  have hne : ∀ w, Pipeline.arrRef spec0 w ≠ b := fun w e => by
    rw [arrRef0_eq w] at e; subst e; exact absurd hb (by decide)
  rw [StableHlo.after_of_forall_not_mem _ _ hnot, Pipeline.withArrays_of_ne _ c (V0 m c) _ b hne]
theorem W_main_arg0 (dats : (p : Fin 1) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) :=
  (W_keep m dats c main_arg0 (by decide)).trans (V_main_arg0 m c)
theorem W_main_arg1 (dats : (p : Fin 1) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) :=
  (W_keep m dats c main_arg1 (by decide)).trans (V_main_arg1 m c)

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0) := by
  rw [Pipeline.ownSems0_eq_of_list c osem0 [0, 1] (by decide) (by decide)]; rfl

theorem hbmPts0_eq (c : Dev nD) :
    (bigSep H0 (fun b => ((c : Thread nD τ).loc b) ↦{fullShare} V m c b) : sProp 𝕄)
      = iprop(hbPt0 c hbM0_0 (V m c main_v8) ∗ hbPt0 c hbM0_1 (V m c main_v9)) := by
  rw [BI.bigSep_eq_bigSepL_of_eq [main_v8, main_v9] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r)
          ∗ iprop(semVal ((c : Thread nD τ), SemLoc.dma 1) 0 ∗ semVal ((c : Thread nD τ), SemLoc.dma 2) 0)
          ∗ iprop(hbPt0 c hbM0_0 (V m c main_v8) ∗ hbPt0 c hbM0_1 (V m c main_v9))) := by
  rw [Pipeline.ΦD_eq, scopedRest0_eq, ownSems00_eq, hbmPts0_eq]; simp only [scM0_0, scM0_1, owns_whole]; try rfl

theorem frame_of (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.Kernel.Hand
end
-- ==== Proof.K.RunA.lean ====
import proofs.«143054_j12300786336339_1_alg».proof.Proof.K.Names

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

set_option maxHeartbeats 4000000 in
noncomputable def kernelRunG0_A (c : Dev nD) (i : grid0.Coords) (arg3 : Memref sig .tc .vmem S1x48 .f32) (harg3 : arg3.IsWhole)
    (arg4 : Memref sig .tc .vmem S3x272x2048 .f32) (harg4 : arg4.IsWhole) (arg5 : Memref sig .tc .vmem S3x272x2048 .f32) (harg5 : arg5.IsWhole)
    (hc0 : cond0_0 i) (fh0 : HbBuf0 (F := F) c hbM0_0) (fh1 : HbBuf0 (F := F) c hbM0_1) :
    { L1 : List (View.Piece (Elt F) S1x48 .f32) //
      ∀ (W : Waits sig Unit) (K : PUnit → sProp 𝕄),
        iprop((∃ d, owns (c : Thread nD τ) arg3 fullShare d) ∗ (∃ d, owns (c : Thread nD τ) arg4 fullShare d) ∗ (∃ d, owns (c : Thread nD τ) arg5 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) arg4 fullShare d) ∗ (∃ d, owns (c : Thread nD τ) arg5 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 arg4 harg4 arg5 harg5 cc0_scratch2 cc0_scratch3) K } := by
  refine ⟨?_, fun W K => ?run⟩
  case run =>
    unfold owns
    iintro ⟨⟨%d1, %f1, -, H1⟩, ⟨%ds0, %fs0, -, HS0⟩, ⟨%ds1, %fs1, -, HS1⟩, Hq0, Hq1, Hh0, Hh1, HW, Hk⟩
    sl_exec_parts (disch := first | exact hc0)
    sl_step
    iapply Hk
    isplitl [H1]; · iexists _; iexact H1
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexact Hh0
    isplitl [Hh1]; · iexact Hh1
    iexists _; iexact HW

noncomputable def kernelRun0_A (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) :
    { L1 : List (View.Piece (Elt F) S1x48 .f32) //
      ∀ (W : Waits sig Unit) (K : PUnit → sProp 𝕄),
        iprop((∃ d, owns (c : Thread nD τ) arg3 fullShare d) ∗ (∃ d, owns (c : Thread nD τ) scM0_0 fullShare d) ∗ (∃ d, owns (c : Thread nD τ) scM0_1 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) scM0_0 fullShare d) ∗ (∃ d, owns (c : Thread nD τ) scM0_1 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 scM0_0 (Memref.isWhole_whole _) scM0_1 (Memref.isWhole_whole _) cc0_scratch2 cc0_scratch3) K } :=
  kernelRunG0_A c i arg3 harg3 scM0_0 (Memref.isWhole_whole _) scM0_1 (Memref.isWhole_whole _) hc0 fh0 fh1

end Cert.Kernel.Hand
end
-- ==== Proof.K.RunB.lean ====
import proofs.«143054_j12300786336339_1_alg».proof.Proof.K.RunA

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

set_option maxHeartbeats 4000000 in
noncomputable def kernelRunG0_B (c : Dev nD) (i : grid0.Coords) (arg3 : Memref sig .tc .vmem S1x48 .f32) (harg3 : arg3.IsWhole)
    (arg4 : Memref sig .tc .vmem S3x272x2048 .f32) (harg4 : arg4.IsWhole) (arg5 : Memref sig .tc .vmem S3x272x2048 .f32) (harg5 : arg5.IsWhole)
    (hc0 : ¬cond0_0 i) (fh0 : HbBuf0 (F := F) c hbM0_0) (fh1 : HbBuf0 (F := F) c hbM0_1) (xo : Vec F S1x48 .f32) :
    { L1 : List (View.Piece (Elt F) S1x48 .f32) //
      ∀ (W : Waits sig Unit) (K : PUnit → sProp 𝕄),
        iprop(owns (c : Thread nD τ) arg3 fullShare xo ∗ (∃ d, owns (c : Thread nD τ) arg4 fullShare d) ∗ (∃ d, owns (c : Thread nD τ) arg5 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) arg4 fullShare d) ∗ (∃ d, owns (c : Thread nD τ) arg5 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 arg4 harg4 arg5 harg5 cc0_scratch2 cc0_scratch3) K } := by
  refine ⟨?_, fun W K => ?run⟩
  case run =>
    unfold owns
    iintro ⟨⟨%f1, %hf1, H1⟩, ⟨%ds0, %fs0, -, HS0⟩, ⟨%ds1, %fs1, -, HS1⟩, Hq0, Hq1, Hh0, Hh1, HW, Hk⟩
    obtain rfl := harg3.eq_unread hf1
    sl_exec_parts (disch := first | exact hc0)
    sl_step
    iapply Hk
    isplitl [H1]; · iexists _; iexact H1
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexact Hh0
    isplitl [Hh1]; · iexact Hh1
    iexists _; iexact HW

noncomputable def kernelRun0_B (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) :
    { L1 : List (View.Piece (Elt F) S1x48 .f32) //
      ∀ (W : Waits sig Unit) (K : PUnit → sProp 𝕄),
        iprop(owns (c : Thread nD τ) arg3 fullShare xo ∗ (∃ d, owns (c : Thread nD τ) scM0_0 fullShare d) ∗ (∃ d, owns (c : Thread nD τ) scM0_1 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) scM0_0 fullShare d) ∗ (∃ d, owns (c : Thread nD τ) scM0_1 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 scM0_0 (Memref.isWhole_whole _) scM0_1 (Memref.isWhole_whole _) cc0_scratch2 cc0_scratch3) K } :=
  kernelRunG0_B c i arg3 harg3 scM0_0 (Memref.isWhole_whole _) scM0_1 (Memref.isWhole_whole _) hc0 fh0 fh1 xo

end Cert.Kernel.Hand
end
-- ==== Proof.K.Frame.lean ====
import proofs.«143054_j12300786336339_1_alg».proof.Proof.K.Kit
import proofs.«143054_j12300786336339_1_alg».proof.Proof.K.RunB

set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

theorem cover0_A_0 (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) (y : S1x48.Idx) :
    ∃ pc ∈ (kernelRun0_A c i arg3 harg3 hc0 fh0 fh1).1, y ∈ pc.1.set :=
  View.cover_of_tiledL (kernelRun0_A c i arg3 harg3 hc0 fh0 fh1).1 S1x48.size (by sl_kernel_rfl) y

def out0_A_0 (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) : Vec F S1x48 .f32 :=
  VO0_0.read (Elt F) (VO0_0.writes (Elt F) VO0_0.junk (kernelRun0_A c i arg3 harg3 hc0 fh0 fh1).1)

theorem cover0_B_0 (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) (y : S1x48.Idx) :
    ∃ pc ∈ (kernelRun0_B c i arg3 harg3 hc0 fh0 fh1 xo).1, y ∈ pc.1.set :=
  View.cover_of_tiledL (kernelRun0_B c i arg3 harg3 hc0 fh0 fh1 xo).1 S1x48.size (by sl_kernel_rfl) y

def out0_B_0 (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) : Vec F S1x48 .f32 :=
  VO0_0.read (Elt F) (VO0_0.writes (Elt F) VO0_0.junk (kernelRun0_B c i arg3 harg3 hc0 fh0 fh1 xo).1)

theorem not_cond0_succ (n : ℕ) (hn : n + 1 < cfg0.N) : ¬cond0_0 (grid0.coords ⟨n + 1, hn⟩) := fun h => by
  have h6 : n + 1 < 6 := lt_of_lt_of_eq hn (show cfg0.N = 6 from N_0)
  have h0 : (n + 1) % 6 = 0 := (hcond0_0 ⟨n + 1, hn⟩).mp h
  omega

def outsAt0 (c : Dev nD) : (n : ℕ) → n < cfg0.N → Vec F S1x48 .f32
  | 0, hn => out0_A_0 c (grid0.coords ⟨0, hn⟩) (ms0_0 ⟨0, hn⟩) (hs0_0 ⟨0, hn⟩) ((hcond0_0 ⟨0, hn⟩).mpr (Nat.zero_mod _)) (V m c main_v8) (V m c main_v9)
  | n + 1, hn => out0_B_0 c (grid0.coords ⟨n + 1, hn⟩) (ms0_0 ⟨n + 1, hn⟩) (hs0_0 ⟨n + 1, hn⟩) (not_cond0_succ n hn) (V m c main_v8) (V m c main_v9)
      (outsAt0 c n (Nat.lt_of_succ_lt hn))

theorem outsAt0_A (c : Dev nD) (t : Fin cfg0.N) (h0 : t.val % 6 = 0) :
    outsAt0 m c t.val t.isLt = out0_A_0 c (grid0.coords t) (ms0_0 t) (hs0_0 t) ((hcond0_0 t).mpr h0) (V m c main_v8) (V m c main_v9) := by
  obtain ⟨n, hn⟩ := t
  cases n with
  | zero => exact rfl
  | succ n =>
    exfalso
    have h6 : n + 1 < 6 := lt_of_lt_of_eq hn (show cfg0.N = 6 from N_0)
    dsimp only at h0
    omega

theorem outsAt0_B (c : Dev nD) (t : Fin cfg0.N) (h0 : ¬t.val % 6 = 0) :
    outsAt0 m c t.val t.isLt = out0_B_0 c (grid0.coords t) (ms0_0 t) (hs0_0 t) (fun h => h0 ((hcond0_0 t).mp h)) (V m c main_v8) (V m c main_v9)
      (outsAt0 m c (t.val - 1) (Nat.lt_of_le_of_lt (Nat.sub_le _ _) t.isLt)) := by
  obtain ⟨n, hn⟩ := t
  cases n with
  | zero => exact absurd (Nat.zero_mod _) h0
  | succ n => exact rfl

def dats (_ : Fin 1) (c : Dev nD) : Dat τ (Elt F) Unit ℕ (Pipeline.UD sig nD τ) ℕ cfg0 c where
  A w := V m c (Pipeline.arrRef spec0 w)
  after w t := match w with
    | ⟨0, _⟩ => outsAt0 m c t.val t.isLt
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = outsAt0 m c t.val t.isLt := by dsimp only [dats]

theorem before0_0_B (c : Dev nD) (t : Fin cfg0.N) (h0 : ¬t.val % 6 = 0) (d) :
    (dats m 0 c).before 0 t d = outsAt0 m c (t.val - 1) (Nat.lt_of_le_of_lt (Nat.sub_le _ _) t.isLt) := by
  have hN : t.val < 6 := lt_of_lt_of_eq t.isLt (show cfg0.N = 6 from N_0)
  rw [Dat.before_out_kept _ 0 rfl t (by omega) (Bool.eq_false_iff.mpr fun h => by have := (flush0_0 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  by_cases h0 : t.val % 6 = 0
  · rw [outsAt0_A m c t h0]
    unfold out0_A_0
    iintro ⟨⟨⟨HS0, HS1⟩, Hg, ⟨Hq0, Hq1⟩, ⟨Hh0, Hh1⟩⟩, ⟨%W, -, HW⟩, ⟨%d0, H0⟩⟩
    iapply ((kernelRun0_A c (grid0.coords t) _ _ ((hcond0_0 t).mpr h0) (V m c main_v8) (V m c main_v9)).2 W _)
    isplitl [H0]; · iexists _; iexact H0
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨⟨%e0, H0⟩, HS0, HS1, Hq0, Hq1, Hh0, Hh1, ⟨%W', HW'⟩⟩
    isplitl [HS0 HS1 Hg Hq0 Hq1 Hh0 Hh1]
    · isplitl [HS0 HS1]
      · isplitl [HS0]; · iexact HS0
        iexact HS1
      isplitl [Hg]
      · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    unfold owns; iexists _; isplitr
    swap; · iexact H0
    ipureintro; exact View.read_writes_of_cover _ _ _ _ _ (cover0_A_0 c _ _ _ _ _ _)
  · rw [outsAt0_B m c t h0]
    simp only [before0_0_B m c t h0]
    unfold out0_B_0
    iintro ⟨⟨⟨HS0, HS1⟩, Hg, ⟨Hq0, Hq1⟩, ⟨Hh0, Hh1⟩⟩, ⟨%W, -, HW⟩, ⟨%d0, H0⟩⟩
    iapply ((kernelRun0_B c (grid0.coords t) _ _ (fun h => h0 ((hcond0_0 t).mp h)) (V m c main_v8) (V m c main_v9) _).2 W _)
    isplitl [H0]; · iexact H0
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨⟨%e0, H0⟩, HS0, HS1, Hq0, Hq1, Hh0, Hh1, ⟨%W', HW'⟩⟩
    isplitl [HS0 HS1 Hg Hq0 Hq1 Hh0 Hh1]
    · isplitl [HS0 HS1]
      · isplitl [HS0]; · iexact HS0
        iexact HS1
      isplitl [Hg]
      · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    unfold owns; iexists _; isplitr
    swap; · iexact H0
    ipureintro; exact View.read_writes_of_cover _ _ _ _ _ (cover0_B_0 c _ _ _ _ _ _ _)

theorem body_obligation (c : Dev nD) : BodyObligation (dats (F := F) m 0 c) (defs₀ (F := F)) Variants.none () Set.univ := fun t => by
  rw [bigSep_W0, bigSep_W0]
  exact sound_body m c t

set_option maxRecDepth 400000 in
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun _ => .rfl) (hout := fun _ => .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand
end
-- ==== Proof.KI.Names.lean ====
import proofs.«143054_j12300786336339_1_alg».proof.Proof.Gen.KernelIdeal.Launch
import proofs.«143054_j12300786336339_1_alg».proof.Proof.Gen.KernelIdeal.Skeleton
import proofs.«143054_j12300786336339_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 6 = 0 := (by decide +kernel : ∀ t : Fin grid0.N, cond0_0 (grid0.coords t) ↔ t.val % 6 = 0)

abbrev VO0_0 : View sig .tc .vmem S1x48 .f32 := (Memref.whole cc0_stg0_0 : Memref sig .tc .vmem S1x48 .f32).view

abbrev ms0_0 (t : Fin cfg0.N) : Memref sig .tc .vmem S1x48 .f32 := win0_0.stage (cfg0.slots t 0)
abbrev hs0_0 (t : Fin cfg0.N) : (ms0_0 t).IsWhole := hstage0_0 ((cfg0.slots t 0).cast nbuf0_0)

abbrev scM0_0 : Memref sig .tc .vmem S3x272x2048 .f32 := Memref.whole cc0_scratch0
abbrev scM0_1 : Memref sig .tc .vmem S3x272x2048 .f32 := Memref.whole cc0_scratch1
abbrev hbM0_0 : Memref sig .tc .hbm S3x1552x2048 .f32 := Memref.whole main_v8
abbrev hbM0_1 : Memref sig .tc .hbm S3x1552x2048 .f32 := Memref.whole main_v9

abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 := M.view.loc (c : Thread nD τ) ↦{fullShare} f

abbrev osem0 : Fin 2 → SemLoc sig := fun j => (![SemLoc.dma 1, SemLoc.dma 2] : Fin 2 → SemLoc sig) j
theorem ownSemFacts0 : Pipeline.OwnSemFacts spec0 osem0 := by decide

def H0 : Finset (Ref sig .tc) := {main_v8, main_v9}
theorem H0_sub : H0 ⊆ Pipeline.restRefs sig spec0 := by decide

end Cert.KernelIdeal.Hand
end
-- ==== Proof.KI.RunA.lean ====
import proofs.«143054_j12300786336339_1_alg».proof.Proof.KI.Names

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

set_option maxHeartbeats 4000000 in
noncomputable def kernelRunG0_A (c : Dev nD) (i : grid0.Coords) (arg3 : Memref sig .tc .vmem S1x48 .f32) (harg3 : arg3.IsWhole)
    (arg4 : Memref sig .tc .vmem S3x272x2048 .f32) (harg4 : arg4.IsWhole) (arg5 : Memref sig .tc .vmem S3x272x2048 .f32) (harg5 : arg5.IsWhole)
    (hc0 : cond0_0 i) (fh0 : HbBuf0 (F := F) c hbM0_0) (fh1 : HbBuf0 (F := F) c hbM0_1) :
    { L1 : List (View.Piece (Elt F) S1x48 .f32) //
      ∀ (W : Waits sig Unit) (K : PUnit → sProp 𝕄),
        iprop((∃ d, owns (c : Thread nD τ) arg3 fullShare d) ∗ (∃ d, owns (c : Thread nD τ) arg4 fullShare d) ∗ (∃ d, owns (c : Thread nD τ) arg5 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) arg4 fullShare d) ∗ (∃ d, owns (c : Thread nD τ) arg5 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 arg4 harg4 arg5 harg5 cc0_scratch2 cc0_scratch3) K } := by
  refine ⟨?_, fun W K => ?run⟩
  case run =>
    unfold owns
    iintro ⟨⟨%d1, %f1, -, H1⟩, ⟨%ds0, %fs0, -, HS0⟩, ⟨%ds1, %fs1, -, HS1⟩, Hq0, Hq1, Hh0, Hh1, HW, Hk⟩
    sl_exec_parts (disch := first | exact hc0)
    sl_step
    iapply Hk
    isplitl [H1]; · iexists _; iexact H1
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexact Hh0
    isplitl [Hh1]; · iexact Hh1
    iexists _; iexact HW

noncomputable def kernelRun0_A (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) :
    { L1 : List (View.Piece (Elt F) S1x48 .f32) //
      ∀ (W : Waits sig Unit) (K : PUnit → sProp 𝕄),
        iprop((∃ d, owns (c : Thread nD τ) arg3 fullShare d) ∗ (∃ d, owns (c : Thread nD τ) scM0_0 fullShare d) ∗ (∃ d, owns (c : Thread nD τ) scM0_1 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) scM0_0 fullShare d) ∗ (∃ d, owns (c : Thread nD τ) scM0_1 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 scM0_0 (Memref.isWhole_whole _) scM0_1 (Memref.isWhole_whole _) cc0_scratch2 cc0_scratch3) K } :=
  kernelRunG0_A c i arg3 harg3 scM0_0 (Memref.isWhole_whole _) scM0_1 (Memref.isWhole_whole _) hc0 fh0 fh1

end Cert.KernelIdeal.Hand
end
-- ==== Proof.KI.RunB.lean ====
import proofs.«143054_j12300786336339_1_alg».proof.Proof.KI.RunA

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

set_option maxHeartbeats 4000000 in
noncomputable def kernelRunG0_B (c : Dev nD) (i : grid0.Coords) (arg3 : Memref sig .tc .vmem S1x48 .f32) (harg3 : arg3.IsWhole)
    (arg4 : Memref sig .tc .vmem S3x272x2048 .f32) (harg4 : arg4.IsWhole) (arg5 : Memref sig .tc .vmem S3x272x2048 .f32) (harg5 : arg5.IsWhole)
    (hc0 : ¬cond0_0 i) (fh0 : HbBuf0 (F := F) c hbM0_0) (fh1 : HbBuf0 (F := F) c hbM0_1) (xo : Vec F S1x48 .f32) :
    { L1 : List (View.Piece (Elt F) S1x48 .f32) //
      ∀ (W : Waits sig Unit) (K : PUnit → sProp 𝕄),
        iprop(owns (c : Thread nD τ) arg3 fullShare xo ∗ (∃ d, owns (c : Thread nD τ) arg4 fullShare d) ∗ (∃ d, owns (c : Thread nD τ) arg5 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) arg4 fullShare d) ∗ (∃ d, owns (c : Thread nD τ) arg5 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 arg4 harg4 arg5 harg5 cc0_scratch2 cc0_scratch3) K } := by
  refine ⟨?_, fun W K => ?run⟩
  case run =>
    unfold owns
    iintro ⟨⟨%f1, %hf1, H1⟩, ⟨%ds0, %fs0, -, HS0⟩, ⟨%ds1, %fs1, -, HS1⟩, Hq0, Hq1, Hh0, Hh1, HW, Hk⟩
    obtain rfl := harg3.eq_unread hf1
    sl_exec_parts (disch := first | exact hc0)
    sl_step
    iapply Hk
    isplitl [H1]; · iexists _; iexact H1
    isplitl [HS0]
    · iexists _, _; isplitr; swap; · iexact HS0
      ipureintro; rfl
    isplitl [HS1]
    · iexists _, _; isplitr; swap; · iexact HS1
      ipureintro; rfl
    isplitl [Hq0]; · iexact Hq0
    isplitl [Hq1]; · iexact Hq1
    isplitl [Hh0]; · iexact Hh0
    isplitl [Hh1]; · iexact Hh1
    iexists _; iexact HW

noncomputable def kernelRun0_B (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) :
    { L1 : List (View.Piece (Elt F) S1x48 .f32) //
      ∀ (W : Waits sig Unit) (K : PUnit → sProp 𝕄),
        iprop(owns (c : Thread nD τ) arg3 fullShare xo ∗ (∃ d, owns (c : Thread nD τ) scM0_0 fullShare d) ∗ (∃ d, owns (c : Thread nD τ) scM0_1 fullShare d)
            ∗ semVal ((c : Thread nD τ), SemLoc.dma 1) 0 ∗ semVal ((c : Thread nD τ), SemLoc.dma 2) 0 ∗ hbPt0 c hbM0_0 fh0 ∗ hbPt0 c hbM0_1 fh1 ∗ owes (c : Thread nD τ) 0 W
            ∗ (iprop((∃ f, arg3.view.loc (c : Thread nD τ) ↦[arg3.view.set]{fullShare} arg3.view.writes (Elt F) f L1) ∗ (∃ d, owns (c : Thread nD τ) scM0_0 fullShare d) ∗ (∃ d, owns (c : Thread nD τ) scM0_1 fullShare d)
                ∗ semVal ((c : Thread nD τ), SemLoc.dma 1) 0 ∗ semVal ((c : Thread nD τ), SemLoc.dma 2) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ
              (cc0__smooth_kernel i hbM0_0 (Memref.isWhole_whole _) hbM0_1 (Memref.isWhole_whole _) arg3 harg3 scM0_0 (Memref.isWhole_whole _) scM0_1 (Memref.isWhole_whole _) cc0_scratch2 cc0_scratch3) K } :=
  kernelRunG0_B c i arg3 harg3 scM0_0 (Memref.isWhole_whole _) scM0_1 (Memref.isWhole_whole _) hc0 fh0 fh1 xo

end Cert.KernelIdeal.Hand
end
-- ==== Proof.KI.Pieces.lean ====
import proofs.«143054_j12300786336339_1_alg».proof.Proof.KI.RunB
import Idealize.ShloMosaic.Lib.Pipeline.Value

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

theorem hz48 : (![0, 0] : Fin 2 → Nat) = fun _ => 0 := funext fun a => by fin_cases a <;> rfl

def vec48 (c : Dev nD) (i : grid0.Coords) (fh0 : HbBuf0 (F := F) c hbM0_0) (fh1 : HbBuf0 (F := F) c hbM0_1) : FVec F S1x48 .f32 :=
  kernelRunG0_A.sl.r_158 c i scM0_0 scM0_1 fh0 fh1

theorem vec48_later (c : Dev nD) (i : grid0.Coords) (fh0 : HbBuf0 (F := F) c hbM0_0) (fh1 : HbBuf0 (F := F) c hbM0_1) :
    kernelRunG0_B.sl.r_158 c i scM0_0 scM0_1 fh0 fh1 = vec48 c i fh0 fh1 := by
  unfold vec48; sl_unfold_run_names; rfl

theorem piecesCover_A (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) (y : S1x48.Idx) :
    ∃ pc ∈ (kernelRun0_A c i arg3 harg3 hc0 fh0 fh1).1, y ∈ pc.1.set :=
  View.cover_of_tiledL (kernelRun0_A c i arg3 harg3 hc0 fh0 fh1).1 S1x48.size (by sl_kernel_rfl) y

theorem piecesCover_B (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) (y : S1x48.Idx) :
    ∃ pc ∈ (kernelRun0_B c i arg3 harg3 hc0 fh0 fh1 xo).1, y ∈ pc.1.set :=
  View.cover_of_tiledL (kernelRun0_B c i arg3 harg3 hc0 fh0 fh1 xo).1 S1x48.size (by sl_kernel_rfl) y

theorem pieces_A (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) :
    VO0_0.read (Elt F) (VO0_0.writes (Elt F) VO0_0.junk (kernelRun0_A c i arg3 harg3 hc0 fh0 fh1).1)
      = k0_pay1 (vec48 c i fh0 fh1) (k0_pay183 k0_pay2) := by
  rw [View.read_writes_eq_canon _ _ _ (piecesCover_A c i arg3 harg3 hc0 fh0 fh1)]
  unfold kernelRun0_A kernelRunG0_A
  dsimp only
  rw [View.canon_cons_unit_zero (S := S1x48) hz48]
  refine congrArg (k0_pay1 (vec48 c i fh0 fh1)) ?_
  sl_unfold_words
  rw [View.readCov_unit_zero (S := S1x48) _ hz48]

theorem pieces_B (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) :
    VO0_0.read (Elt F) (VO0_0.writes (Elt F) VO0_0.junk (kernelRun0_B c i arg3 harg3 hc0 fh0 fh1 xo).1)
      = k0_pay1 (vec48 c i fh0 fh1) (k0_pay183 xo) := by
  rw [View.read_writes_eq_canon _ _ _ (piecesCover_B c i arg3 harg3 hc0 fh0 fh1 xo)]
  unfold kernelRun0_B kernelRunG0_B
  dsimp only
  rw [View.canon_unit_zero hz48, vec48_later]
  refine congrArg (k0_pay1 (vec48 c i fh0 fh1)) ?_
  sl_unfold_words
  simp only [View.readAt_eq_ld, harg3.read_unread, View.ld_unit_zero (S := S1x48) hz48]

end Cert.KernelIdeal.Hand
end
-- ==== Proof.KI.Kit.lean ====
import proofs.«143054_j12300786336339_1_alg».proof.Proof.KI.Names

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

abbrev V0 (c : Dev nD) : Valuation τ sig (Elt F) := StableHlo.after (List.flatten [hostOps0, hostOps0_1, hostOps0_2, hostOps0_3]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; rfl
theorem hostOps0_3_fresh : (hostOps0_3 : List (HloOp τ sig (Elt F))).Forall fun op => op.fresh = ∅ := by
  simp only [List.Forall]; repeat' constructor

abbrev keep4 : List (Ref sig .tc) := [main_v8, main_v9, main_arg0, main_arg1]

abbrev keep5 : List (Ref sig .tc) := main_v10 :: keep4

theorem devRef_ne_of_mem {L : List (Ref sig .tc)} {r y : Ref sig .tc} (hr : r ∈ L) (hy : y ∉ L) :
    Proc.devRef (τ := τ) .tc r ≠ Proc.devRef .tc y := fun e => hy (Proc.devRef_injective _ e ▸ hr)

structure Away (op : HloOp τ sig (Elt F)) : Prop where
  fresh : op.fresh = ∅
  bufs : ∀ r ∈ keep4, Proc.devRef .tc r ∉ op.bufs
  writes : Proc.devRef .tc main_v10 ∉ op.writes

theorem Away.nullary {y : Ref sig .tc} {v : y.ty.Contents (Elt F)} {hy} (h : y ∉ keep5) :
    Away (StableHlo.nullary (τ := τ) y v hy) where
  fresh := rfl
  bufs r hr := by
    rw [StableHlo.nullary_bufs, Finset.mem_singleton]
    exact devRef_ne_of_mem hr fun h4 => h (List.mem_cons_of_mem _ h4)
  writes := by
    rw [StableHlo.nullary_writes, Finset.mem_singleton]
    exact StableHlo.devRef_ne_of_ne fun e => h (by subst e; exact List.mem_cons_self)

theorem Away.unary {x y : Ref sig .tc} {f : x.ty.Contents (Elt F) → y.ty.Contents (Elt F)} {hx hy} (h₁ : x ∉ keep4) (h : y ∉ keep5) :
    Away (StableHlo.unary (τ := τ) x y f hx hy) where
  fresh := rfl
  bufs r hr := by
    rw [StableHlo.unary_bufs, Finset.mem_insert, Finset.mem_singleton, not_or]
    exact ⟨devRef_ne_of_mem hr h₁, devRef_ne_of_mem hr fun h4 => h (List.mem_cons_of_mem _ h4)⟩
  writes := by
    rw [StableHlo.unary_writes, Finset.mem_singleton]
    exact StableHlo.devRef_ne_of_ne fun e => h (by subst e; exact List.mem_cons_self)

theorem Away.reshape {x y : Ref sig .tc} {he hn hx hy} (h₁ : x ∉ keep4) (h : y ∉ keep5) :
    Away (StableHlo.reshape (τ := τ) (Val := Elt F) x y he hn hx hy) where
  fresh := rfl
  bufs r hr := by
    rw [StableHlo.reshape_bufs, Finset.mem_insert, Finset.mem_singleton, not_or]
    exact ⟨devRef_ne_of_mem hr h₁, devRef_ne_of_mem hr fun h4 => h (List.mem_cons_of_mem _ h4)⟩
  writes := by
    rw [StableHlo.reshape_writes, Finset.mem_singleton]
    exact StableHlo.devRef_ne_of_ne fun e => h (by subst e; exact List.mem_cons_self)

theorem Away.binary {a b y : Ref sig .tc} {f : a.ty.Contents (Elt F) → b.ty.Contents (Elt F) → y.ty.Contents (Elt F)} {ha hb hy}
    (h₁ : a ∉ keep4) (h₂ : b ∉ keep4) (h : y ∉ keep5) :
    Away (StableHlo.binary (τ := τ) a b y f ha hb hy) where
  fresh := rfl
  bufs r hr := by
    rw [StableHlo.binary_bufs, Finset.mem_insert, Finset.mem_insert, Finset.mem_singleton, not_or, not_or]
    exact ⟨devRef_ne_of_mem hr h₁, devRef_ne_of_mem hr h₂, devRef_ne_of_mem hr fun h4 => h (List.mem_cons_of_mem _ h4)⟩
  writes := by
    rw [StableHlo.binary_writes, Finset.mem_singleton]
    exact StableHlo.devRef_ne_of_ne fun e => h (by subst e; exact List.mem_cons_self)

set_option maxHeartbeats 40000000 in
theorem hostOps1_away : (hostOps1 : List (HloOp τ sig (Elt F))).Forall Away := by
  repeat' first
    | exact .reshape (by decide) (by decide) | exact .unary (by decide) (by decide) | exact .nullary (by decide)
    | exact .binary (by decide) (by decide) (by decide) | refine ⟨?_, ?_⟩

theorem away_of_mem {op : HloOp τ sig (Elt F)} (hop : op ∈ (hostOps1 : List (HloOp τ sig (Elt F)))) : Away op :=
  (List.forall_iff_forall_mem.mp hostOps1_away) op hop

theorem H0_keep4 : ∀ b ∈ H0, b ∈ keep4 := by decide
theorem arrRef0_eq : ∀ w, Pipeline.arrRef spec0 w = main_v10 := by decide

theorem pre_sub : ([hostOps0, hostOps0_1, hostOps0_2, hostOps0_3] : List (List (HloOp τ sig (Elt F)))).Forall fun ops => ops.Forall fun op => op.bufs ⊆ StableHlo.tcRefs τ sig :=
  ⟨hostOps0_sub, hostOps0_1_sub, hostOps0_2_sub, hostOps0_3_sub⟩
theorem pre_fresh : ([hostOps0, hostOps0_1, hostOps0_2, hostOps0_3] : List (List (HloOp τ sig (Elt F)))).Forall fun ops => ops.Forall fun op => op.fresh = ∅ :=
  ⟨hostOps0_fresh, hostOps0_1_fresh, hostOps0_2_fresh, hostOps0_3_fresh⟩

theorem main_chain' (c : Dev nD) : main (F := F) c = Pipeline.chain (([hostOps0, hostOps0_1, hostOps0_2, hostOps0_3] : List (List (HloOp τ sig (Elt F)))).map StableHlo.seq
    ++ [Prog.lift (.customCall (Pipeline.entry 0) ())] ++ ([hostOps1] : List (List (HloOp τ sig (Elt F)))).map StableHlo.seq) :=
  main_chain c

set_option maxRecDepth 400000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1] pre_sub pre_fresh main_chain'

theorem sfx_sub : ∀ ops ∈ ([hostOps1] : List (List (HloOp τ sig (Elt F)))), ∀ op ∈ ops,
    op.bufs ⊆ Pipeline.tailRefsBut sig Pipeline.Prefetch.none spec0 H0 := by
  intro ops hops op hop
  rw [List.mem_singleton] at hops
  subst hops
  exact Pipeline.sub_tailRefsBut Pipeline.Prefetch.none spec0 H0 op ((List.forall_iff_forall_mem.mp hostOps1_sub) op hop)
    (fun k => k.elim0) (fun b hb => (away_of_mem hop).bufs b (H0_keep4 b hb))

theorem sfx_fresh : ∀ ops ∈ ([hostOps1] : List (List (HloOp τ sig (Elt F)))), ∀ op ∈ ops, op.fresh = ∅ := by
  intro ops hops op hop
  rw [List.mem_singleton] at hops
  subst hops
  exact (away_of_mem hop).fresh

theorem sfx_keeps : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  rw [arrRef0_eq w]
  exact (away_of_mem hop).writes

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, StableHlo.TRef.unary, StableHlo.TRef.binary, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

theorem W_keep (dats : (p : Fin 1) → (c : Dev nD) → Dat τ (Elt F) Unit ℕ (Pipeline.UD sig nD τ) ℕ (cfgs p) c) (c : Dev nD)
    (b : Ref sig .tc) (hb : b ∈ keep4) :
    Pipeline.afterTail₀ cfgs dats 0 (V0 m) [hostOps1] c b = V m c b := by
  unfold Pipeline.afterTail₀
  have hnot : ∀ op ∈ ([hostOps1] : List (List (HloOp τ sig (Elt F)))).flatten, Proc.devRef .tc b ∉ op.writes := by
    intro op hop hw
    rw [List.flatten_cons, List.flatten_nil, List.append_nil] at hop
    exact (away_of_mem hop).bufs b hb (op.writes_sub hw)
  have hne : ∀ w, Pipeline.arrRef spec0 w ≠ b := fun w e => by
    rw [arrRef0_eq w] at e; subst e; exact absurd hb (by decide)
  rw [StableHlo.after_of_forall_not_mem _ _ hnot, Pipeline.withArrays_of_ne _ c (V0 m c) _ b hne]
theorem W_main_arg0 (dats : (p : Fin 1) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) :=
  (W_keep m dats c main_arg0 (by decide)).trans (V_main_arg0 m c)
theorem W_main_arg1 (dats : (p : Fin 1) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) :=
  (W_keep m dats c main_arg1 (by decide)).trans (V_main_arg1 m c)

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0) := by
  rw [Pipeline.ownSems0_eq_of_list c osem0 [0, 1] (by decide) (by decide)]; rfl

theorem hbmPts0_eq (c : Dev nD) :
    (bigSep H0 (fun b => ((c : Thread nD τ).loc b) ↦{fullShare} V m c b) : sProp 𝕄)
      = iprop(hbPt0 c hbM0_0 (V m c main_v8) ∗ hbPt0 c hbM0_1 (V m c main_v9)) := by
  rw [BI.bigSep_eq_bigSepL_of_eq [main_v8, main_v9] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r)
          ∗ iprop(semVal ((c : Thread nD τ), SemLoc.dma 1) 0 ∗ semVal ((c : Thread nD τ), SemLoc.dma 2) 0)
          ∗ iprop(hbPt0 c hbM0_0 (V m c main_v8) ∗ hbPt0 c hbM0_1 (V m c main_v9))) := by
  rw [Pipeline.ΦD_eq, scopedRest0_eq, ownSems00_eq, hbmPts0_eq]; simp only [scM0_0, scM0_1, owns_whole]; try rfl

theorem frame_of (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.KernelIdeal.Hand
end
-- ==== Proof.Spec.lean ====
import Idealize.ShloMosaic.PureOps.Ideal
import Idealize.ShloMosaic.Lib.ValueIdx

noncomputable section

namespace Smooth

open Idealize.ShloMosaic

/-- an image: channel, row, column ↦ value, on all of ℕ (zero outside the array it comes from) -/
abbrev Img := ℕ → ℕ → ℕ → EReal

def sigma : EReal := Ideal.ofBits .f32 0xBBA3D70A#32

/-- the squared distance of two pixels, summed over the three channels -/
def sqd (Y : Img) (y x y' x' : ℕ) : EReal :=
  ∑ c : Fin 3, (Y c y x - Y c y' x') * (Y c y x - Y c y' x')

/-- the absolute difference of two pixels, summed over the channels (|u| as max u (−u)) -/
def abd (O : Img) (y x y' x' : ℕ) : EReal :=
  ∑ c : Fin 3, max (O c y x - O c y' x') (-(O c y x - O c y' x'))

/-- the weights of one displacement: over the h × w pixel pairs ((y + ay, x + ax), (y + by', x + bx)) -/
def sumW (Y : Img) (ay ax by' bx h w : ℕ) : EReal :=
  ∑ y : Fin h, ∑ x : Fin w, Ideal.exp (sqd Y (y + ay) (x + ax) (y + by') (x + bx) * sigma)

/-- the absolute differences of one displacement, over the same pairs -/
def sumN (O : Img) (ay ax by' bx h w : ℕ) : EReal :=
  ∑ y : Fin h, ∑ x : Fin w, abd O (y + ay) (x + ax) (y + by') (x + bx)

/-- one displacement's term: the two sums, each divided by its count, multiplied -/
def term (Y O : Img) (ay ax by' bx h w : ℕ) (cw cn : EReal) : EReal :=
  Ideal.div (sumW Y ay ax by' bx h w) cw * Ideal.div (sumN O ay ax by' bx h w) cn

/-- the image with eight zero rows above and below -/
def padded (Y : Img) : Img := fun c y x => if 8 ≤ y ∧ y < 1544 then Y c (y - 8) x else 0

/-- 1 when row 256 t + r and its partner row, ey − 8 rows below, both lie in the image, else 0 -/
def maskv (t r ey : ℕ) : EReal :=
  if 256 * t + r < 1536 ∧ 8 ≤ 256 * t + r + ey ∧ 256 * t + r + ey < 1544 then 1 else 0

def shiftRows (Y : Img) (k : ℕ) : Img := fun c y x => Y c (y + k) x

/-- a 272-row block's masked weight sum: its rows 8.. against its rows ey.. -/
def kWb (B : Img) (t ey ax bx w : ℕ) : EReal :=
  ∑ r : Fin 256, ∑ x : Fin w,
    Ideal.exp (sqd B (r + 8) (x + ax) (r + ey) (x + bx) * sigma) * maskv t r ey

/-- a block's masked sum of absolute differences -/
def kNb (B : Img) (t ey ax bx w : ℕ) : EReal :=
  ∑ r : Fin 256, ∑ x : Fin w, abd B (r + 8) (x + ax) (r + ey) (x + bx) * maskv t r ey

/-- block t of a padded image: its rows from 256 t on -/
def kW (Yp : Img) (t ey ax bx w : ℕ) : EReal := kWb (shiftRows Yp (256 * t)) t ey ax bx w

def kN (Op : Img) (t ey ax bx w : ℕ) : EReal := kNb (shiftRows Op (256 * t)) t ey ax bx w

/-- six points' shares added from zero, in order -/
def acc6 (f : ℕ → EReal) : EReal := (((((0 + f 0) + f 1) + f 2) + f 3) + f 4) + f 5

/-- arrays read as images -/
def img4 (a : (⟨4, ![1, 3, 1536, 2048]⟩ : Shape).Idx → EReal) : Img := fun c y x =>
  if h : c < 3 ∧ y < 1536 ∧ x < 2048 then a (ValueIdx.ix4 (0 : Fin 1) ⟨c, h.1⟩ ⟨y, h.2.1⟩ ⟨x, h.2.2⟩) else 0

def img3p (a : (⟨3, ![3, 1552, 2048]⟩ : Shape).Idx → EReal) : Img := fun c y x =>
  if h : c < 3 ∧ y < 1552 ∧ x < 2048 then a (ValueIdx.ix3 ⟨c, h.1⟩ ⟨y, h.2.1⟩ ⟨x, h.2.2⟩) else 0

def img3b (a : (⟨3, ![3, 272, 2048]⟩ : Shape).Idx → EReal) : Img := fun c y x =>
  if h : c < 3 ∧ y < 272 ∧ x < 2048 then a (ValueIdx.ix3 ⟨c, h.1⟩ ⟨y, h.2.1⟩ ⟨x, h.2.2⟩) else 0

end Smooth

end
-- ==== Proof.KI.Prefix.lean ====
import proofs.«143054_j12300786336339_1_alg».proof.Proof.KI.Names
import proofs.«143054_j12300786336339_1_alg».proof.Proof.Spec
import Idealize.ShloMosaic.Lib.Pipeline.Value
import Idealize.ShloMosaic.Lib.KernelVsHost
import Idealize.ShloMosaic.Lib.StableHlo.Run
import Idealize.ShloMosaic.Lib.ValueIdx

set_option maxRecDepth 16384
noncomputable section
namespace Cert.KernelIdeal.Hand
open Cert.KernelIdeal Cert.KernelIdeal.Gen
open Idealize.ShloMosaic Idealize.ShloMosaic.TcCoe Idealize.ShloMosaic.Tactic
open Idealize.ShloMosaic.ValueIdx

theorem img3p_pad (a : (⟨4, ![1, 3, 1536, 2048]⟩ : Shape).Idx → EReal) (v : (⟨0, ![]⟩ : Shape).Idx → EReal)
    (hc : (⟨4, ![1, 3, 1536, 2048]⟩ : Shape).ShapeCasts ⟨3, ![3, 1536, 2048]⟩)
    (hp : (⟨3, ![3, 1536, 2048]⟩ : Shape).Pads ![0, 8, 0] ![0, 8, 0] ![0, 0, 0] ⟨3, ![3, 1552, 2048]⟩)
    (hu : 0 < (⟨0, ![]⟩ : Shape).numel) (hv : v ix0 = 0) :
    Smooth.img3p (pad ⟨3, ![3, 1552, 2048]⟩ ![0, 8, 0] ![0, 8, 0] ![0, 0, 0] (shapeCast ⟨3, ![3, 1536, 2048]⟩ a hc) v hp hu)
      = Smooth.padded (Smooth.img4 a) := by
  funext c y x
  unfold Smooth.img3p Smooth.padded Smooth.img4
  by_cases h : c < 3 ∧ y < 1552 ∧ x < 2048
  · rw [dif_pos h]
    by_cases hy : 8 ≤ y ∧ y < 1544
    · have h' : c < 3 ∧ y - 8 < 1536 ∧ x < 2048 := ⟨h.1, by omega, h.2.2⟩
      rw [if_pos hy, dif_pos h']
      refine (pad_apply_of_inside _ _ _ _ _ hp hu _ (ix3 ⟨c, h'.1⟩ ⟨y - 8, h'.2.1⟩ ⟨x, h'.2.2⟩) ?_).trans ?_
      · intro b
        match b with
        | ⟨0, _⟩ => show c = 0 + c * (0 + 1); omega
        | ⟨1, _⟩ => show y = 8 + (y - 8) * (0 + 1); omega
        | ⟨2, _⟩ => show x = 0 + x * (0 + 1); omega
      · exact shapeCast_apply _ _ _ (ix4 (0 : Fin 1) ⟨c, h'.1⟩ ⟨y - 8, h'.2.1⟩ ⟨x, h'.2.2⟩)
          (by rw [Shape.rowMajor_val_four, Shape.rowMajor_val_three]
              show ((0 * 3 + c) * 1536 + (y - 8)) * 2048 + x = (c * 1536 + (y - 8)) * 2048 + x
              omega)
    · rw [if_neg hy]
      refine (pad_apply_of_not_inside _ _ _ _ _ hp hu _ ⟨1, by decide⟩ ?_).trans ?_
      · show ¬(8 ≤ y ∧ (y - 8) % (0 + 1) = 0 ∧ (y - 8) / (0 + 1) < 1536)
        omega
      · rw [show Shape.Idx.first hu = ix0 from eq_ix0 _]; exact hv
  · rw [dif_neg h]
    by_cases hy : 8 ≤ y ∧ y < 1544
    · rw [if_pos hy, dif_neg (by omega)]
    · rw [if_neg hy]

theorem sitofp_zero_vec : (sitofp (F := Ideal) .f32 (constantI (⟨0, ![]⟩ : Shape) 32 0#32) : (⟨0, ![]⟩ : Shape).Idx → EReal) ix0 = 0 := by
  show ((((0#32 : BitVec 32).toInt : ℤ) : ℝ) : EReal) = 0
  simp

def yccK (a0 : S1x3x1536x2048.Idx → EReal) : S1x3x1536x2048.Idx → EReal :=
  shapeCast S1x3x1536x2048
    (addf (F := Ideal) (φ := .f32)
      (Host.dotGeneral (F := Ideal) (φ₁ := .f32) (φ₂ := .f32) dot_S3145728x3_S3x3_S3145728x3_1_0_0_1_n_n none
        (shapeCast S3145728x3 a0 shapeCasts_S1x3x1536x2048_S3145728x3)
        (fun i => FloatOps.ofBits (F := Ideal) .f32 (lit0 (S3x3.rowMajor i))))
      (broadcastInDim S3145728x3 ![0, 1] bcast_S1x3_S3145728x3_0_1
        (broadcastInDim S1x3 ![1] bcast_S3_S1x3_1 (fun i => FloatOps.ofBits (F := Ideal) .f32 (lit1 (S3.rowMajor i))))))
    shapeCasts_S3145728x3_S1x3x1536x2048

set_option maxHeartbeats 400000 in
theorem after_v8 (Wv : Valuation τ sig (Elt Ideal)) :
    (StableHlo.after (List.flatten [hostOps0, hostOps0_1, hostOps0_2, hostOps0_3]) Wv (Proc.devRef .tc main_v8) : S3x1552x2048.Idx → EReal)
      = pad S3x1552x2048 ![0, 8, 0] ![0, 8, 0] ![0, 0, 0]
          (shapeCast S3x1536x2048 (yccK (Wv (Proc.devRef .tc main_arg0))) shapeCasts_S1x3x1536x2048_S3x1536x2048)
          (sitofp (F := Ideal) .f32 (constantI S_ 32 0#32)) pads_S3x1536x2048_S3x1552x2048_000_880_000 h_S_ := by
  simp only [hostOps0, hostOps0_1, hostOps0_2, hostOps0_3, List.flatten_cons, List.flatten_nil, List.append_nil, List.cons_append, List.nil_append]
  after_results
  all_goals (try simp only [StableHlo.TRef.ofBuf, StableHlo.TRef.toBuf, cast_eq])
  all_goals rfl

set_option maxHeartbeats 400000 in
theorem after_v9 (Wv : Valuation τ sig (Elt Ideal)) :
    (StableHlo.after (List.flatten [hostOps0, hostOps0_1, hostOps0_2, hostOps0_3]) Wv (Proc.devRef .tc main_v9) : S3x1552x2048.Idx → EReal)
      = pad S3x1552x2048 ![0, 8, 0] ![0, 8, 0] ![0, 0, 0]
          (shapeCast S3x1536x2048 (Wv (Proc.devRef .tc main_arg1) : S1x3x1536x2048.Idx → EReal) shapeCasts_S1x3x1536x2048_S3x1536x2048)
          (sitofp (F := Ideal) .f32 (constantI S_ 32 0#32)) pads_S3x1536x2048_S3x1552x2048_000_880_000 h_S_ := by
  simp only [hostOps0, hostOps0_1, hostOps0_2, hostOps0_3, List.flatten_cons, List.flatten_nil, List.append_nil, List.cons_append, List.nil_append]
  after_results
  all_goals (try simp only [StableHlo.TRef.ofBuf, StableHlo.TRef.toBuf, cast_eq])
  all_goals rfl

theorem prefix_v8 (Wv : Valuation τ sig (Elt Ideal)) :
    Smooth.img3p (StableHlo.after (List.flatten [hostOps0, hostOps0_1, hostOps0_2, hostOps0_3]) Wv (Proc.devRef .tc main_v8) : S3x1552x2048.Idx → EReal)
      = Smooth.padded (Smooth.img4 (yccK (Wv (Proc.devRef .tc main_arg0)))) := by
  rw [after_v8]; exact img3p_pad _ _ _ _ _ sitofp_zero_vec

theorem prefix_v9 (Wv : Valuation τ sig (Elt Ideal)) :
    Smooth.img3p (StableHlo.after (List.flatten [hostOps0, hostOps0_1, hostOps0_2, hostOps0_3]) Wv (Proc.devRef .tc main_v9) : S3x1552x2048.Idx → EReal)
      = Smooth.padded (Smooth.img4 (Wv (Proc.devRef .tc main_arg1) : S1x3x1536x2048.Idx → EReal)) := by
  rw [after_v9]; exact img3p_pad _ _ _ _ _ sitofp_zero_vec

theorem k0_off1_row (i : grid0.Coords) : k0_off1 i ⟨1, by decide⟩ = 256 * (i 0).val := by
  have h : ∀ k : Fin 6, (Scalar.muli (BitVec.ofNat 32 k.val) 256#32).toNat = 256 * k.val := by decide
  exact h (i 0)

theorem block_rows0 (c : Dev nD) (i : grid0.Coords) (fh : HbBuf0 (F := Ideal) c hbM0_0) (ch : Fin 3) (r : Fin 272) (x : Fin 2048) :
    View.read (Elt Ideal) (hbM0_0.slice (Rect.unit (s := S3x1552x2048) (k0_off1 i) S3x272x2048.size (k0_off1_inb i)) (fun _ => rfl)).view fh (ix3 ch r x)
      = (fh : S3x1552x2048.Idx → EReal) (ix3 ch ⟨256 * (i 0).val + r.val, by have hi : (i 0).val < 6 := (i 0).isLt; have := r.isLt; show _ < 1552; omega⟩ x) := by
  show (fh : S3x1552x2048.Idx → EReal) ((Rect.unit (s := S3x1552x2048) (k0_off1 i) S3x272x2048.size (k0_off1_inb i)).emb (ix3 ch r x)) = _
  refine congrArg _ (funext fun a => Fin.ext ?_)
  match a with
  | ⟨0, _⟩ => show 0 + 1 * ch.val = ch.val; omega
  | ⟨1, _⟩ => show k0_off1 i ⟨1, by decide⟩ + 1 * r.val = 256 * (i 0).val + r.val; rw [k0_off1_row]; omega
  | ⟨2, _⟩ => show 0 + 1 * x.val = x.val; omega

theorem block_rows1 (c : Dev nD) (i : grid0.Coords) (fh : HbBuf0 (F := Ideal) c hbM0_1) (ch : Fin 3) (r : Fin 272) (x : Fin 2048) :
    View.read (Elt Ideal) (hbM0_1.slice (Rect.unit (s := S3x1552x2048) (k0_off1 i) S3x272x2048.size (k0_off1_inb i)) (fun _ => rfl)).view fh (ix3 ch r x)
      = (fh : S3x1552x2048.Idx → EReal) (ix3 ch ⟨256 * (i 0).val + r.val, by have hi : (i 0).val < 6 := (i 0).isLt; have := r.isLt; show _ < 1552; omega⟩ x) := by
  show (fh : S3x1552x2048.Idx → EReal) ((Rect.unit (s := S3x1552x2048) (k0_off1 i) S3x272x2048.size (k0_off1_inb i)).emb (ix3 ch r x)) = _
  refine congrArg _ (funext fun a => Fin.ext ?_)
  match a with
  | ⟨0, _⟩ => show 0 + 1 * ch.val = ch.val; omega
  | ⟨1, _⟩ => show k0_off1 i ⟨1, by decide⟩ + 1 * r.val = 256 * (i 0).val + r.val; rw [k0_off1_row]; omega
  | ⟨2, _⟩ => show 0 + 1 * x.val = x.val; omega

theorem block_img0 (c : Dev nD) (i : grid0.Coords) (fh : HbBuf0 (F := Ideal) c hbM0_0) (ch y x : ℕ) (hy : y < 272) :
    Smooth.img3b (View.read (Elt Ideal) (hbM0_0.slice (Rect.unit (s := S3x1552x2048) (k0_off1 i) S3x272x2048.size (k0_off1_inb i)) (fun _ => rfl)).view fh) ch y x
      = Smooth.shiftRows (Smooth.img3p (fh : S3x1552x2048.Idx → EReal)) (256 * (i 0).val) ch y x := by
  have hi : (i 0).val < 6 := (i 0).isLt
  unfold Smooth.img3b Smooth.shiftRows Smooth.img3p
  by_cases h : ch < 3 ∧ y < 272 ∧ x < 2048
  · have h' : ch < 3 ∧ y + 256 * (i 0).val < 1552 ∧ x < 2048 := ⟨h.1, by omega, h.2.2⟩
    rw [dif_pos h, dif_pos h', block_rows0]
    exact congrArg _ (funext fun a => Fin.ext (by
      match a with
      | ⟨0, _⟩ => rfl
      | ⟨1, _⟩ => show 256 * (i 0).val + y = y + 256 * (i 0).val; omega
      | ⟨2, _⟩ => rfl))
  · rw [dif_neg h, dif_neg (by omega)]

theorem block_img1 (c : Dev nD) (i : grid0.Coords) (fh : HbBuf0 (F := Ideal) c hbM0_1) (ch y x : ℕ) (hy : y < 272) :
    Smooth.img3b (View.read (Elt Ideal) (hbM0_1.slice (Rect.unit (s := S3x1552x2048) (k0_off1 i) S3x272x2048.size (k0_off1_inb i)) (fun _ => rfl)).view fh) ch y x
      = Smooth.shiftRows (Smooth.img3p (fh : S3x1552x2048.Idx → EReal)) (256 * (i 0).val) ch y x := by
  have hi : (i 0).val < 6 := (i 0).isLt
  unfold Smooth.img3b Smooth.shiftRows Smooth.img3p
  by_cases h : ch < 3 ∧ y < 272 ∧ x < 2048
  · have h' : ch < 3 ∧ y + 256 * (i 0).val < 1552 ∧ x < 2048 := ⟨h.1, by omega, h.2.2⟩
    rw [dif_pos h, dif_pos h', block_rows1]
    exact congrArg _ (funext fun a => Fin.ext (by
      match a with
      | ⟨0, _⟩ => rfl
      | ⟨1, _⟩ => show 256 * (i 0).val + y = y + 256 * (i 0).val; omega
      | ⟨2, _⟩ => rfl))
  · rw [dif_neg h, dif_neg (by omega)]

end Cert.KernelIdeal.Hand
end
-- ==== Proof.KI.Entries.lean ====
import proofs.«143054_j12300786336339_1_alg».proof.Proof.Gen.KernelIdeal.Skeleton

set_option maxRecDepth 16384
noncomputable section
namespace Cert.KernelIdeal.Hand
open Cert.KernelIdeal Cert.KernelIdeal.Gen
open Idealize.ShloMosaic Idealize.SL.Sem
variable {F : FTy → Type} [FloatOps F]

abbrev S2w (w : ℕ) : Shape := ⟨2, ![256, w]⟩
abbrev S3w (w : ℕ) : Shape := ⟨3, ![1, 256, w]⟩

def nfMask (y : IVec S256x1 32) (dyw : BitVec 32) : FVec F S256x1 .f32 :=
  sitofp .f32 (extui 32
    (andi (andi (cmpi .slt y (broadcast S256x1 1536#32))
                (cmpi .sge (addi y (broadcast S256x1 dyw)) (broadcast S256x1 0#32)))
          (cmpi .slt (addi y (broadcast S256x1 dyw)) (broadcast S256x1 1536#32))) natLt_1_32)

def nfRed (w : ℕ) (hc' : (S2w w).ShapeCasts (S3w w)) (hr : (S3w w).Reduces [1, 2] S1)
    (x : FVec F (S2w w) .f32) : FVec F S1x1 .f32 :=
  broadcast S1x1 (extractAt ![0, 0, 0]
    (shapeCast S1x1x1 (multiReduction .add [1, 2] S1 (shapeCast (S3w w) x hc') 0x00000000#32 hr (.inl rfl) rfl)
      shapeCasts_S1_S1x1x1) inpos_S1x1x1_p0_0_0)

def nfW (w : ℕ) (hc : (S3w w).ShapeCasts (S2w w)) (hc' : (S2w w).ShapeCasts (S3w w))
    (hb : S256x1.Broadcasts (S2w w)) (hr : (S3w w).Reduces [1, 2] S1) (mask : FVec F S256x1 .f32)
    (a0 b0 a1 b1 a2 b2 : Vec F (S3w w) .f32) : FVec F S1x1 .f32 :=
  nfRed w hc' hr
    (mulf (exp (mulf
      (addf (addf (addf (broadcast (S2w w) (Scalar.ofBits .f32 0x00000000#32))
        (mulf (subf (shapeCast (S2w w) a0 hc) (shapeCast (S2w w) b0 hc)) (subf (shapeCast (S2w w) a0 hc) (shapeCast (S2w w) b0 hc))))
        (mulf (subf (shapeCast (S2w w) a1 hc) (shapeCast (S2w w) b1 hc)) (subf (shapeCast (S2w w) a1 hc) (shapeCast (S2w w) b1 hc))))
        (mulf (subf (shapeCast (S2w w) a2 hc) (shapeCast (S2w w) b2 hc)) (subf (shapeCast (S2w w) a2 hc) (shapeCast (S2w w) b2 hc))))
      (broadcast (S2w w) (Scalar.ofBits .f32 0xBBA3D70A#32))))
      (broadcastTo (S2w w) mask hb))

def nfN (w : ℕ) (hc : (S3w w).ShapeCasts (S2w w)) (hc' : (S2w w).ShapeCasts (S3w w))
    (hb : S256x1.Broadcasts (S2w w)) (hr : (S3w w).Reduces [1, 2] S1) (mask : FVec F S256x1 .f32)
    (a0 b0 a1 b1 a2 b2 : Vec F (S3w w) .f32) : FVec F S1x1 .f32 :=
  nfRed w hc' hr
    (mulf
      (addf (addf (addf (broadcast (S2w w) (Scalar.ofBits .f32 0x00000000#32))
        (absf (subf (shapeCast (S2w w) a0 hc) (shapeCast (S2w w) b0 hc))))
        (absf (subf (shapeCast (S2w w) a1 hc) (shapeCast (S2w w) b1 hc))))
        (absf (subf (shapeCast (S2w w) a2 hc) (shapeCast (S2w w) b2 hc))))
      (broadcastTo (S2w w) mask hb))

def entryW_0 (i : grid0.Coords) (v29 v31 v43 v45 v57 v59 : Vec F S1x256x2046 .f32) : FVec F S1x1 .f32 :=
  k0_pay10 (k0_pay4 i) (k0_pay9 k0_pay5 (k0_pay7 v29) v31 v43 v45 v57 v59)
def entryN_0 (i : grid0.Coords) (v36 v38 v50 v52 v64 v66 : Vec F S1x256x2046 .f32) : FVec F S1x1 .f32 :=
  k0_pay11 (k0_pay4 i) (k0_pay8 k0_pay6 v36 v38 v50 v52) v64 v66

theorem entryW_0_nf (i : grid0.Coords) (v29 v31 v43 v45 v57 v59 : Vec F S1x256x2046 .f32) :
    entryW_0 i v29 v31 v43 v45 v57 v59 =
      nfW 2046 shapeCasts_S1x256x2046_S256x2046 shapeCasts_S256x2046_S1x256x2046 broadcasts_S256x1_S256x2046
        reduces_S1x256x2046_S1 (nfMask (k0_pay3 i) 4294967294#32) v29 v31 v43 v45 v57 v59 := by
  unfold entryW_0 k0_pay10 k0_pay9 k0_pay7 k0_pay5 k0_pay4 nfW nfRed nfMask
  rfl
theorem entryN_0_nf (i : grid0.Coords) (v36 v38 v50 v52 v64 v66 : Vec F S1x256x2046 .f32) :
    entryN_0 i v36 v38 v50 v52 v64 v66 =
      nfN 2046 shapeCasts_S1x256x2046_S256x2046 shapeCasts_S256x2046_S1x256x2046 broadcasts_S256x1_S256x2046
        reduces_S1x256x2046_S1 (nfMask (k0_pay3 i) 4294967294#32) v36 v38 v50 v52 v64 v66 := by
  unfold entryN_0 k0_pay11 k0_pay8 k0_pay6 k0_pay4 nfN nfRed nfMask
  rfl

def entryW_1 (i : grid0.Coords) (v104 v106 v118 v120 v132 v134 : Vec F S1x256x2047 .f32) : FVec F S1x1 .f32 :=
  k0_pay18 (k0_pay12 (k0_pay3 i)) (k0_pay17 k0_pay13 (k0_pay15 v104) v106 v118 v120 v132 v134)
def entryN_1 (i : grid0.Coords) (v111 v113 v125 v127 v139 v141 : Vec F S1x256x2047 .f32) : FVec F S1x1 .f32 :=
  k0_pay19 (k0_pay12 (k0_pay3 i)) (k0_pay16 k0_pay14 v111 v113 v125 v127) v139 v141

theorem entryW_1_nf (i : grid0.Coords) (v104 v106 v118 v120 v132 v134 : Vec F S1x256x2047 .f32) :
    entryW_1 i v104 v106 v118 v120 v132 v134 =
      nfW 2047 shapeCasts_S1x256x2047_S256x2047 shapeCasts_S256x2047_S1x256x2047 broadcasts_S256x1_S256x2047
        reduces_S1x256x2047_S1 (nfMask (k0_pay3 i) 4294967294#32) v104 v106 v118 v120 v132 v134 := by
  unfold entryW_1 k0_pay18 k0_pay17 k0_pay15 k0_pay13 k0_pay12 nfW nfRed nfMask
  rfl
theorem entryN_1_nf (i : grid0.Coords) (v111 v113 v125 v127 v139 v141 : Vec F S1x256x2047 .f32) :
    entryN_1 i v111 v113 v125 v127 v139 v141 =
      nfN 2047 shapeCasts_S1x256x2047_S256x2047 shapeCasts_S256x2047_S1x256x2047 broadcasts_S256x1_S256x2047
        reduces_S1x256x2047_S1 (nfMask (k0_pay3 i) 4294967294#32) v111 v113 v125 v127 v139 v141 := by
  unfold entryN_1 k0_pay19 k0_pay16 k0_pay14 k0_pay12 nfN nfRed nfMask
  rfl

def entryW_2 (i : grid0.Coords) (v179 v181 v193 v195 v207 v209 : Vec F S1x256x2048 .f32) : FVec F S1x1 .f32 :=
  k0_pay26 (k0_pay20 (k0_pay3 i)) (k0_pay23 k0_pay21 v179 v181 v193 v195) (k0_pay25 v207 v209)
def entryN_2 (i : grid0.Coords) (v186 v188 v200 v202 v214 v216 : Vec F S1x256x2048 .f32) : FVec F S1x1 .f32 :=
  k0_pay27 (k0_pay20 (k0_pay3 i)) (k0_pay24 k0_pay22 v186 v188 v200 v202) v214 v216

theorem entryW_2_nf (i : grid0.Coords) (v179 v181 v193 v195 v207 v209 : Vec F S1x256x2048 .f32) :
    entryW_2 i v179 v181 v193 v195 v207 v209 =
      nfW 2048 shapeCasts_S1x256x2048_S256x2048 shapeCasts_S256x2048_S1x256x2048 broadcasts_S256x1_S256x2048
        reduces_S1x256x2048_S1 (nfMask (k0_pay3 i) 4294967294#32) v179 v181 v193 v195 v207 v209 := by
  unfold entryW_2 k0_pay26 k0_pay25 k0_pay23 k0_pay21 k0_pay20 nfW nfRed nfMask
  rfl
theorem entryN_2_nf (i : grid0.Coords) (v186 v188 v200 v202 v214 v216 : Vec F S1x256x2048 .f32) :
    entryN_2 i v186 v188 v200 v202 v214 v216 =
      nfN 2048 shapeCasts_S1x256x2048_S256x2048 shapeCasts_S256x2048_S1x256x2048 broadcasts_S256x1_S256x2048
        reduces_S1x256x2048_S1 (nfMask (k0_pay3 i) 4294967294#32) v186 v188 v200 v202 v214 v216 := by
  unfold entryN_2 k0_pay27 k0_pay24 k0_pay22 k0_pay20 nfN nfRed nfMask
  rfl

end Cert.KernelIdeal.Hand
end
-- ==== Proof.KI.Entries1.lean ====
import proofs.«143054_j12300786336339_1_alg».proof.Proof.KI.Entries

set_option maxRecDepth 16384
noncomputable section
namespace Cert.KernelIdeal.Hand
open Cert.KernelIdeal Cert.KernelIdeal.Gen
open Idealize.ShloMosaic Idealize.SL.Sem
variable {F : FTy → Type} [FloatOps F]

def entryW_3 (i : grid0.Coords) (v254 v256 v268 v270 v282 v284 : Vec F S1x256x2047 .f32) : FVec F S1x1 .f32 :=
  k0_pay34 (k0_pay28 (F := F) (k0_pay3 i)) (k0_pay31 (k0_pay29 (F := F)) v254 v256 v268 v270) (k0_pay33 v282 v284)
def entryN_3 (i : grid0.Coords) (v261 v263 v275 v277 v289 v291 : Vec F S1x256x2047 .f32) : FVec F S1x1 .f32 :=
  k0_pay35 (k0_pay28 (F := F) (k0_pay3 i)) (k0_pay32 (k0_pay30 (F := F)) v261 v263 v275 v277) v289 v291

theorem entryW_3_nf (i : grid0.Coords) (v254 v256 v268 v270 v282 v284 : Vec F S1x256x2047 .f32) :
    entryW_3 i v254 v256 v268 v270 v282 v284 =
      nfW 2047 shapeCasts_S1x256x2047_S256x2047 shapeCasts_S256x2047_S1x256x2047 broadcasts_S256x1_S256x2047
        reduces_S1x256x2047_S1 (nfMask (k0_pay3 i) 4294967294#32) v254 v256 v268 v270 v282 v284 := by
  unfold entryW_3 k0_pay34 k0_pay28 k0_pay31 k0_pay29 k0_pay33 nfW nfRed nfMask
  rfl
theorem entryN_3_nf (i : grid0.Coords) (v261 v263 v275 v277 v289 v291 : Vec F S1x256x2047 .f32) :
    entryN_3 i v261 v263 v275 v277 v289 v291 =
      nfN 2047 shapeCasts_S1x256x2047_S256x2047 shapeCasts_S256x2047_S1x256x2047 broadcasts_S256x1_S256x2047
        reduces_S1x256x2047_S1 (nfMask (k0_pay3 i) 4294967294#32) v261 v263 v275 v277 v289 v291 := by
  unfold entryN_3 k0_pay35 k0_pay28 k0_pay32 k0_pay30 nfN nfRed nfMask
  rfl

def entryW_4 (i : grid0.Coords) (v329 v331 v343 v345 v357 v359 : Vec F S1x256x2046 .f32) : FVec F S1x1 .f32 :=
  k0_pay43 (k0_pay36 (F := F) (k0_pay3 i)) (k0_pay39 (k0_pay37 (F := F)) v329 v331 v343 v345) (k0_pay41 v357) (k0_pay42 v359)
def entryN_4 (i : grid0.Coords) (v336 v338 v350 v352 v364 v366 : Vec F S1x256x2046 .f32) : FVec F S1x1 .f32 :=
  k0_pay44 (k0_pay36 (F := F) (k0_pay3 i)) (k0_pay40 (k0_pay38 (F := F)) v336 v338 v350 v352) v364 v366

theorem entryW_4_nf (i : grid0.Coords) (v329 v331 v343 v345 v357 v359 : Vec F S1x256x2046 .f32) :
    entryW_4 i v329 v331 v343 v345 v357 v359 =
      nfW 2046 shapeCasts_S1x256x2046_S256x2046 shapeCasts_S256x2046_S1x256x2046 broadcasts_S256x1_S256x2046
        reduces_S1x256x2046_S1 (nfMask (k0_pay3 i) 4294967294#32) v329 v331 v343 v345 v357 v359 := by
  unfold entryW_4 k0_pay43 k0_pay36 k0_pay39 k0_pay37 k0_pay41 k0_pay42 nfW nfRed nfMask
  rfl
theorem entryN_4_nf (i : grid0.Coords) (v336 v338 v350 v352 v364 v366 : Vec F S1x256x2046 .f32) :
    entryN_4 i v336 v338 v350 v352 v364 v366 =
      nfN 2046 shapeCasts_S1x256x2046_S256x2046 shapeCasts_S256x2046_S1x256x2046 broadcasts_S256x1_S256x2046
        reduces_S1x256x2046_S1 (nfMask (k0_pay3 i) 4294967294#32) v336 v338 v350 v352 v364 v366 := by
  unfold entryN_4 k0_pay44 k0_pay36 k0_pay40 k0_pay38 nfN nfRed nfMask
  rfl

def entryW_5 (i : grid0.Coords) (v404 v406 v418 v420 v432 v434 : Vec F S1x256x2046 .f32) : FVec F S1x1 .f32 :=
  k0_pay51 (k0_pay45 (F := F) (k0_pay3 i)) (k0_pay48 (k0_pay46 (F := F)) v404 v406 v418 v420) (k0_pay50 v432) v434
def entryN_5 (i : grid0.Coords) (v411 v413 v425 v427 v439 v441 : Vec F S1x256x2046 .f32) : FVec F S1x1 .f32 :=
  k0_pay52 (k0_pay45 (F := F) (k0_pay3 i)) (k0_pay49 (k0_pay47 (F := F)) v411 v413 v425 v427) v439 v441

theorem entryW_5_nf (i : grid0.Coords) (v404 v406 v418 v420 v432 v434 : Vec F S1x256x2046 .f32) :
    entryW_5 i v404 v406 v418 v420 v432 v434 =
      nfW 2046 shapeCasts_S1x256x2046_S256x2046 shapeCasts_S256x2046_S1x256x2046 broadcasts_S256x1_S256x2046
        reduces_S1x256x2046_S1 (nfMask (k0_pay3 i) 4294967295#32) v404 v406 v418 v420 v432 v434 := by
  unfold entryW_5 k0_pay51 k0_pay45 k0_pay48 k0_pay46 k0_pay50 nfW nfRed nfMask
  rfl
theorem entryN_5_nf (i : grid0.Coords) (v411 v413 v425 v427 v439 v441 : Vec F S1x256x2046 .f32) :
    entryN_5 i v411 v413 v425 v427 v439 v441 =
      nfN 2046 shapeCasts_S1x256x2046_S256x2046 shapeCasts_S256x2046_S1x256x2046 broadcasts_S256x1_S256x2046
        reduces_S1x256x2046_S1 (nfMask (k0_pay3 i) 4294967295#32) v411 v413 v425 v427 v439 v441 := by
  unfold entryN_5 k0_pay52 k0_pay45 k0_pay49 k0_pay47 nfN nfRed nfMask
  rfl

def entryW_6 (i : grid0.Coords) (v479 v481 v493 v495 v507 v509 : Vec F S1x256x2047 .f32) : FVec F S1x1 .f32 :=
  k0_pay59 (k0_pay53 (F := F) (k0_pay3 i)) (k0_pay56 (k0_pay54 (F := F)) v479 v481 v493 v495) (k0_pay58 v507) v509
def entryN_6 (i : grid0.Coords) (v486 v488 v500 v502 v514 v516 : Vec F S1x256x2047 .f32) : FVec F S1x1 .f32 :=
  k0_pay60 (k0_pay53 (F := F) (k0_pay3 i)) (k0_pay57 (k0_pay55 (F := F)) v486 v488 v500 v502) v514 v516

theorem entryW_6_nf (i : grid0.Coords) (v479 v481 v493 v495 v507 v509 : Vec F S1x256x2047 .f32) :
    entryW_6 i v479 v481 v493 v495 v507 v509 =
      nfW 2047 shapeCasts_S1x256x2047_S256x2047 shapeCasts_S256x2047_S1x256x2047 broadcasts_S256x1_S256x2047
        reduces_S1x256x2047_S1 (nfMask (k0_pay3 i) 4294967295#32) v479 v481 v493 v495 v507 v509 := by
  unfold entryW_6 k0_pay59 k0_pay53 k0_pay56 k0_pay54 k0_pay58 nfW nfRed nfMask
  rfl
theorem entryN_6_nf (i : grid0.Coords) (v486 v488 v500 v502 v514 v516 : Vec F S1x256x2047 .f32) :
    entryN_6 i v486 v488 v500 v502 v514 v516 =
      nfN 2047 shapeCasts_S1x256x2047_S256x2047 shapeCasts_S256x2047_S1x256x2047 broadcasts_S256x1_S256x2047
        reduces_S1x256x2047_S1 (nfMask (k0_pay3 i) 4294967295#32) v486 v488 v500 v502 v514 v516 := by
  unfold entryN_6 k0_pay60 k0_pay53 k0_pay57 k0_pay55 nfN nfRed nfMask
  rfl

def entryW_7 (i : grid0.Coords) (v554 v556 v568 v570 v582 v584 : Vec F S1x256x2048 .f32) : FVec F S1x1 .f32 :=
  k0_pay66 (k0_pay61 (F := F) (k0_pay3 i)) (k0_pay63 (k0_pay62 (F := F)) v554 v556 v568 v570) (k0_pay65 v582) v584
def entryN_7 (i : grid0.Coords) (v561 v563 v575 v577 v589 v591 : Vec F S1x256x2048 .f32) : FVec F S1x1 .f32 :=
  k0_pay67 (k0_pay61 (F := F) (k0_pay3 i)) (k0_pay64 (Scalar.ofBits .f32 0x00000000#32) v561 v563 v575 v577) v589 v591

theorem entryW_7_nf (i : grid0.Coords) (v554 v556 v568 v570 v582 v584 : Vec F S1x256x2048 .f32) :
    entryW_7 i v554 v556 v568 v570 v582 v584 =
      nfW 2048 shapeCasts_S1x256x2048_S256x2048 shapeCasts_S256x2048_S1x256x2048 broadcasts_S256x1_S256x2048
        reduces_S1x256x2048_S1 (nfMask (k0_pay3 i) 4294967295#32) v554 v556 v568 v570 v582 v584 := by
  unfold entryW_7 k0_pay66 k0_pay61 k0_pay63 k0_pay62 k0_pay65 nfW nfRed nfMask
  rfl
theorem entryN_7_nf (i : grid0.Coords) (v561 v563 v575 v577 v589 v591 : Vec F S1x256x2048 .f32) :
    entryN_7 i v561 v563 v575 v577 v589 v591 =
      nfN 2048 shapeCasts_S1x256x2048_S256x2048 shapeCasts_S256x2048_S1x256x2048 broadcasts_S256x1_S256x2048
        reduces_S1x256x2048_S1 (nfMask (k0_pay3 i) 4294967295#32) v561 v563 v575 v577 v589 v591 := by
  unfold entryN_7 k0_pay67 k0_pay61 k0_pay64 nfN nfRed nfMask
  rfl

def entryW_8 (i : grid0.Coords) (v629 v631 v643 v645 v657 v659 : Vec F S1x256x2047 .f32) : FVec F S1x1 .f32 :=
  k0_pay73 (k0_pay68 (F := F) (k0_pay3 i)) (k0_pay70 (k0_pay69 (F := F)) v629 v631 v643 v645) (k0_pay72 v657) v659
def entryN_8 (i : grid0.Coords) (v636 v638 v650 v652 v664 v666 : Vec F S1x256x2047 .f32) : FVec F S1x1 .f32 :=
  k0_pay74 (k0_pay68 (F := F) (k0_pay3 i)) (k0_pay71 v636 v638 v650 v652) v664 v666

theorem entryW_8_nf (i : grid0.Coords) (v629 v631 v643 v645 v657 v659 : Vec F S1x256x2047 .f32) :
    entryW_8 i v629 v631 v643 v645 v657 v659 =
      nfW 2047 shapeCasts_S1x256x2047_S256x2047 shapeCasts_S256x2047_S1x256x2047 broadcasts_S256x1_S256x2047
        reduces_S1x256x2047_S1 (nfMask (k0_pay3 i) 4294967295#32) v629 v631 v643 v645 v657 v659 := by
  unfold entryW_8 k0_pay73 k0_pay68 k0_pay70 k0_pay69 k0_pay72 nfW nfRed nfMask
  rfl
theorem entryN_8_nf (i : grid0.Coords) (v636 v638 v650 v652 v664 v666 : Vec F S1x256x2047 .f32) :
    entryN_8 i v636 v638 v650 v652 v664 v666 =
      nfN 2047 shapeCasts_S1x256x2047_S256x2047 shapeCasts_S256x2047_S1x256x2047 broadcasts_S256x1_S256x2047
        reduces_S1x256x2047_S1 (nfMask (k0_pay3 i) 4294967295#32) v636 v638 v650 v652 v664 v666 := by
  unfold entryN_8 k0_pay74 k0_pay68 k0_pay71 nfN nfRed nfMask
  rfl

def entryW_9 (i : grid0.Coords) (v704 v706 v718 v720 v732 v734 : Vec F S1x256x2046 .f32) : FVec F S1x1 .f32 :=
  k0_pay79 (k0_pay75 (F := F) (k0_pay3 i)) (k0_pay76 (Scalar.ofBits .f32 0x00000000#32) v704 v706 v718 v720) (k0_pay78 v732) v734
def entryN_9 (i : grid0.Coords) (v711 v713 v725 v727 v739 v741 : Vec F S1x256x2046 .f32) : FVec F S1x1 .f32 :=
  k0_pay80 (k0_pay75 (F := F) (k0_pay3 i)) (k0_pay77 v711 v713 v725 v727) v739 v741

theorem entryW_9_nf (i : grid0.Coords) (v704 v706 v718 v720 v732 v734 : Vec F S1x256x2046 .f32) :
    entryW_9 i v704 v706 v718 v720 v732 v734 =
      nfW 2046 shapeCasts_S1x256x2046_S256x2046 shapeCasts_S256x2046_S1x256x2046 broadcasts_S256x1_S256x2046
        reduces_S1x256x2046_S1 (nfMask (k0_pay3 i) 4294967295#32) v704 v706 v718 v720 v732 v734 := by
  unfold entryW_9 k0_pay79 k0_pay75 k0_pay76 k0_pay78 nfW nfRed nfMask
  rfl
theorem entryN_9_nf (i : grid0.Coords) (v711 v713 v725 v727 v739 v741 : Vec F S1x256x2046 .f32) :
    entryN_9 i v711 v713 v725 v727 v739 v741 =
      nfN 2046 shapeCasts_S1x256x2046_S256x2046 shapeCasts_S256x2046_S1x256x2046 broadcasts_S256x1_S256x2046
        reduces_S1x256x2046_S1 (nfMask (k0_pay3 i) 4294967295#32) v711 v713 v725 v727 v739 v741 := by
  unfold entryN_9 k0_pay80 k0_pay75 k0_pay77 nfN nfRed nfMask
  rfl

end Cert.KernelIdeal.Hand
end
-- ==== Proof.KI.Entries2.lean ====
import proofs.«143054_j12300786336339_1_alg».proof.Proof.KI.Entries

set_option maxRecDepth 16384
noncomputable section
namespace Cert.KernelIdeal.Hand
open Cert.KernelIdeal Cert.KernelIdeal.Gen
open Idealize.ShloMosaic Idealize.SL.Sem
variable {F : FTy → Type} [FloatOps F]

def entryW_10 (i : grid0.Coords) (v779 v781 v793 v795 v807 v809 : Vec F S1x256x2046 .f32) : FVec F S1x1 .f32 :=
  k0_pay84 (k0_pay81 (F := F) (k0_pay3 i)) (k0_pay82 v779 v781 v793 v795) v807 v809
def entryN_10 (i : grid0.Coords) (v786 v788 v800 v802 v814 v816 : Vec F S1x256x2046 .f32) : FVec F S1x1 .f32 :=
  k0_pay85 (k0_pay81 (F := F) (k0_pay3 i)) (k0_pay83 v786 v788 v800 v802) v814 v816

theorem entryW_10_nf (i : grid0.Coords) (v779 v781 v793 v795 v807 v809 : Vec F S1x256x2046 .f32) :
    entryW_10 i v779 v781 v793 v795 v807 v809 =
      nfW 2046 shapeCasts_S1x256x2046_S256x2046 shapeCasts_S256x2046_S1x256x2046 broadcasts_S256x1_S256x2046
        reduces_S1x256x2046_S1 (nfMask (k0_pay3 i) 0#32) v779 v781 v793 v795 v807 v809 := by
  unfold entryW_10 k0_pay84 k0_pay81 k0_pay82 nfW nfRed nfMask
  rfl
theorem entryN_10_nf (i : grid0.Coords) (v786 v788 v800 v802 v814 v816 : Vec F S1x256x2046 .f32) :
    entryN_10 i v786 v788 v800 v802 v814 v816 =
      nfN 2046 shapeCasts_S1x256x2046_S256x2046 shapeCasts_S256x2046_S1x256x2046 broadcasts_S256x1_S256x2046
        reduces_S1x256x2046_S1 (nfMask (k0_pay3 i) 0#32) v786 v788 v800 v802 v814 v816 := by
  unfold entryN_10 k0_pay85 k0_pay81 k0_pay83 nfN nfRed nfMask
  rfl

def entryW_11 (i : grid0.Coords) (v854 v856 v868 v870 v882 v884 : Vec F S1x256x2047 .f32) : FVec F S1x1 .f32 :=
  k0_pay90 (k0_pay87 (F := F) (k0_pay86 (k0_pay3 i))) (k0_pay88 v854 v856 v868 v870) v882 v884
def entryN_11 (i : grid0.Coords) (v861 v863 v875 v877 v889 v891 : Vec F S1x256x2047 .f32) : FVec F S1x1 .f32 :=
  k0_pay91 (k0_pay87 (F := F) (k0_pay86 (k0_pay3 i))) (k0_pay89 v861 v863 v875 v877) v889 v891

theorem entryW_11_nf (i : grid0.Coords) (v854 v856 v868 v870 v882 v884 : Vec F S1x256x2047 .f32) :
    entryW_11 i v854 v856 v868 v870 v882 v884 =
      nfW 2047 shapeCasts_S1x256x2047_S256x2047 shapeCasts_S256x2047_S1x256x2047 broadcasts_S256x1_S256x2047
        reduces_S1x256x2047_S1 (nfMask (k0_pay3 i) 0#32) v854 v856 v868 v870 v882 v884 := by
  unfold entryW_11 k0_pay90 k0_pay87 k0_pay86 k0_pay88 nfW nfRed nfMask
  rfl
theorem entryN_11_nf (i : grid0.Coords) (v861 v863 v875 v877 v889 v891 : Vec F S1x256x2047 .f32) :
    entryN_11 i v861 v863 v875 v877 v889 v891 =
      nfN 2047 shapeCasts_S1x256x2047_S256x2047 shapeCasts_S256x2047_S1x256x2047 broadcasts_S256x1_S256x2047
        reduces_S1x256x2047_S1 (nfMask (k0_pay3 i) 0#32) v861 v863 v875 v877 v889 v891 := by
  unfold entryN_11 k0_pay91 k0_pay87 k0_pay86 k0_pay89 nfN nfRed nfMask
  rfl

def entryW_12 (i : grid0.Coords) (v929 v931 v943 v945 v957 v959 : Vec F S1x256x2047 .f32) : FVec F S1x1 .f32 :=
  k0_pay96 (k0_pay93 (F := F) (k0_pay92 (k0_pay3 i))) (k0_pay94 v929 v931 v943 v945) v957 v959
def entryN_12 (i : grid0.Coords) (v936 v938 v950 v952 v964 v966 : Vec F S1x256x2047 .f32) : FVec F S1x1 .f32 :=
  k0_pay97 (k0_pay93 (F := F) (k0_pay92 (k0_pay3 i))) (k0_pay95 v936 v938 v950 v952) v964 v966

theorem entryW_12_nf (i : grid0.Coords) (v929 v931 v943 v945 v957 v959 : Vec F S1x256x2047 .f32) :
    entryW_12 i v929 v931 v943 v945 v957 v959 =
      nfW 2047 shapeCasts_S1x256x2047_S256x2047 shapeCasts_S256x2047_S1x256x2047 broadcasts_S256x1_S256x2047
        reduces_S1x256x2047_S1 (nfMask (k0_pay3 i) 0#32) v929 v931 v943 v945 v957 v959 := by
  unfold entryW_12 k0_pay96 k0_pay93 k0_pay92 k0_pay94 nfW nfRed nfMask
  rfl
theorem entryN_12_nf (i : grid0.Coords) (v936 v938 v950 v952 v964 v966 : Vec F S1x256x2047 .f32) :
    entryN_12 i v936 v938 v950 v952 v964 v966 =
      nfN 2047 shapeCasts_S1x256x2047_S256x2047 shapeCasts_S256x2047_S1x256x2047 broadcasts_S256x1_S256x2047
        reduces_S1x256x2047_S1 (nfMask (k0_pay3 i) 0#32) v936 v938 v950 v952 v964 v966 := by
  unfold entryN_12 k0_pay97 k0_pay93 k0_pay92 k0_pay95 nfN nfRed nfMask
  rfl

def entryW_13 (i : grid0.Coords) (v1004 v1006 v1018 v1020 v1032 v1034 : Vec F S1x256x2046 .f32) : FVec F S1x1 .f32 :=
  k0_pay103 (k0_pay100 (F := F) (k0_pay98 (k0_pay3 i)) (k0_pay99 (k0_pay3 i))) (k0_pay101 v1004 v1006 v1018 v1020) v1032 v1034
def entryN_13 (i : grid0.Coords) (v1011 v1013 v1025 v1027 v1039 v1041 : Vec F S1x256x2046 .f32) : FVec F S1x1 .f32 :=
  k0_pay104 (k0_pay100 (F := F) (k0_pay98 (k0_pay3 i)) (k0_pay99 (k0_pay3 i))) (k0_pay102 v1011 v1013 v1025 v1027) v1039 v1041

theorem entryW_13_nf (i : grid0.Coords) (v1004 v1006 v1018 v1020 v1032 v1034 : Vec F S1x256x2046 .f32) :
    entryW_13 i v1004 v1006 v1018 v1020 v1032 v1034 =
      nfW 2046 shapeCasts_S1x256x2046_S256x2046 shapeCasts_S256x2046_S1x256x2046 broadcasts_S256x1_S256x2046
        reduces_S1x256x2046_S1 (nfMask (k0_pay3 i) 0#32) v1004 v1006 v1018 v1020 v1032 v1034 := by
  unfold entryW_13 k0_pay103 k0_pay100 k0_pay98 k0_pay99 k0_pay101 nfW nfRed nfMask
  rfl
theorem entryN_13_nf (i : grid0.Coords) (v1011 v1013 v1025 v1027 v1039 v1041 : Vec F S1x256x2046 .f32) :
    entryN_13 i v1011 v1013 v1025 v1027 v1039 v1041 =
      nfN 2046 shapeCasts_S1x256x2046_S256x2046 shapeCasts_S256x2046_S1x256x2046 broadcasts_S256x1_S256x2046
        reduces_S1x256x2046_S1 (nfMask (k0_pay3 i) 0#32) v1011 v1013 v1025 v1027 v1039 v1041 := by
  unfold entryN_13 k0_pay104 k0_pay100 k0_pay98 k0_pay99 k0_pay102 nfN nfRed nfMask
  rfl

def entryW_14 (i : grid0.Coords) (v1079 v1081 v1093 v1095 v1107 v1109 : Vec F S1x256x2046 .f32) : FVec F S1x1 .f32 :=
  k0_pay111 (k0_pay108 (F := F) (k0_pay105 (k0_pay3 i)) (k0_pay106 (k0_pay3 i)) k0_pay107) (k0_pay109 v1079 v1081 v1093 v1095) v1107 v1109
def entryN_14 (i : grid0.Coords) (v1086 v1088 v1100 v1102 v1114 v1116 : Vec F S1x256x2046 .f32) : FVec F S1x1 .f32 :=
  k0_pay112 (k0_pay108 (F := F) (k0_pay105 (k0_pay3 i)) (k0_pay106 (k0_pay3 i)) k0_pay107) (k0_pay110 v1086 v1088 v1100 v1102) v1114 v1116

theorem entryW_14_nf (i : grid0.Coords) (v1079 v1081 v1093 v1095 v1107 v1109 : Vec F S1x256x2046 .f32) :
    entryW_14 i v1079 v1081 v1093 v1095 v1107 v1109 =
      nfW 2046 shapeCasts_S1x256x2046_S256x2046 shapeCasts_S256x2046_S1x256x2046 broadcasts_S256x1_S256x2046
        reduces_S1x256x2046_S1 (nfMask (k0_pay3 i) 1#32) v1079 v1081 v1093 v1095 v1107 v1109 := by
  unfold entryW_14 k0_pay111 k0_pay108 k0_pay105 k0_pay106 k0_pay107 k0_pay109 nfW nfRed nfMask
  rfl
theorem entryN_14_nf (i : grid0.Coords) (v1086 v1088 v1100 v1102 v1114 v1116 : Vec F S1x256x2046 .f32) :
    entryN_14 i v1086 v1088 v1100 v1102 v1114 v1116 =
      nfN 2046 shapeCasts_S1x256x2046_S256x2046 shapeCasts_S256x2046_S1x256x2046 broadcasts_S256x1_S256x2046
        reduces_S1x256x2046_S1 (nfMask (k0_pay3 i) 1#32) v1086 v1088 v1100 v1102 v1114 v1116 := by
  unfold entryN_14 k0_pay112 k0_pay108 k0_pay105 k0_pay106 k0_pay107 k0_pay110 nfN nfRed nfMask
  rfl

def entryW_15 (i : grid0.Coords) (v1154 v1156 v1168 v1170 v1182 v1184 : Vec F S1x256x2047 .f32) : FVec F S1x1 .f32 :=
  k0_pay119 (k0_pay115 (F := F) (k0_pay113 (k0_pay3 i)) (k0_pay114 (k0_pay3 i)) 1536#32) (k0_pay117 v1154 v1156 v1168 v1170) v1182 v1184
def entryN_15 (i : grid0.Coords) (v1161 v1163 v1175 v1177 v1189 v1191 : Vec F S1x256x2047 .f32) : FVec F S1x1 .f32 :=
  k0_pay120 (k0_pay115 (F := F) (k0_pay113 (k0_pay3 i)) (k0_pay114 (k0_pay3 i)) 1536#32) (k0_pay116 v1161 v1163) (k0_pay118 v1175 v1177) v1189 v1191

theorem entryW_15_nf (i : grid0.Coords) (v1154 v1156 v1168 v1170 v1182 v1184 : Vec F S1x256x2047 .f32) :
    entryW_15 i v1154 v1156 v1168 v1170 v1182 v1184 =
      nfW 2047 shapeCasts_S1x256x2047_S256x2047 shapeCasts_S256x2047_S1x256x2047 broadcasts_S256x1_S256x2047
        reduces_S1x256x2047_S1 (nfMask (k0_pay3 i) 1#32) v1154 v1156 v1168 v1170 v1182 v1184 := by
  unfold entryW_15 k0_pay119 k0_pay115 k0_pay113 k0_pay114 k0_pay117 nfW nfRed nfMask
  rfl
theorem entryN_15_nf (i : grid0.Coords) (v1161 v1163 v1175 v1177 v1189 v1191 : Vec F S1x256x2047 .f32) :
    entryN_15 i v1161 v1163 v1175 v1177 v1189 v1191 =
      nfN 2047 shapeCasts_S1x256x2047_S256x2047 shapeCasts_S256x2047_S1x256x2047 broadcasts_S256x1_S256x2047
        reduces_S1x256x2047_S1 (nfMask (k0_pay3 i) 1#32) v1161 v1163 v1175 v1177 v1189 v1191 := by
  unfold entryN_15 k0_pay120 k0_pay115 k0_pay113 k0_pay114 k0_pay116 k0_pay118 nfN nfRed nfMask
  rfl

def entryW_16 (i : grid0.Coords) (v1229 v1231 v1243 v1245 v1257 v1259 : Vec F S1x256x2048 .f32) : FVec F S1x1 .f32 :=
  k0_pay127 (k0_pay123 (F := F) (k0_pay121 (k0_pay3 i)) (k0_pay122 (k0_pay3 i))) (k0_pay125 v1229 v1231 v1243 v1245) v1257 v1259
def entryN_16 (i : grid0.Coords) (v1236 v1238 v1250 v1252 v1264 v1266 : Vec F S1x256x2048 .f32) : FVec F S1x1 .f32 :=
  k0_pay128 (k0_pay123 (F := F) (k0_pay121 (k0_pay3 i)) (k0_pay122 (k0_pay3 i))) (k0_pay124 v1236 v1238) (k0_pay126 v1250 v1252) v1264 v1266

theorem entryW_16_nf (i : grid0.Coords) (v1229 v1231 v1243 v1245 v1257 v1259 : Vec F S1x256x2048 .f32) :
    entryW_16 i v1229 v1231 v1243 v1245 v1257 v1259 =
      nfW 2048 shapeCasts_S1x256x2048_S256x2048 shapeCasts_S256x2048_S1x256x2048 broadcasts_S256x1_S256x2048
        reduces_S1x256x2048_S1 (nfMask (k0_pay3 i) 1#32) v1229 v1231 v1243 v1245 v1257 v1259 := by
  unfold entryW_16 k0_pay127 k0_pay123 k0_pay121 k0_pay122 k0_pay125 nfW nfRed nfMask
  rfl
theorem entryN_16_nf (i : grid0.Coords) (v1236 v1238 v1250 v1252 v1264 v1266 : Vec F S1x256x2048 .f32) :
    entryN_16 i v1236 v1238 v1250 v1252 v1264 v1266 =
      nfN 2048 shapeCasts_S1x256x2048_S256x2048 shapeCasts_S256x2048_S1x256x2048 broadcasts_S256x1_S256x2048
        reduces_S1x256x2048_S1 (nfMask (k0_pay3 i) 1#32) v1236 v1238 v1250 v1252 v1264 v1266 := by
  unfold entryN_16 k0_pay128 k0_pay123 k0_pay121 k0_pay122 k0_pay124 k0_pay126 nfN nfRed nfMask
  rfl

end Cert.KernelIdeal.Hand
end
-- ==== Proof.KI.Entries3.lean ====
import proofs.«143054_j12300786336339_1_alg».proof.Proof.KI.Entries

set_option maxRecDepth 16384
noncomputable section
namespace Cert.KernelIdeal.Hand
open Cert.KernelIdeal Cert.KernelIdeal.Gen
open Idealize.ShloMosaic Idealize.SL.Sem
variable {F : FTy → Type} [FloatOps F]

def entryW_17 (i : grid0.Coords) (v1304 v1306 v1318 v1320 v1332 v1334 : Vec F S1x256x2047 .f32) : FVec F S1x1 .f32 :=
  k0_pay136 (k0_pay131 (F := F) (k0_pay3 i) (k0_pay129 (k0_pay3 i)) k0_pay130) (k0_pay133 v1304 v1306 v1318 v1320) v1332 v1334
def entryN_17 (i : grid0.Coords) (v1311 v1313 v1325 v1327 v1339 v1341 : Vec F S1x256x2047 .f32) : FVec F S1x1 .f32 :=
  k0_pay137 (k0_pay131 (F := F) (k0_pay3 i) (k0_pay129 (k0_pay3 i)) k0_pay130) (k0_pay132 v1311 v1313) (k0_pay134 v1325) (k0_pay135 v1327) v1339 v1341

theorem entryW_17_nf (i : grid0.Coords) (v1304 v1306 v1318 v1320 v1332 v1334 : Vec F S1x256x2047 .f32) :
    entryW_17 i v1304 v1306 v1318 v1320 v1332 v1334 =
      nfW 2047 shapeCasts_S1x256x2047_S256x2047 shapeCasts_S256x2047_S1x256x2047 broadcasts_S256x1_S256x2047
        reduces_S1x256x2047_S1 (nfMask (k0_pay3 i) 1#32) v1304 v1306 v1318 v1320 v1332 v1334 := by
  unfold entryW_17 k0_pay136 k0_pay131 k0_pay129 k0_pay130 k0_pay133 nfW nfRed nfMask
  rfl
theorem entryN_17_nf (i : grid0.Coords) (v1311 v1313 v1325 v1327 v1339 v1341 : Vec F S1x256x2047 .f32) :
    entryN_17 i v1311 v1313 v1325 v1327 v1339 v1341 =
      nfN 2047 shapeCasts_S1x256x2047_S256x2047 shapeCasts_S256x2047_S1x256x2047 broadcasts_S256x1_S256x2047
        reduces_S1x256x2047_S1 (nfMask (k0_pay3 i) 1#32) v1311 v1313 v1325 v1327 v1339 v1341 := by
  unfold entryN_17 k0_pay137 k0_pay131 k0_pay129 k0_pay130 k0_pay132 k0_pay134 k0_pay135 nfN nfRed nfMask
  rfl

def entryW_18 (i : grid0.Coords) (v1379 v1381 v1393 v1395 v1407 v1409 : Vec F S1x256x2046 .f32) : FVec F S1x1 .f32 :=
  k0_pay143 (k0_pay139 (F := F) (k0_pay3 i) (k0_pay138 (k0_pay3 i)) 1#32) (k0_pay141 v1379 v1381 v1393 v1395) v1407 v1409
def entryN_18 (i : grid0.Coords) (v1386 v1388 v1400 v1402 v1414 v1416 : Vec F S1x256x2046 .f32) : FVec F S1x1 .f32 :=
  k0_pay144 (k0_pay139 (F := F) (k0_pay3 i) (k0_pay138 (k0_pay3 i)) 1#32) (k0_pay140 v1386 v1388) (k0_pay142 v1400) v1402 v1414 v1416

theorem entryW_18_nf (i : grid0.Coords) (v1379 v1381 v1393 v1395 v1407 v1409 : Vec F S1x256x2046 .f32) :
    entryW_18 i v1379 v1381 v1393 v1395 v1407 v1409 =
      nfW 2046 shapeCasts_S1x256x2046_S256x2046 shapeCasts_S256x2046_S1x256x2046 broadcasts_S256x1_S256x2046
        reduces_S1x256x2046_S1 (nfMask (k0_pay3 i) 1#32) v1379 v1381 v1393 v1395 v1407 v1409 := by
  unfold entryW_18 k0_pay143 k0_pay139 k0_pay138 k0_pay141 nfW nfRed nfMask
  rfl
theorem entryN_18_nf (i : grid0.Coords) (v1386 v1388 v1400 v1402 v1414 v1416 : Vec F S1x256x2046 .f32) :
    entryN_18 i v1386 v1388 v1400 v1402 v1414 v1416 =
      nfN 2046 shapeCasts_S1x256x2046_S256x2046 shapeCasts_S256x2046_S1x256x2046 broadcasts_S256x1_S256x2046
        reduces_S1x256x2046_S1 (nfMask (k0_pay3 i) 1#32) v1386 v1388 v1400 v1402 v1414 v1416 := by
  unfold entryN_18 k0_pay144 k0_pay139 k0_pay138 k0_pay140 k0_pay142 nfN nfRed nfMask
  rfl

def entryW_19 (i : grid0.Coords) (v1454 v1456 v1468 v1470 v1482 v1484 : Vec F S1x256x2046 .f32) : FVec F S1x1 .f32 :=
  k0_pay150 (k0_pay146 (F := F) (k0_pay3 i) (k0_pay145 (k0_pay3 i))) (k0_pay148 v1454 v1456 v1468 v1470) v1482 v1484
def entryN_19 (i : grid0.Coords) (v1461 v1463 v1475 v1477 v1489 v1491 : Vec F S1x256x2046 .f32) : FVec F S1x1 .f32 :=
  k0_pay151 (k0_pay146 (F := F) (k0_pay3 i) (k0_pay145 (k0_pay3 i))) (k0_pay147 v1461 v1463) (k0_pay149 v1475) v1477 v1489 v1491

theorem entryW_19_nf (i : grid0.Coords) (v1454 v1456 v1468 v1470 v1482 v1484 : Vec F S1x256x2046 .f32) :
    entryW_19 i v1454 v1456 v1468 v1470 v1482 v1484 =
      nfW 2046 shapeCasts_S1x256x2046_S256x2046 shapeCasts_S256x2046_S1x256x2046 broadcasts_S256x1_S256x2046
        reduces_S1x256x2046_S1 (nfMask (k0_pay3 i) 2#32) v1454 v1456 v1468 v1470 v1482 v1484 := by
  unfold entryW_19 k0_pay150 k0_pay146 k0_pay145 k0_pay148 nfW nfRed nfMask
  rfl
theorem entryN_19_nf (i : grid0.Coords) (v1461 v1463 v1475 v1477 v1489 v1491 : Vec F S1x256x2046 .f32) :
    entryN_19 i v1461 v1463 v1475 v1477 v1489 v1491 =
      nfN 2046 shapeCasts_S1x256x2046_S256x2046 shapeCasts_S256x2046_S1x256x2046 broadcasts_S256x1_S256x2046
        reduces_S1x256x2046_S1 (nfMask (k0_pay3 i) 2#32) v1461 v1463 v1475 v1477 v1489 v1491 := by
  unfold entryN_19 k0_pay151 k0_pay146 k0_pay145 k0_pay147 k0_pay149 nfN nfRed nfMask
  rfl

def entryW_20 (i : grid0.Coords) (v1529 v1531 v1543 v1545 v1557 v1559 : Vec F S1x256x2047 .f32) : FVec F S1x1 .f32 :=
  k0_pay158 (k0_pay154 (F := F) (k0_pay3 i) (k0_pay152 (k0_pay3 i)) (k0_pay153 (k0_pay3 i))) (k0_pay156 v1529 v1531 v1543 v1545) v1557 v1559
def entryN_20 (i : grid0.Coords) (v1536 v1538 v1550 v1552 v1564 v1566 : Vec F S1x256x2047 .f32) : FVec F S1x1 .f32 :=
  k0_pay159 (k0_pay154 (F := F) (k0_pay3 i) (k0_pay152 (k0_pay3 i)) (k0_pay153 (k0_pay3 i))) (k0_pay155 v1536 v1538) (k0_pay157 v1550) v1552 v1564 v1566

theorem entryW_20_nf (i : grid0.Coords) (v1529 v1531 v1543 v1545 v1557 v1559 : Vec F S1x256x2047 .f32) :
    entryW_20 i v1529 v1531 v1543 v1545 v1557 v1559 =
      nfW 2047 shapeCasts_S1x256x2047_S256x2047 shapeCasts_S256x2047_S1x256x2047 broadcasts_S256x1_S256x2047
        reduces_S1x256x2047_S1 (nfMask (k0_pay3 i) 2#32) v1529 v1531 v1543 v1545 v1557 v1559 := by
  unfold entryW_20 k0_pay158 k0_pay154 k0_pay152 k0_pay153 k0_pay156 nfW nfRed nfMask
  rfl
theorem entryN_20_nf (i : grid0.Coords) (v1536 v1538 v1550 v1552 v1564 v1566 : Vec F S1x256x2047 .f32) :
    entryN_20 i v1536 v1538 v1550 v1552 v1564 v1566 =
      nfN 2047 shapeCasts_S1x256x2047_S256x2047 shapeCasts_S256x2047_S1x256x2047 broadcasts_S256x1_S256x2047
        reduces_S1x256x2047_S1 (nfMask (k0_pay3 i) 2#32) v1536 v1538 v1550 v1552 v1564 v1566 := by
  unfold entryN_20 k0_pay159 k0_pay154 k0_pay152 k0_pay153 k0_pay155 k0_pay157 nfN nfRed nfMask
  rfl

def entryW_21 (i : grid0.Coords) (v1604 v1606 v1618 v1620 v1632 v1634 : Vec F S1x256x2048 .f32) : FVec F S1x1 .f32 :=
  k0_pay167 (k0_pay163 (F := F) (k0_pay3 i) (k0_pay160 (k0_pay3 i)) (k0_pay161 (k0_pay3 i)) k0_pay162) (k0_pay165 v1604 v1606 v1618 v1620) v1632 v1634
def entryN_21 (i : grid0.Coords) (v1611 v1613 v1625 v1627 v1639 v1641 : Vec F S1x256x2048 .f32) : FVec F S1x1 .f32 :=
  k0_pay168 (k0_pay163 (F := F) (k0_pay3 i) (k0_pay160 (k0_pay3 i)) (k0_pay161 (k0_pay3 i)) k0_pay162) (k0_pay164 v1611 v1613) (k0_pay166 v1625) v1627 v1639 v1641

theorem entryW_21_nf (i : grid0.Coords) (v1604 v1606 v1618 v1620 v1632 v1634 : Vec F S1x256x2048 .f32) :
    entryW_21 i v1604 v1606 v1618 v1620 v1632 v1634 =
      nfW 2048 shapeCasts_S1x256x2048_S256x2048 shapeCasts_S256x2048_S1x256x2048 broadcasts_S256x1_S256x2048
        reduces_S1x256x2048_S1 (nfMask (k0_pay3 i) 2#32) v1604 v1606 v1618 v1620 v1632 v1634 := by
  unfold entryW_21 k0_pay167 k0_pay163 k0_pay160 k0_pay161 k0_pay162 k0_pay165 nfW nfRed nfMask
  rfl
theorem entryN_21_nf (i : grid0.Coords) (v1611 v1613 v1625 v1627 v1639 v1641 : Vec F S1x256x2048 .f32) :
    entryN_21 i v1611 v1613 v1625 v1627 v1639 v1641 =
      nfN 2048 shapeCasts_S1x256x2048_S256x2048 shapeCasts_S256x2048_S1x256x2048 broadcasts_S256x1_S256x2048
        reduces_S1x256x2048_S1 (nfMask (k0_pay3 i) 2#32) v1611 v1613 v1625 v1627 v1639 v1641 := by
  unfold entryN_21 k0_pay168 k0_pay163 k0_pay160 k0_pay161 k0_pay162 k0_pay164 k0_pay166 nfN nfRed nfMask
  rfl

def entryW_22 (i : grid0.Coords) (v1679 v1681 v1693 v1695 v1707 v1709 : Vec F S1x256x2047 .f32) : FVec F S1x1 .f32 :=
  k0_pay175 (k0_pay171 (F := F) (k0_pay3 i) (k0_pay169 (k0_pay3 i)) (k0_pay170 (k0_pay3 i)) 0#32) (k0_pay173 v1679 v1681 v1693 v1695) v1707 v1709
def entryN_22 (i : grid0.Coords) (v1686 v1688 v1700 v1702 v1714 v1716 : Vec F S1x256x2047 .f32) : FVec F S1x1 .f32 :=
  k0_pay176 (k0_pay171 (F := F) (k0_pay3 i) (k0_pay169 (k0_pay3 i)) (k0_pay170 (k0_pay3 i)) 0#32) (k0_pay172 v1686 v1688) (k0_pay174 v1700) v1702 v1714 v1716

theorem entryW_22_nf (i : grid0.Coords) (v1679 v1681 v1693 v1695 v1707 v1709 : Vec F S1x256x2047 .f32) :
    entryW_22 i v1679 v1681 v1693 v1695 v1707 v1709 =
      nfW 2047 shapeCasts_S1x256x2047_S256x2047 shapeCasts_S256x2047_S1x256x2047 broadcasts_S256x1_S256x2047
        reduces_S1x256x2047_S1 (nfMask (k0_pay3 i) 2#32) v1679 v1681 v1693 v1695 v1707 v1709 := by
  unfold entryW_22 k0_pay175 k0_pay171 k0_pay169 k0_pay170 k0_pay173 nfW nfRed nfMask
  rfl
theorem entryN_22_nf (i : grid0.Coords) (v1686 v1688 v1700 v1702 v1714 v1716 : Vec F S1x256x2047 .f32) :
    entryN_22 i v1686 v1688 v1700 v1702 v1714 v1716 =
      nfN 2047 shapeCasts_S1x256x2047_S256x2047 shapeCasts_S256x2047_S1x256x2047 broadcasts_S256x1_S256x2047
        reduces_S1x256x2047_S1 (nfMask (k0_pay3 i) 2#32) v1686 v1688 v1700 v1702 v1714 v1716 := by
  unfold entryN_22 k0_pay176 k0_pay171 k0_pay169 k0_pay170 k0_pay172 k0_pay174 nfN nfRed nfMask
  rfl

end Cert.KernelIdeal.Hand
end
-- ==== Proof.KI.Entries4.lean ====
import proofs.«143054_j12300786336339_1_alg».proof.Proof.KI.Entries

set_option maxRecDepth 16384
noncomputable section
namespace Cert.KernelIdeal.Hand
open Cert.KernelIdeal Cert.KernelIdeal.Gen
open Idealize.ShloMosaic Idealize.SL.Sem
variable {F : FTy → Type} [FloatOps F]

def tailW (v1751 : FVec F S256x1 .f32) (v1774 : FVec F S256x2046 .f32) (v1782 v1784 : Vec F S1x256x2046 .f32) : FVec F S1x1 .f32 :=
  (broadcast S1x1 (extractAt ![0, 0, 0] (shapeCast S1x1x1 (multiReduction .add [1, 2] S1 (shapeCast S1x256x2046 (mulf (exp (mulf (addf v1774 (mulf (subf (shapeCast S256x2046 v1782 shapeCasts_S1x256x2046_S256x2046) (shapeCast S256x2046 v1784 shapeCasts_S1x256x2046_S256x2046)) (subf (shapeCast S256x2046 v1782 shapeCasts_S1x256x2046_S256x2046) (shapeCast S256x2046 v1784 shapeCasts_S1x256x2046_S256x2046)))) (broadcast S256x2046 (Scalar.ofBits .f32 0xBBA3D70A#32)))) (broadcastTo S256x2046 v1751 broadcasts_S256x1_S256x2046)) shapeCasts_S256x2046_S1x256x2046) 0x00000000#32 reduces_S1x256x2046_S1 (.inl rfl) rfl) shapeCasts_S1_S1x1x1) inpos_S1x1x1_p0_0_0))

def tailN (v1751 : FVec F S256x1 .f32) (v1767 : FVec F S256x2046 .f32) (v1775 v1777 v1789 v1791 : Vec F S1x256x2046 .f32) : FVec F S1x1 .f32 :=
  (broadcast S1x1 (extractAt ![0, 0, 0] (shapeCast S1x1x1 (multiReduction .add [1, 2] S1 (shapeCast S1x256x2046 (mulf (addf (addf v1767 (absf (subf (shapeCast S256x2046 v1775 shapeCasts_S1x256x2046_S256x2046) (shapeCast S256x2046 v1777 shapeCasts_S1x256x2046_S256x2046)))) (absf (subf (shapeCast S256x2046 v1789 shapeCasts_S1x256x2046_S256x2046) (shapeCast S256x2046 v1791 shapeCasts_S1x256x2046_S256x2046)))) (broadcastTo S256x2046 v1751 broadcasts_S256x1_S256x2046)) shapeCasts_S256x2046_S1x256x2046) 0x00000000#32 reduces_S1x256x2046_S1 (.inl rfl) rfl) shapeCasts_S1_S1x1x1) inpos_S1x1x1_p0_0_0))

theorem pay182_eq (e0 e1 e2 e3 e4 e5 e6 e7 e8 e9 e10 e11 e12 e13 e14 e15 e16 e17 e18 e19 e20 e21 e22 e23 e24 e25 e26 e27 e28 e29 e30 e31 e32 e33 e34 e35 e36 e37 e38 e39 e40 e41 e42 e43 e44 e45 : FVec F S1x1 .f32) (v1751 : FVec F S256x1 .f32) (v1767 v1774 : FVec F S256x2046 .f32)
    (v1775 v1777 v1782 v1784 v1789 v1791 : Vec F S1x256x2046 .f32) :
    k0_pay182 e0 e1 e2 e3 e4 e5 e6 e7 e8 e9 e10 e11 e12 e13 e14 e15 e16 e17 e18 e19 e20 e21 e22 e23 e24 e25 e26 e27 e28 e29 e30 e31 e32 e33 e34 e35 e36 e37 e38 e39 e40 e41 e42 e43 e44 e45 v1751 v1767 v1774 v1775 v1777 v1782 v1784 v1789 v1791 =
      concatenate S1x48 1 (⟨S1x1, e0⟩ :: ⟨S1x1, e1⟩ :: ⟨S1x1, e2⟩ :: ⟨S1x1, e3⟩ :: ⟨S1x1, e4⟩ :: ⟨S1x1, e5⟩ :: ⟨S1x1, e6⟩ :: ⟨S1x1, e7⟩ :: ⟨S1x1, e8⟩ :: ⟨S1x1, e9⟩ :: ⟨S1x1, e10⟩ :: ⟨S1x1, e11⟩ :: ⟨S1x1, e12⟩ :: ⟨S1x1, e13⟩ :: ⟨S1x1, e14⟩ :: ⟨S1x1, e15⟩ :: ⟨S1x1, e16⟩ :: ⟨S1x1, e17⟩ :: ⟨S1x1, e18⟩ :: ⟨S1x1, e19⟩ :: ⟨S1x1, e20⟩ :: ⟨S1x1, e21⟩ :: ⟨S1x1, e22⟩ :: ⟨S1x1, e23⟩ :: ⟨S1x1, e24⟩ :: ⟨S1x1, e25⟩ :: ⟨S1x1, e26⟩ :: ⟨S1x1, e27⟩ :: ⟨S1x1, e28⟩ :: ⟨S1x1, e29⟩ :: ⟨S1x1, e30⟩ :: ⟨S1x1, e31⟩ :: ⟨S1x1, e32⟩ :: ⟨S1x1, e33⟩ :: ⟨S1x1, e34⟩ :: ⟨S1x1, e35⟩ :: ⟨S1x1, e36⟩ :: ⟨S1x1, e37⟩ :: ⟨S1x1, e38⟩ :: ⟨S1x1, e39⟩ :: ⟨S1x1, e40⟩ :: ⟨S1x1, e41⟩ :: ⟨S1x1, e42⟩ :: ⟨S1x1, e43⟩ :: ⟨S1x1, e44⟩ :: ⟨S1x1, e45⟩ :: ⟨S1x1, tailW v1751 v1774 v1782 v1784⟩ :: ⟨S1x1, tailN v1751 v1767 v1775 v1777 v1789 v1791⟩ :: [])
        concatenates_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x48_d1 := by
  unfold k0_pay182 tailW tailN
  rfl

def entryW_23 (i : grid0.Coords) (v1754 v1756 v1768 v1770 v1782 v1784 : Vec F S1x256x2046 .f32) : FVec F S1x1 .f32 :=
  tailW (k0_pay179 (F := F) (k0_pay3 i) (k0_pay177 (k0_pay3 i)) (k0_pay178 (k0_pay3 i))) (k0_pay181 v1754 v1756 v1768 v1770) v1782 v1784
def entryN_23 (i : grid0.Coords) (v1761 v1763 v1775 v1777 v1789 v1791 : Vec F S1x256x2046 .f32) : FVec F S1x1 .f32 :=
  tailN (k0_pay179 (F := F) (k0_pay3 i) (k0_pay177 (k0_pay3 i)) (k0_pay178 (k0_pay3 i))) (k0_pay180 v1761 v1763) v1775 v1777 v1789 v1791

theorem entryW_23_nf (i : grid0.Coords) (v1754 v1756 v1768 v1770 v1782 v1784 : Vec F S1x256x2046 .f32) :
    entryW_23 i v1754 v1756 v1768 v1770 v1782 v1784 =
      nfW 2046 shapeCasts_S1x256x2046_S256x2046 shapeCasts_S256x2046_S1x256x2046 broadcasts_S256x1_S256x2046
        reduces_S1x256x2046_S1 (nfMask (k0_pay3 i) 2#32) v1754 v1756 v1768 v1770 v1782 v1784 := by
  unfold entryW_23 tailW k0_pay179 k0_pay177 k0_pay178 k0_pay181 nfW nfRed nfMask
  rfl
theorem entryN_23_nf (i : grid0.Coords) (v1761 v1763 v1775 v1777 v1789 v1791 : Vec F S1x256x2046 .f32) :
    entryN_23 i v1761 v1763 v1775 v1777 v1789 v1791 =
      nfN 2046 shapeCasts_S1x256x2046_S256x2046 shapeCasts_S256x2046_S1x256x2046 broadcasts_S256x1_S256x2046
        reduces_S1x256x2046_S1 (nfMask (k0_pay3 i) 2#32) v1761 v1763 v1775 v1777 v1789 v1791 := by
  unfold entryN_23 tailN k0_pay179 k0_pay177 k0_pay178 k0_pay180 nfN nfRed nfMask
  rfl

end Cert.KernelIdeal.Hand
end
-- ==== Proof.KI.DirValue.lean ====
import Idealize.ShloMosaic.PureOps.Ideal.Laws
import Idealize.ShloMosaic.Lib.ValueLayout
import proofs.«143054_j12300786336339_1_alg».proof.KernelIdeal
import proofs.«143054_j12300786336339_1_alg».proof.Proof.Spec

set_option maxRecDepth 16384
noncomputable section
namespace Cert.KernelIdeal.Hand
open Cert.KernelIdeal
open Idealize.ShloMosaic Idealize.ShloMosaic.ValueIdx
open scoped BigOperators

def idxEquiv3u {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ => exact Fin.ext (by have h : (i 0).val < 1 := (i 0).isLt; show 0 = (i 0).val; omega)
    | ⟨1, _⟩ => rfl
    | ⟨2, _⟩ => rfl
  right_inv _ := rfl

theorem sum_idx3u {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquiv3u (n1 := n1) (n2 := n2)).symm f, Fintype.sum_prod_type]
  rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem extractAt_shapeCast_1_111 {α : Type} (y : (⟨1, ![1]⟩ : Shape).Idx → α)
    (h : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩ y h) hp = y (ix1 (0 : Fin 1)) := by
  unfold extractAt shapeCast
  refine congrArg y (funext fun a => ?_)
  match a with
  | ⟨0, _⟩ =>
    refine Fin.ext ?_
    have hlt : ((Shape.reshapeEquiv h (fun a => ⟨(![0, 0, 0] : Fin 3 → Nat) a, hp a⟩)) 0).val < 1 := Fin.isLt _
    show ((Shape.reshapeEquiv h (fun a => ⟨(![0, 0, 0] : Fin 3 → Nat) a, hp a⟩)) 0).val = 0
    omega

theorem exp_apply {s : Shape} {φ : FTy} (a : FVec Ideal s φ) (i : s.Idx) : exp a i = Ideal.exp (a i) := rfl

theorem absf_apply {s : Shape} {φ : FTy} (a : FVec Ideal s φ) (i : s.Idx) : absf a i = max (a i) (-(a i)) := rfl

section Dir
variable {w : ℕ}

abbrev dirWTerm (a0 b0 a1 b1 a2 b2 : Vec Ideal ⟨3, ![1, 256, w]⟩ .f32) (mk : FVec Ideal ⟨2, ![256, 1]⟩ .f32)
    (hc : (⟨3, ![1, 256, w]⟩ : Shape).ShapeCasts ⟨2, ![256, w]⟩)
    (hc' : (⟨2, ![256, w]⟩ : Shape).ShapeCasts ⟨3, ![1, 256, w]⟩)
    (hb : (⟨2, ![256, 1]⟩ : Shape).Broadcasts ⟨2, ![256, w]⟩)
    (hr : (⟨3, ![1, 256, w]⟩ : Shape).Reduces [1, 2] ⟨1, ![1]⟩)
    (hc1 : (⟨1, ![1]⟩ : Shape).ShapeCasts ⟨3, ![1, 1, 1]⟩)
    (hp : ∀ a, (![0, 0, 0] : Fin 3 → Nat) a < (⟨3, ![1, 1, 1]⟩ : Shape).size a)
    (hφ : FKind.Formats .f32) (hacc : (0x00000000#32 : BitVec 32) = FKind.add.neutral .f32 hφ) :
    FVec Ideal ⟨2, ![1, 1]⟩ .f32 :=
  broadcast ⟨2, ![1, 1]⟩
    (extractAt ![0, 0, 0]
      (shapeCast ⟨3, ![1, 1, 1]⟩
        (multiReduction .add [1, 2] ⟨1, ![1]⟩
          (shapeCast ⟨3, ![1, 256, w]⟩
            (mulf
              (exp
                (mulf
                  (addf
                    (addf
                      (addf (broadcast ⟨2, ![256, w]⟩ (Scalar.ofBits .f32 0x00000000#32 : Ideal .f32))
                        (mulf (subf (shapeCast ⟨2, ![256, w]⟩ a0 hc) (shapeCast ⟨2, ![256, w]⟩ b0 hc))
                          (subf (shapeCast ⟨2, ![256, w]⟩ a0 hc) (shapeCast ⟨2, ![256, w]⟩ b0 hc))))
                      (mulf (subf (shapeCast ⟨2, ![256, w]⟩ a1 hc) (shapeCast ⟨2, ![256, w]⟩ b1 hc))
                        (subf (shapeCast ⟨2, ![256, w]⟩ a1 hc) (shapeCast ⟨2, ![256, w]⟩ b1 hc))))
                    (mulf (subf (shapeCast ⟨2, ![256, w]⟩ a2 hc) (shapeCast ⟨2, ![256, w]⟩ b2 hc))
                      (subf (shapeCast ⟨2, ![256, w]⟩ a2 hc) (shapeCast ⟨2, ![256, w]⟩ b2 hc))))
                  (broadcast ⟨2, ![256, w]⟩ (Scalar.ofBits .f32 0xBBA3D70A#32 : Ideal .f32))))
              (broadcastTo ⟨2, ![256, w]⟩ mk hb))
            hc')
          0x00000000#32 hr hφ hacc)
        hc1)
      hp)

abbrev dirNTerm (a0 b0 a1 b1 a2 b2 : Vec Ideal ⟨3, ![1, 256, w]⟩ .f32) (mk : FVec Ideal ⟨2, ![256, 1]⟩ .f32)
    (hc : (⟨3, ![1, 256, w]⟩ : Shape).ShapeCasts ⟨2, ![256, w]⟩)
    (hc' : (⟨2, ![256, w]⟩ : Shape).ShapeCasts ⟨3, ![1, 256, w]⟩)
    (hb : (⟨2, ![256, 1]⟩ : Shape).Broadcasts ⟨2, ![256, w]⟩)
    (hr : (⟨3, ![1, 256, w]⟩ : Shape).Reduces [1, 2] ⟨1, ![1]⟩)
    (hc1 : (⟨1, ![1]⟩ : Shape).ShapeCasts ⟨3, ![1, 1, 1]⟩)
    (hp : ∀ a, (![0, 0, 0] : Fin 3 → Nat) a < (⟨3, ![1, 1, 1]⟩ : Shape).size a)
    (hφ : FKind.Formats .f32) (hacc : (0x00000000#32 : BitVec 32) = FKind.add.neutral .f32 hφ) :
    FVec Ideal ⟨2, ![1, 1]⟩ .f32 :=
  broadcast ⟨2, ![1, 1]⟩
    (extractAt ![0, 0, 0]
      (shapeCast ⟨3, ![1, 1, 1]⟩
        (multiReduction .add [1, 2] ⟨1, ![1]⟩
          (shapeCast ⟨3, ![1, 256, w]⟩
            (mulf
              (addf
                (addf
                  (addf (broadcast ⟨2, ![256, w]⟩ (Scalar.ofBits .f32 0x00000000#32 : Ideal .f32))
                    (absf (subf (shapeCast ⟨2, ![256, w]⟩ a0 hc) (shapeCast ⟨2, ![256, w]⟩ b0 hc))))
                  (absf (subf (shapeCast ⟨2, ![256, w]⟩ a1 hc) (shapeCast ⟨2, ![256, w]⟩ b1 hc))))
                (absf (subf (shapeCast ⟨2, ![256, w]⟩ a2 hc) (shapeCast ⟨2, ![256, w]⟩ b2 hc))))
              (broadcastTo ⟨2, ![256, w]⟩ mk hb))
            hc')
          0x00000000#32 hr hφ hacc)
        hc1)
      hp)

variable (a0 b0 a1 b1 a2 b2 : Vec Ideal ⟨3, ![1, 256, w]⟩ .f32) (mk : FVec Ideal ⟨2, ![256, 1]⟩ .f32)
    (hc : (⟨3, ![1, 256, w]⟩ : Shape).ShapeCasts ⟨2, ![256, w]⟩)
    (hc' : (⟨2, ![256, w]⟩ : Shape).ShapeCasts ⟨3, ![1, 256, w]⟩)
    (hb : (⟨2, ![256, 1]⟩ : Shape).Broadcasts ⟨2, ![256, w]⟩)
    (hr : (⟨3, ![1, 256, w]⟩ : Shape).Reduces [1, 2] ⟨1, ![1]⟩)
    (hc1 : (⟨1, ![1]⟩ : Shape).ShapeCasts ⟨3, ![1, 1, 1]⟩)
    (hp : ∀ a, (![0, 0, 0] : Fin 3 → Nat) a < (⟨3, ![1, 1, 1]⟩ : Shape).size a)
    (hφ : FKind.Formats .f32) (hacc : (0x00000000#32 : BitVec 32) = FKind.add.neutral .f32 hφ)

theorem total_value (src : FVec Ideal ⟨3, ![1, 256, w]⟩ .f32) :
    broadcast ⟨2, ![1, 1]⟩
        (extractAt ![0, 0, 0]
          (shapeCast ⟨3, ![1, 1, 1]⟩ (multiReduction .add [1, 2] ⟨1, ![1]⟩ src 0x00000000#32 hr hφ hacc) hc1) hp)
        (ix2 (0 : Fin 1) (0 : Fin 1))
      = ∑ r : Fin 256, ∑ x : Fin w, src (ix3 (0 : Fin 1) r x) := by
  rw [broadcast_apply, extractAt_shapeCast_1_111]
  refine (Ideal.multiReduction_add_total src 0x00000000#32 hr
    (fun b => by match b with | ⟨0, _⟩ => rfl) hφ hacc _).trans ?_
  exact sum_idx3u src

set_option maxHeartbeats 400000 in
theorem dirW_value :
    dirWTerm a0 b0 a1 b1 a2 b2 mk hc hc' hb hr hc1 hp hφ hacc (ix2 (0 : Fin 1) (0 : Fin 1))
      = ∑ r : Fin 256, ∑ x : Fin w,
          Ideal.exp ((∑ c : Fin 3,
              ((![a0, a1, a2] c) (ix3 (0 : Fin 1) r x) - (![b0, b1, b2] c) (ix3 (0 : Fin 1) r x))
                * ((![a0, a1, a2] c) (ix3 (0 : Fin 1) r x) - (![b0, b1, b2] c) (ix3 (0 : Fin 1) r x)))
            * Smooth.sigma) * mk (ix2 r (0 : Fin 1)) := by
  refine (total_value hr hc1 hp hφ hacc _).trans ?_
  refine Finset.sum_congr rfl fun r _ => Finset.sum_congr rfl fun x _ => ?_
  rw [shapeCast_ab_1ab_apply, mulf_apply, broadcastTo_a1_ab_apply, exp_apply, mulf_apply, broadcast_apply,
    addf_apply, addf_apply, addf_apply, broadcast_apply, mulf_apply, mulf_apply, mulf_apply,
    subf_apply, subf_apply, subf_apply,
    shapeCast_1ab_ab_apply, shapeCast_1ab_ab_apply, shapeCast_1ab_ab_apply,
    shapeCast_1ab_ab_apply, shapeCast_1ab_ab_apply, shapeCast_1ab_ab_apply, Fin.sum_univ_three]
  show Ideal.exp ((Ideal.ofBits .f32 0x00000000#32 + _ + _ + _) * Ideal.ofBits .f32 0xBBA3D70A#32) * _ = _
  rw [Ideal.ofBits_zero_f32, zero_add]
  rfl

set_option maxHeartbeats 400000 in
theorem dirN_value :
    dirNTerm a0 b0 a1 b1 a2 b2 mk hc hc' hb hr hc1 hp hφ hacc (ix2 (0 : Fin 1) (0 : Fin 1))
      = ∑ r : Fin 256, ∑ x : Fin w,
          (∑ c : Fin 3,
              max ((![a0, a1, a2] c) (ix3 (0 : Fin 1) r x) - (![b0, b1, b2] c) (ix3 (0 : Fin 1) r x))
                (-((![a0, a1, a2] c) (ix3 (0 : Fin 1) r x) - (![b0, b1, b2] c) (ix3 (0 : Fin 1) r x))))
            * mk (ix2 r (0 : Fin 1)) := by
  refine (total_value hr hc1 hp hφ hacc _).trans ?_
  refine Finset.sum_congr rfl fun r _ => Finset.sum_congr rfl fun x _ => ?_
  rw [shapeCast_ab_1ab_apply, mulf_apply, broadcastTo_a1_ab_apply,
    addf_apply, addf_apply, addf_apply, broadcast_apply, absf_apply, absf_apply, absf_apply,
    subf_apply, subf_apply, subf_apply,
    shapeCast_1ab_ab_apply, shapeCast_1ab_ab_apply, shapeCast_1ab_ab_apply,
    shapeCast_1ab_ab_apply, shapeCast_1ab_ab_apply, shapeCast_1ab_ab_apply, Fin.sum_univ_three]
  show (Ideal.ofBits .f32 0x00000000#32 + _ + _ + _) * _ = _
  rw [Ideal.ofBits_zero_f32, zero_add]
  rfl

end Dir

end Cert.KernelIdeal.Hand
end
-- ==== Proof.KI.DirValue2.lean ====
import proofs.«143054_j12300786336339_1_alg».proof.Proof.KI.DirValue

set_option maxRecDepth 16384
noncomputable section
namespace Cert.KernelIdeal.Hand
open Cert.KernelIdeal
open Idealize.ShloMosaic Idealize.ShloMosaic.ValueIdx
open scoped BigOperators

section Mask

abbrev rowWords (t : ℕ) (hi : (⟨2, ![256, 1]⟩ : Shape).Iotas .tc 32 [0]) : IVec ⟨2, ![256, 1]⟩ 32 :=
  addi (broadcast ⟨2, ![256, 1]⟩ (Scalar.muli (BitVec.ofNat 32 t) 256#32)) (iota .tc ⟨2, ![256, 1]⟩ 32 [0] hi)

abbrev maskTerm (y : IVec ⟨2, ![256, 1]⟩ 32) (dw : BitVec 32) (hlt : 1 < 32) : FVec Ideal ⟨2, ![256, 1]⟩ .f32 :=
  sitofp .f32
    (extui 32
      (andi
        (andi (cmpi .slt y (broadcast ⟨2, ![256, 1]⟩ 1536#32))
          (cmpi .sge (addi y (broadcast ⟨2, ![256, 1]⟩ dw)) (broadcast ⟨2, ![256, 1]⟩ 0#32)))
        (cmpi .slt (addi y (broadcast ⟨2, ![256, 1]⟩ dw)) (broadcast ⟨2, ![256, 1]⟩ 1536#32)))
      hlt)

theorem rowWords_apply (t : ℕ) (ht : t < 6) (hi : (⟨2, ![256, 1]⟩ : Shape).Iotas .tc 32 [0]) (r : Fin 256) :
    (rowWords t hi (ix2 r (0 : Fin 1))).toNat = 256 * t + r.val := by
  show (BitVec.ofNat 32 t * 256#32 + BitVec.ofNat 32 (0 * 256 + r.val)).toNat = _
  have hr := r.isLt
  simp only [BitVec.toNat_add, BitVec.toNat_mul, BitVec.toNat_ofNat]
  omega

theorem toInt_add_small (Y dw : BitVec 32) (n : ℕ) (k : ℤ) (hY : Y.toNat = n) (hn : n < 2000) (hd : dw.toInt = k)
    (hk : -8 ≤ k ∧ k ≤ 8) : (Y + dw).toInt = n + k := by
  have hYi : Y.toInt = n := by
    rw [BitVec.toInt_eq_msb_cond, BitVec.msb_eq_false_iff_two_mul_lt.mpr (by omega)]
    simp [hY]
  rw [BitVec.toInt_add, hYi, hd]
  exact Int.bmod_eq_of_le (by omega) (by omega)

set_option maxHeartbeats 400000 in
theorem maskWord_value (Y dw : BitVec 32) (n ey : ℕ) (hY : Y.toNat = n) (hn : n < 1536) (hey : 6 ≤ ey ∧ ey ≤ 10)
    (hd : dw.toInt = (ey : ℤ) - 8) :
    (FloatOps.sitofp .f32
        ((IntOp.andi (IntOp.andi (IntOp.cmpi .slt Y 1536#32) (IntOp.cmpi .sge (IntOp.addi Y dw) 0#32))
          (IntOp.cmpi .slt (IntOp.addi Y dw) 1536#32)).setWidth 32) : Ideal .f32)
      = if n < 1536 ∧ 8 ≤ n + ey ∧ n + ey < 1544 then 1 else 0 := by
  have hZ : (Y + dw).toInt = (n : ℤ) + ((ey : ℤ) - 8) := toInt_add_small Y dw _ _ hY (by omega) hd (by omega)
  have hYi : Y.toInt = (n : ℤ) := by
    rw [BitVec.toInt_eq_msb_cond, BitVec.msb_eq_false_iff_two_mul_lt.mpr (by omega)]
    simp [hY]
  have e1536 : (1536#32 : BitVec 32).toInt = 1536 := by decide
  have e0 : (0#32 : BitVec 32).toInt = 0 := by decide
  have h1 : IntOp.cmpi .slt Y 1536#32 = 1#1 := by
    show BitVec.ofBool (Y.slt 1536#32) = 1#1
    rw [BitVec.slt_eq_decide, hYi, e1536, decide_eq_true (by omega)]; rfl
  have h2 : IntOp.cmpi .sge (IntOp.addi Y dw) 0#32 = BitVec.ofBool (decide (8 ≤ n + ey)) := by
    show BitVec.ofBool ((0#32 : BitVec 32).sle (Y + dw)) = _
    rw [BitVec.sle_eq_decide, hZ, e0]
    exact congrArg BitVec.ofBool (decide_eq_decide.mpr (by omega))
  have h3 : IntOp.cmpi .slt (IntOp.addi Y dw) 1536#32 = BitVec.ofBool (decide (n + ey < 1544)) := by
    show BitVec.ofBool ((Y + dw).slt 1536#32) = _
    rw [BitVec.slt_eq_decide, hZ, e1536]
    exact congrArg BitVec.ofBool (decide_eq_decide.mpr (by omega))
  rw [h1, h2, h3]
  have one : (FloatOps.sitofp .f32 ((IntOp.andi (IntOp.andi 1#1 1#1) 1#1).setWidth 32) : Ideal .f32) = 1 := by
    show ((((1#32 : BitVec 32).toInt : ℤ) : ℝ) : EReal) = 1
    have : (1#32 : BitVec 32).toInt = 1 := by decide
    rw [this]; simp
  have zero : ∀ b : BitVec 1, b = 0#1 →
      (FloatOps.sitofp .f32 (b.setWidth 32) : Ideal .f32) = 0 := by
    intro b hb; subst hb
    show ((((0#32 : BitVec 32).toInt : ℤ) : ℝ) : EReal) = 0
    have : (0#32 : BitVec 32).toInt = 0 := by decide
    rw [this]; simp
  by_cases c2 : 8 ≤ n + ey <;> by_cases c3 : n + ey < 1544
  · rw [decide_eq_true c2, decide_eq_true c3, if_pos ⟨hn, c2, c3⟩]; exact one
  · rw [decide_eq_true c2, decide_eq_false c3, if_neg (fun h => c3 h.2.2)]; exact zero _ (by decide)
  · rw [decide_eq_false c2, decide_eq_true c3, if_neg (fun h => c2 h.2.1)]; exact zero _ (by decide)
  · rw [decide_eq_false c2, decide_eq_false c3, if_neg (fun h => c2 h.2.1)]; exact zero _ (by decide)

theorem mask_value (t : ℕ) (ht : t < 6) (hi : (⟨2, ![256, 1]⟩ : Shape).Iotas .tc 32 [0]) (hlt : 1 < 32)
    (dw : BitVec 32) (ey : ℕ) (hey : 6 ≤ ey ∧ ey ≤ 10) (hd : dw.toInt = (ey : ℤ) - 8) (r : Fin 256) :
    maskTerm (rowWords t hi) dw hlt (ix2 r (0 : Fin 1)) = Smooth.maskv t r.val ey :=
  maskWord_value (rowWords t hi (ix2 r (0 : Fin 1))) dw (256 * t + r.val) ey (rowWords_apply t ht hi r)
    (by have := r.isLt; omega) hey hd

end Mask

section Load
variable {sig : RefSig} {κ : Kind} {sp : Space} {Val : EltTy → Type} [∀ e, Nonempty (Val e)] {w : ℕ}

theorem load_value (v : View sig κ sp ⟨3, ![3, 272, 2048]⟩ .f32)
    (G : (Rect.whole ⟨3, ![3, 272, 2048]⟩).shape.Idx → Val .f32) (off : Fin 3 → ℕ)
    (inb : ∀ a, off a + (⟨3, ![1, 256, w]⟩ : Shape).size a ≤ (⟨3, ![3, 272, 2048]⟩ : Shape).size a)
    (r : Fin 256) (x : Fin w) (c : Fin 3) (r' : Fin 272) (x' : Fin 2048)
    (hc : c.val = off 0) (hr : r'.val = off 1 + r.val) (hx : x'.val = off 2 + x.val) :
    v.readCov [(⟨Rect.whole ⟨3, ![3, 272, 2048]⟩, G⟩ : View.Piece Val ⟨3, ![3, 272, 2048]⟩ .f32)]
        (Rect.unit (s := ⟨3, ![3, 272, 2048]⟩) off (⟨3, ![1, 256, w]⟩ : Shape).size inb).toLoadRect (ix3 (0 : Fin 1) r x)
      = G (ix3 c r' x') := by
  rw [View.readCov_eq_canon']
  have hidx : (Rect.unit (s := ⟨3, ![3, 272, 2048]⟩) off (⟨3, ![1, 256, w]⟩ : Shape).size inb).toLoadRect.idx (ix3 (0 : Fin 1) r x)
      = (Rect.whole ⟨3, ![3, 272, 2048]⟩).emb (ix3 c r' x') := by
    rw [Rect.emb_whole_apply]
    funext a
    refine Fin.ext ?_
    match a with
    | ⟨0, _⟩ => show off 0 + 1 * 0 = c.val; omega
    | ⟨1, _⟩ => show off 1 + 1 * r.val = r'.val; omega
    | ⟨2, _⟩ => show off 2 + 1 * x.val = x'.val; omega
  show View.canon _ ((Rect.unit (s := ⟨3, ![3, 272, 2048]⟩) off (⟨3, ![1, 256, w]⟩ : Shape).size inb).toLoadRect.idx (ix3 (0 : Fin 1) r x)) = _
  rw [hidx]
  exact View.canon_cons_emb (Rect.whole ⟨3, ![3, 272, 2048]⟩) G [] (ix3 c r' x')

end Load

section LoadImg
variable {sig : RefSig} {κ : Kind} {sp : Space} {w : ℕ}

theorem load_img3b (v : View sig κ sp ⟨3, ![3, 272, 2048]⟩ .f32)
    (Bk : (Rect.whole ⟨3, ![3, 272, 2048]⟩).shape.Idx → Elt Ideal .f32) (c r0 x0 : ℕ)
    (inb : ∀ a, (![c, r0, x0] : Fin 3 → ℕ) a + (⟨3, ![1, 256, w]⟩ : Shape).size a ≤ (⟨3, ![3, 272, 2048]⟩ : Shape).size a)
    (r : Fin 256) (x : Fin w) :
    v.readCov [(⟨Rect.whole ⟨3, ![3, 272, 2048]⟩, Bk⟩ : View.Piece (Elt Ideal) ⟨3, ![3, 272, 2048]⟩ .f32)]
        (Rect.unit (s := ⟨3, ![3, 272, 2048]⟩) ![c, r0, x0] (⟨3, ![1, 256, w]⟩ : Shape).size inb).toLoadRect (ix3 (0 : Fin 1) r x)
      = Smooth.img3b Bk c (r.val + r0) (x.val + x0) := by
  have h0 : c + 1 ≤ 3 := inb 0
  have h1 : r0 + 256 ≤ 272 := inb 1
  have h2 : x0 + w ≤ 2048 := inb 2
  have hr := r.isLt
  have hx := x.isLt
  have hb : c < 3 ∧ r.val + r0 < 272 ∧ x.val + x0 < 2048 := ⟨by omega, by omega, by omega⟩
  unfold Smooth.img3b
  rw [dif_pos hb]
  exact load_value v Bk ![c, r0, x0] inb r x ⟨c, hb.1⟩ ⟨r.val + r0, hb.2.1⟩ ⟨x.val + x0, hb.2.2⟩ rfl
    (Nat.add_comm _ _) (Nat.add_comm _ _)

end LoadImg

section Block
variable {w : ℕ}
variable (a0 b0 a1 b1 a2 b2 : Vec Ideal ⟨3, ![1, 256, w]⟩ .f32) (mk : FVec Ideal ⟨2, ![256, 1]⟩ .f32)
    (hc : (⟨3, ![1, 256, w]⟩ : Shape).ShapeCasts ⟨2, ![256, w]⟩)
    (hc' : (⟨2, ![256, w]⟩ : Shape).ShapeCasts ⟨3, ![1, 256, w]⟩)
    (hb : (⟨2, ![256, 1]⟩ : Shape).Broadcasts ⟨2, ![256, w]⟩)
    (hr : (⟨3, ![1, 256, w]⟩ : Shape).Reduces [1, 2] ⟨1, ![1]⟩)
    (hc1 : (⟨1, ![1]⟩ : Shape).ShapeCasts ⟨3, ![1, 1, 1]⟩)
    (hp : ∀ a, (![0, 0, 0] : Fin 3 → Nat) a < (⟨3, ![1, 1, 1]⟩ : Shape).size a)
    (hφ : FKind.Formats .f32) (hacc : (0x00000000#32 : BitVec 32) = FKind.add.neutral .f32 hφ)

set_option maxHeartbeats 400000 in
theorem dirW_kWb (B : Smooth.Img) (t ey ax bx : ℕ)
    (hA : ∀ (c : Fin 3) (r : Fin 256) (x : Fin w), (![a0, a1, a2] c) (ix3 (0 : Fin 1) r x) = B c (r.val + 8) (x.val + ax))
    (hB : ∀ (c : Fin 3) (r : Fin 256) (x : Fin w), (![b0, b1, b2] c) (ix3 (0 : Fin 1) r x) = B c (r.val + ey) (x.val + bx))
    (hmk : ∀ r : Fin 256, mk (ix2 r (0 : Fin 1)) = Smooth.maskv t r.val ey) :
    dirWTerm a0 b0 a1 b1 a2 b2 mk hc hc' hb hr hc1 hp hφ hacc (ix2 (0 : Fin 1) (0 : Fin 1))
      = Smooth.kWb B t ey ax bx w := by
  rw [dirW_value]
  unfold Smooth.kWb Smooth.sqd
  refine Finset.sum_congr rfl fun r _ => Finset.sum_congr rfl fun x _ => ?_
  rw [hmk r]
  refine congrArg (fun z => Ideal.exp (z * Smooth.sigma) * Smooth.maskv t r.val ey) ?_
  exact Finset.sum_congr rfl fun c _ => by rw [hA c r x, hB c r x]

set_option maxHeartbeats 400000 in
theorem dirN_kNb (B : Smooth.Img) (t ey ax bx : ℕ)
    (hA : ∀ (c : Fin 3) (r : Fin 256) (x : Fin w), (![a0, a1, a2] c) (ix3 (0 : Fin 1) r x) = B c (r.val + 8) (x.val + ax))
    (hB : ∀ (c : Fin 3) (r : Fin 256) (x : Fin w), (![b0, b1, b2] c) (ix3 (0 : Fin 1) r x) = B c (r.val + ey) (x.val + bx))
    (hmk : ∀ r : Fin 256, mk (ix2 r (0 : Fin 1)) = Smooth.maskv t r.val ey) :
    dirNTerm a0 b0 a1 b1 a2 b2 mk hc hc' hb hr hc1 hp hφ hacc (ix2 (0 : Fin 1) (0 : Fin 1))
      = Smooth.kNb B t ey ax bx w := by
  rw [dirN_value]
  unfold Smooth.kNb Smooth.abd
  refine Finset.sum_congr rfl fun r _ => Finset.sum_congr rfl fun x _ => ?_
  rw [hmk r]
  refine congrArg (fun z => z * Smooth.maskv t r.val ey) ?_
  exact Finset.sum_congr rfl fun c _ => by rw [hA c r x, hB c r x]

end Block

section Assembled
variable {sig : RefSig} {κ : Kind} {sp : Space} {w : ℕ}

abbrev blockLd (v : View sig κ sp ⟨3, ![3, 272, 2048]⟩ .f32)
    (Bk : (Rect.whole ⟨3, ![3, 272, 2048]⟩).shape.Idx → Elt Ideal .f32) (off : Fin 3 → ℕ)
    (inb : ∀ a, off a + (⟨3, ![1, 256, w]⟩ : Shape).size a ≤ (⟨3, ![3, 272, 2048]⟩ : Shape).size a) :
    Vec Ideal ⟨3, ![1, 256, w]⟩ .f32 :=
  v.readCov [(⟨Rect.whole ⟨3, ![3, 272, 2048]⟩, Bk⟩ : View.Piece (Elt Ideal) ⟨3, ![3, 272, 2048]⟩ .f32)]
    (Rect.unit (s := ⟨3, ![3, 272, 2048]⟩) off (⟨3, ![1, 256, w]⟩ : Shape).size inb).toLoadRect

variable (v : View sig κ sp ⟨3, ![3, 272, 2048]⟩ .f32)
    (Bk : (Rect.whole ⟨3, ![3, 272, 2048]⟩).shape.Idx → Elt Ideal .f32) (t ey ax bx : ℕ)
    (i0a : ∀ a, (![0, 8, ax] : Fin 3 → ℕ) a + (⟨3, ![1, 256, w]⟩ : Shape).size a ≤ (⟨3, ![3, 272, 2048]⟩ : Shape).size a)
    (i0b : ∀ a, (![0, ey, bx] : Fin 3 → ℕ) a + (⟨3, ![1, 256, w]⟩ : Shape).size a ≤ (⟨3, ![3, 272, 2048]⟩ : Shape).size a)
    (i1a : ∀ a, (![1, 8, ax] : Fin 3 → ℕ) a + (⟨3, ![1, 256, w]⟩ : Shape).size a ≤ (⟨3, ![3, 272, 2048]⟩ : Shape).size a)
    (i1b : ∀ a, (![1, ey, bx] : Fin 3 → ℕ) a + (⟨3, ![1, 256, w]⟩ : Shape).size a ≤ (⟨3, ![3, 272, 2048]⟩ : Shape).size a)
    (i2a : ∀ a, (![2, 8, ax] : Fin 3 → ℕ) a + (⟨3, ![1, 256, w]⟩ : Shape).size a ≤ (⟨3, ![3, 272, 2048]⟩ : Shape).size a)
    (i2b : ∀ a, (![2, ey, bx] : Fin 3 → ℕ) a + (⟨3, ![1, 256, w]⟩ : Shape).size a ≤ (⟨3, ![3, 272, 2048]⟩ : Shape).size a)
    (mk : FVec Ideal ⟨2, ![256, 1]⟩ .f32)
    (hc : (⟨3, ![1, 256, w]⟩ : Shape).ShapeCasts ⟨2, ![256, w]⟩)
    (hc' : (⟨2, ![256, w]⟩ : Shape).ShapeCasts ⟨3, ![1, 256, w]⟩)
    (hb : (⟨2, ![256, 1]⟩ : Shape).Broadcasts ⟨2, ![256, w]⟩)
    (hr : (⟨3, ![1, 256, w]⟩ : Shape).Reduces [1, 2] ⟨1, ![1]⟩)
    (hc1 : (⟨1, ![1]⟩ : Shape).ShapeCasts ⟨3, ![1, 1, 1]⟩)
    (hp : ∀ a, (![0, 0, 0] : Fin 3 → Nat) a < (⟨3, ![1, 1, 1]⟩ : Shape).size a)
    (hφ : FKind.Formats .f32) (hacc : (0x00000000#32 : BitVec 32) = FKind.add.neutral .f32 hφ)

set_option maxHeartbeats 400000 in
theorem dirW_block (hmk : ∀ r : Fin 256, mk (ix2 r (0 : Fin 1)) = Smooth.maskv t r.val ey) :
    dirWTerm (blockLd v Bk ![0, 8, ax] i0a) (blockLd v Bk ![0, ey, bx] i0b) (blockLd v Bk ![1, 8, ax] i1a)
        (blockLd v Bk ![1, ey, bx] i1b) (blockLd v Bk ![2, 8, ax] i2a) (blockLd v Bk ![2, ey, bx] i2b)
        mk hc hc' hb hr hc1 hp hφ hacc (ix2 (0 : Fin 1) (0 : Fin 1))
      = Smooth.kWb (Smooth.img3b Bk) t ey ax bx w :=
  dirW_kWb _ _ _ _ _ _ mk hc hc' hb hr hc1 hp hφ hacc (Smooth.img3b Bk) t ey ax bx
    (fun c r x => match c with
      | ⟨0, _⟩ => load_img3b v Bk 0 8 ax i0a r x
      | ⟨1, _⟩ => load_img3b v Bk 1 8 ax i1a r x
      | ⟨2, _⟩ => load_img3b v Bk 2 8 ax i2a r x)
    (fun c r x => match c with
      | ⟨0, _⟩ => load_img3b v Bk 0 ey bx i0b r x
      | ⟨1, _⟩ => load_img3b v Bk 1 ey bx i1b r x
      | ⟨2, _⟩ => load_img3b v Bk 2 ey bx i2b r x)
    hmk

set_option maxHeartbeats 400000 in
theorem dirN_block (hmk : ∀ r : Fin 256, mk (ix2 r (0 : Fin 1)) = Smooth.maskv t r.val ey) :
    dirNTerm (blockLd v Bk ![0, 8, ax] i0a) (blockLd v Bk ![0, ey, bx] i0b) (blockLd v Bk ![1, 8, ax] i1a)
        (blockLd v Bk ![1, ey, bx] i1b) (blockLd v Bk ![2, 8, ax] i2a) (blockLd v Bk ![2, ey, bx] i2b)
        mk hc hc' hb hr hc1 hp hφ hacc (ix2 (0 : Fin 1) (0 : Fin 1))
      = Smooth.kNb (Smooth.img3b Bk) t ey ax bx w :=
  dirN_kNb _ _ _ _ _ _ mk hc hc' hb hr hc1 hp hφ hacc (Smooth.img3b Bk) t ey ax bx
    (fun c r x => match c with
      | ⟨0, _⟩ => load_img3b v Bk 0 8 ax i0a r x
      | ⟨1, _⟩ => load_img3b v Bk 1 8 ax i1a r x
      | ⟨2, _⟩ => load_img3b v Bk 2 8 ax i2a r x)
    (fun c r x => match c with
      | ⟨0, _⟩ => load_img3b v Bk 0 ey bx i0b r x
      | ⟨1, _⟩ => load_img3b v Bk 1 ey bx i1b r x
      | ⟨2, _⟩ => load_img3b v Bk 2 ey bx i2b r x)
    hmk

end Assembled

end Cert.KernelIdeal.Hand
end
-- ==== Proof.KI.EntryVal.lean ====
import proofs.«143054_j12300786336339_1_alg».proof.Proof.KI.Entries1
import proofs.«143054_j12300786336339_1_alg».proof.Proof.KI.Entries2
import proofs.«143054_j12300786336339_1_alg».proof.Proof.KI.Entries3
import proofs.«143054_j12300786336339_1_alg».proof.Proof.KI.Entries4
import proofs.«143054_j12300786336339_1_alg».proof.Proof.KI.DirValue2

set_option maxRecDepth 16384
noncomputable section
namespace Cert.KernelIdeal.Hand
open Cert.KernelIdeal Cert.KernelIdeal.Gen
open Idealize.ShloMosaic Idealize.SL.Sem

/-- The common arithmetic forms are, by unfolding, the forms the block lemmas read. -/
theorem nfW_eq_dirWTerm (w : ℕ) (hc : (S3w w).ShapeCasts (S2w w)) (hc' : (S2w w).ShapeCasts (S3w w)) (hb : S256x1.Broadcasts (S2w w))
    (hr : (S3w w).Reduces [1, 2] S1) (mask : FVec Ideal S256x1 .f32) (a0 b0 a1 b1 a2 b2 : Vec Ideal (S3w w) .f32) :
    nfW w hc hc' hb hr mask a0 b0 a1 b1 a2 b2 =
      dirWTerm a0 b0 a1 b1 a2 b2 mask hc hc' hb hr shapeCasts_S1_S1x1x1 inpos_S1x1x1_p0_0_0 (.inl rfl) rfl := rfl
theorem nfN_eq_dirNTerm (w : ℕ) (hc : (S3w w).ShapeCasts (S2w w)) (hc' : (S2w w).ShapeCasts (S3w w)) (hb : S256x1.Broadcasts (S2w w))
    (hr : (S3w w).Reduces [1, 2] S1) (mask : FVec Ideal S256x1 .f32) (a0 b0 a1 b1 a2 b2 : Vec Ideal (S3w w) .f32) :
    nfN w hc hc' hb hr mask a0 b0 a1 b1 a2 b2 =
      dirNTerm a0 b0 a1 b1 a2 b2 mask hc hc' hb hr shapeCasts_S1_S1x1x1 inpos_S1x1x1_p0_0_0 (.inl rfl) rfl := rfl

theorem nfMask_value (i : grid0.Coords) (hi : (i 0).val < 6) (dw : BitVec 32) (ey : ℕ) (hey : 6 ≤ ey ∧ ey ≤ 10)
    (hd : dw.toInt = (ey : ℤ) - 8) (r : Fin 256) :
    nfMask (F := Ideal) (k0_pay3 i) dw (ValueIdx.ix2 r (0 : Fin 1)) = Smooth.maskv (i 0).val r.val ey :=
  mask_value (i 0).val hi iota_S256x1_d0_w32 natLt_1_32 dw ey hey hd r

/-- a 256-row, w-column rectangle at channel ch, row y ≤ 16, column x with x + w ≤ 2048 lies inside a 272-row block -/
theorem inb_of {w ch y x : ℕ} (hch : ch < 3) (hy : y ≤ 16) (hx : x + w ≤ 2048) :
    ∀ a, (![ch, y, x] : Fin 3 → ℕ) a + (⟨3, ![1, 256, w]⟩ : Shape).size a ≤ (⟨3, ![3, 272, 2048]⟩ : Shape).size a
  | ⟨0, _⟩ => by show ch + 1 ≤ 3; omega
  | ⟨1, _⟩ => by show y + 256 ≤ 272; omega
  | ⟨2, _⟩ => hx

/-- a function of six rectangles at the rectangles of block `Bk` that a displacement selects: for each channel the rows
    from 8 and columns from ax, against the rows from ey and columns from bx -/
abbrev at6 (w : ℕ) (g : (a0 b0 a1 b1 a2 b2 : Vec Ideal (S3w w) .f32) → FVec Ideal S1x1 .f32) {κ : Kind} {sp : Space}
    (v : View sig κ sp S3x272x2048 .f32) (Bk : (Rect.whole S3x272x2048).shape.Idx → Elt Ideal .f32) (ey ax bx : ℕ)
    (hey : ey ≤ 16 := by decide) (hax : ax + w ≤ 2048 := by decide) (hbx : bx + w ≤ 2048 := by decide) : FVec Ideal S1x1 .f32 :=
  g (blockLd v Bk ![0, 8, ax] (inb_of (by decide) (by decide) hax)) (blockLd v Bk ![0, ey, bx] (inb_of (by decide) hey hbx))
    (blockLd v Bk ![1, 8, ax] (inb_of (by decide) (by decide) hax)) (blockLd v Bk ![1, ey, bx] (inb_of (by decide) hey hbx))
    (blockLd v Bk ![2, 8, ax] (inb_of (by decide) (by decide) hax)) (blockLd v Bk ![2, ey, bx] (inb_of (by decide) hey hbx))

section
variable (i : grid0.Coords) (hi : (i 0).val < 6) (w : ℕ) {hc : (S3w w).ShapeCasts (S2w w)} {hc' : (S2w w).ShapeCasts (S3w w)}
  {hb : S256x1.Broadcasts (S2w w)} {hr : (S3w w).Reduces [1, 2] S1} (dw : BitVec 32) (ey ax bx : ℕ) (hey : 6 ≤ ey ∧ ey ≤ 10)
  (hd : dw.toInt = (ey : ℤ) - 8) {κ : Kind} {sp : Space} (v : View sig κ sp S3x272x2048 .f32)
  (Bk : (Rect.whole S3x272x2048).shape.Idx → Elt Ideal .f32)
  (f : (a0 b0 a1 b1 a2 b2 : Vec Ideal (S3w w) .f32) → FVec Ideal S1x1 .f32)
include hi hey hd

/-- A function that is the weights' common form, at a block's six rectangles, is that block's weight sum for the
    displacement: the form is the stencil's term and the mask is the row test. -/
theorem entryW_val (hf : ∀ a0 b0 a1 b1 a2 b2, f a0 b0 a1 b1 a2 b2 = nfW w hc hc' hb hr (nfMask (k0_pay3 i) dw) a0 b0 a1 b1 a2 b2)
    (h1 : ey ≤ 16 := by decide) (h2 : ax + w ≤ 2048 := by decide) (h3 : bx + w ≤ 2048 := by decide) :
    at6 w f v Bk ey ax bx h1 h2 h3 (ValueIdx.ix2 (0 : Fin 1) (0 : Fin 1)) = Smooth.kWb (Smooth.img3b Bk) (i 0).val ey ax bx w :=
  (congrFun ((hf ..).trans (nfW_eq_dirWTerm w _ _ _ _ _ _ _ _ _ _ _)) _).trans
    (dirW_block v Bk (i 0).val ey ax bx _ _ _ _ _ _ _ _ _ _ _ _ _ _ _ (nfMask_value i hi dw ey hey hd))

/-- The same for the absolute differences. -/
theorem entryN_val (hf : ∀ a0 b0 a1 b1 a2 b2, f a0 b0 a1 b1 a2 b2 = nfN w hc hc' hb hr (nfMask (k0_pay3 i) dw) a0 b0 a1 b1 a2 b2)
    (h1 : ey ≤ 16 := by decide) (h2 : ax + w ≤ 2048 := by decide) (h3 : bx + w ≤ 2048 := by decide) :
    at6 w f v Bk ey ax bx h1 h2 h3 (ValueIdx.ix2 (0 : Fin 1) (0 : Fin 1)) = Smooth.kNb (Smooth.img3b Bk) (i 0).val ey ax bx w :=
  (congrFun ((hf ..).trans (nfN_eq_dirNTerm w _ _ _ _ _ _ _ _ _ _ _)) _).trans
    (dirN_block v Bk (i 0).val ey ax bx _ _ _ _ _ _ _ _ _ _ _ _ _ _ _ (nfMask_value i hi dw ey hey hd))
end

end Cert.KernelIdeal.Hand
end
-- ==== Proof.KI.Shares.lean ====
import proofs.«143054_j12300786336339_1_alg».proof.Proof.KI.Pieces
import proofs.«143054_j12300786336339_1_alg».proof.Proof.KI.Kit
import proofs.«143054_j12300786336339_1_alg».proof.Proof.KI.Prefix
import proofs.«143054_j12300786336339_1_alg».proof.Proof.KI.EntryVal
import Idealize.ShloMosaic.Lib.Pipeline.Value
import Idealize.ShloMosaic.Lib.ValueIdx

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

open Idealize.ShloMosaic.ValueIdx Idealize.ShloMosaic.StableHlo

theorem concat_units_apply {α : Type} {t : Shape} (a : Fin t.rank) (s₁ : Shape) (L : List (s₁.Idx → α))
    (h : Shape.Concatenates ((L.map fun v => (⟨s₁, v⟩ : (s : Shape) × (s.Idx → α))).map (·.1)) t a)
    (hr : s₁.rank = t.rank) (h1 : s₁.size (a.cast hr.symm) = 1) (j : t.Idx) (k : Nat) (hk : k < L.length)
    (hj : (j a).val = k) (i : s₁.Idx) (hi : ∀ b : Fin s₁.rank, b.cast hr ≠ a → (i b).val = (j (b.cast hr)).val)
    (hia : (i (a.cast hr.symm)).val = 0) :
    concatenate t a (L.map fun v => (⟨s₁, v⟩ : (s : Shape) × (s.Idx → α))) h j = L[k] i := by
  refine concatenate_apply_piece a _ h j k (by simpa using hk) s₁ (L[k]) (by simp) hr k ?_ i hi (by omega)
  rw [← List.map_take, List.map_map, List.map_map]
  have : ∀ M : List (s₁.Idx → α), (List.map ((fun s : Shape => if h : s.rank = t.rank then s.size (a.cast h.symm) else 0) ∘ (fun x : (s : Shape) × (s.Idx → α) => x.1) ∘ fun v => (⟨s₁, v⟩ : (s : Shape) × (s.Idx → α))) M).sum = M.length := by
    intro M
    induction M with
    | nil => rfl
    | cons x M ih => simp only [List.map_cons, List.sum_cons, List.length_cons, ih, Function.comp, dif_pos hr, h1]; omega
  have e := this (List.take k L)
  rw [List.length_take, Nat.min_eq_left (Nat.le_of_lt hk)] at e
  exact e

theorem coords_val : ∀ t : Fin cfg0.N, ((grid0.coords t) 0).val = t.val := by decide +kernel

theorem kWb_congr (B B' : Smooth.Img) (t ey ax bx w : ℕ) (hey : ey ≤ 16) (h : ∀ c y x, y < 272 → B c y x = B' c y x) :
    Smooth.kWb B t ey ax bx w = Smooth.kWb B' t ey ax bx w := by
  unfold Smooth.kWb Smooth.sqd
  refine Finset.sum_congr rfl fun r _ => Finset.sum_congr rfl fun x _ => ?_
  have hr := r.isLt
  have e1 : ∀ c : Fin 3, B c (r.val + 8) (x.val + ax) = B' c (r.val + 8) (x.val + ax) := fun c => h _ _ _ (by omega)
  have e2 : ∀ c : Fin 3, B c (r.val + ey) (x.val + bx) = B' c (r.val + ey) (x.val + bx) := fun c => h _ _ _ (by omega)
  simp only [e1, e2]

theorem kNb_congr (B B' : Smooth.Img) (t ey ax bx w : ℕ) (hey : ey ≤ 16) (h : ∀ c y x, y < 272 → B c y x = B' c y x) :
    Smooth.kNb B t ey ax bx w = Smooth.kNb B' t ey ax bx w := by
  unfold Smooth.kNb Smooth.abd
  refine Finset.sum_congr rfl fun r _ => Finset.sum_congr rfl fun x _ => ?_
  have hr := r.isLt
  have e1 : ∀ c : Fin 3, B c (r.val + 8) (x.val + ax) = B' c (r.val + 8) (x.val + ax) := fun c => h _ _ _ (by omega)
  have e2 : ∀ c : Fin 3, B c (r.val + ey) (x.val + bx) = B' c (r.val + ey) (x.val + bx) := fun c => h _ _ _ (by omega)
  simp only [e1, e2]

abbrev blk0 (c : Dev nD) (i : grid0.Coords) (fh : HbBuf0 (F := Ideal) c hbM0_0) : S3x272x2048.Idx → EReal :=
  View.read (Elt Ideal) (hbM0_0.slice (Rect.unit (s := S3x1552x2048) (k0_off1 i) S3x272x2048.size (k0_off1_inb i)) (fun _ => rfl)).view fh

abbrev blk1 (c : Dev nD) (i : grid0.Coords) (fh : HbBuf0 (F := Ideal) c hbM0_1) : S3x272x2048.Idx → EReal :=
  View.read (Elt Ideal) (hbM0_1.slice (Rect.unit (s := S3x1552x2048) (k0_off1 i) S3x272x2048.size (k0_off1_inb i)) (fun _ => rfl)).view fh

theorem blockW_share (c : Dev nD) (t : Fin cfg0.N) (Y : Smooth.Img) (fh : HbBuf0 (F := Ideal) c hbM0_0)
    (hfh : Smooth.img3p (fh : S3x1552x2048.Idx → EReal) = Smooth.padded Y) (ey ax bx w : ℕ) (hey : ey ≤ 16) :
    Smooth.kWb (Smooth.img3b (blk0 c (grid0.coords t) fh)) ((grid0.coords t) 0).val ey ax bx w = Smooth.kW (Smooth.padded Y) t.val ey ax bx w := by
  unfold Smooth.kW
  rw [← hfh, ← coords_val t]
  exact kWb_congr _ _ _ _ _ _ _ hey (fun ch y x hy => block_img0 c (grid0.coords t) fh ch y x hy)

theorem blockN_share (c : Dev nD) (t : Fin cfg0.N) (O : Smooth.Img) (fh : HbBuf0 (F := Ideal) c hbM0_1)
    (hfh : Smooth.img3p (fh : S3x1552x2048.Idx → EReal) = Smooth.padded O) (ey ax bx w : ℕ) (hey : ey ≤ 16) :
    Smooth.kNb (Smooth.img3b (blk1 c (grid0.coords t) fh)) ((grid0.coords t) 0).val ey ax bx w = Smooth.kN (Smooth.padded O) t.val ey ax bx w := by
  unfold Smooth.kN
  rw [← hfh, ← coords_val t]
  exact kNb_congr _ _ _ _ _ _ _ hey (fun ch y x hy => block_img1 c (grid0.coords t) fh ch y x hy)

section
variable (c : Dev nD) (t : Fin cfg0.N) (hi : ((grid0.coords t) 0).val < 6) (w : ℕ) {hc : (S3w w).ShapeCasts (S2w w)}
  {hc' : (S2w w).ShapeCasts (S3w w)} {hb : S256x1.Broadcasts (S2w w)} {hr : (S3w w).Reduces [1, 2] S1} (dw : BitVec 32) (ey ax bx : ℕ)
  (hey : 6 ≤ ey ∧ ey ≤ 10) (hd : dw.toInt = (ey : ℤ) - 8) (X : Smooth.Img)
  (f : (a0 b0 a1 b1 a2 b2 : Vec Ideal (S3w w) .f32) → FVec Ideal S1x1 .f32)
include hi hey hd

/-- a function that is the weights' common form, at the first scratch block's rectangles at point t, is point t's share
    of the weight sum -/
theorem entryW_share (fh : HbBuf0 (F := Ideal) c hbM0_0) (hfh : Smooth.img3p (fh : S3x1552x2048.Idx → EReal) = Smooth.padded X)
    (hf : ∀ a0 b0 a1 b1 a2 b2, f a0 b0 a1 b1 a2 b2 = nfW w hc hc' hb hr (nfMask (k0_pay3 (grid0.coords t)) dw) a0 b0 a1 b1 a2 b2)
    (h1 : ey ≤ 16 := by decide) (h2 : ax + w ≤ 2048 := by decide) (h3 : bx + w ≤ 2048 := by decide) :
    at6 w f scM0_0.view (blk0 c (grid0.coords t) fh) ey ax bx h1 h2 h3 (ix2 0 0) = Smooth.kW (Smooth.padded X) t.val ey ax bx w :=
  (entryW_val _ hi w dw ey ax bx hey hd _ _ f hf h1 h2 h3).trans (blockW_share c t X fh hfh ey ax bx w h1)

/-- the same for the absolute differences over the second scratch block -/
theorem entryN_share (fh : HbBuf0 (F := Ideal) c hbM0_1) (hfh : Smooth.img3p (fh : S3x1552x2048.Idx → EReal) = Smooth.padded X)
    (hf : ∀ a0 b0 a1 b1 a2 b2, f a0 b0 a1 b1 a2 b2 = nfN w hc hc' hb hr (nfMask (k0_pay3 (grid0.coords t)) dw) a0 b0 a1 b1 a2 b2)
    (h1 : ey ≤ 16 := by decide) (h2 : ax + w ≤ 2048 := by decide) (h3 : bx + w ≤ 2048 := by decide) :
    at6 w f scM0_1.view (blk1 c (grid0.coords t) fh) ey ax bx h1 h2 h3 (ix2 0 0) = Smooth.kN (Smooth.padded X) t.val ey ax bx w :=
  (entryN_val _ hi w dw ey ax bx hey hd _ _ f hf h1 h2 h3).trans (blockN_share c t X fh hfh ey ax bx w h1)
end

def entries48 (c : Dev nD) (i : grid0.Coords) (fh0 : HbBuf0 (F := Ideal) c hbM0_0) (fh1 : HbBuf0 (F := Ideal) c hbM0_1) :
    List (S1x1.Idx → EReal) :=
  [ at6 2046 (entryW_0 i) scM0_0.view (blk0 c i fh0) 6 2 0,
    at6 2046 (entryN_0 i) scM0_1.view (blk1 c i fh1) 6 2 0,
    at6 2047 (entryW_1 i) scM0_0.view (blk0 c i fh0) 6 1 0,
    at6 2047 (entryN_1 i) scM0_1.view (blk1 c i fh1) 6 1 0,
    at6 2048 (entryW_2 i) scM0_0.view (blk0 c i fh0) 6 0 0,
    at6 2048 (entryN_2 i) scM0_1.view (blk1 c i fh1) 6 0 0,
    at6 2047 (entryW_3 i) scM0_0.view (blk0 c i fh0) 6 0 1,
    at6 2047 (entryN_3 i) scM0_1.view (blk1 c i fh1) 6 0 1,
    at6 2046 (entryW_4 i) scM0_0.view (blk0 c i fh0) 6 0 2,
    at6 2046 (entryN_4 i) scM0_1.view (blk1 c i fh1) 6 0 2,
    at6 2046 (entryW_5 i) scM0_0.view (blk0 c i fh0) 7 2 0,
    at6 2046 (entryN_5 i) scM0_1.view (blk1 c i fh1) 7 2 0,
    at6 2047 (entryW_6 i) scM0_0.view (blk0 c i fh0) 7 1 0,
    at6 2047 (entryN_6 i) scM0_1.view (blk1 c i fh1) 7 1 0,
    at6 2048 (entryW_7 i) scM0_0.view (blk0 c i fh0) 7 0 0,
    at6 2048 (entryN_7 i) scM0_1.view (blk1 c i fh1) 7 0 0,
    at6 2047 (entryW_8 i) scM0_0.view (blk0 c i fh0) 7 0 1,
    at6 2047 (entryN_8 i) scM0_1.view (blk1 c i fh1) 7 0 1,
    at6 2046 (entryW_9 i) scM0_0.view (blk0 c i fh0) 7 0 2,
    at6 2046 (entryN_9 i) scM0_1.view (blk1 c i fh1) 7 0 2,
    at6 2046 (entryW_10 i) scM0_0.view (blk0 c i fh0) 8 2 0,
    at6 2046 (entryN_10 i) scM0_1.view (blk1 c i fh1) 8 2 0,
    at6 2047 (entryW_11 i) scM0_0.view (blk0 c i fh0) 8 1 0,
    at6 2047 (entryN_11 i) scM0_1.view (blk1 c i fh1) 8 1 0,
    at6 2047 (entryW_12 i) scM0_0.view (blk0 c i fh0) 8 0 1,
    at6 2047 (entryN_12 i) scM0_1.view (blk1 c i fh1) 8 0 1,
    at6 2046 (entryW_13 i) scM0_0.view (blk0 c i fh0) 8 0 2,
    at6 2046 (entryN_13 i) scM0_1.view (blk1 c i fh1) 8 0 2,
    at6 2046 (entryW_14 i) scM0_0.view (blk0 c i fh0) 9 2 0,
    at6 2046 (entryN_14 i) scM0_1.view (blk1 c i fh1) 9 2 0,
    at6 2047 (entryW_15 i) scM0_0.view (blk0 c i fh0) 9 1 0,
    at6 2047 (entryN_15 i) scM0_1.view (blk1 c i fh1) 9 1 0,
    at6 2048 (entryW_16 i) scM0_0.view (blk0 c i fh0) 9 0 0,
    at6 2048 (entryN_16 i) scM0_1.view (blk1 c i fh1) 9 0 0,
    at6 2047 (entryW_17 i) scM0_0.view (blk0 c i fh0) 9 0 1,
    at6 2047 (entryN_17 i) scM0_1.view (blk1 c i fh1) 9 0 1,
    at6 2046 (entryW_18 i) scM0_0.view (blk0 c i fh0) 9 0 2,
    at6 2046 (entryN_18 i) scM0_1.view (blk1 c i fh1) 9 0 2,
    at6 2046 (entryW_19 i) scM0_0.view (blk0 c i fh0) 10 2 0,
    at6 2046 (entryN_19 i) scM0_1.view (blk1 c i fh1) 10 2 0,
    at6 2047 (entryW_20 i) scM0_0.view (blk0 c i fh0) 10 1 0,
    at6 2047 (entryN_20 i) scM0_1.view (blk1 c i fh1) 10 1 0,
    at6 2048 (entryW_21 i) scM0_0.view (blk0 c i fh0) 10 0 0,
    at6 2048 (entryN_21 i) scM0_1.view (blk1 c i fh1) 10 0 0,
    at6 2047 (entryW_22 i) scM0_0.view (blk0 c i fh0) 10 0 1,
    at6 2047 (entryN_22 i) scM0_1.view (blk1 c i fh1) 10 0 1,
    at6 2046 (entryW_23 i) scM0_0.view (blk0 c i fh0) 10 0 2,
    at6 2046 (entryN_23 i) scM0_1.view (blk1 c i fh1) 10 0 2 ]

set_option maxHeartbeats 1000000 in
theorem vec48_concat (c : Dev nD) (i : grid0.Coords) (fh0 : HbBuf0 (F := Ideal) c hbM0_0) (fh1 : HbBuf0 (F := Ideal) c hbM0_1) :
    vec48 (F := Ideal) c i fh0 fh1
      = concatenate S1x48 1 ((entries48 c i fh0 fh1).map fun v => (⟨S1x1, v⟩ : (s : Shape) × (s.Idx → EReal)))
          concatenates_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x1_S1x48_d1 := by
  unfold vec48
  sl_unfold_run_names
  refine (pay182_eq _ _ _ _ _ _ _ _ _ _ _ _ _ _ _ _ _ _ _ _ _ _ _ _ _ _ _ _ _ _ _ _ _ _ _ _ _ _ _ _ _ _ _ _ _ _ _ _ _ _ _ _ _ _ _).trans ?_
  rfl

theorem vec48_apply (c : Dev nD) (i : grid0.Coords) (fh0 : HbBuf0 (F := Ideal) c hbM0_0) (fh1 : HbBuf0 (F := Ideal) c hbM0_1) (j : Fin 48) :
    (vec48 (F := Ideal) c i fh0 fh1 : S1x48.Idx → EReal) (ix2 0 j) = ((entries48 c i fh0 fh1)[j.val]'j.isLt) (ix2 0 0) := by
  rw [vec48_concat]
  exact concat_units_apply (t := S1x48) 1 S1x1 (entries48 c i fh0 fh1) _ rfl rfl (ix2 0 j) j.val j.isLt rfl (ix2 0 0)
    (fun b hb => by
      match b with
      | ⟨0, _⟩ => rfl
      | ⟨1, _⟩ => exact absurd rfl hb) rfl

def share (Y O : Smooth.Img) (j t : ℕ) : EReal :=
  match j with
  | 0 => Smooth.kW (Smooth.padded Y) t 6 2 0 2046
  | 1 => Smooth.kN (Smooth.padded O) t 6 2 0 2046
  | 2 => Smooth.kW (Smooth.padded Y) t 6 1 0 2047
  | 3 => Smooth.kN (Smooth.padded O) t 6 1 0 2047
  | 4 => Smooth.kW (Smooth.padded Y) t 6 0 0 2048
  | 5 => Smooth.kN (Smooth.padded O) t 6 0 0 2048
  | 6 => Smooth.kW (Smooth.padded Y) t 6 0 1 2047
  | 7 => Smooth.kN (Smooth.padded O) t 6 0 1 2047
  | 8 => Smooth.kW (Smooth.padded Y) t 6 0 2 2046
  | 9 => Smooth.kN (Smooth.padded O) t 6 0 2 2046
  | 10 => Smooth.kW (Smooth.padded Y) t 7 2 0 2046
  | 11 => Smooth.kN (Smooth.padded O) t 7 2 0 2046
  | 12 => Smooth.kW (Smooth.padded Y) t 7 1 0 2047
  | 13 => Smooth.kN (Smooth.padded O) t 7 1 0 2047
  | 14 => Smooth.kW (Smooth.padded Y) t 7 0 0 2048
  | 15 => Smooth.kN (Smooth.padded O) t 7 0 0 2048
  | 16 => Smooth.kW (Smooth.padded Y) t 7 0 1 2047
  | 17 => Smooth.kN (Smooth.padded O) t 7 0 1 2047
  | 18 => Smooth.kW (Smooth.padded Y) t 7 0 2 2046
  | 19 => Smooth.kN (Smooth.padded O) t 7 0 2 2046
  | 20 => Smooth.kW (Smooth.padded Y) t 8 2 0 2046
  | 21 => Smooth.kN (Smooth.padded O) t 8 2 0 2046
  | 22 => Smooth.kW (Smooth.padded Y) t 8 1 0 2047
  | 23 => Smooth.kN (Smooth.padded O) t 8 1 0 2047
  | 24 => Smooth.kW (Smooth.padded Y) t 8 0 1 2047
  | 25 => Smooth.kN (Smooth.padded O) t 8 0 1 2047
  | 26 => Smooth.kW (Smooth.padded Y) t 8 0 2 2046
  | 27 => Smooth.kN (Smooth.padded O) t 8 0 2 2046
  | 28 => Smooth.kW (Smooth.padded Y) t 9 2 0 2046
  | 29 => Smooth.kN (Smooth.padded O) t 9 2 0 2046
  | 30 => Smooth.kW (Smooth.padded Y) t 9 1 0 2047
  | 31 => Smooth.kN (Smooth.padded O) t 9 1 0 2047
  | 32 => Smooth.kW (Smooth.padded Y) t 9 0 0 2048
  | 33 => Smooth.kN (Smooth.padded O) t 9 0 0 2048
  | 34 => Smooth.kW (Smooth.padded Y) t 9 0 1 2047
  | 35 => Smooth.kN (Smooth.padded O) t 9 0 1 2047
  | 36 => Smooth.kW (Smooth.padded Y) t 9 0 2 2046
  | 37 => Smooth.kN (Smooth.padded O) t 9 0 2 2046
  | 38 => Smooth.kW (Smooth.padded Y) t 10 2 0 2046
  | 39 => Smooth.kN (Smooth.padded O) t 10 2 0 2046
  | 40 => Smooth.kW (Smooth.padded Y) t 10 1 0 2047
  | 41 => Smooth.kN (Smooth.padded O) t 10 1 0 2047
  | 42 => Smooth.kW (Smooth.padded Y) t 10 0 0 2048
  | 43 => Smooth.kN (Smooth.padded O) t 10 0 0 2048
  | 44 => Smooth.kW (Smooth.padded Y) t 10 0 1 2047
  | 45 => Smooth.kN (Smooth.padded O) t 10 0 1 2047
  | 46 => Smooth.kW (Smooth.padded Y) t 10 0 2 2046
  | 47 => Smooth.kN (Smooth.padded O) t 10 0 2 2046
  | _ => 0

abbrev Yk (mI : (ℓ : Loc nD τ sig) → Buf (Elt Ideal) ℓ) (c : Dev nD) : Smooth.Img :=
  Smooth.img4 (yccK (mI ((c.tc : Thread nD τ).loc main_arg0)))

abbrev Ok (mI : (ℓ : Loc nD τ sig) → Buf (Elt Ideal) ℓ) (c : Dev nD) : Smooth.Img :=
  Smooth.img4 (mI ((c.tc : Thread nD τ).loc main_arg1) : S1x3x1536x2048.Idx → EReal)

set_option maxHeartbeats 1000000 in
theorem vec48_share (mI : (ℓ : Loc nD τ sig) → Buf (Elt Ideal) ℓ) (c : Dev nD) (t : Fin cfg0.N) (j : Fin 48) :
    (vec48 (F := Ideal) c (grid0.coords t) (V mI c main_v8) (V mI c main_v9) : S1x48.Idx → EReal) (ix2 0 j) = share (Yk mI c) (Ok mI c) j.val t.val := by
  have hY : Smooth.img3p (V mI c main_v8 : S3x1552x2048.Idx → EReal) = Smooth.padded (Yk mI c) := prefix_v8 (fun b => mI (c, b))
  have hO : Smooth.img3p (V mI c main_v9 : S3x1552x2048.Idx → EReal) = Smooth.padded (Ok mI c) := prefix_v9 (fun b => mI (c, b))
  have hi : ((grid0.coords t) 0).val < 6 := ((grid0.coords t) 0).isLt
  rw [vec48_apply]
  match j with
  | ⟨0, _⟩ => exact entryW_share c t hi 2046 4294967294#32 6 2 0 (by decide) (by decide) _ (entryW_0 (grid0.coords t)) (V mI c main_v8) hY (entryW_0_nf (grid0.coords t))
  | ⟨1, _⟩ => exact entryN_share c t hi 2046 4294967294#32 6 2 0 (by decide) (by decide) _ (entryN_0 (grid0.coords t)) (V mI c main_v9) hO (entryN_0_nf (grid0.coords t))
  | ⟨2, _⟩ => exact entryW_share c t hi 2047 4294967294#32 6 1 0 (by decide) (by decide) _ (entryW_1 (grid0.coords t)) (V mI c main_v8) hY (entryW_1_nf (grid0.coords t))
  | ⟨3, _⟩ => exact entryN_share c t hi 2047 4294967294#32 6 1 0 (by decide) (by decide) _ (entryN_1 (grid0.coords t)) (V mI c main_v9) hO (entryN_1_nf (grid0.coords t))
  | ⟨4, _⟩ => exact entryW_share c t hi 2048 4294967294#32 6 0 0 (by decide) (by decide) _ (entryW_2 (grid0.coords t)) (V mI c main_v8) hY (entryW_2_nf (grid0.coords t))
  | ⟨5, _⟩ => exact entryN_share c t hi 2048 4294967294#32 6 0 0 (by decide) (by decide) _ (entryN_2 (grid0.coords t)) (V mI c main_v9) hO (entryN_2_nf (grid0.coords t))
  | ⟨6, _⟩ => exact entryW_share c t hi 2047 4294967294#32 6 0 1 (by decide) (by decide) _ (entryW_3 (grid0.coords t)) (V mI c main_v8) hY (entryW_3_nf (grid0.coords t))
  | ⟨7, _⟩ => exact entryN_share c t hi 2047 4294967294#32 6 0 1 (by decide) (by decide) _ (entryN_3 (grid0.coords t)) (V mI c main_v9) hO (entryN_3_nf (grid0.coords t))
  | ⟨8, _⟩ => exact entryW_share c t hi 2046 4294967294#32 6 0 2 (by decide) (by decide) _ (entryW_4 (grid0.coords t)) (V mI c main_v8) hY (entryW_4_nf (grid0.coords t))
  | ⟨9, _⟩ => exact entryN_share c t hi 2046 4294967294#32 6 0 2 (by decide) (by decide) _ (entryN_4 (grid0.coords t)) (V mI c main_v9) hO (entryN_4_nf (grid0.coords t))
  | ⟨10, _⟩ => exact entryW_share c t hi 2046 4294967295#32 7 2 0 (by decide) (by decide) _ (entryW_5 (grid0.coords t)) (V mI c main_v8) hY (entryW_5_nf (grid0.coords t))
  | ⟨11, _⟩ => exact entryN_share c t hi 2046 4294967295#32 7 2 0 (by decide) (by decide) _ (entryN_5 (grid0.coords t)) (V mI c main_v9) hO (entryN_5_nf (grid0.coords t))
  | ⟨12, _⟩ => exact entryW_share c t hi 2047 4294967295#32 7 1 0 (by decide) (by decide) _ (entryW_6 (grid0.coords t)) (V mI c main_v8) hY (entryW_6_nf (grid0.coords t))
  | ⟨13, _⟩ => exact entryN_share c t hi 2047 4294967295#32 7 1 0 (by decide) (by decide) _ (entryN_6 (grid0.coords t)) (V mI c main_v9) hO (entryN_6_nf (grid0.coords t))
  | ⟨14, _⟩ => exact entryW_share c t hi 2048 4294967295#32 7 0 0 (by decide) (by decide) _ (entryW_7 (grid0.coords t)) (V mI c main_v8) hY (entryW_7_nf (grid0.coords t))
  | ⟨15, _⟩ => exact entryN_share c t hi 2048 4294967295#32 7 0 0 (by decide) (by decide) _ (entryN_7 (grid0.coords t)) (V mI c main_v9) hO (entryN_7_nf (grid0.coords t))
  | ⟨16, _⟩ => exact entryW_share c t hi 2047 4294967295#32 7 0 1 (by decide) (by decide) _ (entryW_8 (grid0.coords t)) (V mI c main_v8) hY (entryW_8_nf (grid0.coords t))
  | ⟨17, _⟩ => exact entryN_share c t hi 2047 4294967295#32 7 0 1 (by decide) (by decide) _ (entryN_8 (grid0.coords t)) (V mI c main_v9) hO (entryN_8_nf (grid0.coords t))
  | ⟨18, _⟩ => exact entryW_share c t hi 2046 4294967295#32 7 0 2 (by decide) (by decide) _ (entryW_9 (grid0.coords t)) (V mI c main_v8) hY (entryW_9_nf (grid0.coords t))
  | ⟨19, _⟩ => exact entryN_share c t hi 2046 4294967295#32 7 0 2 (by decide) (by decide) _ (entryN_9 (grid0.coords t)) (V mI c main_v9) hO (entryN_9_nf (grid0.coords t))
  | ⟨20, _⟩ => exact entryW_share c t hi 2046 0#32 8 2 0 (by decide) (by decide) _ (entryW_10 (grid0.coords t)) (V mI c main_v8) hY (entryW_10_nf (grid0.coords t))
  | ⟨21, _⟩ => exact entryN_share c t hi 2046 0#32 8 2 0 (by decide) (by decide) _ (entryN_10 (grid0.coords t)) (V mI c main_v9) hO (entryN_10_nf (grid0.coords t))
  | ⟨22, _⟩ => exact entryW_share c t hi 2047 0#32 8 1 0 (by decide) (by decide) _ (entryW_11 (grid0.coords t)) (V mI c main_v8) hY (entryW_11_nf (grid0.coords t))
  | ⟨23, _⟩ => exact entryN_share c t hi 2047 0#32 8 1 0 (by decide) (by decide) _ (entryN_11 (grid0.coords t)) (V mI c main_v9) hO (entryN_11_nf (grid0.coords t))
  | ⟨24, _⟩ => exact entryW_share c t hi 2047 0#32 8 0 1 (by decide) (by decide) _ (entryW_12 (grid0.coords t)) (V mI c main_v8) hY (entryW_12_nf (grid0.coords t))
  | ⟨25, _⟩ => exact entryN_share c t hi 2047 0#32 8 0 1 (by decide) (by decide) _ (entryN_12 (grid0.coords t)) (V mI c main_v9) hO (entryN_12_nf (grid0.coords t))
  | ⟨26, _⟩ => exact entryW_share c t hi 2046 0#32 8 0 2 (by decide) (by decide) _ (entryW_13 (grid0.coords t)) (V mI c main_v8) hY (entryW_13_nf (grid0.coords t))
  | ⟨27, _⟩ => exact entryN_share c t hi 2046 0#32 8 0 2 (by decide) (by decide) _ (entryN_13 (grid0.coords t)) (V mI c main_v9) hO (entryN_13_nf (grid0.coords t))
  | ⟨28, _⟩ => exact entryW_share c t hi 2046 1#32 9 2 0 (by decide) (by decide) _ (entryW_14 (grid0.coords t)) (V mI c main_v8) hY (entryW_14_nf (grid0.coords t))
  | ⟨29, _⟩ => exact entryN_share c t hi 2046 1#32 9 2 0 (by decide) (by decide) _ (entryN_14 (grid0.coords t)) (V mI c main_v9) hO (entryN_14_nf (grid0.coords t))
  | ⟨30, _⟩ => exact entryW_share c t hi 2047 1#32 9 1 0 (by decide) (by decide) _ (entryW_15 (grid0.coords t)) (V mI c main_v8) hY (entryW_15_nf (grid0.coords t))
  | ⟨31, _⟩ => exact entryN_share c t hi 2047 1#32 9 1 0 (by decide) (by decide) _ (entryN_15 (grid0.coords t)) (V mI c main_v9) hO (entryN_15_nf (grid0.coords t))
  | ⟨32, _⟩ => exact entryW_share c t hi 2048 1#32 9 0 0 (by decide) (by decide) _ (entryW_16 (grid0.coords t)) (V mI c main_v8) hY (entryW_16_nf (grid0.coords t))
  | ⟨33, _⟩ => exact entryN_share c t hi 2048 1#32 9 0 0 (by decide) (by decide) _ (entryN_16 (grid0.coords t)) (V mI c main_v9) hO (entryN_16_nf (grid0.coords t))
  | ⟨34, _⟩ => exact entryW_share c t hi 2047 1#32 9 0 1 (by decide) (by decide) _ (entryW_17 (grid0.coords t)) (V mI c main_v8) hY (entryW_17_nf (grid0.coords t))
  | ⟨35, _⟩ => exact entryN_share c t hi 2047 1#32 9 0 1 (by decide) (by decide) _ (entryN_17 (grid0.coords t)) (V mI c main_v9) hO (entryN_17_nf (grid0.coords t))
  | ⟨36, _⟩ => exact entryW_share c t hi 2046 1#32 9 0 2 (by decide) (by decide) _ (entryW_18 (grid0.coords t)) (V mI c main_v8) hY (entryW_18_nf (grid0.coords t))
  | ⟨37, _⟩ => exact entryN_share c t hi 2046 1#32 9 0 2 (by decide) (by decide) _ (entryN_18 (grid0.coords t)) (V mI c main_v9) hO (entryN_18_nf (grid0.coords t))
  | ⟨38, _⟩ => exact entryW_share c t hi 2046 2#32 10 2 0 (by decide) (by decide) _ (entryW_19 (grid0.coords t)) (V mI c main_v8) hY (entryW_19_nf (grid0.coords t))
  | ⟨39, _⟩ => exact entryN_share c t hi 2046 2#32 10 2 0 (by decide) (by decide) _ (entryN_19 (grid0.coords t)) (V mI c main_v9) hO (entryN_19_nf (grid0.coords t))
  | ⟨40, _⟩ => exact entryW_share c t hi 2047 2#32 10 1 0 (by decide) (by decide) _ (entryW_20 (grid0.coords t)) (V mI c main_v8) hY (entryW_20_nf (grid0.coords t))
  | ⟨41, _⟩ => exact entryN_share c t hi 2047 2#32 10 1 0 (by decide) (by decide) _ (entryN_20 (grid0.coords t)) (V mI c main_v9) hO (entryN_20_nf (grid0.coords t))
  | ⟨42, _⟩ => exact entryW_share c t hi 2048 2#32 10 0 0 (by decide) (by decide) _ (entryW_21 (grid0.coords t)) (V mI c main_v8) hY (entryW_21_nf (grid0.coords t))
  | ⟨43, _⟩ => exact entryN_share c t hi 2048 2#32 10 0 0 (by decide) (by decide) _ (entryN_21 (grid0.coords t)) (V mI c main_v9) hO (entryN_21_nf (grid0.coords t))
  | ⟨44, _⟩ => exact entryW_share c t hi 2047 2#32 10 0 1 (by decide) (by decide) _ (entryW_22 (grid0.coords t)) (V mI c main_v8) hY (entryW_22_nf (grid0.coords t))
  | ⟨45, _⟩ => exact entryN_share c t hi 2047 2#32 10 0 1 (by decide) (by decide) _ (entryN_22 (grid0.coords t)) (V mI c main_v9) hO (entryN_22_nf (grid0.coords t))
  | ⟨46, _⟩ => exact entryW_share c t hi 2046 2#32 10 0 2 (by decide) (by decide) _ (entryW_23 (grid0.coords t)) (V mI c main_v8) hY (entryW_23_nf (grid0.coords t))
  | ⟨47, _⟩ => exact entryN_share c t hi 2046 2#32 10 0 2 (by decide) (by decide) _ (entryN_23 (grid0.coords t)) (V mI c main_v9) hO (entryN_23_nf (grid0.coords t))
  | ⟨n + 48, h⟩ => exact absurd h (by omega)

end Cert.KernelIdeal.Hand
end
-- ==== Proof.KI.Frame.lean ====
import proofs.«143054_j12300786336339_1_alg».proof.Proof.KI.Kit
import proofs.«143054_j12300786336339_1_alg».proof.Proof.KI.RunB

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

theorem cover0_A_0 (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) (y : S1x48.Idx) :
    ∃ pc ∈ (kernelRun0_A c i arg3 harg3 hc0 fh0 fh1).1, y ∈ pc.1.set :=
  View.cover_of_tiledL (kernelRun0_A c i arg3 harg3 hc0 fh0 fh1).1 S1x48.size (by sl_kernel_rfl) y

def out0_A_0 (c : Dev nD) (i : grid0.Coords) (arg3 : Memref sig .tc .vmem S1x48 .f32) (harg3 : arg3.IsWhole) (hc0 : cond0_0 i)
    (fh0 : HbBuf0 (F := F) c hbM0_0) (fh1 : HbBuf0 (F := F) c hbM0_1) : Vec F S1x48 .f32 :=
  VO0_0.read (Elt F) (VO0_0.writes (Elt F) VO0_0.junk (kernelRun0_A c i arg3 harg3 hc0 fh0 fh1).1)

theorem cover0_B_0 (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) (y : S1x48.Idx) :
    ∃ pc ∈ (kernelRun0_B c i arg3 harg3 hc0 fh0 fh1 xo).1, y ∈ pc.1.set :=
  View.cover_of_tiledL (kernelRun0_B c i arg3 harg3 hc0 fh0 fh1 xo).1 S1x48.size (by sl_kernel_rfl) y

def out0_B_0 (c : Dev nD) (i : grid0.Coords) (arg3 : Memref sig .tc .vmem S1x48 .f32) (harg3 : arg3.IsWhole) (hc0 : ¬cond0_0 i)
    (fh0 : HbBuf0 (F := F) c hbM0_0) (fh1 : HbBuf0 (F := F) c hbM0_1) (xo : Vec F S1x48 .f32) : Vec F S1x48 .f32 :=
  VO0_0.read (Elt F) (VO0_0.writes (Elt F) VO0_0.junk (kernelRun0_B c i arg3 harg3 hc0 fh0 fh1 xo).1)

theorem not_cond0_succ (n : ℕ) (hn : n + 1 < cfg0.N) : ¬cond0_0 (grid0.coords ⟨n + 1, hn⟩) := fun h => by
  have h6 : n + 1 < 6 := lt_of_lt_of_eq hn (show cfg0.N = 6 from N_0)
  have h0 : (n + 1) % 6 = 0 := (hcond0_0 ⟨n + 1, hn⟩).mp h
  omega

def outsAt0 (c : Dev nD) : (n : ℕ) → n < cfg0.N → Vec F S1x48 .f32
  | 0, hn => out0_A_0 c (grid0.coords ⟨0, hn⟩) (ms0_0 ⟨0, hn⟩) (hs0_0 ⟨0, hn⟩) ((hcond0_0 ⟨0, hn⟩).mpr (Nat.zero_mod _)) (V m c main_v8) (V m c main_v9)
  | n + 1, hn => out0_B_0 c (grid0.coords ⟨n + 1, hn⟩) (ms0_0 ⟨n + 1, hn⟩) (hs0_0 ⟨n + 1, hn⟩) (not_cond0_succ n hn) (V m c main_v8) (V m c main_v9)
      (outsAt0 c n (Nat.lt_of_succ_lt hn))

theorem outsAt0_A (c : Dev nD) (t : Fin cfg0.N) (h0 : t.val % 6 = 0) :
    outsAt0 m c t.val t.isLt = out0_A_0 c (grid0.coords t) (ms0_0 t) (hs0_0 t) ((hcond0_0 t).mpr h0) (V m c main_v8) (V m c main_v9) := by
  obtain ⟨n, hn⟩ := t
  cases n with
  | zero => exact rfl
  | succ n =>
    exfalso
    have h6 : n + 1 < 6 := lt_of_lt_of_eq hn (show cfg0.N = 6 from N_0)
    dsimp only at h0
    omega

theorem outsAt0_B (c : Dev nD) (t : Fin cfg0.N) (h0 : ¬t.val % 6 = 0) :
    outsAt0 m c t.val t.isLt = out0_B_0 c (grid0.coords t) (ms0_0 t) (hs0_0 t) (fun h => h0 ((hcond0_0 t).mp h)) (V m c main_v8) (V m c main_v9)
      (outsAt0 m c (t.val - 1) (Nat.lt_of_le_of_lt (Nat.sub_le _ _) t.isLt)) := by
  obtain ⟨n, hn⟩ := t
  cases n with
  | zero => exact absurd (Nat.zero_mod _) h0
  | succ n => exact rfl

def dats (_ : Fin 1) (c : Dev nD) : Dat τ (Elt F) Unit ℕ (Pipeline.UD sig nD τ) ℕ cfg0 c where
  A w := V m c (Pipeline.arrRef spec0 w)
  after w t := match w with
    | ⟨0, _⟩ => outsAt0 m c t.val t.isLt
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = outsAt0 m c t.val t.isLt := by dsimp only [dats]

theorem before0_0_B (c : Dev nD) (t : Fin cfg0.N) (h0 : ¬t.val % 6 = 0) (d) :
    (dats m 0 c).before 0 t d = outsAt0 m c (t.val - 1) (Nat.lt_of_le_of_lt (Nat.sub_le _ _) t.isLt) := by
  have hN : t.val < 6 := lt_of_lt_of_eq t.isLt (show cfg0.N = 6 from N_0)
  rw [Dat.before_out_kept _ 0 rfl t (by omega) (Bool.eq_false_iff.mpr fun h => by have := (flush0_0 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  by_cases h0 : t.val % 6 = 0
  · rw [outsAt0_A m c t h0]
    unfold out0_A_0
    iintro ⟨⟨⟨HS0, HS1⟩, Hg, ⟨Hq0, Hq1⟩, ⟨Hh0, Hh1⟩⟩, ⟨%W, -, HW⟩, ⟨%d0, H0⟩⟩
    iapply ((kernelRun0_A c (grid0.coords t) _ _ ((hcond0_0 t).mpr h0) (V m c main_v8) (V m c main_v9)).2 W _)
    isplitl [H0]; · iexists _; iexact H0
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨⟨%e0, H0⟩, HS0, HS1, Hq0, Hq1, Hh0, Hh1, ⟨%W', HW'⟩⟩
    isplitl [HS0 HS1 Hg Hq0 Hq1 Hh0 Hh1]
    · isplitl [HS0 HS1]
      · isplitl [HS0]; · iexact HS0
        iexact HS1
      isplitl [Hg]
      · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    unfold owns; iexists _; isplitr
    swap; · iexact H0
    ipureintro; exact View.read_writes_of_cover _ _ _ _ _ (cover0_A_0 c _ _ _ _ _ _)
  · rw [outsAt0_B m c t h0]
    simp only [before0_0_B m c t h0]
    unfold out0_B_0
    iintro ⟨⟨⟨HS0, HS1⟩, Hg, ⟨Hq0, Hq1⟩, ⟨Hh0, Hh1⟩⟩, ⟨%W, -, HW⟩, ⟨%d0, H0⟩⟩
    iapply ((kernelRun0_B c (grid0.coords t) _ _ (fun h => h0 ((hcond0_0 t).mp h)) (V m c main_v8) (V m c main_v9) _).2 W _)
    isplitl [H0]; · iexact H0
    isplitl [HS0]; · iexact HS0
    isplitl [HS1]; · iexact HS1
    isplitl [Hq0]; · iexact Hq0
    isplitl [Hq1]; · iexact Hq1
    isplitl [Hh0]; · iexact Hh0
    isplitl [Hh1]; · iexact Hh1
    isplitl [HW]; · iexact HW
    iintro ⟨⟨%e0, H0⟩, HS0, HS1, Hq0, Hq1, Hh0, Hh1, ⟨%W', HW'⟩⟩
    isplitl [HS0 HS1 Hg Hq0 Hq1 Hh0 Hh1]
    · isplitl [HS0 HS1]
      · isplitl [HS0]; · iexact HS0
        iexact HS1
      isplitl [Hg]
      · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    unfold owns; iexists _; isplitr
    swap; · iexact H0
    ipureintro; exact View.read_writes_of_cover _ _ _ _ _ (cover0_B_0 c _ _ _ _ _ _ _)

theorem body_obligation (c : Dev nD) : BodyObligation (dats (F := F) m 0 c) (defs₀ (F := F)) Variants.none () Set.univ := fun t => by
  rw [bigSep_W0, bigSep_W0]
  exact sound_body m c t

set_option maxRecDepth 400000 in
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun _ => .rfl) (hout := fun _ => .rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand
end
-- ==== Proof.KI.Tail.lean ====
import proofs.«143054_j12300786336339_1_alg».proof.Proof.Gen.KernelIdeal.Launch
import proofs.«143054_j12300786336339_1_alg».proof.Proof.Spec
import Idealize.ShloMosaic.Lib.IdealHost
import Idealize.ShloMosaic.Lib.Pipeline.Value
import Idealize.ShloMosaic.Lib.Pipeline.Frame
import Idealize.ShloMosaic.Lib.StableHlo.Run

noncomputable section

namespace Cert.KernelIdeal.Hand
open Cert.KernelIdeal Cert.KernelIdeal.Gen
open Idealize.ShloMosaic Idealize.ShloMosaic.TcCoe
open Idealize.ShloMosaic.ValueIdx Idealize.ShloMosaic.StableHlo

/-- entry (k, j) of the [24,2] layout of a [1,48] array, cut out as a [1,1] array and read as a scalar, is entry 2k+j -/
theorem cell_read {a : S1x48.Idx → EReal} {hr : S1x48.ShapeCasts S24x2} {k j : ℕ} {h : S24x2.Slices ![k, j] S1x1}
    {hc : S1x1.ShapeCasts S_} (m : Fin 48) (hm : m.val = 2 * k + j) (hj : j < 2) :
    shapeCast S_ (extractStridedSlice S1x1 ![k, j] (fun i => shapeCast S24x2 a hr i) h) hc ix0 = a (ix2 0 m) := by
  have hk : k < 24 := by have := m.isLt; omega
  rw [shapeCast_apply _ hc ix0 (ix2 0 0) (by rw [Shape.rowMajor_val_two]; exact (Shape.rowMajorPi_zero _ _).symm),
    extractStridedSlice_apply _ _ h _ (ix2 ⟨k, hk⟩ ⟨j, hj⟩) (fun x => by fin_cases x <;> rfl)]
  refine shapeCast_apply a hr _ (ix2 0 m) ?_
  rw [Shape.rowMajor_val_two, Shape.rowMajor_val_two]
  show 0 * 48 + m.val = k * 2 + j
  omega

/-- one direction: the running total plus (entry 2k / cw) * (entry 2k+1 / cn) -/
theorem grp_calc {t : S_.Idx → EReal} {a : S1x48.Idx → EReal} {hr : S1x48.ShapeCasts S24x2} {k : ℕ}
    {h0 : S24x2.Slices ![k, 0] S1x1} {h1 : S24x2.Slices ![k, 1] S1x1} {hc : S1x1.ShapeCasts S_} {cw cn : BitVec 32}
    {s : EReal} {m0 m1 : Fin 48} (ht : t ix0 = s) (hm0 : m0.val = 2 * k + 0) (hm1 : m1.val = 2 * k + 1) :
    (addf (F := Ideal) (φ := .f32) t (mulf (F := Ideal) (φ := .f32)
        (Host.divf (F := Ideal) (φ := .f32) (fun i => shapeCast S_ (extractStridedSlice S1x1 ![k, 0] (fun i => shapeCast S24x2 a hr i) h0) hc i) (constant S_ .f32 cw))
        (Host.divf (F := Ideal) (φ := .f32) (fun i => shapeCast S_ (extractStridedSlice S1x1 ![k, 1] (fun i => shapeCast S24x2 a hr i) h1) hc i) (constant S_ .f32 cn)))) ix0
      = s + Ideal.div (a (ix2 0 m0)) (Ideal.ofBits .f32 cw) * Ideal.div (a (ix2 0 m1)) (Ideal.ofBits .f32 cn) := by
  show t ix0 + Ideal.div (shapeCast S_ (extractStridedSlice S1x1 ![k, 0] (fun i => shapeCast S24x2 a hr i) h0) hc ix0) _
        * Ideal.div (shapeCast S_ (extractStridedSlice S1x1 ![k, 1] (fun i => shapeCast S24x2 a hr i) h1) hc ix0) _ = _
  rw [ht, cell_read m0 hm0 Nat.zero_lt_two, cell_read m1 hm1 Nat.one_lt_two]; rfl

/-- stretch k of the 242 operations: the first twelve (k = 0), then ten for each further direction -/
def tailOps {F : FTy → Type} [FloatOps F] (k : ℕ) : List (HloOp τ sig (Elt F)) :=
  if k = 0 then hostOps1.take 12 else (hostOps1.drop (10 * k + 2)).take 10

/-- between stretches: the [24,2] layout of `a` is in place and the running total `t` is `s` -/
abbrev Mid (W : Valuation τ sig (Elt Ideal)) (a : S1x48.Idx → EReal) (t : S_.Idx → EReal) (s : EReal) : Prop :=
  W (Proc.devRef .tc main_v11) = (fun i => shapeCast S24x2 a shapeCasts_S1x48_S24x2 i) ∧ t ix0 = s

/-- one stretch keeps the layout and adds one direction's product to the running total -/
theorem mid_step {W W' : Valuation τ sig (Elt Ideal)} {a : S1x48.Idx → EReal} {t t' : S_.Idx → EReal} {s : EReal} {k : ℕ}
    {h0 : S24x2.Slices ![k, 0] S1x1} {h1 : S24x2.Slices ![k, 1] S1x1} {hc : S1x1.ShapeCasts S_} {cw cn : BitVec 32} {m0 m1 : Fin 48}
    (h : Mid W a t s) (e11 : W' (Proc.devRef .tc main_v11) = W (Proc.devRef .tc main_v11))
    (eres : t' = addf (F := Ideal) (φ := .f32) t (mulf (F := Ideal) (φ := .f32)
        (Host.divf (F := Ideal) (φ := .f32) (fun i => shapeCast S_ (extractStridedSlice S1x1 ![k, 0] (W (Proc.devRef .tc main_v11)) h0) hc i) (constant S_ .f32 cw))
        (Host.divf (F := Ideal) (φ := .f32) (fun i => shapeCast S_ (extractStridedSlice S1x1 ![k, 1] (W (Proc.devRef .tc main_v11)) h1) hc i) (constant S_ .f32 cn))))
    (hm0 : m0.val = 2 * k + 0) (hm1 : m1.val = 2 * k + 1) :
    Mid W' a t' (s + Ideal.div (a (ix2 0 m0)) (Ideal.ofBits .f32 cw) * Ideal.div (a (ix2 0 m1)) (Ideal.ofBits .f32 cn)) := by
  obtain ⟨h11, hacc⟩ := h
  subst eres
  rw [h11] at e11 ⊢
  exact ⟨e11, grp_calc hacc hm0 hm1⟩

theorem tailOps0_step (W : Valuation τ sig (Elt Ideal)) (a : S1x48.Idx → EReal) (h10 : W (Proc.devRef .tc main_v10) = a) :
    Mid (StableHlo.after (tailOps 0 (F := Ideal)) W) a (StableHlo.after (tailOps 0 (F := Ideal)) W (Proc.devRef .tc main_v19))
      ((0 : EReal) + Ideal.div (a (ix2 0 0)) (Ideal.ofBits .f32 0x4A3F9010#32) * Ideal.div (a (ix2 0 1)) (Ideal.ofBits .f32 0x4B0FAC0C#32)) := by
  subst h10
  constructor
  · show StableHlo.after [_, _, _, _, _, _, _, _, _, _, _, _] W _ = _
    after_results; rfl
  · show StableHlo.after [_, _, _, _, _, _, _, _, _, _, _, _] W _ _ = _
    after_results
    refine grp_calc ?_ (by rfl) (by rfl)
    exact Ideal.ofBits_zero_f32

theorem tailOps1_step {W : Valuation τ sig (Elt Ideal)} {a : S1x48.Idx → EReal} {s : EReal} (h : Mid W a (W (Proc.devRef .tc main_v19)) s) :
    Mid (StableHlo.after (tailOps 1 (F := Ideal)) W) a (StableHlo.after (tailOps 1 (F := Ideal)) W (Proc.devRef .tc main_v27))
      (s + Ideal.div (a (ix2 0 2)) (Ideal.ofBits .f32 0x4A3FA808#32) * Ideal.div (a (ix2 0 3)) (Ideal.ofBits .f32 0x4B0FBE06#32)) :=
  mid_step h (by show StableHlo.after [_, _, _, _, _, _, _, _, _, _] W _ = _; after_results)
    (by show StableHlo.after [_, _, _, _, _, _, _, _, _, _] W _ = _; after_results; rfl) (by rfl) (by rfl)

theorem tailOps2_step {W : Valuation τ sig (Elt Ideal)} {a : S1x48.Idx → EReal} {s : EReal} (h : Mid W a (W (Proc.devRef .tc main_v27)) s) :
    Mid (StableHlo.after (tailOps 2 (F := Ideal)) W) a (StableHlo.after (tailOps 2 (F := Ideal)) W (Proc.devRef .tc main_v35))
      (s + Ideal.div (a (ix2 0 4)) (Ideal.ofBits .f32 0x4A3FC000#32) * Ideal.div (a (ix2 0 5)) (Ideal.ofBits .f32 0x4B0FD000#32)) :=
  mid_step h (by show StableHlo.after [_, _, _, _, _, _, _, _, _, _] W _ = _; after_results)
    (by show StableHlo.after [_, _, _, _, _, _, _, _, _, _] W _ = _; after_results; rfl) (by rfl) (by rfl)

theorem tailOps3_step {W : Valuation τ sig (Elt Ideal)} {a : S1x48.Idx → EReal} {s : EReal} (h : Mid W a (W (Proc.devRef .tc main_v35)) s) :
    Mid (StableHlo.after (tailOps 3 (F := Ideal)) W) a (StableHlo.after (tailOps 3 (F := Ideal)) W (Proc.devRef .tc main_v43))
      (s + Ideal.div (a (ix2 0 6)) (Ideal.ofBits .f32 0x4A3FA808#32) * Ideal.div (a (ix2 0 7)) (Ideal.ofBits .f32 0x4B0FBE06#32)) :=
  mid_step h (by show StableHlo.after [_, _, _, _, _, _, _, _, _, _] W _ = _; after_results)
    (by show StableHlo.after [_, _, _, _, _, _, _, _, _, _] W _ = _; after_results; rfl) (by rfl) (by rfl)

theorem tailOps4_step {W : Valuation τ sig (Elt Ideal)} {a : S1x48.Idx → EReal} {s : EReal} (h : Mid W a (W (Proc.devRef .tc main_v43)) s) :
    Mid (StableHlo.after (tailOps 4 (F := Ideal)) W) a (StableHlo.after (tailOps 4 (F := Ideal)) W (Proc.devRef .tc main_v51))
      (s + Ideal.div (a (ix2 0 8)) (Ideal.ofBits .f32 0x4A3F9010#32) * Ideal.div (a (ix2 0 9)) (Ideal.ofBits .f32 0x4B0FAC0C#32)) :=
  mid_step h (by show StableHlo.after [_, _, _, _, _, _, _, _, _, _] W _ = _; after_results)
    (by show StableHlo.after [_, _, _, _, _, _, _, _, _, _] W _ = _; after_results; rfl) (by rfl) (by rfl)

theorem tailOps5_step {W : Valuation τ sig (Elt Ideal)} {a : S1x48.Idx → EReal} {s : EReal} (h : Mid W a (W (Proc.devRef .tc main_v51)) s) :
    Mid (StableHlo.after (tailOps 5 (F := Ideal)) W) a (StableHlo.after (tailOps 5 (F := Ideal)) W (Proc.devRef .tc main_v59))
      (s + Ideal.div (a (ix2 0 10)) (Ideal.ofBits .f32 0x4A3FB008#32) * Ideal.div (a (ix2 0 11)) (Ideal.ofBits .f32 0x4B0FC406#32)) :=
  mid_step h (by show StableHlo.after [_, _, _, _, _, _, _, _, _, _] W _ = _; after_results)
    (by show StableHlo.after [_, _, _, _, _, _, _, _, _, _] W _ = _; after_results; rfl) (by rfl) (by rfl)

theorem tailOps6_step {W : Valuation τ sig (Elt Ideal)} {a : S1x48.Idx → EReal} {s : EReal} (h : Mid W a (W (Proc.devRef .tc main_v59)) s) :
    Mid (StableHlo.after (tailOps 6 (F := Ideal)) W) a (StableHlo.after (tailOps 6 (F := Ideal)) W (Proc.devRef .tc main_v67))
      (s + Ideal.div (a (ix2 0 12)) (Ideal.ofBits .f32 0x4A3FC804#32) * Ideal.div (a (ix2 0 13)) (Ideal.ofBits .f32 0x4B0FD603#32)) :=
  mid_step h (by show StableHlo.after [_, _, _, _, _, _, _, _, _, _] W _ = _; after_results)
    (by show StableHlo.after [_, _, _, _, _, _, _, _, _, _] W _ = _; after_results; rfl) (by rfl) (by rfl)

theorem tailOps7_step {W : Valuation τ sig (Elt Ideal)} {a : S1x48.Idx → EReal} {s : EReal} (h : Mid W a (W (Proc.devRef .tc main_v67)) s) :
    Mid (StableHlo.after (tailOps 7 (F := Ideal)) W) a (StableHlo.after (tailOps 7 (F := Ideal)) W (Proc.devRef .tc main_v75))
      (s + Ideal.div (a (ix2 0 14)) (Ideal.ofBits .f32 0x4A3FE000#32) * Ideal.div (a (ix2 0 15)) (Ideal.ofBits .f32 0x4B0FE800#32)) :=
  mid_step h (by show StableHlo.after [_, _, _, _, _, _, _, _, _, _] W _ = _; after_results)
    (by show StableHlo.after [_, _, _, _, _, _, _, _, _, _] W _ = _; after_results; rfl) (by rfl) (by rfl)

theorem tailOps8_step {W : Valuation τ sig (Elt Ideal)} {a : S1x48.Idx → EReal} {s : EReal} (h : Mid W a (W (Proc.devRef .tc main_v75)) s) :
    Mid (StableHlo.after (tailOps 8 (F := Ideal)) W) a (StableHlo.after (tailOps 8 (F := Ideal)) W (Proc.devRef .tc main_v83))
      (s + Ideal.div (a (ix2 0 16)) (Ideal.ofBits .f32 0x4A3FC804#32) * Ideal.div (a (ix2 0 17)) (Ideal.ofBits .f32 0x4B0FD603#32)) :=
  mid_step h (by show StableHlo.after [_, _, _, _, _, _, _, _, _, _] W _ = _; after_results)
    (by show StableHlo.after [_, _, _, _, _, _, _, _, _, _] W _ = _; after_results; rfl) (by rfl) (by rfl)

theorem tailOps9_step {W : Valuation τ sig (Elt Ideal)} {a : S1x48.Idx → EReal} {s : EReal} (h : Mid W a (W (Proc.devRef .tc main_v83)) s) :
    Mid (StableHlo.after (tailOps 9 (F := Ideal)) W) a (StableHlo.after (tailOps 9 (F := Ideal)) W (Proc.devRef .tc main_v91))
      (s + Ideal.div (a (ix2 0 18)) (Ideal.ofBits .f32 0x4A3FB008#32) * Ideal.div (a (ix2 0 19)) (Ideal.ofBits .f32 0x4B0FC406#32)) :=
  mid_step h (by show StableHlo.after [_, _, _, _, _, _, _, _, _, _] W _ = _; after_results)
    (by show StableHlo.after [_, _, _, _, _, _, _, _, _, _] W _ = _; after_results; rfl) (by rfl) (by rfl)

theorem tailOps10_step {W : Valuation τ sig (Elt Ideal)} {a : S1x48.Idx → EReal} {s : EReal} (h : Mid W a (W (Proc.devRef .tc main_v91)) s) :
    Mid (StableHlo.after (tailOps 10 (F := Ideal)) W) a (StableHlo.after (tailOps 10 (F := Ideal)) W (Proc.devRef .tc main_v99))
      (s + Ideal.div (a (ix2 0 20)) (Ideal.ofBits .f32 0x4A3FD000#32) * Ideal.div (a (ix2 0 21)) (Ideal.ofBits .f32 0x4B0FDC00#32)) :=
  mid_step h (by show StableHlo.after [_, _, _, _, _, _, _, _, _, _] W _ = _; after_results)
    (by show StableHlo.after [_, _, _, _, _, _, _, _, _, _] W _ = _; after_results; rfl) (by rfl) (by rfl)

theorem tailOps11_step {W : Valuation τ sig (Elt Ideal)} {a : S1x48.Idx → EReal} {s : EReal} (h : Mid W a (W (Proc.devRef .tc main_v99)) s) :
    Mid (StableHlo.after (tailOps 11 (F := Ideal)) W) a (StableHlo.after (tailOps 11 (F := Ideal)) W (Proc.devRef .tc main_v107))
      (s + Ideal.div (a (ix2 0 22)) (Ideal.ofBits .f32 0x4A3FE800#32) * Ideal.div (a (ix2 0 23)) (Ideal.ofBits .f32 0x4B0FEE00#32)) :=
  mid_step h (by show StableHlo.after [_, _, _, _, _, _, _, _, _, _] W _ = _; after_results)
    (by show StableHlo.after [_, _, _, _, _, _, _, _, _, _] W _ = _; after_results; rfl) (by rfl) (by rfl)

theorem tailOps12_step {W : Valuation τ sig (Elt Ideal)} {a : S1x48.Idx → EReal} {s : EReal} (h : Mid W a (W (Proc.devRef .tc main_v107)) s) :
    Mid (StableHlo.after (tailOps 12 (F := Ideal)) W) a (StableHlo.after (tailOps 12 (F := Ideal)) W (Proc.devRef .tc main_v115))
      (s + Ideal.div (a (ix2 0 24)) (Ideal.ofBits .f32 0x4A3FE800#32) * Ideal.div (a (ix2 0 25)) (Ideal.ofBits .f32 0x4B0FEE00#32)) :=
  mid_step h (by show StableHlo.after [_, _, _, _, _, _, _, _, _, _] W _ = _; after_results)
    (by show StableHlo.after [_, _, _, _, _, _, _, _, _, _] W _ = _; after_results; rfl) (by rfl) (by rfl)

theorem tailOps13_step {W : Valuation τ sig (Elt Ideal)} {a : S1x48.Idx → EReal} {s : EReal} (h : Mid W a (W (Proc.devRef .tc main_v115)) s) :
    Mid (StableHlo.after (tailOps 13 (F := Ideal)) W) a (StableHlo.after (tailOps 13 (F := Ideal)) W (Proc.devRef .tc main_v123))
      (s + Ideal.div (a (ix2 0 26)) (Ideal.ofBits .f32 0x4A3FD000#32) * Ideal.div (a (ix2 0 27)) (Ideal.ofBits .f32 0x4B0FDC00#32)) :=
  mid_step h (by show StableHlo.after [_, _, _, _, _, _, _, _, _, _] W _ = _; after_results)
    (by show StableHlo.after [_, _, _, _, _, _, _, _, _, _] W _ = _; after_results; rfl) (by rfl) (by rfl)

theorem tailOps14_step {W : Valuation τ sig (Elt Ideal)} {a : S1x48.Idx → EReal} {s : EReal} (h : Mid W a (W (Proc.devRef .tc main_v123)) s) :
    Mid (StableHlo.after (tailOps 14 (F := Ideal)) W) a (StableHlo.after (tailOps 14 (F := Ideal)) W (Proc.devRef .tc main_v131))
      (s + Ideal.div (a (ix2 0 28)) (Ideal.ofBits .f32 0x4A3FB008#32) * Ideal.div (a (ix2 0 29)) (Ideal.ofBits .f32 0x4B0FC406#32)) :=
  mid_step h (by show StableHlo.after [_, _, _, _, _, _, _, _, _, _] W _ = _; after_results)
    (by show StableHlo.after [_, _, _, _, _, _, _, _, _, _] W _ = _; after_results; rfl) (by rfl) (by rfl)

theorem tailOps15_step {W : Valuation τ sig (Elt Ideal)} {a : S1x48.Idx → EReal} {s : EReal} (h : Mid W a (W (Proc.devRef .tc main_v131)) s) :
    Mid (StableHlo.after (tailOps 15 (F := Ideal)) W) a (StableHlo.after (tailOps 15 (F := Ideal)) W (Proc.devRef .tc main_v139))
      (s + Ideal.div (a (ix2 0 30)) (Ideal.ofBits .f32 0x4A3FC804#32) * Ideal.div (a (ix2 0 31)) (Ideal.ofBits .f32 0x4B0FD603#32)) :=
  mid_step h (by show StableHlo.after [_, _, _, _, _, _, _, _, _, _] W _ = _; after_results)
    (by show StableHlo.after [_, _, _, _, _, _, _, _, _, _] W _ = _; after_results; rfl) (by rfl) (by rfl)

theorem tailOps16_step {W : Valuation τ sig (Elt Ideal)} {a : S1x48.Idx → EReal} {s : EReal} (h : Mid W a (W (Proc.devRef .tc main_v139)) s) :
    Mid (StableHlo.after (tailOps 16 (F := Ideal)) W) a (StableHlo.after (tailOps 16 (F := Ideal)) W (Proc.devRef .tc main_v147))
      (s + Ideal.div (a (ix2 0 32)) (Ideal.ofBits .f32 0x4A3FE000#32) * Ideal.div (a (ix2 0 33)) (Ideal.ofBits .f32 0x4B0FE800#32)) :=
  mid_step h (by show StableHlo.after [_, _, _, _, _, _, _, _, _, _] W _ = _; after_results)
    (by show StableHlo.after [_, _, _, _, _, _, _, _, _, _] W _ = _; after_results; rfl) (by rfl) (by rfl)

theorem tailOps17_step {W : Valuation τ sig (Elt Ideal)} {a : S1x48.Idx → EReal} {s : EReal} (h : Mid W a (W (Proc.devRef .tc main_v147)) s) :
    Mid (StableHlo.after (tailOps 17 (F := Ideal)) W) a (StableHlo.after (tailOps 17 (F := Ideal)) W (Proc.devRef .tc main_v155))
      (s + Ideal.div (a (ix2 0 34)) (Ideal.ofBits .f32 0x4A3FC804#32) * Ideal.div (a (ix2 0 35)) (Ideal.ofBits .f32 0x4B0FD603#32)) :=
  mid_step h (by show StableHlo.after [_, _, _, _, _, _, _, _, _, _] W _ = _; after_results)
    (by show StableHlo.after [_, _, _, _, _, _, _, _, _, _] W _ = _; after_results; rfl) (by rfl) (by rfl)

theorem tailOps18_step {W : Valuation τ sig (Elt Ideal)} {a : S1x48.Idx → EReal} {s : EReal} (h : Mid W a (W (Proc.devRef .tc main_v155)) s) :
    Mid (StableHlo.after (tailOps 18 (F := Ideal)) W) a (StableHlo.after (tailOps 18 (F := Ideal)) W (Proc.devRef .tc main_v163))
      (s + Ideal.div (a (ix2 0 36)) (Ideal.ofBits .f32 0x4A3FB008#32) * Ideal.div (a (ix2 0 37)) (Ideal.ofBits .f32 0x4B0FC406#32)) :=
  mid_step h (by show StableHlo.after [_, _, _, _, _, _, _, _, _, _] W _ = _; after_results)
    (by show StableHlo.after [_, _, _, _, _, _, _, _, _, _] W _ = _; after_results; rfl) (by rfl) (by rfl)

theorem tailOps19_step {W : Valuation τ sig (Elt Ideal)} {a : S1x48.Idx → EReal} {s : EReal} (h : Mid W a (W (Proc.devRef .tc main_v163)) s) :
    Mid (StableHlo.after (tailOps 19 (F := Ideal)) W) a (StableHlo.after (tailOps 19 (F := Ideal)) W (Proc.devRef .tc main_v171))
      (s + Ideal.div (a (ix2 0 38)) (Ideal.ofBits .f32 0x4A3F9010#32) * Ideal.div (a (ix2 0 39)) (Ideal.ofBits .f32 0x4B0FAC0C#32)) :=
  mid_step h (by show StableHlo.after [_, _, _, _, _, _, _, _, _, _] W _ = _; after_results)
    (by show StableHlo.after [_, _, _, _, _, _, _, _, _, _] W _ = _; after_results; rfl) (by rfl) (by rfl)

theorem tailOps20_step {W : Valuation τ sig (Elt Ideal)} {a : S1x48.Idx → EReal} {s : EReal} (h : Mid W a (W (Proc.devRef .tc main_v171)) s) :
    Mid (StableHlo.after (tailOps 20 (F := Ideal)) W) a (StableHlo.after (tailOps 20 (F := Ideal)) W (Proc.devRef .tc main_v179))
      (s + Ideal.div (a (ix2 0 40)) (Ideal.ofBits .f32 0x4A3FA808#32) * Ideal.div (a (ix2 0 41)) (Ideal.ofBits .f32 0x4B0FBE06#32)) :=
  mid_step h (by show StableHlo.after [_, _, _, _, _, _, _, _, _, _] W _ = _; after_results)
    (by show StableHlo.after [_, _, _, _, _, _, _, _, _, _] W _ = _; after_results; rfl) (by rfl) (by rfl)

theorem tailOps21_step {W : Valuation τ sig (Elt Ideal)} {a : S1x48.Idx → EReal} {s : EReal} (h : Mid W a (W (Proc.devRef .tc main_v179)) s) :
    Mid (StableHlo.after (tailOps 21 (F := Ideal)) W) a (StableHlo.after (tailOps 21 (F := Ideal)) W (Proc.devRef .tc main_v187))
      (s + Ideal.div (a (ix2 0 42)) (Ideal.ofBits .f32 0x4A3FC000#32) * Ideal.div (a (ix2 0 43)) (Ideal.ofBits .f32 0x4B0FD000#32)) :=
  mid_step h (by show StableHlo.after [_, _, _, _, _, _, _, _, _, _] W _ = _; after_results)
    (by show StableHlo.after [_, _, _, _, _, _, _, _, _, _] W _ = _; after_results; rfl) (by rfl) (by rfl)

theorem tailOps22_step {W : Valuation τ sig (Elt Ideal)} {a : S1x48.Idx → EReal} {s : EReal} (h : Mid W a (W (Proc.devRef .tc main_v187)) s) :
    Mid (StableHlo.after (tailOps 22 (F := Ideal)) W) a (StableHlo.after (tailOps 22 (F := Ideal)) W (Proc.devRef .tc main_v195))
      (s + Ideal.div (a (ix2 0 44)) (Ideal.ofBits .f32 0x4A3FA808#32) * Ideal.div (a (ix2 0 45)) (Ideal.ofBits .f32 0x4B0FBE06#32)) :=
  mid_step h (by show StableHlo.after [_, _, _, _, _, _, _, _, _, _] W _ = _; after_results)
    (by show StableHlo.after [_, _, _, _, _, _, _, _, _, _] W _ = _; after_results; rfl) (by rfl) (by rfl)

theorem tailOps23_step {W : Valuation τ sig (Elt Ideal)} {a : S1x48.Idx → EReal} {s : EReal} (h : Mid W a (W (Proc.devRef .tc main_v195)) s) :
    Mid (StableHlo.after (tailOps 23 (F := Ideal)) W) a (StableHlo.after (tailOps 23 (F := Ideal)) W (Proc.devRef .tc main_v203))
      (s + Ideal.div (a (ix2 0 46)) (Ideal.ofBits .f32 0x4A3F9010#32) * Ideal.div (a (ix2 0 47)) (Ideal.ofBits .f32 0x4B0FAC0C#32)) :=
  mid_step h (by show StableHlo.after [_, _, _, _, _, _, _, _, _, _] W _ = _; after_results)
    (by show StableHlo.after [_, _, _, _, _, _, _, _, _, _] W _ = _; after_results; rfl) (by rfl) (by rfl)

theorem hostOps1_split {F : FTy → Type} [FloatOps F] :
    (hostOps1 : List (HloOp τ sig (Elt F))) = tailOps 0 ++ (tailOps 1 ++ (tailOps 2 ++ (tailOps 3 ++ (tailOps 4 ++ (tailOps 5 ++ (tailOps 6 ++ (tailOps 7 ++ (tailOps 8 ++ (tailOps 9 ++ (tailOps 10 ++ (tailOps 11 ++ (tailOps 12 ++ (tailOps 13 ++ (tailOps 14 ++ (tailOps 15 ++ (tailOps 16 ++ (tailOps 17 ++ (tailOps 18 ++ (tailOps 19 ++ (tailOps 20 ++ (tailOps 21 ++ (tailOps 22 ++ (tailOps 23))))))))))))))))))))))) := rfl

def tailTotal (a : (⟨2, ![1, 48]⟩ : Shape).Idx → EReal) : EReal :=
  (((((((((((((((((((((((((0 : EReal)
    + Ideal.div (a (ix2 0 0)) (Ideal.ofBits .f32 0x4A3F9010#32) * Ideal.div (a (ix2 0 1)) (Ideal.ofBits .f32 0x4B0FAC0C#32))
    + Ideal.div (a (ix2 0 2)) (Ideal.ofBits .f32 0x4A3FA808#32) * Ideal.div (a (ix2 0 3)) (Ideal.ofBits .f32 0x4B0FBE06#32))
    + Ideal.div (a (ix2 0 4)) (Ideal.ofBits .f32 0x4A3FC000#32) * Ideal.div (a (ix2 0 5)) (Ideal.ofBits .f32 0x4B0FD000#32))
    + Ideal.div (a (ix2 0 6)) (Ideal.ofBits .f32 0x4A3FA808#32) * Ideal.div (a (ix2 0 7)) (Ideal.ofBits .f32 0x4B0FBE06#32))
    + Ideal.div (a (ix2 0 8)) (Ideal.ofBits .f32 0x4A3F9010#32) * Ideal.div (a (ix2 0 9)) (Ideal.ofBits .f32 0x4B0FAC0C#32))
    + Ideal.div (a (ix2 0 10)) (Ideal.ofBits .f32 0x4A3FB008#32) * Ideal.div (a (ix2 0 11)) (Ideal.ofBits .f32 0x4B0FC406#32))
    + Ideal.div (a (ix2 0 12)) (Ideal.ofBits .f32 0x4A3FC804#32) * Ideal.div (a (ix2 0 13)) (Ideal.ofBits .f32 0x4B0FD603#32))
    + Ideal.div (a (ix2 0 14)) (Ideal.ofBits .f32 0x4A3FE000#32) * Ideal.div (a (ix2 0 15)) (Ideal.ofBits .f32 0x4B0FE800#32))
    + Ideal.div (a (ix2 0 16)) (Ideal.ofBits .f32 0x4A3FC804#32) * Ideal.div (a (ix2 0 17)) (Ideal.ofBits .f32 0x4B0FD603#32))
    + Ideal.div (a (ix2 0 18)) (Ideal.ofBits .f32 0x4A3FB008#32) * Ideal.div (a (ix2 0 19)) (Ideal.ofBits .f32 0x4B0FC406#32))
    + Ideal.div (a (ix2 0 20)) (Ideal.ofBits .f32 0x4A3FD000#32) * Ideal.div (a (ix2 0 21)) (Ideal.ofBits .f32 0x4B0FDC00#32))
    + Ideal.div (a (ix2 0 22)) (Ideal.ofBits .f32 0x4A3FE800#32) * Ideal.div (a (ix2 0 23)) (Ideal.ofBits .f32 0x4B0FEE00#32))
    + Ideal.div (a (ix2 0 24)) (Ideal.ofBits .f32 0x4A3FE800#32) * Ideal.div (a (ix2 0 25)) (Ideal.ofBits .f32 0x4B0FEE00#32))
    + Ideal.div (a (ix2 0 26)) (Ideal.ofBits .f32 0x4A3FD000#32) * Ideal.div (a (ix2 0 27)) (Ideal.ofBits .f32 0x4B0FDC00#32))
    + Ideal.div (a (ix2 0 28)) (Ideal.ofBits .f32 0x4A3FB008#32) * Ideal.div (a (ix2 0 29)) (Ideal.ofBits .f32 0x4B0FC406#32))
    + Ideal.div (a (ix2 0 30)) (Ideal.ofBits .f32 0x4A3FC804#32) * Ideal.div (a (ix2 0 31)) (Ideal.ofBits .f32 0x4B0FD603#32))
    + Ideal.div (a (ix2 0 32)) (Ideal.ofBits .f32 0x4A3FE000#32) * Ideal.div (a (ix2 0 33)) (Ideal.ofBits .f32 0x4B0FE800#32))
    + Ideal.div (a (ix2 0 34)) (Ideal.ofBits .f32 0x4A3FC804#32) * Ideal.div (a (ix2 0 35)) (Ideal.ofBits .f32 0x4B0FD603#32))
    + Ideal.div (a (ix2 0 36)) (Ideal.ofBits .f32 0x4A3FB008#32) * Ideal.div (a (ix2 0 37)) (Ideal.ofBits .f32 0x4B0FC406#32))
    + Ideal.div (a (ix2 0 38)) (Ideal.ofBits .f32 0x4A3F9010#32) * Ideal.div (a (ix2 0 39)) (Ideal.ofBits .f32 0x4B0FAC0C#32))
    + Ideal.div (a (ix2 0 40)) (Ideal.ofBits .f32 0x4A3FA808#32) * Ideal.div (a (ix2 0 41)) (Ideal.ofBits .f32 0x4B0FBE06#32))
    + Ideal.div (a (ix2 0 42)) (Ideal.ofBits .f32 0x4A3FC000#32) * Ideal.div (a (ix2 0 43)) (Ideal.ofBits .f32 0x4B0FD000#32))
    + Ideal.div (a (ix2 0 44)) (Ideal.ofBits .f32 0x4A3FA808#32) * Ideal.div (a (ix2 0 45)) (Ideal.ofBits .f32 0x4B0FBE06#32))
    + Ideal.div (a (ix2 0 46)) (Ideal.ofBits .f32 0x4A3F9010#32) * Ideal.div (a (ix2 0 47)) (Ideal.ofBits .f32 0x4B0FAC0C#32))

theorem tail_value (Wv : Valuation τ sig (Elt Ideal)) :
    StableHlo.after (hostOps1 (F := Ideal)) Wv (Proc.devRef .tc main_v203) ix0 = tailTotal (Wv (Proc.devRef .tc main_v10)) := by
  rw [hostOps1_split]
  simp only [StableHlo.after_append]
  have h := tailOps0_step Wv _ rfl
  have h := tailOps1_step h
  have h := tailOps2_step h
  have h := tailOps3_step h
  have h := tailOps4_step h
  have h := tailOps5_step h
  have h := tailOps6_step h
  have h := tailOps7_step h
  have h := tailOps8_step h
  have h := tailOps9_step h
  have h := tailOps10_step h
  have h := tailOps11_step h
  have h := tailOps12_step h
  have h := tailOps13_step h
  have h := tailOps14_step h
  have h := tailOps15_step h
  have h := tailOps16_step h
  have h := tailOps17_step h
  have h := tailOps18_step h
  have h := tailOps19_step h
  have h := tailOps20_step h
  have h := tailOps21_step h
  have h := tailOps22_step h
  have h := tailOps23_step h
  exact h.2

end Cert.KernelIdeal.Hand
-- ==== Proof.Alg.lean ====
import proofs.«143054_j12300786336339_1_alg».proof.Proof.Spec
import Mathlib.Data.EReal.Operations
import Mathlib.Algebra.BigOperators.Fin
import Mathlib.Algebra.BigOperators.Intervals
import Mathlib.Data.Fintype.BigOperators
import Mathlib.Logic.Equiv.Fin.Basic

noncomputable section

namespace Smooth

open Idealize.ShloMosaic

theorem acc6_eq (f : ℕ → EReal) : acc6 f = ∑ t : Fin 6, f t := by
  rw [Fin.sum_univ_six]
  simp [acc6]

/-- six blocks of 256 rows are the 1536 rows -/
theorem sum_blocks (G : ℕ → EReal) :
    ∑ t : Fin 6, ∑ r : Fin 256, G (256 * t + r) = ∑ y ∈ Finset.range 1536, G y := by
  rw [← Fin.sum_univ_eq_sum_range G 1536]
  rw [← Fintype.sum_prod_type' (fun (t : Fin 6) (r : Fin 256) => G (256 * t + r))]
  refine Fintype.sum_equiv (finProdFinEquiv (m := 6) (n := 256)) _ _ (fun p => ?_)
  simp [finProdFinEquiv, add_comm]

/-- a sum over all rows of a function cut to a window of h rows is the sum over the window -/
theorem sum_window (H : ℕ → EReal) (a h n : ℕ) (hle : a + h ≤ n) :
    ∑ y ∈ Finset.range n, (if a ≤ y ∧ y < a + h then H y else 0) = ∑ y : Fin h, H (y + a) := by
  rw [← Finset.sum_filter]
  have hf : (Finset.range n).filter (fun y => a ≤ y ∧ y < a + h) = Finset.Ico a (a + h) := by
    ext y
    simp only [Finset.mem_filter, Finset.mem_range, Finset.mem_Ico]
    omega
  rw [hf, Finset.sum_Ico_eq_sum_range, Nat.add_sub_cancel_left,
    ← Fin.sum_univ_eq_sum_range (fun y => H (a + y)) h]
  exact Finset.sum_congr rfl (fun y _ => by rw [add_comm])

theorem shift_padded (Y : Img) (k c y x p : ℕ) (hp : y + k = p + 8) (hp' : p < 1536) :
    shiftRows (padded Y) k c y x = Y c p x := by
  have h1 : 8 ≤ y + k ∧ y + k < 1544 := by omega
  have h2 : y + k - 8 = p := by omega
  simp only [shiftRows, padded, if_pos h1, h2]

theorem sqd_shift_padded (Y : Img) (k y x y' x' p q : ℕ) (hp : y + k = p + 8) (hq : y' + k = q + 8)
    (hp' : p < 1536) (hq' : q < 1536) :
    sqd (shiftRows (padded Y) k) y x y' x' = sqd Y p x q x' := by
  unfold sqd
  refine Finset.sum_congr rfl (fun c _ => ?_)
  rw [shift_padded Y k c y x p hp hp', shift_padded Y k c y' x' q hq hq']

theorem abd_shift_padded (O : Img) (k y x y' x' p q : ℕ) (hp : y + k = p + 8) (hq : y' + k = q + 8)
    (hp' : p < 1536) (hq' : q < 1536) :
    abd (shiftRows (padded O) k) y x y' x' = abd O p x q x' := by
  unfold abd
  refine Finset.sum_congr rfl (fun c _ => ?_)
  rw [shift_padded O k c y x p hp hp', shift_padded O k c y' x' q hq hq']

/-- the regrouping: over the six blocks of the padded image the masked rows contribute exactly the rows ay .. ay + h of the slices, each once -/
theorem rows_of_blocks (P : Img → ℕ → ℕ → ℕ → ℕ → EReal) (Y : Img)
    (hP : ∀ k y x y' x' p q : ℕ, y + k = p + 8 → y' + k = q + 8 → p < 1536 → q < 1536 →
      P (shiftRows (padded Y) k) y x y' x' = P Y p x q x')
    (ey ay by' h ax bx w : ℕ) (hey : ay + ey = by' + 8) (ha : ay + h ≤ 1536) (hb : by' + h ≤ 1536)
    (hm : ∀ y, y < 1536 → ((8 ≤ y + ey ∧ y + ey < 1544) ↔ (ay ≤ y ∧ y < ay + h))) :
    ∑ t : Fin 6, ∑ r : Fin 256, ∑ x : Fin w,
        P (shiftRows (padded Y) (256 * t)) (r + 8) (x + ax) (r + ey) (x + bx) * maskv t r ey
      = ∑ y : Fin h, ∑ x : Fin w, P Y (y + ay) (x + ax) (y + by') (x + bx) := by
  let G : ℕ → EReal := fun y =>
    if ay ≤ y ∧ y < ay + h then ∑ x : Fin w, P Y (y - ay + ay) (x + ax) (y - ay + by') (x + bx) else 0
  have hrow : ∀ (t : Fin 6) (r : Fin 256),
      ∑ x : Fin w, P (shiftRows (padded Y) (256 * t)) (r + 8) (x + ax) (r + ey) (x + bx) * maskv t r ey
        = G (256 * t + r) := by
    intro t r
    have ht := t.isLt
    have hr := r.isLt
    have hy : 256 * (t : ℕ) + (r : ℕ) < 1536 := by omega
    by_cases hc : ay ≤ 256 * (t : ℕ) + (r : ℕ) ∧ 256 * (t : ℕ) + (r : ℕ) < ay + h
    · have hmk : maskv t r ey = 1 := by
        unfold maskv
        rw [if_pos ⟨hy, (hm _ hy).2 hc⟩]
      simp only [G, hmk, mul_one, if_pos hc]
      refine Finset.sum_congr rfl (fun x _ => ?_)
      exact hP _ _ _ _ _ _ _ (by omega) (by omega) (by omega) (by omega)
    · have hmk : maskv t r ey = 0 := by
        unfold maskv
        rw [if_neg (fun hh => hc ((hm _ hy).1 hh.2))]
      simp only [G, hmk, mul_zero, Finset.sum_const_zero, if_neg hc]
  calc ∑ t : Fin 6, ∑ r : Fin 256, ∑ x : Fin w,
          P (shiftRows (padded Y) (256 * t)) (r + 8) (x + ax) (r + ey) (x + bx) * maskv t r ey
      = ∑ t : Fin 6, ∑ r : Fin 256, G (256 * t + r) :=
        Finset.sum_congr rfl (fun t _ => Finset.sum_congr rfl (fun r _ => hrow t r))
    _ = ∑ y ∈ Finset.range 1536, G y := sum_blocks G
    _ = ∑ y : Fin h, (fun y => ∑ x : Fin w, P Y (y - ay + ay) (x + ax) (y - ay + by') (x + bx)) (y + ay) :=
        sum_window (fun y => ∑ x : Fin w, P Y (y - ay + ay) (x + ax) (y - ay + by') (x + bx)) ay h 1536 ha
    _ = ∑ y : Fin h, ∑ x : Fin w, P Y (y + ay) (x + ax) (y + by') (x + bx) := by
        refine Finset.sum_congr rfl (fun y _ => ?_)
        simp only [Nat.add_sub_cancel]

/-- so the six blocks' weight sums add up to the displacement's weights -/
theorem kW_rows (Y : Img) (ey ay by' h ax bx w : ℕ) (hey : ay + ey = by' + 8) (ha : ay + h ≤ 1536)
    (hb : by' + h ≤ 1536)
    (hm : ∀ y, y < 1536 → ((8 ≤ y + ey ∧ y + ey < 1544) ↔ (ay ≤ y ∧ y < ay + h))) :
    ∑ t : Fin 6, kW (padded Y) t ey ax bx w = sumW Y ay ax by' bx h w :=
  rows_of_blocks (fun B y x y' x' => Ideal.exp (sqd B y x y' x' * sigma)) Y
    (fun k y x y' x' p q hp hq hp' hq' => by
      show Ideal.exp (sqd (shiftRows (padded Y) k) y x y' x' * sigma) = Ideal.exp (sqd Y p x q x' * sigma)
      rw [sqd_shift_padded Y k y x y' x' p q hp hq hp' hq'])
    ey ay by' h ax bx w hey ha hb hm

theorem kN_rows (O : Img) (ey ay by' h ax bx w : ℕ) (hey : ay + ey = by' + 8) (ha : ay + h ≤ 1536)
    (hb : by' + h ≤ 1536)
    (hm : ∀ y, y < 1536 → ((8 ≤ y + ey ∧ y + ey < 1544) ↔ (ay ≤ y ∧ y < ay + h))) :
    ∑ t : Fin 6, kN (padded O) t ey ax bx w = sumN O ay ax by' bx h w :=
  rows_of_blocks (fun B y x y' x' => abd B y x y' x') O
    (fun k y x y' x' p q hp hq hp' hq' => abd_shift_padded O k y x y' x' p q hp hq hp' hq')
    ey ay by' h ax bx w hey ha hb hm

theorem kW_rows_6 (Y : Img) (ax bx w : ℕ) :
    ∑ t : Fin 6, kW (padded Y) t 6 ax bx w = sumW Y 2 ax 0 bx 1534 w :=
  kW_rows Y 6 2 0 1534 ax bx w (by norm_num) (by norm_num) (by norm_num) (fun y hy => by omega)

theorem kW_rows_7 (Y : Img) (ax bx w : ℕ) :
    ∑ t : Fin 6, kW (padded Y) t 7 ax bx w = sumW Y 1 ax 0 bx 1535 w :=
  kW_rows Y 7 1 0 1535 ax bx w (by norm_num) (by norm_num) (by norm_num) (fun y hy => by omega)

theorem kW_rows_8 (Y : Img) (ax bx w : ℕ) :
    ∑ t : Fin 6, kW (padded Y) t 8 ax bx w = sumW Y 0 ax 0 bx 1536 w :=
  kW_rows Y 8 0 0 1536 ax bx w (by norm_num) (by norm_num) (by norm_num) (fun y hy => by omega)

theorem kW_rows_9 (Y : Img) (ax bx w : ℕ) :
    ∑ t : Fin 6, kW (padded Y) t 9 ax bx w = sumW Y 0 ax 1 bx 1535 w :=
  kW_rows Y 9 0 1 1535 ax bx w (by norm_num) (by norm_num) (by norm_num) (fun y hy => by omega)

theorem kW_rows_10 (Y : Img) (ax bx w : ℕ) :
    ∑ t : Fin 6, kW (padded Y) t 10 ax bx w = sumW Y 0 ax 2 bx 1534 w :=
  kW_rows Y 10 0 2 1534 ax bx w (by norm_num) (by norm_num) (by norm_num) (fun y hy => by omega)

theorem kN_rows_6 (O : Img) (ax bx w : ℕ) :
    ∑ t : Fin 6, kN (padded O) t 6 ax bx w = sumN O 2 ax 0 bx 1534 w :=
  kN_rows O 6 2 0 1534 ax bx w (by norm_num) (by norm_num) (by norm_num) (fun y hy => by omega)

theorem kN_rows_7 (O : Img) (ax bx w : ℕ) :
    ∑ t : Fin 6, kN (padded O) t 7 ax bx w = sumN O 1 ax 0 bx 1535 w :=
  kN_rows O 7 1 0 1535 ax bx w (by norm_num) (by norm_num) (by norm_num) (fun y hy => by omega)

theorem kN_rows_8 (O : Img) (ax bx w : ℕ) :
    ∑ t : Fin 6, kN (padded O) t 8 ax bx w = sumN O 0 ax 0 bx 1536 w :=
  kN_rows O 8 0 0 1536 ax bx w (by norm_num) (by norm_num) (by norm_num) (fun y hy => by omega)

theorem kN_rows_9 (O : Img) (ax bx w : ℕ) :
    ∑ t : Fin 6, kN (padded O) t 9 ax bx w = sumN O 0 ax 1 bx 1535 w :=
  kN_rows O 9 0 1 1535 ax bx w (by norm_num) (by norm_num) (by norm_num) (fun y hy => by omega)

theorem kN_rows_10 (O : Img) (ax bx w : ℕ) :
    ∑ t : Fin 6, kN (padded O) t 10 ax bx w = sumN O 0 ax 2 bx 1534 w :=
  kN_rows O 10 0 2 1534 ax bx w (by norm_num) (by norm_num) (by norm_num) (fun y hy => by omega)

theorem acc6_kW (Y : Img) (ey ay by' h ax bx w : ℕ)
    (hrows : ∑ t : Fin 6, kW (padded Y) t ey ax bx w = sumW Y ay ax by' bx h w) :
    acc6 (fun t => kW (padded Y) t ey ax bx w) = sumW Y ay ax by' bx h w := by
  rw [acc6_eq]; exact hrows

theorem acc6_kN (O : Img) (ey ay by' h ax bx w : ℕ)
    (hrows : ∑ t : Fin 6, kN (padded O) t ey ax bx w = sumN O ay ax by' bx h w) :
    acc6 (fun t => kN (padded O) t ey ax bx w) = sumN O ay ax by' bx h w := by
  rw [acc6_eq]; exact hrows

end Smooth

end
-- ==== Proof.Alg2.lean ====
import proofs.«143054_j12300786336339_1_alg».proof.Proof.Alg

noncomputable section

namespace Smooth

open Idealize.ShloMosaic

/-- the two accumulated sums, divided and multiplied, are the displacement's term -/
theorem term_of_acc6 (Y O : Img) (ey ay by' h ax bx w : ℕ) (cw cn : EReal)
    (hW : ∑ t : Fin 6, kW (padded Y) t ey ax bx w = sumW Y ay ax by' bx h w)
    (hN : ∑ t : Fin 6, kN (padded O) t ey ax bx w = sumN O ay ax by' bx h w) :
    Ideal.div (acc6 (fun t => kW (padded Y) t ey ax bx w)) cw
        * Ideal.div (acc6 (fun t => kN (padded O) t ey ax bx w)) cn
      = term Y O ay ax by' bx h w cw cn := by
  rw [acc6_kW Y ey ay by' h ax bx w hW, acc6_kN O ey ay by' h ax bx w hN]
  rfl

theorem term_of_acc6_6 (Y O : Img) (ax bx w : ℕ) (cw cn : EReal) :
    Ideal.div (acc6 (fun t => kW (padded Y) t 6 ax bx w)) cw
        * Ideal.div (acc6 (fun t => kN (padded O) t 6 ax bx w)) cn
      = term Y O 2 ax 0 bx 1534 w cw cn :=
  term_of_acc6 Y O 6 2 0 1534 ax bx w cw cn (kW_rows_6 Y ax bx w) (kN_rows_6 O ax bx w)

theorem term_of_acc6_7 (Y O : Img) (ax bx w : ℕ) (cw cn : EReal) :
    Ideal.div (acc6 (fun t => kW (padded Y) t 7 ax bx w)) cw
        * Ideal.div (acc6 (fun t => kN (padded O) t 7 ax bx w)) cn
      = term Y O 1 ax 0 bx 1535 w cw cn :=
  term_of_acc6 Y O 7 1 0 1535 ax bx w cw cn (kW_rows_7 Y ax bx w) (kN_rows_7 O ax bx w)

theorem term_of_acc6_8 (Y O : Img) (ax bx w : ℕ) (cw cn : EReal) :
    Ideal.div (acc6 (fun t => kW (padded Y) t 8 ax bx w)) cw
        * Ideal.div (acc6 (fun t => kN (padded O) t 8 ax bx w)) cn
      = term Y O 0 ax 0 bx 1536 w cw cn :=
  term_of_acc6 Y O 8 0 0 1536 ax bx w cw cn (kW_rows_8 Y ax bx w) (kN_rows_8 O ax bx w)

theorem term_of_acc6_9 (Y O : Img) (ax bx w : ℕ) (cw cn : EReal) :
    Ideal.div (acc6 (fun t => kW (padded Y) t 9 ax bx w)) cw
        * Ideal.div (acc6 (fun t => kN (padded O) t 9 ax bx w)) cn
      = term Y O 0 ax 1 bx 1535 w cw cn :=
  term_of_acc6 Y O 9 0 1 1535 ax bx w cw cn (kW_rows_9 Y ax bx w) (kN_rows_9 O ax bx w)

theorem term_of_acc6_10 (Y O : Img) (ax bx w : ℕ) (cw cn : EReal) :
    Ideal.div (acc6 (fun t => kW (padded Y) t 10 ax bx w)) cw
        * Ideal.div (acc6 (fun t => kN (padded O) t 10 ax bx w)) cn
      = term Y O 0 ax 2 bx 1534 w cw cn :=
  term_of_acc6 Y O 10 0 2 1534 ax bx w cw cn (kW_rows_10 Y ax bx w) (kN_rows_10 O ax bx w)

end Smooth

end
-- ==== Proof.Totals.lean ====
import proofs.«143054_j12300786336339_1_alg».proof.Proof.Alg2

noncomputable section

namespace Smooth

open Idealize.ShloMosaic

/-- the 24 terms in the kernel's order -/
def kerTotal (Y O : Img) : EReal :=
  (((((((((((((((((((((((((0 : EReal) +
    term Y O 2 2 0 0 1534 2046 (Ideal.ofBits .f32 0x4A3F9010#32) (Ideal.ofBits .f32 0x4B0FAC0C#32)) +
    term Y O 2 1 0 0 1534 2047 (Ideal.ofBits .f32 0x4A3FA808#32) (Ideal.ofBits .f32 0x4B0FBE06#32)) +
    term Y O 2 0 0 0 1534 2048 (Ideal.ofBits .f32 0x4A3FC000#32) (Ideal.ofBits .f32 0x4B0FD000#32)) +
    term Y O 2 0 0 1 1534 2047 (Ideal.ofBits .f32 0x4A3FA808#32) (Ideal.ofBits .f32 0x4B0FBE06#32)) +
    term Y O 2 0 0 2 1534 2046 (Ideal.ofBits .f32 0x4A3F9010#32) (Ideal.ofBits .f32 0x4B0FAC0C#32)) +
    term Y O 1 2 0 0 1535 2046 (Ideal.ofBits .f32 0x4A3FB008#32) (Ideal.ofBits .f32 0x4B0FC406#32)) +
    term Y O 1 1 0 0 1535 2047 (Ideal.ofBits .f32 0x4A3FC804#32) (Ideal.ofBits .f32 0x4B0FD603#32)) +
    term Y O 1 0 0 0 1535 2048 (Ideal.ofBits .f32 0x4A3FE000#32) (Ideal.ofBits .f32 0x4B0FE800#32)) +
    term Y O 1 0 0 1 1535 2047 (Ideal.ofBits .f32 0x4A3FC804#32) (Ideal.ofBits .f32 0x4B0FD603#32)) +
    term Y O 1 0 0 2 1535 2046 (Ideal.ofBits .f32 0x4A3FB008#32) (Ideal.ofBits .f32 0x4B0FC406#32)) +
    term Y O 0 2 0 0 1536 2046 (Ideal.ofBits .f32 0x4A3FD000#32) (Ideal.ofBits .f32 0x4B0FDC00#32)) +
    term Y O 0 1 0 0 1536 2047 (Ideal.ofBits .f32 0x4A3FE800#32) (Ideal.ofBits .f32 0x4B0FEE00#32)) +
    term Y O 0 0 0 1 1536 2047 (Ideal.ofBits .f32 0x4A3FE800#32) (Ideal.ofBits .f32 0x4B0FEE00#32)) +
    term Y O 0 0 0 2 1536 2046 (Ideal.ofBits .f32 0x4A3FD000#32) (Ideal.ofBits .f32 0x4B0FDC00#32)) +
    term Y O 0 2 1 0 1535 2046 (Ideal.ofBits .f32 0x4A3FB008#32) (Ideal.ofBits .f32 0x4B0FC406#32)) +
    term Y O 0 1 1 0 1535 2047 (Ideal.ofBits .f32 0x4A3FC804#32) (Ideal.ofBits .f32 0x4B0FD603#32)) +
    term Y O 0 0 1 0 1535 2048 (Ideal.ofBits .f32 0x4A3FE000#32) (Ideal.ofBits .f32 0x4B0FE800#32)) +
    term Y O 0 0 1 1 1535 2047 (Ideal.ofBits .f32 0x4A3FC804#32) (Ideal.ofBits .f32 0x4B0FD603#32)) +
    term Y O 0 0 1 2 1535 2046 (Ideal.ofBits .f32 0x4A3FB008#32) (Ideal.ofBits .f32 0x4B0FC406#32)) +
    term Y O 0 2 2 0 1534 2046 (Ideal.ofBits .f32 0x4A3F9010#32) (Ideal.ofBits .f32 0x4B0FAC0C#32)) +
    term Y O 0 1 2 0 1534 2047 (Ideal.ofBits .f32 0x4A3FA808#32) (Ideal.ofBits .f32 0x4B0FBE06#32)) +
    term Y O 0 0 2 0 1534 2048 (Ideal.ofBits .f32 0x4A3FC000#32) (Ideal.ofBits .f32 0x4B0FD000#32)) +
    term Y O 0 0 2 1 1534 2047 (Ideal.ofBits .f32 0x4A3FA808#32) (Ideal.ofBits .f32 0x4B0FBE06#32)) +
    term Y O 0 0 2 2 1534 2046 (Ideal.ofBits .f32 0x4A3F9010#32) (Ideal.ofBits .f32 0x4B0FAC0C#32))

/-- the kernel's total from the 48 accumulated sums: each pair is its displacement's term -/
theorem kerTotal_eq_acc (Y O : Img) :
    kerTotal Y O =
  (((((((((((((((((((((((((0 : EReal) +
    Ideal.div (acc6 (fun t => kW (padded Y) t 6 2 0 2046)) (Ideal.ofBits .f32 0x4A3F9010#32) * Ideal.div (acc6 (fun t => kN (padded O) t 6 2 0 2046)) (Ideal.ofBits .f32 0x4B0FAC0C#32)) +
    Ideal.div (acc6 (fun t => kW (padded Y) t 6 1 0 2047)) (Ideal.ofBits .f32 0x4A3FA808#32) * Ideal.div (acc6 (fun t => kN (padded O) t 6 1 0 2047)) (Ideal.ofBits .f32 0x4B0FBE06#32)) +
    Ideal.div (acc6 (fun t => kW (padded Y) t 6 0 0 2048)) (Ideal.ofBits .f32 0x4A3FC000#32) * Ideal.div (acc6 (fun t => kN (padded O) t 6 0 0 2048)) (Ideal.ofBits .f32 0x4B0FD000#32)) +
    Ideal.div (acc6 (fun t => kW (padded Y) t 6 0 1 2047)) (Ideal.ofBits .f32 0x4A3FA808#32) * Ideal.div (acc6 (fun t => kN (padded O) t 6 0 1 2047)) (Ideal.ofBits .f32 0x4B0FBE06#32)) +
    Ideal.div (acc6 (fun t => kW (padded Y) t 6 0 2 2046)) (Ideal.ofBits .f32 0x4A3F9010#32) * Ideal.div (acc6 (fun t => kN (padded O) t 6 0 2 2046)) (Ideal.ofBits .f32 0x4B0FAC0C#32)) +
    Ideal.div (acc6 (fun t => kW (padded Y) t 7 2 0 2046)) (Ideal.ofBits .f32 0x4A3FB008#32) * Ideal.div (acc6 (fun t => kN (padded O) t 7 2 0 2046)) (Ideal.ofBits .f32 0x4B0FC406#32)) +
    Ideal.div (acc6 (fun t => kW (padded Y) t 7 1 0 2047)) (Ideal.ofBits .f32 0x4A3FC804#32) * Ideal.div (acc6 (fun t => kN (padded O) t 7 1 0 2047)) (Ideal.ofBits .f32 0x4B0FD603#32)) +
    Ideal.div (acc6 (fun t => kW (padded Y) t 7 0 0 2048)) (Ideal.ofBits .f32 0x4A3FE000#32) * Ideal.div (acc6 (fun t => kN (padded O) t 7 0 0 2048)) (Ideal.ofBits .f32 0x4B0FE800#32)) +
    Ideal.div (acc6 (fun t => kW (padded Y) t 7 0 1 2047)) (Ideal.ofBits .f32 0x4A3FC804#32) * Ideal.div (acc6 (fun t => kN (padded O) t 7 0 1 2047)) (Ideal.ofBits .f32 0x4B0FD603#32)) +
    Ideal.div (acc6 (fun t => kW (padded Y) t 7 0 2 2046)) (Ideal.ofBits .f32 0x4A3FB008#32) * Ideal.div (acc6 (fun t => kN (padded O) t 7 0 2 2046)) (Ideal.ofBits .f32 0x4B0FC406#32)) +
    Ideal.div (acc6 (fun t => kW (padded Y) t 8 2 0 2046)) (Ideal.ofBits .f32 0x4A3FD000#32) * Ideal.div (acc6 (fun t => kN (padded O) t 8 2 0 2046)) (Ideal.ofBits .f32 0x4B0FDC00#32)) +
    Ideal.div (acc6 (fun t => kW (padded Y) t 8 1 0 2047)) (Ideal.ofBits .f32 0x4A3FE800#32) * Ideal.div (acc6 (fun t => kN (padded O) t 8 1 0 2047)) (Ideal.ofBits .f32 0x4B0FEE00#32)) +
    Ideal.div (acc6 (fun t => kW (padded Y) t 8 0 1 2047)) (Ideal.ofBits .f32 0x4A3FE800#32) * Ideal.div (acc6 (fun t => kN (padded O) t 8 0 1 2047)) (Ideal.ofBits .f32 0x4B0FEE00#32)) +
    Ideal.div (acc6 (fun t => kW (padded Y) t 8 0 2 2046)) (Ideal.ofBits .f32 0x4A3FD000#32) * Ideal.div (acc6 (fun t => kN (padded O) t 8 0 2 2046)) (Ideal.ofBits .f32 0x4B0FDC00#32)) +
    Ideal.div (acc6 (fun t => kW (padded Y) t 9 2 0 2046)) (Ideal.ofBits .f32 0x4A3FB008#32) * Ideal.div (acc6 (fun t => kN (padded O) t 9 2 0 2046)) (Ideal.ofBits .f32 0x4B0FC406#32)) +
    Ideal.div (acc6 (fun t => kW (padded Y) t 9 1 0 2047)) (Ideal.ofBits .f32 0x4A3FC804#32) * Ideal.div (acc6 (fun t => kN (padded O) t 9 1 0 2047)) (Ideal.ofBits .f32 0x4B0FD603#32)) +
    Ideal.div (acc6 (fun t => kW (padded Y) t 9 0 0 2048)) (Ideal.ofBits .f32 0x4A3FE000#32) * Ideal.div (acc6 (fun t => kN (padded O) t 9 0 0 2048)) (Ideal.ofBits .f32 0x4B0FE800#32)) +
    Ideal.div (acc6 (fun t => kW (padded Y) t 9 0 1 2047)) (Ideal.ofBits .f32 0x4A3FC804#32) * Ideal.div (acc6 (fun t => kN (padded O) t 9 0 1 2047)) (Ideal.ofBits .f32 0x4B0FD603#32)) +
    Ideal.div (acc6 (fun t => kW (padded Y) t 9 0 2 2046)) (Ideal.ofBits .f32 0x4A3FB008#32) * Ideal.div (acc6 (fun t => kN (padded O) t 9 0 2 2046)) (Ideal.ofBits .f32 0x4B0FC406#32)) +
    Ideal.div (acc6 (fun t => kW (padded Y) t 10 2 0 2046)) (Ideal.ofBits .f32 0x4A3F9010#32) * Ideal.div (acc6 (fun t => kN (padded O) t 10 2 0 2046)) (Ideal.ofBits .f32 0x4B0FAC0C#32)) +
    Ideal.div (acc6 (fun t => kW (padded Y) t 10 1 0 2047)) (Ideal.ofBits .f32 0x4A3FA808#32) * Ideal.div (acc6 (fun t => kN (padded O) t 10 1 0 2047)) (Ideal.ofBits .f32 0x4B0FBE06#32)) +
    Ideal.div (acc6 (fun t => kW (padded Y) t 10 0 0 2048)) (Ideal.ofBits .f32 0x4A3FC000#32) * Ideal.div (acc6 (fun t => kN (padded O) t 10 0 0 2048)) (Ideal.ofBits .f32 0x4B0FD000#32)) +
    Ideal.div (acc6 (fun t => kW (padded Y) t 10 0 1 2047)) (Ideal.ofBits .f32 0x4A3FA808#32) * Ideal.div (acc6 (fun t => kN (padded O) t 10 0 1 2047)) (Ideal.ofBits .f32 0x4B0FBE06#32)) +
    Ideal.div (acc6 (fun t => kW (padded Y) t 10 0 2 2046)) (Ideal.ofBits .f32 0x4A3F9010#32) * Ideal.div (acc6 (fun t => kN (padded O) t 10 0 2 2046)) (Ideal.ofBits .f32 0x4B0FAC0C#32)) := by
  simp only [term_of_acc6_6, term_of_acc6_7, term_of_acc6_8, term_of_acc6_9, term_of_acc6_10]
  rfl

end Smooth

end
-- ==== Proof.KI.Value.lean ====
import proofs.«143054_j12300786336339_1_alg».proof.Proof.KI.Shares
import proofs.«143054_j12300786336339_1_alg».proof.Proof.KI.Frame
import proofs.«143054_j12300786336339_1_alg».proof.Proof.KI.Tail
import proofs.«143054_j12300786336339_1_alg».proof.Proof.Totals
import Idealize.ShloMosaic.Lib.Pipeline.Value
import Idealize.ShloMosaic.Lib.ValueIdx
import Idealize.ShloMosaic.Lib.IdealHost

set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (m : (ℓ : Loc nD τ sig) → Buf (Elt F) ℓ) (ρ : Dev nD → PrngReg)

open Idealize.ShloMosaic.ValueIdx Idealize.ShloMosaic.StableHlo

abbrev accEnd (c : Dev nD) : Buf (Elt F) ((c : Thread nD τ).loc main_v10) := outsAt0 m c 5 (by rw [show cfg0.N = 6 from N_0]; decide)

theorem flushed_eq (c : Dev nD) (t : Fin cfg0.N) (hf : (cfg0.win 0).flush t = true) :
    (dats m 0 c).flushed 0 t = ((cfg0.win 0).blk t).view.read (Elt F) (accEnd m c) := by
  have hN : cfg0.N = 6 := N_0
  have h5 : t.val = 5 := by have := (flush0_0 t).mp hf; have := t.isLt; omega
  obtain rfl : t = t0_5 := Fin.ext h5
  show (cfg0.win 0).cut (grid0.coords t0_5) ((dats m 0 c).after 0 t0_5) = _
  rw [after0_0]
  have hz' : (fun a => win0_0.index t0_5 a * main_v10.ty.shape.size a) = fun _ => 0 := funext fun a => by fin_cases a <;> decide
  exact (Memref.read_access_unit_zero (Elt F) main_v10 hz' (fun a => by rw [congrFun hz' a]; simp) (accEnd m c)).symm

theorem final_acc (c : Dev nD) : (dats m 0 c).arrAt 0 cfg0.N = accEnd m c :=
  (dats m 0 c).arrAt_eq_of_cover 0 (accEnd m c) (flushed_eq m c) fun i =>
    ⟨t0_5, (flush0_0 t0_5).mpr rfl, by
      show i ∈ ((View.whole main_v10).slice (win0_0.rect t0_5)).set
      rw [View.set_slice_whole, Rect.mem_set_unit]
      intro a
      have h0 : (i 0 : Nat) < 1 := (i 0).isLt
      have h1 : (i 1 : Nat) < 48 := (i 1).isLt
      match a with
      | ⟨0, _⟩ => show win0_0.index t0_5 0 * win0_0.size 0 ≤ (i 0 : Nat) ∧ (i 0 : Nat) < win0_0.index t0_5 0 * win0_0.size 0 + win0_0.xsize (grid0.coords t0_5) 0
                  rw [show win0_0.index t0_5 0 * win0_0.size 0 = 0 from by decide +kernel, show win0_0.xsize (grid0.coords t0_5) 0 = 1 from by decide +kernel]; omega
      | ⟨1, _⟩ => show win0_0.index t0_5 1 * win0_0.size 1 ≤ (i 1 : Nat) ∧ (i 1 : Nat) < win0_0.index t0_5 1 * win0_0.size 1 + win0_0.xsize (grid0.coords t0_5) 1
                  rw [show win0_0.index t0_5 1 * win0_0.size 1 = 0 from by decide +kernel, show win0_0.xsize (grid0.coords t0_5) 1 = 48 from by decide +kernel]; omega⟩

section Value
variable (mI : (ℓ : Loc nD τ sig) → Buf (Elt Ideal) ℓ)

theorem zeros_apply (j : Fin 48) : (k0_pay183 (F := Ideal) (k0_pay2 (F := Ideal)) : S1x48.Idx → EReal) (ix2 0 j) = 0 := by
  show (shapeCast S1x48 (broadcast S1x48 (Scalar.ofBits (F := Ideal) .f32 0x00000000#32)) shapeCasts_S1x48_S1x48 : S1x48.Idx → EReal) (ix2 0 j) = 0
  rw [shapeCast_self]
  exact Ideal.ofBits_zero_f32

theorem loaded_apply (xo : Vec Ideal S1x48 .f32) (j : Fin 48) :
    (k0_pay183 (F := Ideal) xo : S1x48.Idx → EReal) (ix2 0 j) = (xo : S1x48.Idx → EReal) (ix2 0 j) := by
  show (shapeCast S1x48 xo shapeCasts_S1x48_S1x48 : S1x48.Idx → EReal) (ix2 0 j) = _
  rw [shapeCast_self]

theorem stored_apply (v x : FVec Ideal S1x48 .f32) (j : Fin 48) :
    (k0_pay1 v x : S1x48.Idx → EReal) (ix2 0 j) = (x : S1x48.Idx → EReal) (ix2 0 j) + (v : S1x48.Idx → EReal) (ix2 0 j) := rfl

theorem pointA (c : Dev nD) (t : Fin cfg0.N) (h0 : t.val % 6 = 0) (j : Fin 48) :
    (out0_A_0 (F := Ideal) c (grid0.coords t) (ms0_0 t) (hs0_0 t) ((hcond0_0 t).mpr h0) (V mI c main_v8) (V mI c main_v9) : S1x48.Idx → EReal) (ix2 0 j)
      = 0 + share (Yk mI c) (Ok mI c) j.val t.val := by
  unfold out0_A_0
  rw [pieces_A c (grid0.coords t) (ms0_0 t) (hs0_0 t) ((hcond0_0 t).mpr h0) (V mI c main_v8) (V mI c main_v9), stored_apply,
    zeros_apply, vec48_share mI c t j]

theorem pointB (c : Dev nD) (t : Fin cfg0.N) (h0 : ¬t.val % 6 = 0) (xo : Vec Ideal S1x48 .f32) (j : Fin 48) :
    (out0_B_0 (F := Ideal) c (grid0.coords t) (ms0_0 t) (hs0_0 t) (fun h => h0 ((hcond0_0 t).mp h)) (V mI c main_v8) (V mI c main_v9) xo : S1x48.Idx → EReal) (ix2 0 j)
      = (xo : S1x48.Idx → EReal) (ix2 0 j) + share (Yk mI c) (Ok mI c) j.val t.val := by
  unfold out0_B_0
  rw [pieces_B c (grid0.coords t) (ms0_0 t) (hs0_0 t) (fun h => h0 ((hcond0_0 t).mp h)) (V mI c main_v8) (V mI c main_v9) xo, stored_apply,
    loaded_apply, vec48_share mI c t j]

def accN (f : ℕ → EReal) : ℕ → EReal
  | 0 => 0 + f 0
  | n + 1 => accN f n + f (n + 1)

theorem accN_five (f : ℕ → EReal) : accN f 5 = Smooth.acc6 f := rfl

theorem acc_value (c : Dev nD) :
    ∀ (n : ℕ) (hn : n < cfg0.N) (j : Fin 48), (outsAt0 mI c n hn : S1x48.Idx → EReal) (ix2 0 j) = accN (share (Yk mI c) (Ok mI c) j.val) n
  | 0, hn, j => (congrFun (outsAt0_A mI c ⟨0, hn⟩ rfl) (ix2 0 j)).trans (pointA mI c ⟨0, hn⟩ rfl j)
  | n + 1, hn, j => by
    have hN : cfg0.N = 6 := N_0
    have hB' : ¬(⟨n + 1, hn⟩ : Fin cfg0.N).val % 6 = 0 := by dsimp only; omega
    refine (congrFun (outsAt0_B mI c ⟨n + 1, hn⟩ hB') (ix2 0 j)).trans ((pointB mI c ⟨n + 1, hn⟩ hB' _ j).trans ?_)
    show (outsAt0 mI c n _ : S1x48.Idx → EReal) (ix2 0 j) + share (Yk mI c) (Ok mI c) j.val (n + 1) = accN (share (Yk mI c) (Ok mI c) j.val) n + share (Yk mI c) (Ok mI c) j.val (n + 1)
    rw [acc_value c n _ j]

theorem accEnd_apply (c : Dev nD) (j : Fin 48) :
    (accEnd mI c : S1x48.Idx → EReal) (ix2 0 j) = Smooth.acc6 (share (Yk mI c) (Ok mI c) j.val) :=
  (acc_value mI c 5 _ j).trans (accN_five _)

theorem tail_acc (c : Dev nD) : tailTotal (accEnd mI c) = Smooth.kerTotal (Yk mI c) (Ok mI c) := by
  rw [Smooth.kerTotal_eq_acc]
  unfold tailTotal
  simp only [accEnd_apply mI c]
  rfl

theorem after_v203 (c : Dev nD) :
    Pipeline.afterTail₀ cfgs (dats mI) 0 (V0 mI) [hostOps1] c main_v203 = fun _ => Smooth.kerTotal (Yk mI c) (Ok mI c) := by
  funext idx
  obtain rfl : idx = ix0 := eq_ix0 idx
  unfold Pipeline.afterTail₀
  show StableHlo.after (hostOps1 (F := Ideal)) _ (Proc.devRef .tc main_v203) ix0 = _
  rw [tail_value]
  exact (congrArg tailTotal ((Pipeline.withArrays_arr spec0 launch0.win.arr_inj c _ _ 0).trans (final_acc mI c))).trans
    (tail_acc mI c)

theorem kernel_value (ρ : Dev nD → PrngReg) :
    θ_run defs (onTc (τ := τ) (main (F := Ideal))) ⟨mI, fun _ => 0, ρ⟩ (fun r => ∀ c : Dev nD,
      r.2.mem ((c.tc : Thread nD τ).loc main_v203)
        = (fun _ => Smooth.kerTotal (Smooth.img4 (yccK (mI ((c.tc : Thread nD τ).loc main_arg0)))) (Smooth.img4 (mI ((c.tc : Thread nD τ).loc main_arg1))))
      ∧ r.2.mem ((c.tc : Thread nD τ).loc main_arg0) = mI ((c.tc : Thread nD τ).loc main_arg0)
      ∧ r.2.mem ((c.tc : Thread nD τ).loc main_arg1) = mI ((c.tc : Thread nD τ).loc main_arg1)) :=
  (θ_run defs _ _).mono (fun r h c =>
    ⟨((h c).2 main_v203 (by decide)).trans (after_v203 mI c),
     ((h c).2 main_arg0 (by decide)).trans (W_main_arg0 mI (dats mI) c),
     ((h c).2 main_arg1 (by decide)).trans (W_main_arg1 mI (dats mI) c)⟩)
    (run_main mI ρ)

end Value

end Cert.KernelIdeal.Hand
end
-- ==== Proof.Ref.OpOk.lean ====
import proofs.«143054_j12300786336339_1_alg».proof.Proof.Gen.ReferenceIdeal
import Idealize.ShloMosaic.Lib.StableHlo.Run

noncomputable section
namespace Cert.ReferenceIdeal.Hand
open Cert.ReferenceIdeal Idealize.ShloMosaic Idealize.ShloMosaic.StableHlo
variable {F : FTy → Type} [FloatOps F]

/-- What the run and the frame ask of each operation: it touches TensorCore buffers only, determines its results,
    and writes neither argument. -/
structure Ok (op : HloOp τ sig (Elt F)) : Prop where
  sub : op.bufs ⊆ tcRefs τ sig
  fresh : op.fresh = ∅
  keeps : ∀ r ∈ [main_arg0, main_arg1], Proc.devRef (τ := τ) .tc r ∉ op.writes

/-- An operation whose one written buffer is neither argument writes neither argument. -/
theorem keeps_of {op : HloOp τ sig (Elt F)} {y : Ref sig .tc} (hw : op.writes = {Proc.devRef .tc y})
    (h : y ∉ [main_arg0, main_arg1]) : ∀ r ∈ [main_arg0, main_arg1], Proc.devRef (τ := τ) .tc r ∉ op.writes :=
  fun r hr hm => h (Proc.devRef_injective _ (Finset.mem_singleton.mp (hw ▸ hm)) ▸ hr)

theorem Ok.nullary {y : Ref sig .tc} {v : y.ty.Contents (Elt F)} {hy} (h : y ∉ [main_arg0, main_arg1]) :
    Ok (StableHlo.nullary (τ := τ) y v hy) :=
  ⟨nullary_bufs_sub .., rfl, keeps_of (nullary_writes ..) h⟩

theorem Ok.unary {x y : Ref sig .tc} {f : x.ty.Contents (Elt F) → y.ty.Contents (Elt F)} {hx hy}
    (h : y ∉ [main_arg0, main_arg1]) : Ok (StableHlo.unary (τ := τ) x y f hx hy) :=
  ⟨unary_bufs_sub .., rfl, keeps_of (unary_writes ..) h⟩

theorem Ok.binary {a b y : Ref sig .tc} {f : a.ty.Contents (Elt F) → b.ty.Contents (Elt F) → y.ty.Contents (Elt F)}
    {ha hb hy} (h : y ∉ [main_arg0, main_arg1]) : Ok (StableHlo.binary (τ := τ) a b y f ha hb hy) :=
  ⟨binary_bufs_sub .., rfl, keeps_of (binary_writes ..) h⟩

theorem Ok.reshape {x y : Ref sig .tc} {he hn hx hy} (h : y ∉ [main_arg0, main_arg1]) :
    Ok (StableHlo.reshape (τ := τ) (Val := Elt F) x y he hn hx hy) :=
  ⟨reshape_bufs_sub .., rfl, keeps_of (reshape_writes ..) h⟩

end Cert.ReferenceIdeal.Hand
end
-- ==== Proof.Ref.Ops0.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part0 : List (HloOp τ sig (Elt F)) :=
  [ nullary main_cst (fun i => FloatOps.ofBits .f32 (lit0 (S3x3.rowMajor i))),
    nullary main_cst_0 (fun i => FloatOps.ofBits .f32 (lit1 (S3.rowMajor i))),
    reshape main_arg0 main_v0 rfl shapeCasts_S1x3x1536x2048_S3145728x3,
    binary main_v0 main_cst main_v1 (fun l r => Host.dotGeneral dot_S3145728x3_S3x3_S3145728x3_1_0_0_1_n_n none l r),
    unary main_cst_0 main_v2 (broadcastInDim S1x3 ![1] bcast_S3_S1x3_1),
    unary main_v2 main_v3 (broadcastInDim S3145728x3 ![0, 1] bcast_S1x3_S3145728x3_0_1),
    binary main_v1 main_v3 main_v4 addf,
    reshape main_v4 main_v5 rfl shapeCasts_S3145728x3_S1x3x1536x2048,
    unary main_v5 main_v6 (extractStridedSlice S1x3x1535x2048 ![0, 0, 1, 0] · slices_S1x3x1536x2048_S1x3x1535x2048_0_0_1_0),
    unary main_v5 main_v7 (extractStridedSlice S1x3x1535x2048 ![0, 0, 0, 0] · slices_S1x3x1536x2048_S1x3x1535x2048_0_0_0_0),
    binary main_v6 main_v7 main_v8 subf,
    binary main_v8 main_v8 main_v9 mulf,
    nullary main_cst_1 (constant S_ .f32 0x00000000#32),
    binary main_v9 main_cst_1 main_v10 (fun x v => Host.reduceAdd x v reducesTo_S1x3x1535x2048_S1x1535x2048_d1 h_S_),
    nullary main_cst_2 (constant S_ .f32 0xBBA3D70A#32),
    unary main_cst_2 main_v11 (broadcastInDim S1x1535x2048 ![] bcast_S_S1x1535x2048),
    binary main_v10 main_v11 main_v12 mulf,
    unary main_v12 main_v13 Host.exp,
    unary main_arg1 main_v14 (extractStridedSlice S1x3x1535x2048 ![0, 0, 1, 0] · slices_S1x3x1536x2048_S1x3x1535x2048_0_0_1_0),
    unary main_arg1 main_v15 (extractStridedSlice S1x3x1535x2048 ![0, 0, 0, 0] · slices_S1x3x1536x2048_S1x3x1535x2048_0_0_0_0),
    binary main_v14 main_v15 main_v16 subf,
    unary main_v16 main_v17 Host.absf,
    nullary main_cst_3 (constant S_ .f32 0x00000000#32),
    binary main_v17 main_cst_3 main_v18 (fun x v => Host.reduceAdd x v reducesTo_S1x3x1535x2048_S_d0_1_2_3 h_S_),
    nullary main_cst_4 (constant S_ .f32 0x4B0FE800#32),
    binary main_v18 main_cst_4 main_v19 Host.divf,
    nullary main_cst_5 (constant S_ .f32 0x00000000#32),
    binary main_v13 main_cst_5 main_v20 (fun x v => Host.reduceAdd x v reducesTo_S1x1535x2048_S_d0_1_2 h_S_),
    nullary main_cst_6 (constant S_ .f32 0x4A3FE000#32),
    binary main_v20 main_cst_6 main_v21 Host.divf,
    binary main_v21 main_v19 main_v22 mulf,
    nullary main_cst_7 (constant S_ .f32 0x00000000#32),
    binary main_cst_7 main_v22 main_v23 addf,
    unary main_v5 main_v24 (extractStridedSlice S1x3x1535x2048 ![0, 0, 0, 0] · slices_S1x3x1536x2048_S1x3x1535x2048_0_0_0_0),
    unary main_v5 main_v25 (extractStridedSlice S1x3x1535x2048 ![0, 0, 1, 0] · slices_S1x3x1536x2048_S1x3x1535x2048_0_0_1_0),
    binary main_v24 main_v25 main_v26 subf,
    binary main_v26 main_v26 main_v27 mulf,
    nullary main_cst_8 (constant S_ .f32 0x00000000#32),
    binary main_v27 main_cst_8 main_v28 (fun x v => Host.reduceAdd x v reducesTo_S1x3x1535x2048_S1x1535x2048_d1 h_S_),
    nullary main_cst_9 (constant S_ .f32 0xBBA3D70A#32),
    unary main_cst_9 main_v29 (broadcastInDim S1x1535x2048 ![] bcast_S_S1x1535x2048),
    binary main_v28 main_v29 main_v30 mulf,
    unary main_v30 main_v31 Host.exp,
    unary main_arg1 main_v32 (extractStridedSlice S1x3x1535x2048 ![0, 0, 0, 0] · slices_S1x3x1536x2048_S1x3x1535x2048_0_0_0_0),
    unary main_arg1 main_v33 (extractStridedSlice S1x3x1535x2048 ![0, 0, 1, 0] · slices_S1x3x1536x2048_S1x3x1535x2048_0_0_1_0),
    binary main_v32 main_v33 main_v34 subf,
    unary main_v34 main_v35 Host.absf,
    nullary main_cst_10 (constant S_ .f32 0x00000000#32),
    binary main_v35 main_cst_10 main_v36 (fun x v => Host.reduceAdd x v reducesTo_S1x3x1535x2048_S_d0_1_2_3 h_S_),
    nullary main_cst_11 (constant S_ .f32 0x4B0FE800#32),
    binary main_v36 main_cst_11 main_v37 Host.divf,
    nullary main_cst_12 (constant S_ .f32 0x00000000#32),
    binary main_v31 main_cst_12 main_v38 (fun x v => Host.reduceAdd x v reducesTo_S1x1535x2048_S_d0_1_2 h_S_),
    nullary main_cst_13 (constant S_ .f32 0x4A3FE000#32),
    binary main_v38 main_cst_13 main_v39 Host.divf,
    binary main_v39 main_v37 main_v40 mulf,
    binary main_v23 main_v40 main_v41 addf,
    unary main_v5 main_v42 (extractStridedSlice S1x3x1536x2047 ![0, 0, 0, 1] · slices_S1x3x1536x2048_S1x3x1536x2047_0_0_0_1),
    unary main_v5 main_v43 (extractStridedSlice S1x3x1536x2047 ![0, 0, 0, 0] · slices_S1x3x1536x2048_S1x3x1536x2047_0_0_0_0),
    binary main_v42 main_v43 main_v44 subf ]

theorem main_part0_eq (c : Dev nD) : main_part0 (F := F) c = seq ops_part0 := rfl

theorem ops_part0_ok : (ops_part0 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops1.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part1 : List (HloOp τ sig (Elt F)) :=
  [ binary main_v44 main_v44 main_v45 mulf,
    nullary main_cst_14 (constant S_ .f32 0x00000000#32),
    binary main_v45 main_cst_14 main_v46 (fun x v => Host.reduceAdd x v reducesTo_S1x3x1536x2047_S1x1536x2047_d1 h_S_),
    nullary main_cst_15 (constant S_ .f32 0xBBA3D70A#32),
    unary main_cst_15 main_v47 (broadcastInDim S1x1536x2047 ![] bcast_S_S1x1536x2047),
    binary main_v46 main_v47 main_v48 mulf,
    unary main_v48 main_v49 Host.exp,
    unary main_arg1 main_v50 (extractStridedSlice S1x3x1536x2047 ![0, 0, 0, 1] · slices_S1x3x1536x2048_S1x3x1536x2047_0_0_0_1),
    unary main_arg1 main_v51 (extractStridedSlice S1x3x1536x2047 ![0, 0, 0, 0] · slices_S1x3x1536x2048_S1x3x1536x2047_0_0_0_0),
    binary main_v50 main_v51 main_v52 subf,
    unary main_v52 main_v53 Host.absf,
    nullary main_cst_16 (constant S_ .f32 0x00000000#32),
    binary main_v53 main_cst_16 main_v54 (fun x v => Host.reduceAdd x v reducesTo_S1x3x1536x2047_S_d0_1_2_3 h_S_),
    nullary main_cst_17 (constant S_ .f32 0x4B0FEE00#32),
    binary main_v54 main_cst_17 main_v55 Host.divf,
    nullary main_cst_18 (constant S_ .f32 0x00000000#32),
    binary main_v49 main_cst_18 main_v56 (fun x v => Host.reduceAdd x v reducesTo_S1x1536x2047_S_d0_1_2 h_S_),
    nullary main_cst_19 (constant S_ .f32 0x4A3FE800#32),
    binary main_v56 main_cst_19 main_v57 Host.divf,
    binary main_v57 main_v55 main_v58 mulf,
    binary main_v41 main_v58 main_v59 addf,
    unary main_v5 main_v60 (extractStridedSlice S1x3x1536x2047 ![0, 0, 0, 0] · slices_S1x3x1536x2048_S1x3x1536x2047_0_0_0_0),
    unary main_v5 main_v61 (extractStridedSlice S1x3x1536x2047 ![0, 0, 0, 1] · slices_S1x3x1536x2048_S1x3x1536x2047_0_0_0_1),
    binary main_v60 main_v61 main_v62 subf,
    binary main_v62 main_v62 main_v63 mulf,
    nullary main_cst_20 (constant S_ .f32 0x00000000#32),
    binary main_v63 main_cst_20 main_v64 (fun x v => Host.reduceAdd x v reducesTo_S1x3x1536x2047_S1x1536x2047_d1 h_S_),
    nullary main_cst_21 (constant S_ .f32 0xBBA3D70A#32),
    unary main_cst_21 main_v65 (broadcastInDim S1x1536x2047 ![] bcast_S_S1x1536x2047),
    binary main_v64 main_v65 main_v66 mulf,
    unary main_v66 main_v67 Host.exp,
    unary main_arg1 main_v68 (extractStridedSlice S1x3x1536x2047 ![0, 0, 0, 0] · slices_S1x3x1536x2048_S1x3x1536x2047_0_0_0_0),
    unary main_arg1 main_v69 (extractStridedSlice S1x3x1536x2047 ![0, 0, 0, 1] · slices_S1x3x1536x2048_S1x3x1536x2047_0_0_0_1),
    binary main_v68 main_v69 main_v70 subf,
    unary main_v70 main_v71 Host.absf,
    nullary main_cst_22 (constant S_ .f32 0x00000000#32),
    binary main_v71 main_cst_22 main_v72 (fun x v => Host.reduceAdd x v reducesTo_S1x3x1536x2047_S_d0_1_2_3 h_S_),
    nullary main_cst_23 (constant S_ .f32 0x4B0FEE00#32),
    binary main_v72 main_cst_23 main_v73 Host.divf,
    nullary main_cst_24 (constant S_ .f32 0x00000000#32),
    binary main_v67 main_cst_24 main_v74 (fun x v => Host.reduceAdd x v reducesTo_S1x1536x2047_S_d0_1_2 h_S_),
    nullary main_cst_25 (constant S_ .f32 0x4A3FE800#32),
    binary main_v74 main_cst_25 main_v75 Host.divf,
    binary main_v75 main_v73 main_v76 mulf,
    binary main_v59 main_v76 main_v77 addf,
    unary main_v5 main_v78 (extractStridedSlice S1x3x1535x2047 ![0, 0, 0, 0] · slices_S1x3x1536x2048_S1x3x1535x2047_0_0_0_0),
    unary main_v5 main_v79 (extractStridedSlice S1x3x1535x2047 ![0, 0, 1, 1] · slices_S1x3x1536x2048_S1x3x1535x2047_0_0_1_1),
    binary main_v78 main_v79 main_v80 subf,
    binary main_v80 main_v80 main_v81 mulf,
    nullary main_cst_26 (constant S_ .f32 0x00000000#32),
    binary main_v81 main_cst_26 main_v82 (fun x v => Host.reduceAdd x v reducesTo_S1x3x1535x2047_S1x1535x2047_d1 h_S_),
    nullary main_cst_27 (constant S_ .f32 0xBBA3D70A#32),
    unary main_cst_27 main_v83 (broadcastInDim S1x1535x2047 ![] bcast_S_S1x1535x2047),
    binary main_v82 main_v83 main_v84 mulf,
    unary main_v84 main_v85 Host.exp,
    unary main_arg1 main_v86 (extractStridedSlice S1x3x1535x2047 ![0, 0, 0, 0] · slices_S1x3x1536x2048_S1x3x1535x2047_0_0_0_0),
    unary main_arg1 main_v87 (extractStridedSlice S1x3x1535x2047 ![0, 0, 1, 1] · slices_S1x3x1536x2048_S1x3x1535x2047_0_0_1_1),
    binary main_v86 main_v87 main_v88 subf,
    unary main_v88 main_v89 Host.absf,
    nullary main_cst_28 (constant S_ .f32 0x00000000#32) ]

theorem main_part1_eq (c : Dev nD) : main_part1 (F := F) c = seq ops_part1 := rfl

theorem ops_part1_ok : (ops_part1 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops2.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part2 : List (HloOp τ sig (Elt F)) :=
  [ binary main_v89 main_cst_28 main_v90 (fun x v => Host.reduceAdd x v reducesTo_S1x3x1535x2047_S_d0_1_2_3 h_S_),
    nullary main_cst_29 (constant S_ .f32 0x4B0FD603#32),
    binary main_v90 main_cst_29 main_v91 Host.divf,
    nullary main_cst_30 (constant S_ .f32 0x00000000#32),
    binary main_v85 main_cst_30 main_v92 (fun x v => Host.reduceAdd x v reducesTo_S1x1535x2047_S_d0_1_2 h_S_),
    nullary main_cst_31 (constant S_ .f32 0x4A3FC804#32),
    binary main_v92 main_cst_31 main_v93 Host.divf,
    binary main_v93 main_v91 main_v94 mulf,
    binary main_v77 main_v94 main_v95 addf,
    unary main_v5 main_v96 (extractStridedSlice S1x3x1535x2047 ![0, 0, 1, 1] · slices_S1x3x1536x2048_S1x3x1535x2047_0_0_1_1),
    unary main_v5 main_v97 (extractStridedSlice S1x3x1535x2047 ![0, 0, 0, 0] · slices_S1x3x1536x2048_S1x3x1535x2047_0_0_0_0),
    binary main_v96 main_v97 main_v98 subf,
    binary main_v98 main_v98 main_v99 mulf,
    nullary main_cst_32 (constant S_ .f32 0x00000000#32),
    binary main_v99 main_cst_32 main_v100 (fun x v => Host.reduceAdd x v reducesTo_S1x3x1535x2047_S1x1535x2047_d1 h_S_),
    nullary main_cst_33 (constant S_ .f32 0xBBA3D70A#32),
    unary main_cst_33 main_v101 (broadcastInDim S1x1535x2047 ![] bcast_S_S1x1535x2047),
    binary main_v100 main_v101 main_v102 mulf,
    unary main_v102 main_v103 Host.exp,
    unary main_arg1 main_v104 (extractStridedSlice S1x3x1535x2047 ![0, 0, 1, 1] · slices_S1x3x1536x2048_S1x3x1535x2047_0_0_1_1),
    unary main_arg1 main_v105 (extractStridedSlice S1x3x1535x2047 ![0, 0, 0, 0] · slices_S1x3x1536x2048_S1x3x1535x2047_0_0_0_0),
    binary main_v104 main_v105 main_v106 subf,
    unary main_v106 main_v107 Host.absf,
    nullary main_cst_34 (constant S_ .f32 0x00000000#32),
    binary main_v107 main_cst_34 main_v108 (fun x v => Host.reduceAdd x v reducesTo_S1x3x1535x2047_S_d0_1_2_3 h_S_),
    nullary main_cst_35 (constant S_ .f32 0x4B0FD603#32),
    binary main_v108 main_cst_35 main_v109 Host.divf,
    nullary main_cst_36 (constant S_ .f32 0x00000000#32),
    binary main_v103 main_cst_36 main_v110 (fun x v => Host.reduceAdd x v reducesTo_S1x1535x2047_S_d0_1_2 h_S_),
    nullary main_cst_37 (constant S_ .f32 0x4A3FC804#32),
    binary main_v110 main_cst_37 main_v111 Host.divf,
    binary main_v111 main_v109 main_v112 mulf,
    binary main_v95 main_v112 main_v113 addf,
    unary main_v5 main_v114 (extractStridedSlice S1x3x1535x2047 ![0, 0, 1, 0] · slices_S1x3x1536x2048_S1x3x1535x2047_0_0_1_0),
    unary main_v5 main_v115 (extractStridedSlice S1x3x1535x2047 ![0, 0, 0, 1] · slices_S1x3x1536x2048_S1x3x1535x2047_0_0_0_1),
    binary main_v114 main_v115 main_v116 subf,
    binary main_v116 main_v116 main_v117 mulf,
    nullary main_cst_38 (constant S_ .f32 0x00000000#32),
    binary main_v117 main_cst_38 main_v118 (fun x v => Host.reduceAdd x v reducesTo_S1x3x1535x2047_S1x1535x2047_d1 h_S_),
    nullary main_cst_39 (constant S_ .f32 0xBBA3D70A#32),
    unary main_cst_39 main_v119 (broadcastInDim S1x1535x2047 ![] bcast_S_S1x1535x2047),
    binary main_v118 main_v119 main_v120 mulf,
    unary main_v120 main_v121 Host.exp,
    unary main_arg1 main_v122 (extractStridedSlice S1x3x1535x2047 ![0, 0, 1, 0] · slices_S1x3x1536x2048_S1x3x1535x2047_0_0_1_0),
    unary main_arg1 main_v123 (extractStridedSlice S1x3x1535x2047 ![0, 0, 0, 1] · slices_S1x3x1536x2048_S1x3x1535x2047_0_0_0_1),
    binary main_v122 main_v123 main_v124 subf,
    unary main_v124 main_v125 Host.absf,
    nullary main_cst_40 (constant S_ .f32 0x00000000#32),
    binary main_v125 main_cst_40 main_v126 (fun x v => Host.reduceAdd x v reducesTo_S1x3x1535x2047_S_d0_1_2_3 h_S_),
    nullary main_cst_41 (constant S_ .f32 0x4B0FD603#32),
    binary main_v126 main_cst_41 main_v127 Host.divf,
    nullary main_cst_42 (constant S_ .f32 0x00000000#32),
    binary main_v121 main_cst_42 main_v128 (fun x v => Host.reduceAdd x v reducesTo_S1x1535x2047_S_d0_1_2 h_S_),
    nullary main_cst_43 (constant S_ .f32 0x4A3FC804#32),
    binary main_v128 main_cst_43 main_v129 Host.divf,
    binary main_v129 main_v127 main_v130 mulf,
    binary main_v113 main_v130 main_v131 addf,
    unary main_v5 main_v132 (extractStridedSlice S1x3x1535x2047 ![0, 0, 0, 1] · slices_S1x3x1536x2048_S1x3x1535x2047_0_0_0_1),
    unary main_v5 main_v133 (extractStridedSlice S1x3x1535x2047 ![0, 0, 1, 0] · slices_S1x3x1536x2048_S1x3x1535x2047_0_0_1_0),
    binary main_v132 main_v133 main_v134 subf ]

theorem main_part2_eq (c : Dev nD) : main_part2 (F := F) c = seq ops_part2 := rfl

theorem ops_part2_ok : (ops_part2 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops3.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part3 : List (HloOp τ sig (Elt F)) :=
  [ binary main_v134 main_v134 main_v135 mulf,
    nullary main_cst_44 (constant S_ .f32 0x00000000#32),
    binary main_v135 main_cst_44 main_v136 (fun x v => Host.reduceAdd x v reducesTo_S1x3x1535x2047_S1x1535x2047_d1 h_S_),
    nullary main_cst_45 (constant S_ .f32 0xBBA3D70A#32),
    unary main_cst_45 main_v137 (broadcastInDim S1x1535x2047 ![] bcast_S_S1x1535x2047),
    binary main_v136 main_v137 main_v138 mulf,
    unary main_v138 main_v139 Host.exp,
    unary main_arg1 main_v140 (extractStridedSlice S1x3x1535x2047 ![0, 0, 0, 1] · slices_S1x3x1536x2048_S1x3x1535x2047_0_0_0_1),
    unary main_arg1 main_v141 (extractStridedSlice S1x3x1535x2047 ![0, 0, 1, 0] · slices_S1x3x1536x2048_S1x3x1535x2047_0_0_1_0),
    binary main_v140 main_v141 main_v142 subf,
    unary main_v142 main_v143 Host.absf,
    nullary main_cst_46 (constant S_ .f32 0x00000000#32),
    binary main_v143 main_cst_46 main_v144 (fun x v => Host.reduceAdd x v reducesTo_S1x3x1535x2047_S_d0_1_2_3 h_S_),
    nullary main_cst_47 (constant S_ .f32 0x4B0FD603#32),
    binary main_v144 main_cst_47 main_v145 Host.divf,
    nullary main_cst_48 (constant S_ .f32 0x00000000#32),
    binary main_v139 main_cst_48 main_v146 (fun x v => Host.reduceAdd x v reducesTo_S1x1535x2047_S_d0_1_2 h_S_),
    nullary main_cst_49 (constant S_ .f32 0x4A3FC804#32),
    binary main_v146 main_cst_49 main_v147 Host.divf,
    binary main_v147 main_v145 main_v148 mulf,
    binary main_v131 main_v148 main_v149 addf,
    unary main_v5 main_v150 (extractStridedSlice S1x3x1534x2048 ![0, 0, 2, 0] · slices_S1x3x1536x2048_S1x3x1534x2048_0_0_2_0),
    unary main_v5 main_v151 (extractStridedSlice S1x3x1534x2048 ![0, 0, 0, 0] · slices_S1x3x1536x2048_S1x3x1534x2048_0_0_0_0),
    binary main_v150 main_v151 main_v152 subf,
    binary main_v152 main_v152 main_v153 mulf,
    nullary main_cst_50 (constant S_ .f32 0x00000000#32),
    binary main_v153 main_cst_50 main_v154 (fun x v => Host.reduceAdd x v reducesTo_S1x3x1534x2048_S1x1534x2048_d1 h_S_),
    nullary main_cst_51 (constant S_ .f32 0xBBA3D70A#32),
    unary main_cst_51 main_v155 (broadcastInDim S1x1534x2048 ![] bcast_S_S1x1534x2048),
    binary main_v154 main_v155 main_v156 mulf,
    unary main_v156 main_v157 Host.exp,
    unary main_arg1 main_v158 (extractStridedSlice S1x3x1534x2048 ![0, 0, 2, 0] · slices_S1x3x1536x2048_S1x3x1534x2048_0_0_2_0),
    unary main_arg1 main_v159 (extractStridedSlice S1x3x1534x2048 ![0, 0, 0, 0] · slices_S1x3x1536x2048_S1x3x1534x2048_0_0_0_0),
    binary main_v158 main_v159 main_v160 subf,
    unary main_v160 main_v161 Host.absf,
    nullary main_cst_52 (constant S_ .f32 0x00000000#32),
    binary main_v161 main_cst_52 main_v162 (fun x v => Host.reduceAdd x v reducesTo_S1x3x1534x2048_S_d0_1_2_3 h_S_),
    nullary main_cst_53 (constant S_ .f32 0x4B0FD000#32),
    binary main_v162 main_cst_53 main_v163 Host.divf,
    nullary main_cst_54 (constant S_ .f32 0x00000000#32),
    binary main_v157 main_cst_54 main_v164 (fun x v => Host.reduceAdd x v reducesTo_S1x1534x2048_S_d0_1_2 h_S_),
    nullary main_cst_55 (constant S_ .f32 0x4A3FC000#32),
    binary main_v164 main_cst_55 main_v165 Host.divf,
    binary main_v165 main_v163 main_v166 mulf,
    binary main_v149 main_v166 main_v167 addf,
    unary main_v5 main_v168 (extractStridedSlice S1x3x1534x2048 ![0, 0, 0, 0] · slices_S1x3x1536x2048_S1x3x1534x2048_0_0_0_0),
    unary main_v5 main_v169 (extractStridedSlice S1x3x1534x2048 ![0, 0, 2, 0] · slices_S1x3x1536x2048_S1x3x1534x2048_0_0_2_0),
    binary main_v168 main_v169 main_v170 subf,
    binary main_v170 main_v170 main_v171 mulf,
    nullary main_cst_56 (constant S_ .f32 0x00000000#32),
    binary main_v171 main_cst_56 main_v172 (fun x v => Host.reduceAdd x v reducesTo_S1x3x1534x2048_S1x1534x2048_d1 h_S_),
    nullary main_cst_57 (constant S_ .f32 0xBBA3D70A#32),
    unary main_cst_57 main_v173 (broadcastInDim S1x1534x2048 ![] bcast_S_S1x1534x2048),
    binary main_v172 main_v173 main_v174 mulf,
    unary main_v174 main_v175 Host.exp,
    unary main_arg1 main_v176 (extractStridedSlice S1x3x1534x2048 ![0, 0, 0, 0] · slices_S1x3x1536x2048_S1x3x1534x2048_0_0_0_0),
    unary main_arg1 main_v177 (extractStridedSlice S1x3x1534x2048 ![0, 0, 2, 0] · slices_S1x3x1536x2048_S1x3x1534x2048_0_0_2_0),
    binary main_v176 main_v177 main_v178 subf,
    unary main_v178 main_v179 Host.absf,
    nullary main_cst_58 (constant S_ .f32 0x00000000#32) ]

theorem main_part3_eq (c : Dev nD) : main_part3 (F := F) c = seq ops_part3 := rfl

theorem ops_part3_ok : (ops_part3 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops4.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part4 : List (HloOp τ sig (Elt F)) :=
  [ binary main_v179 main_cst_58 main_v180 (fun x v => Host.reduceAdd x v reducesTo_S1x3x1534x2048_S_d0_1_2_3 h_S_),
    nullary main_cst_59 (constant S_ .f32 0x4B0FD000#32),
    binary main_v180 main_cst_59 main_v181 Host.divf,
    nullary main_cst_60 (constant S_ .f32 0x00000000#32),
    binary main_v175 main_cst_60 main_v182 (fun x v => Host.reduceAdd x v reducesTo_S1x1534x2048_S_d0_1_2 h_S_),
    nullary main_cst_61 (constant S_ .f32 0x4A3FC000#32),
    binary main_v182 main_cst_61 main_v183 Host.divf,
    binary main_v183 main_v181 main_v184 mulf,
    binary main_v167 main_v184 main_v185 addf,
    unary main_v5 main_v186 (extractStridedSlice S1x3x1536x2046 ![0, 0, 0, 2] · slices_S1x3x1536x2048_S1x3x1536x2046_0_0_0_2),
    unary main_v5 main_v187 (extractStridedSlice S1x3x1536x2046 ![0, 0, 0, 0] · slices_S1x3x1536x2048_S1x3x1536x2046_0_0_0_0),
    binary main_v186 main_v187 main_v188 subf,
    binary main_v188 main_v188 main_v189 mulf,
    nullary main_cst_62 (constant S_ .f32 0x00000000#32),
    binary main_v189 main_cst_62 main_v190 (fun x v => Host.reduceAdd x v reducesTo_S1x3x1536x2046_S1x1536x2046_d1 h_S_),
    nullary main_cst_63 (constant S_ .f32 0xBBA3D70A#32),
    unary main_cst_63 main_v191 (broadcastInDim S1x1536x2046 ![] bcast_S_S1x1536x2046),
    binary main_v190 main_v191 main_v192 mulf,
    unary main_v192 main_v193 Host.exp,
    unary main_arg1 main_v194 (extractStridedSlice S1x3x1536x2046 ![0, 0, 0, 2] · slices_S1x3x1536x2048_S1x3x1536x2046_0_0_0_2),
    unary main_arg1 main_v195 (extractStridedSlice S1x3x1536x2046 ![0, 0, 0, 0] · slices_S1x3x1536x2048_S1x3x1536x2046_0_0_0_0),
    binary main_v194 main_v195 main_v196 subf,
    unary main_v196 main_v197 Host.absf,
    nullary main_cst_64 (constant S_ .f32 0x00000000#32),
    binary main_v197 main_cst_64 main_v198 (fun x v => Host.reduceAdd x v reducesTo_S1x3x1536x2046_S_d0_1_2_3 h_S_),
    nullary main_cst_65 (constant S_ .f32 0x4B0FDC00#32),
    binary main_v198 main_cst_65 main_v199 Host.divf,
    nullary main_cst_66 (constant S_ .f32 0x00000000#32),
    binary main_v193 main_cst_66 main_v200 (fun x v => Host.reduceAdd x v reducesTo_S1x1536x2046_S_d0_1_2 h_S_),
    nullary main_cst_67 (constant S_ .f32 0x4A3FD000#32),
    binary main_v200 main_cst_67 main_v201 Host.divf,
    binary main_v201 main_v199 main_v202 mulf,
    binary main_v185 main_v202 main_v203 addf,
    unary main_v5 main_v204 (extractStridedSlice S1x3x1536x2046 ![0, 0, 0, 0] · slices_S1x3x1536x2048_S1x3x1536x2046_0_0_0_0),
    unary main_v5 main_v205 (extractStridedSlice S1x3x1536x2046 ![0, 0, 0, 2] · slices_S1x3x1536x2048_S1x3x1536x2046_0_0_0_2),
    binary main_v204 main_v205 main_v206 subf,
    binary main_v206 main_v206 main_v207 mulf,
    nullary main_cst_68 (constant S_ .f32 0x00000000#32),
    binary main_v207 main_cst_68 main_v208 (fun x v => Host.reduceAdd x v reducesTo_S1x3x1536x2046_S1x1536x2046_d1 h_S_),
    nullary main_cst_69 (constant S_ .f32 0xBBA3D70A#32),
    unary main_cst_69 main_v209 (broadcastInDim S1x1536x2046 ![] bcast_S_S1x1536x2046),
    binary main_v208 main_v209 main_v210 mulf,
    unary main_v210 main_v211 Host.exp,
    unary main_arg1 main_v212 (extractStridedSlice S1x3x1536x2046 ![0, 0, 0, 0] · slices_S1x3x1536x2048_S1x3x1536x2046_0_0_0_0),
    unary main_arg1 main_v213 (extractStridedSlice S1x3x1536x2046 ![0, 0, 0, 2] · slices_S1x3x1536x2048_S1x3x1536x2046_0_0_0_2),
    binary main_v212 main_v213 main_v214 subf,
    unary main_v214 main_v215 Host.absf,
    nullary main_cst_70 (constant S_ .f32 0x00000000#32),
    binary main_v215 main_cst_70 main_v216 (fun x v => Host.reduceAdd x v reducesTo_S1x3x1536x2046_S_d0_1_2_3 h_S_),
    nullary main_cst_71 (constant S_ .f32 0x4B0FDC00#32),
    binary main_v216 main_cst_71 main_v217 Host.divf,
    nullary main_cst_72 (constant S_ .f32 0x00000000#32),
    binary main_v211 main_cst_72 main_v218 (fun x v => Host.reduceAdd x v reducesTo_S1x1536x2046_S_d0_1_2 h_S_),
    nullary main_cst_73 (constant S_ .f32 0x4A3FD000#32),
    binary main_v218 main_cst_73 main_v219 Host.divf,
    binary main_v219 main_v217 main_v220 mulf,
    binary main_v203 main_v220 main_v221 addf,
    unary main_v5 main_v222 (extractStridedSlice S1x3x1534x2047 ![0, 0, 0, 0] · slices_S1x3x1536x2048_S1x3x1534x2047_0_0_0_0),
    unary main_v5 main_v223 (extractStridedSlice S1x3x1534x2047 ![0, 0, 2, 1] · slices_S1x3x1536x2048_S1x3x1534x2047_0_0_2_1),
    binary main_v222 main_v223 main_v224 subf ]

theorem main_part4_eq (c : Dev nD) : main_part4 (F := F) c = seq ops_part4 := rfl

theorem ops_part4_ok : (ops_part4 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops5.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part5 : List (HloOp τ sig (Elt F)) :=
  [ binary main_v224 main_v224 main_v225 mulf,
    nullary main_cst_74 (constant S_ .f32 0x00000000#32),
    binary main_v225 main_cst_74 main_v226 (fun x v => Host.reduceAdd x v reducesTo_S1x3x1534x2047_S1x1534x2047_d1 h_S_),
    nullary main_cst_75 (constant S_ .f32 0xBBA3D70A#32),
    unary main_cst_75 main_v227 (broadcastInDim S1x1534x2047 ![] bcast_S_S1x1534x2047),
    binary main_v226 main_v227 main_v228 mulf,
    unary main_v228 main_v229 Host.exp,
    unary main_arg1 main_v230 (extractStridedSlice S1x3x1534x2047 ![0, 0, 0, 0] · slices_S1x3x1536x2048_S1x3x1534x2047_0_0_0_0),
    unary main_arg1 main_v231 (extractStridedSlice S1x3x1534x2047 ![0, 0, 2, 1] · slices_S1x3x1536x2048_S1x3x1534x2047_0_0_2_1),
    binary main_v230 main_v231 main_v232 subf,
    unary main_v232 main_v233 Host.absf,
    nullary main_cst_76 (constant S_ .f32 0x00000000#32),
    binary main_v233 main_cst_76 main_v234 (fun x v => Host.reduceAdd x v reducesTo_S1x3x1534x2047_S_d0_1_2_3 h_S_),
    nullary main_cst_77 (constant S_ .f32 0x4B0FBE06#32),
    binary main_v234 main_cst_77 main_v235 Host.divf,
    nullary main_cst_78 (constant S_ .f32 0x00000000#32),
    binary main_v229 main_cst_78 main_v236 (fun x v => Host.reduceAdd x v reducesTo_S1x1534x2047_S_d0_1_2 h_S_),
    nullary main_cst_79 (constant S_ .f32 0x4A3FA808#32),
    binary main_v236 main_cst_79 main_v237 Host.divf,
    binary main_v237 main_v235 main_v238 mulf,
    binary main_v221 main_v238 main_v239 addf,
    unary main_v5 main_v240 (extractStridedSlice S1x3x1534x2047 ![0, 0, 2, 1] · slices_S1x3x1536x2048_S1x3x1534x2047_0_0_2_1),
    unary main_v5 main_v241 (extractStridedSlice S1x3x1534x2047 ![0, 0, 0, 0] · slices_S1x3x1536x2048_S1x3x1534x2047_0_0_0_0),
    binary main_v240 main_v241 main_v242 subf,
    binary main_v242 main_v242 main_v243 mulf,
    nullary main_cst_80 (constant S_ .f32 0x00000000#32),
    binary main_v243 main_cst_80 main_v244 (fun x v => Host.reduceAdd x v reducesTo_S1x3x1534x2047_S1x1534x2047_d1 h_S_),
    nullary main_cst_81 (constant S_ .f32 0xBBA3D70A#32),
    unary main_cst_81 main_v245 (broadcastInDim S1x1534x2047 ![] bcast_S_S1x1534x2047),
    binary main_v244 main_v245 main_v246 mulf,
    unary main_v246 main_v247 Host.exp,
    unary main_arg1 main_v248 (extractStridedSlice S1x3x1534x2047 ![0, 0, 2, 1] · slices_S1x3x1536x2048_S1x3x1534x2047_0_0_2_1),
    unary main_arg1 main_v249 (extractStridedSlice S1x3x1534x2047 ![0, 0, 0, 0] · slices_S1x3x1536x2048_S1x3x1534x2047_0_0_0_0),
    binary main_v248 main_v249 main_v250 subf,
    unary main_v250 main_v251 Host.absf,
    nullary main_cst_82 (constant S_ .f32 0x00000000#32),
    binary main_v251 main_cst_82 main_v252 (fun x v => Host.reduceAdd x v reducesTo_S1x3x1534x2047_S_d0_1_2_3 h_S_),
    nullary main_cst_83 (constant S_ .f32 0x4B0FBE06#32),
    binary main_v252 main_cst_83 main_v253 Host.divf,
    nullary main_cst_84 (constant S_ .f32 0x00000000#32),
    binary main_v247 main_cst_84 main_v254 (fun x v => Host.reduceAdd x v reducesTo_S1x1534x2047_S_d0_1_2 h_S_),
    nullary main_cst_85 (constant S_ .f32 0x4A3FA808#32),
    binary main_v254 main_cst_85 main_v255 Host.divf,
    binary main_v255 main_v253 main_v256 mulf,
    binary main_v239 main_v256 main_v257 addf,
    unary main_v5 main_v258 (extractStridedSlice S1x3x1534x2047 ![0, 0, 2, 0] · slices_S1x3x1536x2048_S1x3x1534x2047_0_0_2_0),
    unary main_v5 main_v259 (extractStridedSlice S1x3x1534x2047 ![0, 0, 0, 1] · slices_S1x3x1536x2048_S1x3x1534x2047_0_0_0_1),
    binary main_v258 main_v259 main_v260 subf,
    binary main_v260 main_v260 main_v261 mulf,
    nullary main_cst_86 (constant S_ .f32 0x00000000#32),
    binary main_v261 main_cst_86 main_v262 (fun x v => Host.reduceAdd x v reducesTo_S1x3x1534x2047_S1x1534x2047_d1 h_S_),
    nullary main_cst_87 (constant S_ .f32 0xBBA3D70A#32),
    unary main_cst_87 main_v263 (broadcastInDim S1x1534x2047 ![] bcast_S_S1x1534x2047),
    binary main_v262 main_v263 main_v264 mulf,
    unary main_v264 main_v265 Host.exp,
    unary main_arg1 main_v266 (extractStridedSlice S1x3x1534x2047 ![0, 0, 2, 0] · slices_S1x3x1536x2048_S1x3x1534x2047_0_0_2_0),
    unary main_arg1 main_v267 (extractStridedSlice S1x3x1534x2047 ![0, 0, 0, 1] · slices_S1x3x1536x2048_S1x3x1534x2047_0_0_0_1),
    binary main_v266 main_v267 main_v268 subf,
    unary main_v268 main_v269 Host.absf,
    nullary main_cst_88 (constant S_ .f32 0x00000000#32) ]

theorem main_part5_eq (c : Dev nD) : main_part5 (F := F) c = seq ops_part5 := rfl

theorem ops_part5_ok : (ops_part5 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops6.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part6 : List (HloOp τ sig (Elt F)) :=
  [ binary main_v269 main_cst_88 main_v270 (fun x v => Host.reduceAdd x v reducesTo_S1x3x1534x2047_S_d0_1_2_3 h_S_),
    nullary main_cst_89 (constant S_ .f32 0x4B0FBE06#32),
    binary main_v270 main_cst_89 main_v271 Host.divf,
    nullary main_cst_90 (constant S_ .f32 0x00000000#32),
    binary main_v265 main_cst_90 main_v272 (fun x v => Host.reduceAdd x v reducesTo_S1x1534x2047_S_d0_1_2 h_S_),
    nullary main_cst_91 (constant S_ .f32 0x4A3FA808#32),
    binary main_v272 main_cst_91 main_v273 Host.divf,
    binary main_v273 main_v271 main_v274 mulf,
    binary main_v257 main_v274 main_v275 addf,
    unary main_v5 main_v276 (extractStridedSlice S1x3x1534x2047 ![0, 0, 0, 1] · slices_S1x3x1536x2048_S1x3x1534x2047_0_0_0_1),
    unary main_v5 main_v277 (extractStridedSlice S1x3x1534x2047 ![0, 0, 2, 0] · slices_S1x3x1536x2048_S1x3x1534x2047_0_0_2_0),
    binary main_v276 main_v277 main_v278 subf,
    binary main_v278 main_v278 main_v279 mulf,
    nullary main_cst_92 (constant S_ .f32 0x00000000#32),
    binary main_v279 main_cst_92 main_v280 (fun x v => Host.reduceAdd x v reducesTo_S1x3x1534x2047_S1x1534x2047_d1 h_S_),
    nullary main_cst_93 (constant S_ .f32 0xBBA3D70A#32),
    unary main_cst_93 main_v281 (broadcastInDim S1x1534x2047 ![] bcast_S_S1x1534x2047),
    binary main_v280 main_v281 main_v282 mulf,
    unary main_v282 main_v283 Host.exp,
    unary main_arg1 main_v284 (extractStridedSlice S1x3x1534x2047 ![0, 0, 0, 1] · slices_S1x3x1536x2048_S1x3x1534x2047_0_0_0_1),
    unary main_arg1 main_v285 (extractStridedSlice S1x3x1534x2047 ![0, 0, 2, 0] · slices_S1x3x1536x2048_S1x3x1534x2047_0_0_2_0),
    binary main_v284 main_v285 main_v286 subf,
    unary main_v286 main_v287 Host.absf,
    nullary main_cst_94 (constant S_ .f32 0x00000000#32),
    binary main_v287 main_cst_94 main_v288 (fun x v => Host.reduceAdd x v reducesTo_S1x3x1534x2047_S_d0_1_2_3 h_S_),
    nullary main_cst_95 (constant S_ .f32 0x4B0FBE06#32),
    binary main_v288 main_cst_95 main_v289 Host.divf,
    nullary main_cst_96 (constant S_ .f32 0x00000000#32),
    binary main_v283 main_cst_96 main_v290 (fun x v => Host.reduceAdd x v reducesTo_S1x1534x2047_S_d0_1_2 h_S_),
    nullary main_cst_97 (constant S_ .f32 0x4A3FA808#32),
    binary main_v290 main_cst_97 main_v291 Host.divf,
    binary main_v291 main_v289 main_v292 mulf,
    binary main_v275 main_v292 main_v293 addf,
    unary main_v5 main_v294 (extractStridedSlice S1x3x1535x2046 ![0, 0, 0, 0] · slices_S1x3x1536x2048_S1x3x1535x2046_0_0_0_0),
    unary main_v5 main_v295 (extractStridedSlice S1x3x1535x2046 ![0, 0, 1, 2] · slices_S1x3x1536x2048_S1x3x1535x2046_0_0_1_2),
    binary main_v294 main_v295 main_v296 subf,
    binary main_v296 main_v296 main_v297 mulf,
    nullary main_cst_98 (constant S_ .f32 0x00000000#32),
    binary main_v297 main_cst_98 main_v298 (fun x v => Host.reduceAdd x v reducesTo_S1x3x1535x2046_S1x1535x2046_d1 h_S_),
    nullary main_cst_99 (constant S_ .f32 0xBBA3D70A#32),
    unary main_cst_99 main_v299 (broadcastInDim S1x1535x2046 ![] bcast_S_S1x1535x2046),
    binary main_v298 main_v299 main_v300 mulf,
    unary main_v300 main_v301 Host.exp,
    unary main_arg1 main_v302 (extractStridedSlice S1x3x1535x2046 ![0, 0, 0, 0] · slices_S1x3x1536x2048_S1x3x1535x2046_0_0_0_0),
    unary main_arg1 main_v303 (extractStridedSlice S1x3x1535x2046 ![0, 0, 1, 2] · slices_S1x3x1536x2048_S1x3x1535x2046_0_0_1_2),
    binary main_v302 main_v303 main_v304 subf,
    unary main_v304 main_v305 Host.absf,
    nullary main_cst_100 (constant S_ .f32 0x00000000#32),
    binary main_v305 main_cst_100 main_v306 (fun x v => Host.reduceAdd x v reducesTo_S1x3x1535x2046_S_d0_1_2_3 h_S_),
    nullary main_cst_101 (constant S_ .f32 0x4B0FC406#32),
    binary main_v306 main_cst_101 main_v307 Host.divf,
    nullary main_cst_102 (constant S_ .f32 0x00000000#32),
    binary main_v301 main_cst_102 main_v308 (fun x v => Host.reduceAdd x v reducesTo_S1x1535x2046_S_d0_1_2 h_S_),
    nullary main_cst_103 (constant S_ .f32 0x4A3FB008#32),
    binary main_v308 main_cst_103 main_v309 Host.divf,
    binary main_v309 main_v307 main_v310 mulf,
    binary main_v293 main_v310 main_v311 addf,
    unary main_v5 main_v312 (extractStridedSlice S1x3x1535x2046 ![0, 0, 1, 2] · slices_S1x3x1536x2048_S1x3x1535x2046_0_0_1_2),
    unary main_v5 main_v313 (extractStridedSlice S1x3x1535x2046 ![0, 0, 0, 0] · slices_S1x3x1536x2048_S1x3x1535x2046_0_0_0_0),
    binary main_v312 main_v313 main_v314 subf ]

theorem main_part6_eq (c : Dev nD) : main_part6 (F := F) c = seq ops_part6 := rfl

theorem ops_part6_ok : (ops_part6 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops7.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part7 : List (HloOp τ sig (Elt F)) :=
  [ binary main_v314 main_v314 main_v315 mulf,
    nullary main_cst_104 (constant S_ .f32 0x00000000#32),
    binary main_v315 main_cst_104 main_v316 (fun x v => Host.reduceAdd x v reducesTo_S1x3x1535x2046_S1x1535x2046_d1 h_S_),
    nullary main_cst_105 (constant S_ .f32 0xBBA3D70A#32),
    unary main_cst_105 main_v317 (broadcastInDim S1x1535x2046 ![] bcast_S_S1x1535x2046),
    binary main_v316 main_v317 main_v318 mulf,
    unary main_v318 main_v319 Host.exp,
    unary main_arg1 main_v320 (extractStridedSlice S1x3x1535x2046 ![0, 0, 1, 2] · slices_S1x3x1536x2048_S1x3x1535x2046_0_0_1_2),
    unary main_arg1 main_v321 (extractStridedSlice S1x3x1535x2046 ![0, 0, 0, 0] · slices_S1x3x1536x2048_S1x3x1535x2046_0_0_0_0),
    binary main_v320 main_v321 main_v322 subf,
    unary main_v322 main_v323 Host.absf,
    nullary main_cst_106 (constant S_ .f32 0x00000000#32),
    binary main_v323 main_cst_106 main_v324 (fun x v => Host.reduceAdd x v reducesTo_S1x3x1535x2046_S_d0_1_2_3 h_S_),
    nullary main_cst_107 (constant S_ .f32 0x4B0FC406#32),
    binary main_v324 main_cst_107 main_v325 Host.divf,
    nullary main_cst_108 (constant S_ .f32 0x00000000#32),
    binary main_v319 main_cst_108 main_v326 (fun x v => Host.reduceAdd x v reducesTo_S1x1535x2046_S_d0_1_2 h_S_),
    nullary main_cst_109 (constant S_ .f32 0x4A3FB008#32),
    binary main_v326 main_cst_109 main_v327 Host.divf,
    binary main_v327 main_v325 main_v328 mulf,
    binary main_v311 main_v328 main_v329 addf,
    unary main_v5 main_v330 (extractStridedSlice S1x3x1535x2046 ![0, 0, 1, 0] · slices_S1x3x1536x2048_S1x3x1535x2046_0_0_1_0),
    unary main_v5 main_v331 (extractStridedSlice S1x3x1535x2046 ![0, 0, 0, 2] · slices_S1x3x1536x2048_S1x3x1535x2046_0_0_0_2),
    binary main_v330 main_v331 main_v332 subf,
    binary main_v332 main_v332 main_v333 mulf,
    nullary main_cst_110 (constant S_ .f32 0x00000000#32),
    binary main_v333 main_cst_110 main_v334 (fun x v => Host.reduceAdd x v reducesTo_S1x3x1535x2046_S1x1535x2046_d1 h_S_),
    nullary main_cst_111 (constant S_ .f32 0xBBA3D70A#32),
    unary main_cst_111 main_v335 (broadcastInDim S1x1535x2046 ![] bcast_S_S1x1535x2046),
    binary main_v334 main_v335 main_v336 mulf,
    unary main_v336 main_v337 Host.exp,
    unary main_arg1 main_v338 (extractStridedSlice S1x3x1535x2046 ![0, 0, 1, 0] · slices_S1x3x1536x2048_S1x3x1535x2046_0_0_1_0),
    unary main_arg1 main_v339 (extractStridedSlice S1x3x1535x2046 ![0, 0, 0, 2] · slices_S1x3x1536x2048_S1x3x1535x2046_0_0_0_2),
    binary main_v338 main_v339 main_v340 subf,
    unary main_v340 main_v341 Host.absf,
    nullary main_cst_112 (constant S_ .f32 0x00000000#32),
    binary main_v341 main_cst_112 main_v342 (fun x v => Host.reduceAdd x v reducesTo_S1x3x1535x2046_S_d0_1_2_3 h_S_),
    nullary main_cst_113 (constant S_ .f32 0x4B0FC406#32),
    binary main_v342 main_cst_113 main_v343 Host.divf,
    nullary main_cst_114 (constant S_ .f32 0x00000000#32),
    binary main_v337 main_cst_114 main_v344 (fun x v => Host.reduceAdd x v reducesTo_S1x1535x2046_S_d0_1_2 h_S_),
    nullary main_cst_115 (constant S_ .f32 0x4A3FB008#32),
    binary main_v344 main_cst_115 main_v345 Host.divf,
    binary main_v345 main_v343 main_v346 mulf,
    binary main_v329 main_v346 main_v347 addf,
    unary main_v5 main_v348 (extractStridedSlice S1x3x1535x2046 ![0, 0, 0, 2] · slices_S1x3x1536x2048_S1x3x1535x2046_0_0_0_2),
    unary main_v5 main_v349 (extractStridedSlice S1x3x1535x2046 ![0, 0, 1, 0] · slices_S1x3x1536x2048_S1x3x1535x2046_0_0_1_0),
    binary main_v348 main_v349 main_v350 subf,
    binary main_v350 main_v350 main_v351 mulf,
    nullary main_cst_116 (constant S_ .f32 0x00000000#32),
    binary main_v351 main_cst_116 main_v352 (fun x v => Host.reduceAdd x v reducesTo_S1x3x1535x2046_S1x1535x2046_d1 h_S_),
    nullary main_cst_117 (constant S_ .f32 0xBBA3D70A#32),
    unary main_cst_117 main_v353 (broadcastInDim S1x1535x2046 ![] bcast_S_S1x1535x2046),
    binary main_v352 main_v353 main_v354 mulf,
    unary main_v354 main_v355 Host.exp,
    unary main_arg1 main_v356 (extractStridedSlice S1x3x1535x2046 ![0, 0, 0, 2] · slices_S1x3x1536x2048_S1x3x1535x2046_0_0_0_2),
    unary main_arg1 main_v357 (extractStridedSlice S1x3x1535x2046 ![0, 0, 1, 0] · slices_S1x3x1536x2048_S1x3x1535x2046_0_0_1_0),
    binary main_v356 main_v357 main_v358 subf,
    unary main_v358 main_v359 Host.absf,
    nullary main_cst_118 (constant S_ .f32 0x00000000#32) ]

theorem main_part7_eq (c : Dev nD) : main_part7 (F := F) c = seq ops_part7 := rfl

theorem ops_part7_ok : (ops_part7 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops8.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part8 : List (HloOp τ sig (Elt F)) :=
  [ binary main_v359 main_cst_118 main_v360 (fun x v => Host.reduceAdd x v reducesTo_S1x3x1535x2046_S_d0_1_2_3 h_S_),
    nullary main_cst_119 (constant S_ .f32 0x4B0FC406#32),
    binary main_v360 main_cst_119 main_v361 Host.divf,
    nullary main_cst_120 (constant S_ .f32 0x00000000#32),
    binary main_v355 main_cst_120 main_v362 (fun x v => Host.reduceAdd x v reducesTo_S1x1535x2046_S_d0_1_2 h_S_),
    nullary main_cst_121 (constant S_ .f32 0x4A3FB008#32),
    binary main_v362 main_cst_121 main_v363 Host.divf,
    binary main_v363 main_v361 main_v364 mulf,
    binary main_v347 main_v364 main_v365 addf,
    unary main_v5 main_v366 (extractStridedSlice S1x3x1534x2046 ![0, 0, 0, 0] · slices_S1x3x1536x2048_S1x3x1534x2046_0_0_0_0),
    unary main_v5 main_v367 (extractStridedSlice S1x3x1534x2046 ![0, 0, 2, 2] · slices_S1x3x1536x2048_S1x3x1534x2046_0_0_2_2),
    binary main_v366 main_v367 main_v368 subf,
    binary main_v368 main_v368 main_v369 mulf,
    nullary main_cst_122 (constant S_ .f32 0x00000000#32),
    binary main_v369 main_cst_122 main_v370 (fun x v => Host.reduceAdd x v reducesTo_S1x3x1534x2046_S1x1534x2046_d1 h_S_),
    nullary main_cst_123 (constant S_ .f32 0xBBA3D70A#32),
    unary main_cst_123 main_v371 (broadcastInDim S1x1534x2046 ![] bcast_S_S1x1534x2046),
    binary main_v370 main_v371 main_v372 mulf,
    unary main_v372 main_v373 Host.exp,
    unary main_arg1 main_v374 (extractStridedSlice S1x3x1534x2046 ![0, 0, 0, 0] · slices_S1x3x1536x2048_S1x3x1534x2046_0_0_0_0),
    unary main_arg1 main_v375 (extractStridedSlice S1x3x1534x2046 ![0, 0, 2, 2] · slices_S1x3x1536x2048_S1x3x1534x2046_0_0_2_2),
    binary main_v374 main_v375 main_v376 subf,
    unary main_v376 main_v377 Host.absf,
    nullary main_cst_124 (constant S_ .f32 0x00000000#32),
    binary main_v377 main_cst_124 main_v378 (fun x v => Host.reduceAdd x v reducesTo_S1x3x1534x2046_S_d0_1_2_3 h_S_),
    nullary main_cst_125 (constant S_ .f32 0x4B0FAC0C#32),
    binary main_v378 main_cst_125 main_v379 Host.divf,
    nullary main_cst_126 (constant S_ .f32 0x00000000#32),
    binary main_v373 main_cst_126 main_v380 (fun x v => Host.reduceAdd x v reducesTo_S1x1534x2046_S_d0_1_2 h_S_),
    nullary main_cst_127 (constant S_ .f32 0x4A3F9010#32),
    binary main_v380 main_cst_127 main_v381 Host.divf,
    binary main_v381 main_v379 main_v382 mulf,
    binary main_v365 main_v382 main_v383 addf,
    unary main_v5 main_v384 (extractStridedSlice S1x3x1534x2046 ![0, 0, 2, 2] · slices_S1x3x1536x2048_S1x3x1534x2046_0_0_2_2),
    unary main_v5 main_v385 (extractStridedSlice S1x3x1534x2046 ![0, 0, 0, 0] · slices_S1x3x1536x2048_S1x3x1534x2046_0_0_0_0),
    binary main_v384 main_v385 main_v386 subf,
    binary main_v386 main_v386 main_v387 mulf,
    nullary main_cst_128 (constant S_ .f32 0x00000000#32),
    binary main_v387 main_cst_128 main_v388 (fun x v => Host.reduceAdd x v reducesTo_S1x3x1534x2046_S1x1534x2046_d1 h_S_),
    nullary main_cst_129 (constant S_ .f32 0xBBA3D70A#32),
    unary main_cst_129 main_v389 (broadcastInDim S1x1534x2046 ![] bcast_S_S1x1534x2046),
    binary main_v388 main_v389 main_v390 mulf,
    unary main_v390 main_v391 Host.exp,
    unary main_arg1 main_v392 (extractStridedSlice S1x3x1534x2046 ![0, 0, 2, 2] · slices_S1x3x1536x2048_S1x3x1534x2046_0_0_2_2),
    unary main_arg1 main_v393 (extractStridedSlice S1x3x1534x2046 ![0, 0, 0, 0] · slices_S1x3x1536x2048_S1x3x1534x2046_0_0_0_0),
    binary main_v392 main_v393 main_v394 subf,
    unary main_v394 main_v395 Host.absf,
    nullary main_cst_130 (constant S_ .f32 0x00000000#32),
    binary main_v395 main_cst_130 main_v396 (fun x v => Host.reduceAdd x v reducesTo_S1x3x1534x2046_S_d0_1_2_3 h_S_),
    nullary main_cst_131 (constant S_ .f32 0x4B0FAC0C#32),
    binary main_v396 main_cst_131 main_v397 Host.divf,
    nullary main_cst_132 (constant S_ .f32 0x00000000#32),
    binary main_v391 main_cst_132 main_v398 (fun x v => Host.reduceAdd x v reducesTo_S1x1534x2046_S_d0_1_2 h_S_),
    nullary main_cst_133 (constant S_ .f32 0x4A3F9010#32),
    binary main_v398 main_cst_133 main_v399 Host.divf,
    binary main_v399 main_v397 main_v400 mulf,
    binary main_v383 main_v400 main_v401 addf,
    unary main_v5 main_v402 (extractStridedSlice S1x3x1534x2046 ![0, 0, 2, 0] · slices_S1x3x1536x2048_S1x3x1534x2046_0_0_2_0),
    unary main_v5 main_v403 (extractStridedSlice S1x3x1534x2046 ![0, 0, 0, 2] · slices_S1x3x1536x2048_S1x3x1534x2046_0_0_0_2),
    binary main_v402 main_v403 main_v404 subf ]

theorem main_part8_eq (c : Dev nD) : main_part8 (F := F) c = seq ops_part8 := rfl

theorem ops_part8_ok : (ops_part8 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops9.lean ====
import proofs.«143054_j12300786336339_1_alg».proof.Proof.Ref.OpOk

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

abbrev ops_part9 : List (HloOp τ sig (Elt F)) :=
  [ binary main_v404 main_v404 main_v405 mulf,
    nullary main_cst_134 (constant S_ .f32 0x00000000#32),
    binary main_v405 main_cst_134 main_v406 (fun x v => Host.reduceAdd x v reducesTo_S1x3x1534x2046_S1x1534x2046_d1 h_S_),
    nullary main_cst_135 (constant S_ .f32 0xBBA3D70A#32),
    unary main_cst_135 main_v407 (broadcastInDim S1x1534x2046 ![] bcast_S_S1x1534x2046),
    binary main_v406 main_v407 main_v408 mulf,
    unary main_v408 main_v409 Host.exp,
    unary main_arg1 main_v410 (extractStridedSlice S1x3x1534x2046 ![0, 0, 2, 0] · slices_S1x3x1536x2048_S1x3x1534x2046_0_0_2_0),
    unary main_arg1 main_v411 (extractStridedSlice S1x3x1534x2046 ![0, 0, 0, 2] · slices_S1x3x1536x2048_S1x3x1534x2046_0_0_0_2),
    binary main_v410 main_v411 main_v412 subf,
    unary main_v412 main_v413 Host.absf,
    nullary main_cst_136 (constant S_ .f32 0x00000000#32),
    binary main_v413 main_cst_136 main_v414 (fun x v => Host.reduceAdd x v reducesTo_S1x3x1534x2046_S_d0_1_2_3 h_S_),
    nullary main_cst_137 (constant S_ .f32 0x4B0FAC0C#32),
    binary main_v414 main_cst_137 main_v415 Host.divf,
    nullary main_cst_138 (constant S_ .f32 0x00000000#32),
    binary main_v409 main_cst_138 main_v416 (fun x v => Host.reduceAdd x v reducesTo_S1x1534x2046_S_d0_1_2 h_S_),
    nullary main_cst_139 (constant S_ .f32 0x4A3F9010#32),
    binary main_v416 main_cst_139 main_v417 Host.divf,
    binary main_v417 main_v415 main_v418 mulf,
    binary main_v401 main_v418 main_v419 addf,
    unary main_v5 main_v420 (extractStridedSlice S1x3x1534x2046 ![0, 0, 0, 2] · slices_S1x3x1536x2048_S1x3x1534x2046_0_0_0_2),
    unary main_v5 main_v421 (extractStridedSlice S1x3x1534x2046 ![0, 0, 2, 0] · slices_S1x3x1536x2048_S1x3x1534x2046_0_0_2_0),
    binary main_v420 main_v421 main_v422 subf,
    binary main_v422 main_v422 main_v423 mulf,
    nullary main_cst_140 (constant S_ .f32 0x00000000#32),
    binary main_v423 main_cst_140 main_v424 (fun x v => Host.reduceAdd x v reducesTo_S1x3x1534x2046_S1x1534x2046_d1 h_S_),
    nullary main_cst_141 (constant S_ .f32 0xBBA3D70A#32),
    unary main_cst_141 main_v425 (broadcastInDim S1x1534x2046 ![] bcast_S_S1x1534x2046),
    binary main_v424 main_v425 main_v426 mulf,
    unary main_v426 main_v427 Host.exp,
    unary main_arg1 main_v428 (extractStridedSlice S1x3x1534x2046 ![0, 0, 0, 2] · slices_S1x3x1536x2048_S1x3x1534x2046_0_0_0_2),
    unary main_arg1 main_v429 (extractStridedSlice S1x3x1534x2046 ![0, 0, 2, 0] · slices_S1x3x1536x2048_S1x3x1534x2046_0_0_2_0),
    binary main_v428 main_v429 main_v430 subf,
    unary main_v430 main_v431 Host.absf,
    nullary main_cst_142 (constant S_ .f32 0x00000000#32),
    binary main_v431 main_cst_142 main_v432 (fun x v => Host.reduceAdd x v reducesTo_S1x3x1534x2046_S_d0_1_2_3 h_S_),
    nullary main_cst_143 (constant S_ .f32 0x4B0FAC0C#32),
    binary main_v432 main_cst_143 main_v433 Host.divf,
    nullary main_cst_144 (constant S_ .f32 0x00000000#32),
    binary main_v427 main_cst_144 main_v434 (fun x v => Host.reduceAdd x v reducesTo_S1x1534x2046_S_d0_1_2 h_S_),
    nullary main_cst_145 (constant S_ .f32 0x4A3F9010#32),
    binary main_v434 main_cst_145 main_v435 Host.divf,
    binary main_v435 main_v433 main_v436 mulf,
    binary main_v419 main_v436 main_v437 addf ]

theorem main_part9_eq (c : Dev nD) : main_part9 (F := F) c = seq ops_part9 := rfl

theorem ops_part9_ok : (ops_part9 : List (HloOp τ sig (Elt F))).Forall Ok := by
  repeat' first
    | exact .nullary (by decide) | exact .unary (by decide) | exact .binary (by decide) | exact .reshape (by decide)
    | refine ⟨?_, ?_⟩

end Cert.ReferenceIdeal.Hand
end
-- ==== Proof.Ref.Ops.lean ====
import proofs.«143054_j12300786336339_1_alg».proof.Proof.Ref.Ops0
import proofs.«143054_j12300786336339_1_alg».proof.Proof.Ref.Ops1
import proofs.«143054_j12300786336339_1_alg».proof.Proof.Ref.Ops2
import proofs.«143054_j12300786336339_1_alg».proof.Proof.Ref.Ops3
import proofs.«143054_j12300786336339_1_alg».proof.Proof.Ref.Ops4
import proofs.«143054_j12300786336339_1_alg».proof.Proof.Ref.Ops5
import proofs.«143054_j12300786336339_1_alg».proof.Proof.Ref.Ops6
import proofs.«143054_j12300786336339_1_alg».proof.Proof.Ref.Ops7
import proofs.«143054_j12300786336339_1_alg».proof.Proof.Ref.Ops8
import proofs.«143054_j12300786336339_1_alg».proof.Proof.Ref.Ops9

noncomputable section
namespace Cert.ReferenceIdeal.Hand
open Cert.ReferenceIdeal Idealize.ShloMosaic Idealize.ShloMosaic.StableHlo
variable {F : FTy → Type} [FloatOps F]

/-- The reference's 585 operations, in order: its ten windows' lists appended. -/
abbrev ops : List (HloOp τ sig (Elt F)) :=
  ops_part0 ++ (ops_part1 ++ (ops_part2 ++ (ops_part3 ++ (ops_part4 ++ (ops_part5 ++ (ops_part6 ++ (ops_part7 ++ (ops_part8 ++ ops_part9))))))))

end Cert.ReferenceIdeal.Hand
end
-- ==== Proof.Ref.Run.lean ====
import proofs.«143054_j12300786336339_1_alg».proof.Proof.Ref.Ops

set_option maxRecDepth 16384
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]

/-- @main runs its ten windows in order, and each window is its list run in sequence. -/
theorem main_eq (c : Dev nD) : main (F := F) c = seq ops := by
  unfold ops
  repeat rw [seq_append]
  rw [← main_part0_eq c, ← main_part1_eq c, ← main_part2_eq c, ← main_part3_eq c, ← main_part4_eq c, ← main_part5_eq c,
    ← main_part6_eq c, ← main_part7_eq c, ← main_part8_eq c, ← main_part9_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_ok : (ops : List (HloOp τ sig (Elt F))).Forall Ok := by
  simp only [ops, List.forall_append]
  exact ⟨ops_part0_ok, ops_part1_ok, ops_part2_ok, ops_part3_ok, ops_part4_ok, ops_part5_ok, ops_part6_ok, ops_part7_ok,
    ops_part8_ok, ops_part9_ok⟩

/-- No operation writes an argument, so its contents pass through the whole list. -/
theorem after_arg (V : Valuation τ sig (Elt F)) (r : Ref sig .tc) (hr : r ∈ [main_arg0, main_arg1]) :
    StableHlo.after ops V (Proc.devRef .tc r) = V (Proc.devRef .tc r) :=
  after_of_forall_not_mem ops V fun op hop => (List.forall_iff_forall_mem.mp ops_ok op hop).keeps r hr

theorem after_arg0 (V : Valuation τ sig (Elt F)) :
    StableHlo.after ops V (Proc.devRef .tc main_arg0) = V (Proc.devRef .tc main_arg0) := after_arg V _ (by decide)
theorem after_arg1 (V : Valuation τ sig (Elt F)) :
    StableHlo.after ops V (Proc.devRef .tc main_arg1) = V (Proc.devRef .tc main_arg1) := after_arg V _ (by decide)

/-- Every weakly fair execution of @main ends with each buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = StableHlo.after ops (fun b => m (c, b)) (Proc.devRef .tc b) :=
  run_seq scopedRefs_eq scopedSems_eq defs main (fun _ => ops) main_eq (fun _ => ops_ok.imp fun _ h => h.sub) m ρ
    (fun _ => List.forall_iff_forall_mem.mp (ops_ok.imp fun _ h => h.fresh))

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_arg0).trans (after_arg0 _), (h c main_arg1).trans (after_arg1 _)⟩) (run m ρ)

end Cert.ReferenceIdeal.Hand
end
-- ==== Proof.Ref.ValueLemmas.lean ====
import Idealize.ShloMosaic.PureOps.Ideal.Laws
import Idealize.ShloMosaic.Lib.ValueIdx
import proofs.«143054_j12300786336339_1_alg».proof.Proof.Spec

set_option maxRecDepth 16384

noncomputable section

namespace Cert.ReferenceIdeal.Hand

open Idealize.ShloMosaic Idealize.ShloMosaic.ValueIdx
open scoped BigOperators

abbrev SY : Shape := ⟨4, ![1, 3, 1536, 2048]⟩

abbrev S4 (h w : ℕ) : Shape := ⟨4, ![1, 3, h, w]⟩

abbrev S3 (h w : ℕ) : Shape := ⟨3, ![1, h, w]⟩

abbrev S0 : Shape := ⟨0, ![]⟩

def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

theorem slice_img (hh w ay ax : ℕ) (X : SY.Idx → EReal) (hs : SY.Slices ![0, 0, ay, ax] (S4 hh w))
    (hy : ay + hh ≤ 1536) (hx : ax + w ≤ 2048) (a : Fin 1) (c : Fin 3) (y : Fin hh) (x : Fin w) :
    extractStridedSlice (S4 hh w) ![0, 0, ay, ax] X hs (ix4 a c y x) = Smooth.img4 X c (y + ay) (x + ax) := by
  have hb : (c : ℕ) < 3 ∧ (y : ℕ) + ay < 1536 ∧ (x : ℕ) + ax < 2048 :=
    ⟨c.isLt, by have := y.isLt; omega, by have := x.isLt; omega⟩
  unfold Smooth.img4
  rw [dif_pos hb]
  unfold extractStridedSlice
  refine congrArg X (funext fun e => Fin.ext ?_)
  match e with
  | ⟨0, _⟩ => show 0 + (a : ℕ) = 0; have := a.isLt; omega
  | ⟨1, _⟩ => show 0 + (c : ℕ) = (c : ℕ); omega
  | ⟨2, _⟩ => show ay + (y : ℕ) = (y : ℕ) + ay; omega
  | ⟨3, _⟩ => show ax + (x : ℕ) = (x : ℕ) + ax; omega

theorem first_S0 (hS : 0 < S0.numel) : Shape.Idx.first hS = ix0 := eq_ix0 _

theorem reduceChan_apply (hh w : ℕ) (hr : (S4 hh w).ReducesTo [1] (S3 hh w)) (hS : 0 < S0.numel)
    (v : FVec Ideal (S4 hh w) .f32) (init : FVec Ideal S0 .f32) (a : Fin 1) (y : Fin hh) (x : Fin w) :
    Host.reduceAdd (F := Ideal) v init hr hS (ix3 a y x) = init ix0 + ∑ c : Fin 3, v (ix4 a c y x) := by
  have h : (S4 hh w).Reduces [1] (S3 hh w) := ⟨hr.1, Nat.succ_pos 2, hr.2⟩
  unfold Host.reduceAdd
  rw [Ideal.hostReduceAdd_def, Ideal.hostReduceAdd_single hr h, first_S0]
  refine congrArg (init ix0 + ·) ?_
  show ∑ k : Fin 3, v (h.lift (ix3 a y x) k) = _
  refine Finset.sum_congr rfl fun k _ => congrArg v (funext fun e => Fin.ext ?_)
  match e with
  | ⟨0, _⟩ => rfl
  | ⟨1, _⟩ => rfl
  | ⟨2, _⟩ => rfl
  | ⟨3, _⟩ => rfl

theorem reduceAll4_apply (hh w : ℕ) (hr : (S4 hh w).ReducesTo [0, 1, 2, 3] S0) (hS : 0 < S0.numel)
    (v : FVec Ideal (S4 hh w) .f32) (init : FVec Ideal S0 .f32) :
    Host.reduceAdd (F := Ideal) v init hr hS ix0
      = init ix0 + ∑ y : Fin hh, ∑ x : Fin w, ∑ c : Fin 3, v (ix4 (0 : Fin 1) c y x) := by
  unfold Host.reduceAdd
  rw [Ideal.hostReduceAdd_def, Ideal.hostReduceAdd_total hr (fun b => b.elim0), first_S0]
  refine congrArg (init ix0 + ·) ?_
  rw [sum_idx4, Fin.sum_univ_one, Finset.sum_comm]
  refine Finset.sum_congr rfl fun y _ => ?_
  rw [Finset.sum_comm]

theorem reduceAll3_apply (hh w : ℕ) (hr : (S3 hh w).ReducesTo [0, 1, 2] S0) (hS : 0 < S0.numel)
    (v : FVec Ideal (S3 hh w) .f32) (init : FVec Ideal S0 .f32) :
    Host.reduceAdd (F := Ideal) v init hr hS ix0 = init ix0 + ∑ y : Fin hh, ∑ x : Fin w, v (ix3 (0 : Fin 1) y x) := by
  unfold Host.reduceAdd
  rw [Ideal.hostReduceAdd_def, Ideal.hostReduceAdd_total hr (fun b => b.elim0), first_S0]
  refine congrArg (init ix0 + ·) ?_
  rw [sum_idx3, Fin.sum_univ_one]

section Pointwise
variable {s : Shape}

theorem hostExp_apply (v : FVec Ideal s .f32) (i : s.Idx) : Host.exp v i = Ideal.exp (v i) := rfl

theorem hostAbsf_apply (v : FVec Ideal s .f32) (i : s.Idx) : Host.absf v i = max (v i) (-(v i)) := rfl

theorem hostDivf_apply (a b : FVec Ideal s .f32) (i : s.Idx) : Host.divf a b i = Ideal.div (a i) (b i) := rfl

end Pointwise

theorem bcastConst_apply (hh w : ℕ) (hbc : S0.BroadcastsInDim (S3 hh w) (![] : Fin 0 → Fin (S3 hh w).rank))
    (b : BitVec 32) (j : (S3 hh w).Idx) :
    broadcastInDim (S3 hh w) (![] : Fin 0 → Fin (S3 hh w).rank) hbc (constant (F := Ideal) S0 .f32 b) j
      = Ideal.ofBits .f32 b := rfl

section Pair
variable (hh w ay ax by' bx : ℕ)
  (hya : ay + hh ≤ 1536) (hxa : ax + w ≤ 2048) (hyb : by' + hh ≤ 1536) (hxb : bx + w ≤ 2048)
  (hsa : SY.Slices ![0, 0, ay, ax] (S4 hh w)) (hsb : SY.Slices ![0, 0, by', bx] (S4 hh w))
  (hr1 : (S4 hh w).ReducesTo [1] (S3 hh w))
  (hbc : S0.BroadcastsInDim (S3 hh w) (![] : Fin 0 → Fin (S3 hh w).rank))
  (hr4 : (S4 hh w).ReducesTo [0, 1, 2, 3] S0) (hr3 : (S3 hh w).ReducesTo [0, 1, 2] S0) (hS : 0 < S0.numel)

include hya hxa hyb hxb in
theorem pairN_value (O : FVec Ideal SY .f32) :
    Host.reduceAdd (F := Ideal)
        (Host.absf (subf (extractStridedSlice (S4 hh w) ![0, 0, ay, ax] O hsa)
                         (extractStridedSlice (S4 hh w) ![0, 0, by', bx] O hsb)))
        (constant (F := Ideal) S0 .f32 0x00000000#32) hr4 hS ix0
      = Smooth.sumN (Smooth.img4 O) ay ax by' bx hh w := by
  rw [reduceAll4_apply, constant_apply, Ideal.ofBits_zero_f32, zero_add]
  unfold Smooth.sumN Smooth.abd
  refine Finset.sum_congr rfl fun y _ => Finset.sum_congr rfl fun x _ => Finset.sum_congr rfl fun c _ => ?_
  rw [hostAbsf_apply, subf_apply, slice_img hh w ay ax O hsa hya hxa, slice_img hh w by' bx O hsb hyb hxb]

include hya hxa hyb hxb in
theorem pairW_value (Y : FVec Ideal SY .f32) :
    Host.reduceAdd (F := Ideal)
        (Host.exp
          (mulf
            (Host.reduceAdd (F := Ideal)
              (mulf (subf (extractStridedSlice (S4 hh w) ![0, 0, ay, ax] Y hsa)
                          (extractStridedSlice (S4 hh w) ![0, 0, by', bx] Y hsb))
                    (subf (extractStridedSlice (S4 hh w) ![0, 0, ay, ax] Y hsa)
                          (extractStridedSlice (S4 hh w) ![0, 0, by', bx] Y hsb)))
              (constant (F := Ideal) S0 .f32 0x00000000#32) hr1 hS)
            (broadcastInDim (S3 hh w) (![] : Fin 0 → Fin (S3 hh w).rank) hbc
              (constant (F := Ideal) S0 .f32 0xBBA3D70A#32))))
        (constant (F := Ideal) S0 .f32 0x00000000#32) hr3 hS ix0
      = Smooth.sumW (Smooth.img4 Y) ay ax by' bx hh w := by
  rw [reduceAll3_apply, constant_apply, Ideal.ofBits_zero_f32, zero_add]
  unfold Smooth.sumW Smooth.sqd Smooth.sigma
  refine Finset.sum_congr rfl fun y _ => Finset.sum_congr rfl fun x _ => ?_
  rw [hostExp_apply, mulf_apply, bcastConst_apply, reduceChan_apply, constant_apply, Ideal.ofBits_zero_f32, zero_add]
  refine congrArg (fun t => Ideal.exp (t * _)) (Finset.sum_congr rfl fun c _ => ?_)
  rw [mulf_apply, subf_apply, slice_img hh w ay ax Y hsa hya hxa, slice_img hh w by' bx Y hsb hyb hxb]

include hya hxa hyb hxb in
theorem pair_value (cw cn : BitVec 32) (Y O : FVec Ideal SY .f32) :
    mulf
      (Host.divf
        (Host.reduceAdd (F := Ideal)
          (Host.exp
            (mulf
              (Host.reduceAdd (F := Ideal)
                (mulf (subf (extractStridedSlice (S4 hh w) ![0, 0, ay, ax] Y hsa)
                            (extractStridedSlice (S4 hh w) ![0, 0, by', bx] Y hsb))
                      (subf (extractStridedSlice (S4 hh w) ![0, 0, ay, ax] Y hsa)
                            (extractStridedSlice (S4 hh w) ![0, 0, by', bx] Y hsb)))
                (constant (F := Ideal) S0 .f32 0x00000000#32) hr1 hS)
              (broadcastInDim (S3 hh w) (![] : Fin 0 → Fin (S3 hh w).rank) hbc
                (constant (F := Ideal) S0 .f32 0xBBA3D70A#32))))
          (constant (F := Ideal) S0 .f32 0x00000000#32) hr3 hS)
        (constant (F := Ideal) S0 .f32 cw))
      (Host.divf
        (Host.reduceAdd (F := Ideal)
          (Host.absf (subf (extractStridedSlice (S4 hh w) ![0, 0, ay, ax] O hsa)
                           (extractStridedSlice (S4 hh w) ![0, 0, by', bx] O hsb)))
          (constant (F := Ideal) S0 .f32 0x00000000#32) hr4 hS)
        (constant (F := Ideal) S0 .f32 cn))
      ix0
    = Smooth.term (Smooth.img4 Y) (Smooth.img4 O) ay ax by' bx hh w (Ideal.ofBits .f32 cw) (Ideal.ofBits .f32 cn) := by
  rw [mulf_apply, hostDivf_apply, hostDivf_apply,
    pairW_value hh w ay ax by' bx hya hxa hyb hxb hsa hsb hr1 hbc hr3 hS Y,
    pairN_value hh w ay ax by' bx hya hxa hyb hxb hsa hsb hr4 hS O, constant_apply, constant_apply]
  rfl

end Pair

def stage (hh w ay ax by' bx : ℕ)
    (hsa : SY.Slices ![0, 0, ay, ax] (S4 hh w)) (hsb : SY.Slices ![0, 0, by', bx] (S4 hh w))
    (hr1 : (S4 hh w).ReducesTo [1] (S3 hh w))
    (hbc : S0.BroadcastsInDim (S3 hh w) (![] : Fin 0 → Fin (S3 hh w).rank))
    (hr4 : (S4 hh w).ReducesTo [0, 1, 2, 3] S0) (hr3 : (S3 hh w).ReducesTo [0, 1, 2] S0) (hS : 0 < S0.numel)
    (cw cn : BitVec 32) (Y O : FVec Ideal SY .f32) : FVec Ideal S0 .f32 :=
  mulf
    (Host.divf
      (Host.reduceAdd (F := Ideal)
        (Host.exp
          (mulf
            (Host.reduceAdd (F := Ideal)
              (mulf (subf (extractStridedSlice (S4 hh w) ![0, 0, ay, ax] Y hsa)
                          (extractStridedSlice (S4 hh w) ![0, 0, by', bx] Y hsb))
                    (subf (extractStridedSlice (S4 hh w) ![0, 0, ay, ax] Y hsa)
                          (extractStridedSlice (S4 hh w) ![0, 0, by', bx] Y hsb)))
              (constant (F := Ideal) S0 .f32 0x00000000#32) hr1 hS)
            (broadcastInDim (S3 hh w) (![] : Fin 0 → Fin (S3 hh w).rank) hbc
              (constant (F := Ideal) S0 .f32 0xBBA3D70A#32))))
        (constant (F := Ideal) S0 .f32 0x00000000#32) hr3 hS)
      (constant (F := Ideal) S0 .f32 cw))
    (Host.divf
      (Host.reduceAdd (F := Ideal)
        (Host.absf (subf (extractStridedSlice (S4 hh w) ![0, 0, ay, ax] O hsa)
                         (extractStridedSlice (S4 hh w) ![0, 0, by', bx] O hsb)))
        (constant (F := Ideal) S0 .f32 0x00000000#32) hr4 hS)
      (constant (F := Ideal) S0 .f32 cn))

theorem stage_value (hh w ay ax by' bx : ℕ)
    (hya : ay + hh ≤ 1536) (hxa : ax + w ≤ 2048) (hyb : by' + hh ≤ 1536) (hxb : bx + w ≤ 2048)
    (hsa : SY.Slices ![0, 0, ay, ax] (S4 hh w)) (hsb : SY.Slices ![0, 0, by', bx] (S4 hh w))
    (hr1 : (S4 hh w).ReducesTo [1] (S3 hh w))
    (hbc : S0.BroadcastsInDim (S3 hh w) (![] : Fin 0 → Fin (S3 hh w).rank))
    (hr4 : (S4 hh w).ReducesTo [0, 1, 2, 3] S0) (hr3 : (S3 hh w).ReducesTo [0, 1, 2] S0) (hS : 0 < S0.numel)
    (cw cn : BitVec 32) (Y O : FVec Ideal SY .f32) :
    stage hh w ay ax by' bx hsa hsb hr1 hbc hr4 hr3 hS cw cn Y O ix0
      = Smooth.term (Smooth.img4 Y) (Smooth.img4 O) ay ax by' bx hh w (Ideal.ofBits .f32 cw) (Ideal.ofBits .f32 cn) :=
  pair_value hh w ay ax by' bx hya hxa hyb hxb hsa hsb hr1 hbc hr4 hr3 hS cw cn Y O

end Cert.ReferenceIdeal.Hand

end
-- ==== Proof.Ref.ValueInv.lean ====
import proofs.«143054_j12300786336339_1_alg».proof.Proof.Ref.ValueLemmas

set_option maxRecDepth 16384

noncomputable section

namespace Cert.ReferenceIdeal.Hand

open Idealize.ShloMosaic Idealize.ShloMosaic.ValueIdx

section Parts
variable (hh w ay ax by' bx : ℕ)
  (hsa : SY.Slices ![0, 0, ay, ax] (S4 hh w)) (hsb : SY.Slices ![0, 0, by', bx] (S4 hh w))
  (hr1 : (S4 hh w).ReducesTo [1] (S3 hh w))
  (hbc : S0.BroadcastsInDim (S3 hh w) (![] : Fin 0 → Fin (S3 hh w).rank))
  (hr4 : (S4 hh w).ReducesTo [0, 1, 2, 3] S0) (hr3 : (S3 hh w).ReducesTo [0, 1, 2] S0) (hS : 0 < S0.numel)

def dterm (X : FVec Ideal SY .f32) : FVec Ideal (S4 hh w) .f32 :=
  subf (extractStridedSlice (S4 hh w) ![0, 0, ay, ax] X hsa) (extractStridedSlice (S4 hh w) ![0, 0, by', bx] X hsb)

def expterm (Y : FVec Ideal SY .f32) : FVec Ideal (S3 hh w) .f32 :=
  Host.exp
    (mulf
      (Host.reduceAdd (F := Ideal) (mulf (dterm hh w ay ax by' bx hsa hsb Y) (dterm hh w ay ax by' bx hsa hsb Y))
        (constant (F := Ideal) S0 .f32 0x00000000#32) hr1 hS)
      (broadcastInDim (S3 hh w) (![] : Fin 0 → Fin (S3 hh w).rank) hbc (constant (F := Ideal) S0 .f32 0xBBA3D70A#32)))

def absterm (O : FVec Ideal SY .f32) : FVec Ideal (S4 hh w) .f32 := Host.absf (dterm hh w ay ax by' bx hsa hsb O)

end Parts

def refTerm (Y O : Smooth.Img) : ℕ → EReal
  | 0 => Smooth.term Y O 1 0 0 0 1535 2048 (Ideal.ofBits .f32 0x4A3FE000#32) (Ideal.ofBits .f32 0x4B0FE800#32)
  | 1 => Smooth.term Y O 0 0 1 0 1535 2048 (Ideal.ofBits .f32 0x4A3FE000#32) (Ideal.ofBits .f32 0x4B0FE800#32)
  | 2 => Smooth.term Y O 0 1 0 0 1536 2047 (Ideal.ofBits .f32 0x4A3FE800#32) (Ideal.ofBits .f32 0x4B0FEE00#32)
  | 3 => Smooth.term Y O 0 0 0 1 1536 2047 (Ideal.ofBits .f32 0x4A3FE800#32) (Ideal.ofBits .f32 0x4B0FEE00#32)
  | 4 => Smooth.term Y O 0 0 1 1 1535 2047 (Ideal.ofBits .f32 0x4A3FC804#32) (Ideal.ofBits .f32 0x4B0FD603#32)
  | 5 => Smooth.term Y O 1 1 0 0 1535 2047 (Ideal.ofBits .f32 0x4A3FC804#32) (Ideal.ofBits .f32 0x4B0FD603#32)
  | 6 => Smooth.term Y O 1 0 0 1 1535 2047 (Ideal.ofBits .f32 0x4A3FC804#32) (Ideal.ofBits .f32 0x4B0FD603#32)
  | 7 => Smooth.term Y O 0 1 1 0 1535 2047 (Ideal.ofBits .f32 0x4A3FC804#32) (Ideal.ofBits .f32 0x4B0FD603#32)
  | 8 => Smooth.term Y O 2 0 0 0 1534 2048 (Ideal.ofBits .f32 0x4A3FC000#32) (Ideal.ofBits .f32 0x4B0FD000#32)
  | 9 => Smooth.term Y O 0 0 2 0 1534 2048 (Ideal.ofBits .f32 0x4A3FC000#32) (Ideal.ofBits .f32 0x4B0FD000#32)
  | 10 => Smooth.term Y O 0 2 0 0 1536 2046 (Ideal.ofBits .f32 0x4A3FD000#32) (Ideal.ofBits .f32 0x4B0FDC00#32)
  | 11 => Smooth.term Y O 0 0 0 2 1536 2046 (Ideal.ofBits .f32 0x4A3FD000#32) (Ideal.ofBits .f32 0x4B0FDC00#32)
  | 12 => Smooth.term Y O 0 0 2 1 1534 2047 (Ideal.ofBits .f32 0x4A3FA808#32) (Ideal.ofBits .f32 0x4B0FBE06#32)
  | 13 => Smooth.term Y O 2 1 0 0 1534 2047 (Ideal.ofBits .f32 0x4A3FA808#32) (Ideal.ofBits .f32 0x4B0FBE06#32)
  | 14 => Smooth.term Y O 2 0 0 1 1534 2047 (Ideal.ofBits .f32 0x4A3FA808#32) (Ideal.ofBits .f32 0x4B0FBE06#32)
  | 15 => Smooth.term Y O 0 1 2 0 1534 2047 (Ideal.ofBits .f32 0x4A3FA808#32) (Ideal.ofBits .f32 0x4B0FBE06#32)
  | 16 => Smooth.term Y O 0 0 1 2 1535 2046 (Ideal.ofBits .f32 0x4A3FB008#32) (Ideal.ofBits .f32 0x4B0FC406#32)
  | 17 => Smooth.term Y O 1 2 0 0 1535 2046 (Ideal.ofBits .f32 0x4A3FB008#32) (Ideal.ofBits .f32 0x4B0FC406#32)
  | 18 => Smooth.term Y O 1 0 0 2 1535 2046 (Ideal.ofBits .f32 0x4A3FB008#32) (Ideal.ofBits .f32 0x4B0FC406#32)
  | 19 => Smooth.term Y O 0 2 1 0 1535 2046 (Ideal.ofBits .f32 0x4A3FB008#32) (Ideal.ofBits .f32 0x4B0FC406#32)
  | 20 => Smooth.term Y O 0 0 2 2 1534 2046 (Ideal.ofBits .f32 0x4A3F9010#32) (Ideal.ofBits .f32 0x4B0FAC0C#32)
  | 21 => Smooth.term Y O 2 2 0 0 1534 2046 (Ideal.ofBits .f32 0x4A3F9010#32) (Ideal.ofBits .f32 0x4B0FAC0C#32)
  | 22 => Smooth.term Y O 2 0 0 2 1534 2046 (Ideal.ofBits .f32 0x4A3F9010#32) (Ideal.ofBits .f32 0x4B0FAC0C#32)
  | 23 => Smooth.term Y O 0 2 2 0 1534 2046 (Ideal.ofBits .f32 0x4A3F9010#32) (Ideal.ofBits .f32 0x4B0FAC0C#32)
  | _ => 0

def refPartial (Y O : Smooth.Img) : ℕ → EReal
  | 0 => 0
  | n + 1 => refPartial Y O n + refTerm Y O n

end Cert.ReferenceIdeal.Hand

end
-- ==== Proof.Ref.Ycc.lean ====
import proofs.«143054_j12300786336339_1_alg».proof.Proof.Gen.ReferenceIdeal
import Idealize.ShloMosaic.PureOps.Ideal

set_option maxRecDepth 16384

noncomputable section

namespace Cert.ReferenceIdeal.Hand

open Cert.ReferenceIdeal Cert.ReferenceIdeal.Gen Idealize.ShloMosaic

def yccR (a0 : S1x3x1536x2048.Idx → EReal) : S1x3x1536x2048.Idx → EReal :=
  shapeCast S1x3x1536x2048
    (addf (F := Ideal) (φ := .f32)
      (Host.dotGeneral (F := Ideal) (φ₁ := .f32) (φ₂ := .f32) dot_S3145728x3_S3x3_S3145728x3_1_0_0_1_n_n none
        (shapeCast S3145728x3 a0 shapeCasts_S1x3x1536x2048_S3145728x3)
        (fun i => FloatOps.ofBits (F := Ideal) .f32 (lit0 (S3x3.rowMajor i))))
      (broadcastInDim S3145728x3 ![0, 1] bcast_S1x3_S3145728x3_0_1
        (broadcastInDim S1x3 ![1] bcast_S3_S1x3_1 (fun i => FloatOps.ofBits (F := Ideal) .f32 (lit1 (S3.rowMajor i))))))
    shapeCasts_S3145728x3_S1x3x1536x2048

end Cert.ReferenceIdeal.Hand

end
-- ==== Proof.Ref.ValueC0.lean ====
import proofs.«143054_j12300786336339_1_alg».proof.Proof.Ref.Ops0
import proofs.«143054_j12300786336339_1_alg».proof.Proof.Ref.ValueInv
import proofs.«143054_j12300786336339_1_alg».proof.Proof.Ref.Ycc

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk0 (W : Valuation τ sig (Elt Ideal))
    :
    after (ops_part0 (F := Ideal)) W (Proc.devRef .tc main_v5) = (yccR (W (Proc.devRef .tc main_arg0)))
    ∧
    after (ops_part0 (F := Ideal)) W (Proc.devRef .tc main_arg1) = (W (Proc.devRef .tc main_arg1))
    ∧
    after (ops_part0 (F := Ideal)) W (Proc.devRef .tc main_v44) = dterm 1536 2047 0 1 0 0 Gen.slices_S1x3x1536x2048_S1x3x1536x2047_0_0_0_1 Gen.slices_S1x3x1536x2048_S1x3x1536x2047_0_0_0_0 (yccR (W (Proc.devRef .tc main_arg0)))
    ∧
    after (ops_part0 (F := Ideal)) W (Proc.devRef .tc main_v41) ix0 = refPartial (Smooth.img4 (yccR (W (Proc.devRef .tc main_arg0)))) (Smooth.img4 (W (Proc.devRef .tc main_arg1))) 2 := by
  refine ⟨?_, ?_, ?_, ?_⟩
  · after_results_simp <;> rfl
  · after_results_simp <;> rfl
  · after_results_simp <;> rfl
  · after_results_simp
    rw [addf_apply, addf_apply]
    show _ = refPartial _ _ 0 + refTerm _ _ 0 + refTerm _ _ 1
    exact (congrArg₂ (· + ·) (congrArg₂ (· + ·) Ideal.ofBits_zero_f32
      (stage_value 1535 2048 1 0 0 0 (by norm_num) (by norm_num) (by norm_num) (by norm_num) _ _ _ _ _ _ _ _ _ (yccR (W (Proc.devRef .tc main_arg0))) (W (Proc.devRef .tc main_arg1))))
      (stage_value 1535 2048 0 0 1 0 (by norm_num) (by norm_num) (by norm_num) (by norm_num) _ _ _ _ _ _ _ _ _ (yccR (W (Proc.devRef .tc main_arg0))) (W (Proc.devRef .tc main_arg1))))

end Cert.ReferenceIdeal.Hand

end
-- ==== Proof.Ref.ValueC1.lean ====
import proofs.«143054_j12300786336339_1_alg».proof.Proof.Ref.Ops1
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk1 (W : Valuation τ sig (Elt Ideal)) (Y O : FVec Ideal SY .f32)
    (h5 : W (Proc.devRef .tc main_v5) = Y)
    (hO : W (Proc.devRef .tc main_arg1) = O)
    (hd : W (Proc.devRef .tc main_v44) = dterm 1536 2047 0 1 0 0 Gen.slices_S1x3x1536x2048_S1x3x1536x2047_0_0_0_1 Gen.slices_S1x3x1536x2048_S1x3x1536x2047_0_0_0_0 Y)
    (ht : W (Proc.devRef .tc main_v41) ix0 = refPartial (Smooth.img4 Y) (Smooth.img4 O) 2)
    :
    after (ops_part1 (F := Ideal)) W (Proc.devRef .tc main_v5) = Y
    ∧
    after (ops_part1 (F := Ideal)) W (Proc.devRef .tc main_arg1) = O
    ∧
    after (ops_part1 (F := Ideal)) W (Proc.devRef .tc main_v85) = expterm 1535 2047 0 0 1 1 Gen.slices_S1x3x1536x2048_S1x3x1535x2047_0_0_0_0 Gen.slices_S1x3x1536x2048_S1x3x1535x2047_0_0_1_1 Gen.reducesTo_S1x3x1535x2047_S1x1535x2047_d1 Gen.bcast_S_S1x1535x2047 Gen.h_S_ Y
    ∧
    after (ops_part1 (F := Ideal)) W (Proc.devRef .tc main_v89) = absterm 1535 2047 0 0 1 1 Gen.slices_S1x3x1536x2048_S1x3x1535x2047_0_0_0_0 Gen.slices_S1x3x1536x2048_S1x3x1535x2047_0_0_1_1 O
    ∧
    after (ops_part1 (F := Ideal)) W (Proc.devRef .tc main_cst_28) = constant (F := Ideal) S0 .f32 0x00000000#32
    ∧
    after (ops_part1 (F := Ideal)) W (Proc.devRef .tc main_v77) ix0 = refPartial (Smooth.img4 Y) (Smooth.img4 O) 4 := by
  subst h5 hO
  refine ⟨?_, ?_, ?_, ?_, ?_, ?_⟩
  · after_results_simp <;> rfl
  · after_results_simp <;> rfl
  · after_results_simp <;> rfl
  · after_results_simp <;> rfl
  · after_results_simp <;> rfl
  · after_results_simp
    rw [hd, addf_apply, addf_apply, ht]
    show _ = refPartial _ _ 2 + refTerm _ _ 2 + refTerm _ _ 3
    exact (congrArg₂ (· + ·) (congrArg₂ (· + ·) rfl
      (stage_value 1536 2047 0 1 0 0 (by norm_num) (by norm_num) (by norm_num) (by norm_num) _ _ _ _ _ _ _ _ _ (W (Proc.devRef .tc main_v5)) (W (Proc.devRef .tc main_arg1))))
      (stage_value 1536 2047 0 0 0 1 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC2.lean ====
import proofs.«143054_j12300786336339_1_alg».proof.Proof.Ref.Ops2
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk2 (W : Valuation τ sig (Elt Ideal)) (Y O : FVec Ideal SY .f32)
    (h5 : W (Proc.devRef .tc main_v5) = Y)
    (hO : W (Proc.devRef .tc main_arg1) = O)
    (he : W (Proc.devRef .tc main_v85) = expterm 1535 2047 0 0 1 1 Gen.slices_S1x3x1536x2048_S1x3x1535x2047_0_0_0_0 Gen.slices_S1x3x1536x2048_S1x3x1535x2047_0_0_1_1 Gen.reducesTo_S1x3x1535x2047_S1x1535x2047_d1 Gen.bcast_S_S1x1535x2047 Gen.h_S_ Y)
    (ha : W (Proc.devRef .tc main_v89) = absterm 1535 2047 0 0 1 1 Gen.slices_S1x3x1536x2048_S1x3x1535x2047_0_0_0_0 Gen.slices_S1x3x1536x2048_S1x3x1535x2047_0_0_1_1 O)
    (hz : W (Proc.devRef .tc main_cst_28) = constant (F := Ideal) S0 .f32 0x00000000#32)
    (ht : W (Proc.devRef .tc main_v77) ix0 = refPartial (Smooth.img4 Y) (Smooth.img4 O) 4)
    :
    after (ops_part2 (F := Ideal)) W (Proc.devRef .tc main_v5) = Y
    ∧
    after (ops_part2 (F := Ideal)) W (Proc.devRef .tc main_arg1) = O
    ∧
    after (ops_part2 (F := Ideal)) W (Proc.devRef .tc main_v134) = dterm 1535 2047 0 1 1 0 Gen.slices_S1x3x1536x2048_S1x3x1535x2047_0_0_0_1 Gen.slices_S1x3x1536x2048_S1x3x1535x2047_0_0_1_0 Y
    ∧
    after (ops_part2 (F := Ideal)) W (Proc.devRef .tc main_v131) ix0 = refPartial (Smooth.img4 Y) (Smooth.img4 O) 7 := by
  subst h5 hO
  refine ⟨?_, ?_, ?_, ?_⟩
  · after_results_simp <;> rfl
  · after_results_simp <;> rfl
  · after_results_simp <;> rfl
  · after_results_simp
    rw [he, ha, hz, addf_apply, addf_apply, addf_apply, ht]
    show _ = refPartial _ _ 4 + refTerm _ _ 4 + refTerm _ _ 5 + refTerm _ _ 6
    exact (congrArg₂ (· + ·) (congrArg₂ (· + ·) (congrArg₂ (· + ·) rfl
      (stage_value 1535 2047 0 0 1 1 (by norm_num) (by norm_num) (by norm_num) (by norm_num) _ _ _ _ _ _ _ _ _ (W (Proc.devRef .tc main_v5)) (W (Proc.devRef .tc main_arg1))))
      (stage_value 1535 2047 1 1 0 0 (by norm_num) (by norm_num) (by norm_num) (by norm_num) _ _ _ _ _ _ _ _ _ (W (Proc.devRef .tc main_v5)) (W (Proc.devRef .tc main_arg1))))
      (stage_value 1535 2047 1 0 0 1 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC3.lean ====
import proofs.«143054_j12300786336339_1_alg».proof.Proof.Ref.Ops3
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk3 (W : Valuation τ sig (Elt Ideal)) (Y O : FVec Ideal SY .f32)
    (h5 : W (Proc.devRef .tc main_v5) = Y)
    (hO : W (Proc.devRef .tc main_arg1) = O)
    (hd : W (Proc.devRef .tc main_v134) = dterm 1535 2047 0 1 1 0 Gen.slices_S1x3x1536x2048_S1x3x1535x2047_0_0_0_1 Gen.slices_S1x3x1536x2048_S1x3x1535x2047_0_0_1_0 Y)
    (ht : W (Proc.devRef .tc main_v131) ix0 = refPartial (Smooth.img4 Y) (Smooth.img4 O) 7)
    :
    after (ops_part3 (F := Ideal)) W (Proc.devRef .tc main_v5) = Y
    ∧
    after (ops_part3 (F := Ideal)) W (Proc.devRef .tc main_arg1) = O
    ∧
    after (ops_part3 (F := Ideal)) W (Proc.devRef .tc main_v175) = expterm 1534 2048 0 0 2 0 Gen.slices_S1x3x1536x2048_S1x3x1534x2048_0_0_0_0 Gen.slices_S1x3x1536x2048_S1x3x1534x2048_0_0_2_0 Gen.reducesTo_S1x3x1534x2048_S1x1534x2048_d1 Gen.bcast_S_S1x1534x2048 Gen.h_S_ Y
    ∧
    after (ops_part3 (F := Ideal)) W (Proc.devRef .tc main_v179) = absterm 1534 2048 0 0 2 0 Gen.slices_S1x3x1536x2048_S1x3x1534x2048_0_0_0_0 Gen.slices_S1x3x1536x2048_S1x3x1534x2048_0_0_2_0 O
    ∧
    after (ops_part3 (F := Ideal)) W (Proc.devRef .tc main_cst_58) = constant (F := Ideal) S0 .f32 0x00000000#32
    ∧
    after (ops_part3 (F := Ideal)) W (Proc.devRef .tc main_v167) ix0 = refPartial (Smooth.img4 Y) (Smooth.img4 O) 9 := by
  subst h5 hO
  refine ⟨?_, ?_, ?_, ?_, ?_, ?_⟩
  · after_results_simp <;> rfl
  · after_results_simp <;> rfl
  · after_results_simp <;> rfl
  · after_results_simp <;> rfl
  · after_results_simp <;> rfl
  · after_results_simp
    rw [hd, addf_apply, addf_apply, ht]
    show _ = refPartial _ _ 7 + refTerm _ _ 7 + refTerm _ _ 8
    exact (congrArg₂ (· + ·) (congrArg₂ (· + ·) rfl
      (stage_value 1535 2047 0 1 1 0 (by norm_num) (by norm_num) (by norm_num) (by norm_num) _ _ _ _ _ _ _ _ _ (W (Proc.devRef .tc main_v5)) (W (Proc.devRef .tc main_arg1))))
      (stage_value 1534 2048 2 0 0 0 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC4.lean ====
import proofs.«143054_j12300786336339_1_alg».proof.Proof.Ref.Ops4
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk4 (W : Valuation τ sig (Elt Ideal)) (Y O : FVec Ideal SY .f32)
    (h5 : W (Proc.devRef .tc main_v5) = Y)
    (hO : W (Proc.devRef .tc main_arg1) = O)
    (he : W (Proc.devRef .tc main_v175) = expterm 1534 2048 0 0 2 0 Gen.slices_S1x3x1536x2048_S1x3x1534x2048_0_0_0_0 Gen.slices_S1x3x1536x2048_S1x3x1534x2048_0_0_2_0 Gen.reducesTo_S1x3x1534x2048_S1x1534x2048_d1 Gen.bcast_S_S1x1534x2048 Gen.h_S_ Y)
    (ha : W (Proc.devRef .tc main_v179) = absterm 1534 2048 0 0 2 0 Gen.slices_S1x3x1536x2048_S1x3x1534x2048_0_0_0_0 Gen.slices_S1x3x1536x2048_S1x3x1534x2048_0_0_2_0 O)
    (hz : W (Proc.devRef .tc main_cst_58) = constant (F := Ideal) S0 .f32 0x00000000#32)
    (ht : W (Proc.devRef .tc main_v167) ix0 = refPartial (Smooth.img4 Y) (Smooth.img4 O) 9)
    :
    after (ops_part4 (F := Ideal)) W (Proc.devRef .tc main_v5) = Y
    ∧
    after (ops_part4 (F := Ideal)) W (Proc.devRef .tc main_arg1) = O
    ∧
    after (ops_part4 (F := Ideal)) W (Proc.devRef .tc main_v224) = dterm 1534 2047 0 0 2 1 Gen.slices_S1x3x1536x2048_S1x3x1534x2047_0_0_0_0 Gen.slices_S1x3x1536x2048_S1x3x1534x2047_0_0_2_1 Y
    ∧
    after (ops_part4 (F := Ideal)) W (Proc.devRef .tc main_v221) ix0 = refPartial (Smooth.img4 Y) (Smooth.img4 O) 12 := by
  subst h5 hO
  refine ⟨?_, ?_, ?_, ?_⟩
  · after_results_simp <;> rfl
  · after_results_simp <;> rfl
  · after_results_simp <;> rfl
  · after_results_simp
    rw [he, ha, hz, addf_apply, addf_apply, addf_apply, ht]
    show _ = refPartial _ _ 9 + refTerm _ _ 9 + refTerm _ _ 10 + refTerm _ _ 11
    exact (congrArg₂ (· + ·) (congrArg₂ (· + ·) (congrArg₂ (· + ·) rfl
      (stage_value 1534 2048 0 0 2 0 (by norm_num) (by norm_num) (by norm_num) (by norm_num) _ _ _ _ _ _ _ _ _ (W (Proc.devRef .tc main_v5)) (W (Proc.devRef .tc main_arg1))))
      (stage_value 1536 2046 0 2 0 0 (by norm_num) (by norm_num) (by norm_num) (by norm_num) _ _ _ _ _ _ _ _ _ (W (Proc.devRef .tc main_v5)) (W (Proc.devRef .tc main_arg1))))
      (stage_value 1536 2046 0 0 0 2 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC5.lean ====
import proofs.«143054_j12300786336339_1_alg».proof.Proof.Ref.Ops5
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk5 (W : Valuation τ sig (Elt Ideal)) (Y O : FVec Ideal SY .f32)
    (h5 : W (Proc.devRef .tc main_v5) = Y)
    (hO : W (Proc.devRef .tc main_arg1) = O)
    (hd : W (Proc.devRef .tc main_v224) = dterm 1534 2047 0 0 2 1 Gen.slices_S1x3x1536x2048_S1x3x1534x2047_0_0_0_0 Gen.slices_S1x3x1536x2048_S1x3x1534x2047_0_0_2_1 Y)
    (ht : W (Proc.devRef .tc main_v221) ix0 = refPartial (Smooth.img4 Y) (Smooth.img4 O) 12)
    :
    after (ops_part5 (F := Ideal)) W (Proc.devRef .tc main_v5) = Y
    ∧
    after (ops_part5 (F := Ideal)) W (Proc.devRef .tc main_arg1) = O
    ∧
    after (ops_part5 (F := Ideal)) W (Proc.devRef .tc main_v265) = expterm 1534 2047 2 0 0 1 Gen.slices_S1x3x1536x2048_S1x3x1534x2047_0_0_2_0 Gen.slices_S1x3x1536x2048_S1x3x1534x2047_0_0_0_1 Gen.reducesTo_S1x3x1534x2047_S1x1534x2047_d1 Gen.bcast_S_S1x1534x2047 Gen.h_S_ Y
    ∧
    after (ops_part5 (F := Ideal)) W (Proc.devRef .tc main_v269) = absterm 1534 2047 2 0 0 1 Gen.slices_S1x3x1536x2048_S1x3x1534x2047_0_0_2_0 Gen.slices_S1x3x1536x2048_S1x3x1534x2047_0_0_0_1 O
    ∧
    after (ops_part5 (F := Ideal)) W (Proc.devRef .tc main_cst_88) = constant (F := Ideal) S0 .f32 0x00000000#32
    ∧
    after (ops_part5 (F := Ideal)) W (Proc.devRef .tc main_v257) ix0 = refPartial (Smooth.img4 Y) (Smooth.img4 O) 14 := by
  subst h5 hO
  refine ⟨?_, ?_, ?_, ?_, ?_, ?_⟩
  · after_results_simp <;> rfl
  · after_results_simp <;> rfl
  · after_results_simp <;> rfl
  · after_results_simp <;> rfl
  · after_results_simp <;> rfl
  · after_results_simp
    rw [hd, addf_apply, addf_apply, ht]
    show _ = refPartial _ _ 12 + refTerm _ _ 12 + refTerm _ _ 13
    exact (congrArg₂ (· + ·) (congrArg₂ (· + ·) rfl
      (stage_value 1534 2047 0 0 2 1 (by norm_num) (by norm_num) (by norm_num) (by norm_num) _ _ _ _ _ _ _ _ _ (W (Proc.devRef .tc main_v5)) (W (Proc.devRef .tc main_arg1))))
      (stage_value 1534 2047 2 1 0 0 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC6.lean ====
import proofs.«143054_j12300786336339_1_alg».proof.Proof.Ref.Ops6
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk6 (W : Valuation τ sig (Elt Ideal)) (Y O : FVec Ideal SY .f32)
    (h5 : W (Proc.devRef .tc main_v5) = Y)
    (hO : W (Proc.devRef .tc main_arg1) = O)
    (he : W (Proc.devRef .tc main_v265) = expterm 1534 2047 2 0 0 1 Gen.slices_S1x3x1536x2048_S1x3x1534x2047_0_0_2_0 Gen.slices_S1x3x1536x2048_S1x3x1534x2047_0_0_0_1 Gen.reducesTo_S1x3x1534x2047_S1x1534x2047_d1 Gen.bcast_S_S1x1534x2047 Gen.h_S_ Y)
    (ha : W (Proc.devRef .tc main_v269) = absterm 1534 2047 2 0 0 1 Gen.slices_S1x3x1536x2048_S1x3x1534x2047_0_0_2_0 Gen.slices_S1x3x1536x2048_S1x3x1534x2047_0_0_0_1 O)
    (hz : W (Proc.devRef .tc main_cst_88) = constant (F := Ideal) S0 .f32 0x00000000#32)
    (ht : W (Proc.devRef .tc main_v257) ix0 = refPartial (Smooth.img4 Y) (Smooth.img4 O) 14)
    :
    after (ops_part6 (F := Ideal)) W (Proc.devRef .tc main_v5) = Y
    ∧
    after (ops_part6 (F := Ideal)) W (Proc.devRef .tc main_arg1) = O
    ∧
    after (ops_part6 (F := Ideal)) W (Proc.devRef .tc main_v314) = dterm 1535 2046 1 2 0 0 Gen.slices_S1x3x1536x2048_S1x3x1535x2046_0_0_1_2 Gen.slices_S1x3x1536x2048_S1x3x1535x2046_0_0_0_0 Y
    ∧
    after (ops_part6 (F := Ideal)) W (Proc.devRef .tc main_v311) ix0 = refPartial (Smooth.img4 Y) (Smooth.img4 O) 17 := by
  subst h5 hO
  refine ⟨?_, ?_, ?_, ?_⟩
  · after_results_simp <;> rfl
  · after_results_simp <;> rfl
  · after_results_simp <;> rfl
  · after_results_simp
    rw [he, ha, hz, addf_apply, addf_apply, addf_apply, ht]
    show _ = refPartial _ _ 14 + refTerm _ _ 14 + refTerm _ _ 15 + refTerm _ _ 16
    exact (congrArg₂ (· + ·) (congrArg₂ (· + ·) (congrArg₂ (· + ·) rfl
      (stage_value 1534 2047 2 0 0 1 (by norm_num) (by norm_num) (by norm_num) (by norm_num) _ _ _ _ _ _ _ _ _ (W (Proc.devRef .tc main_v5)) (W (Proc.devRef .tc main_arg1))))
      (stage_value 1534 2047 0 1 2 0 (by norm_num) (by norm_num) (by norm_num) (by norm_num) _ _ _ _ _ _ _ _ _ (W (Proc.devRef .tc main_v5)) (W (Proc.devRef .tc main_arg1))))
      (stage_value 1535 2046 0 0 1 2 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC7.lean ====
import proofs.«143054_j12300786336339_1_alg».proof.Proof.Ref.Ops7
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk7 (W : Valuation τ sig (Elt Ideal)) (Y O : FVec Ideal SY .f32)
    (h5 : W (Proc.devRef .tc main_v5) = Y)
    (hO : W (Proc.devRef .tc main_arg1) = O)
    (hd : W (Proc.devRef .tc main_v314) = dterm 1535 2046 1 2 0 0 Gen.slices_S1x3x1536x2048_S1x3x1535x2046_0_0_1_2 Gen.slices_S1x3x1536x2048_S1x3x1535x2046_0_0_0_0 Y)
    (ht : W (Proc.devRef .tc main_v311) ix0 = refPartial (Smooth.img4 Y) (Smooth.img4 O) 17)
    :
    after (ops_part7 (F := Ideal)) W (Proc.devRef .tc main_v5) = Y
    ∧
    after (ops_part7 (F := Ideal)) W (Proc.devRef .tc main_arg1) = O
    ∧
    after (ops_part7 (F := Ideal)) W (Proc.devRef .tc main_v355) = expterm 1535 2046 0 2 1 0 Gen.slices_S1x3x1536x2048_S1x3x1535x2046_0_0_0_2 Gen.slices_S1x3x1536x2048_S1x3x1535x2046_0_0_1_0 Gen.reducesTo_S1x3x1535x2046_S1x1535x2046_d1 Gen.bcast_S_S1x1535x2046 Gen.h_S_ Y
    ∧
    after (ops_part7 (F := Ideal)) W (Proc.devRef .tc main_v359) = absterm 1535 2046 0 2 1 0 Gen.slices_S1x3x1536x2048_S1x3x1535x2046_0_0_0_2 Gen.slices_S1x3x1536x2048_S1x3x1535x2046_0_0_1_0 O
    ∧
    after (ops_part7 (F := Ideal)) W (Proc.devRef .tc main_cst_118) = constant (F := Ideal) S0 .f32 0x00000000#32
    ∧
    after (ops_part7 (F := Ideal)) W (Proc.devRef .tc main_v347) ix0 = refPartial (Smooth.img4 Y) (Smooth.img4 O) 19 := by
  subst h5 hO
  refine ⟨?_, ?_, ?_, ?_, ?_, ?_⟩
  · after_results_simp <;> rfl
  · after_results_simp <;> rfl
  · after_results_simp <;> rfl
  · after_results_simp <;> rfl
  · after_results_simp <;> rfl
  · after_results_simp
    rw [hd, addf_apply, addf_apply, ht]
    show _ = refPartial _ _ 17 + refTerm _ _ 17 + refTerm _ _ 18
    exact (congrArg₂ (· + ·) (congrArg₂ (· + ·) rfl
      (stage_value 1535 2046 1 2 0 0 (by norm_num) (by norm_num) (by norm_num) (by norm_num) _ _ _ _ _ _ _ _ _ (W (Proc.devRef .tc main_v5)) (W (Proc.devRef .tc main_arg1))))
      (stage_value 1535 2046 1 0 0 2 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC8.lean ====
import proofs.«143054_j12300786336339_1_alg».proof.Proof.Ref.Ops8
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk8 (W : Valuation τ sig (Elt Ideal)) (Y O : FVec Ideal SY .f32)
    (h5 : W (Proc.devRef .tc main_v5) = Y)
    (hO : W (Proc.devRef .tc main_arg1) = O)
    (he : W (Proc.devRef .tc main_v355) = expterm 1535 2046 0 2 1 0 Gen.slices_S1x3x1536x2048_S1x3x1535x2046_0_0_0_2 Gen.slices_S1x3x1536x2048_S1x3x1535x2046_0_0_1_0 Gen.reducesTo_S1x3x1535x2046_S1x1535x2046_d1 Gen.bcast_S_S1x1535x2046 Gen.h_S_ Y)
    (ha : W (Proc.devRef .tc main_v359) = absterm 1535 2046 0 2 1 0 Gen.slices_S1x3x1536x2048_S1x3x1535x2046_0_0_0_2 Gen.slices_S1x3x1536x2048_S1x3x1535x2046_0_0_1_0 O)
    (hz : W (Proc.devRef .tc main_cst_118) = constant (F := Ideal) S0 .f32 0x00000000#32)
    (ht : W (Proc.devRef .tc main_v347) ix0 = refPartial (Smooth.img4 Y) (Smooth.img4 O) 19)
    :
    after (ops_part8 (F := Ideal)) W (Proc.devRef .tc main_v5) = Y
    ∧
    after (ops_part8 (F := Ideal)) W (Proc.devRef .tc main_arg1) = O
    ∧
    after (ops_part8 (F := Ideal)) W (Proc.devRef .tc main_v404) = dterm 1534 2046 2 0 0 2 Gen.slices_S1x3x1536x2048_S1x3x1534x2046_0_0_2_0 Gen.slices_S1x3x1536x2048_S1x3x1534x2046_0_0_0_2 Y
    ∧
    after (ops_part8 (F := Ideal)) W (Proc.devRef .tc main_v401) ix0 = refPartial (Smooth.img4 Y) (Smooth.img4 O) 22 := by
  subst h5 hO
  refine ⟨?_, ?_, ?_, ?_⟩
  · after_results_simp <;> rfl
  · after_results_simp <;> rfl
  · after_results_simp <;> rfl
  · after_results_simp
    rw [he, ha, hz, addf_apply, addf_apply, addf_apply, ht]
    show _ = refPartial _ _ 19 + refTerm _ _ 19 + refTerm _ _ 20 + refTerm _ _ 21
    exact (congrArg₂ (· + ·) (congrArg₂ (· + ·) (congrArg₂ (· + ·) rfl
      (stage_value 1535 2046 0 2 1 0 (by norm_num) (by norm_num) (by norm_num) (by norm_num) _ _ _ _ _ _ _ _ _ (W (Proc.devRef .tc main_v5)) (W (Proc.devRef .tc main_arg1))))
      (stage_value 1534 2046 0 0 2 2 (by norm_num) (by norm_num) (by norm_num) (by norm_num) _ _ _ _ _ _ _ _ _ (W (Proc.devRef .tc main_v5)) (W (Proc.devRef .tc main_arg1))))
      (stage_value 1534 2046 2 2 0 0 (by norm_num) (by norm_num) (by norm_num) (by norm_num) _ _ _ _ _ _ _ _ _ (W (Proc.devRef .tc main_v5)) (W (Proc.devRef .tc main_arg1))))

end Cert.ReferenceIdeal.Hand

end
-- ==== Proof.Ref.ValueC9.lean ====
import proofs.«143054_j12300786336339_1_alg».proof.Proof.Ref.Ops9
import proofs.«143054_j12300786336339_1_alg».proof.Proof.Ref.ValueInv

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

set_option maxHeartbeats 4000000 in
theorem chunk9 (W : Valuation τ sig (Elt Ideal)) (Y O : FVec Ideal SY .f32)
    (h5 : W (Proc.devRef .tc main_v5) = Y)
    (hO : W (Proc.devRef .tc main_arg1) = O)
    (hd : W (Proc.devRef .tc main_v404) = dterm 1534 2046 2 0 0 2 Gen.slices_S1x3x1536x2048_S1x3x1534x2046_0_0_2_0 Gen.slices_S1x3x1536x2048_S1x3x1534x2046_0_0_0_2 Y)
    (ht : W (Proc.devRef .tc main_v401) ix0 = refPartial (Smooth.img4 Y) (Smooth.img4 O) 22)
    :
    after (ops_part9 (F := Ideal)) W (Proc.devRef .tc main_v437) ix0 = refPartial (Smooth.img4 Y) (Smooth.img4 O) 24 := by
  subst h5 hO
  after_results_simp
  rw [hd, addf_apply, addf_apply, ht]
  show _ = refPartial _ _ 22 + refTerm _ _ 22 + refTerm _ _ 23
  exact (congrArg₂ (· + ·) (congrArg₂ (· + ·) rfl
    (stage_value 1534 2046 2 0 0 2 (by norm_num) (by norm_num) (by norm_num) (by norm_num) _ _ _ _ _ _ _ _ _ (W (Proc.devRef .tc main_v5)) (W (Proc.devRef .tc main_arg1))))
    (stage_value 1534 2046 0 2 2 0 (by norm_num) (by norm_num) (by norm_num) (by norm_num) _ _ _ _ _ _ _ _ _ (W (Proc.devRef .tc main_v5)) (W (Proc.devRef .tc main_arg1))))

end Cert.ReferenceIdeal.Hand

end
-- ==== Proof.RefTotal.lean ====
import proofs.«143054_j12300786336339_1_alg».proof.Proof.Spec

noncomputable section

namespace Smooth

open Idealize.ShloMosaic

/-- the 24 terms in the reference's order -/
def refTotal (Y O : Img) : EReal :=
  (((((((((((((((((((((((((0 : EReal) +
    term Y O 1 0 0 0 1535 2048 (Ideal.ofBits .f32 0x4A3FE000#32) (Ideal.ofBits .f32 0x4B0FE800#32)) +
    term Y O 0 0 1 0 1535 2048 (Ideal.ofBits .f32 0x4A3FE000#32) (Ideal.ofBits .f32 0x4B0FE800#32)) +
    term Y O 0 1 0 0 1536 2047 (Ideal.ofBits .f32 0x4A3FE800#32) (Ideal.ofBits .f32 0x4B0FEE00#32)) +
    term Y O 0 0 0 1 1536 2047 (Ideal.ofBits .f32 0x4A3FE800#32) (Ideal.ofBits .f32 0x4B0FEE00#32)) +
    term Y O 0 0 1 1 1535 2047 (Ideal.ofBits .f32 0x4A3FC804#32) (Ideal.ofBits .f32 0x4B0FD603#32)) +
    term Y O 1 1 0 0 1535 2047 (Ideal.ofBits .f32 0x4A3FC804#32) (Ideal.ofBits .f32 0x4B0FD603#32)) +
    term Y O 1 0 0 1 1535 2047 (Ideal.ofBits .f32 0x4A3FC804#32) (Ideal.ofBits .f32 0x4B0FD603#32)) +
    term Y O 0 1 1 0 1535 2047 (Ideal.ofBits .f32 0x4A3FC804#32) (Ideal.ofBits .f32 0x4B0FD603#32)) +
    term Y O 2 0 0 0 1534 2048 (Ideal.ofBits .f32 0x4A3FC000#32) (Ideal.ofBits .f32 0x4B0FD000#32)) +
    term Y O 0 0 2 0 1534 2048 (Ideal.ofBits .f32 0x4A3FC000#32) (Ideal.ofBits .f32 0x4B0FD000#32)) +
    term Y O 0 2 0 0 1536 2046 (Ideal.ofBits .f32 0x4A3FD000#32) (Ideal.ofBits .f32 0x4B0FDC00#32)) +
    term Y O 0 0 0 2 1536 2046 (Ideal.ofBits .f32 0x4A3FD000#32) (Ideal.ofBits .f32 0x4B0FDC00#32)) +
    term Y O 0 0 2 1 1534 2047 (Ideal.ofBits .f32 0x4A3FA808#32) (Ideal.ofBits .f32 0x4B0FBE06#32)) +
    term Y O 2 1 0 0 1534 2047 (Ideal.ofBits .f32 0x4A3FA808#32) (Ideal.ofBits .f32 0x4B0FBE06#32)) +
    term Y O 2 0 0 1 1534 2047 (Ideal.ofBits .f32 0x4A3FA808#32) (Ideal.ofBits .f32 0x4B0FBE06#32)) +
    term Y O 0 1 2 0 1534 2047 (Ideal.ofBits .f32 0x4A3FA808#32) (Ideal.ofBits .f32 0x4B0FBE06#32)) +
    term Y O 0 0 1 2 1535 2046 (Ideal.ofBits .f32 0x4A3FB008#32) (Ideal.ofBits .f32 0x4B0FC406#32)) +
    term Y O 1 2 0 0 1535 2046 (Ideal.ofBits .f32 0x4A3FB008#32) (Ideal.ofBits .f32 0x4B0FC406#32)) +
    term Y O 1 0 0 2 1535 2046 (Ideal.ofBits .f32 0x4A3FB008#32) (Ideal.ofBits .f32 0x4B0FC406#32)) +
    term Y O 0 2 1 0 1535 2046 (Ideal.ofBits .f32 0x4A3FB008#32) (Ideal.ofBits .f32 0x4B0FC406#32)) +
    term Y O 0 0 2 2 1534 2046 (Ideal.ofBits .f32 0x4A3F9010#32) (Ideal.ofBits .f32 0x4B0FAC0C#32)) +
    term Y O 2 2 0 0 1534 2046 (Ideal.ofBits .f32 0x4A3F9010#32) (Ideal.ofBits .f32 0x4B0FAC0C#32)) +
    term Y O 2 0 0 2 1534 2046 (Ideal.ofBits .f32 0x4A3F9010#32) (Ideal.ofBits .f32 0x4B0FAC0C#32)) +
    term Y O 0 2 2 0 1534 2046 (Ideal.ofBits .f32 0x4A3F9010#32) (Ideal.ofBits .f32 0x4B0FAC0C#32))

end Smooth

end
-- ==== Proof.Ref.Value.lean ====
import proofs.«143054_j12300786336339_1_alg».proof.Proof.Ref.Ops
import proofs.«143054_j12300786336339_1_alg».proof.Proof.Ref.ValueC0
import proofs.«143054_j12300786336339_1_alg».proof.Proof.Ref.ValueC1
import proofs.«143054_j12300786336339_1_alg».proof.Proof.Ref.ValueC2
import proofs.«143054_j12300786336339_1_alg».proof.Proof.Ref.ValueC3
import proofs.«143054_j12300786336339_1_alg».proof.Proof.Ref.ValueC4
import proofs.«143054_j12300786336339_1_alg».proof.Proof.Ref.ValueC5
import proofs.«143054_j12300786336339_1_alg».proof.Proof.Ref.ValueC6
import proofs.«143054_j12300786336339_1_alg».proof.Proof.Ref.ValueC7
import proofs.«143054_j12300786336339_1_alg».proof.Proof.Ref.ValueC8
import proofs.«143054_j12300786336339_1_alg».proof.Proof.Ref.ValueC9
import proofs.«143054_j12300786336339_1_alg».proof.Proof.RefTotal
import Idealize.ShloMosaic.Lib.Pipeline.Frame

set_option maxRecDepth 16384

noncomputable section

namespace Cert.ReferenceIdeal.Hand

open Cert.ReferenceIdeal Idealize.ShloMosaic Idealize.ShloMosaic.ValueIdx Idealize.ShloMosaic.TcCoe Idealize.SL.Sem Idealize.ShloMosaic.StableHlo

theorem refPartial_all (Y O : Smooth.Img) : refPartial Y O 24 = Smooth.refTotal Y O := rfl

set_option maxHeartbeats 4000000 in
theorem ref_value (m' : (ℓ : Loc nD τ sig) → Buf (Elt Ideal) ℓ) (c : Dev nD) :
    StableHlo.after (ops (F := Ideal)) (fun b => m' (c, b)) (Proc.devRef .tc main_v437) ValueIdx.ix0
      = Smooth.refTotal (Smooth.img4 (yccR (m' ((c.tc : Thread nD τ).loc main_arg0))))
          (Smooth.img4 (m' ((c.tc : Thread nD τ).loc main_arg1))) := by
  rw [← refPartial_all]
  simp only [ops, StableHlo.after_append]
  have h0 := chunk0 (fun b => m' (c, b))
  generalize after (ops_part0 (F := Ideal)) (fun b => m' (c, b)) = W1 at h0 ⊢
  obtain ⟨p5, pO, pd, pt⟩ := h0
  have h1 := chunk1 W1 _ _ p5 pO pd pt
  generalize after (ops_part1 (F := Ideal)) W1 = W2 at h1 ⊢
  obtain ⟨p5, pO, pe, pa, pz, pt⟩ := h1
  have h2 := chunk2 W2 _ _ p5 pO pe pa pz pt
  generalize after (ops_part2 (F := Ideal)) W2 = W3 at h2 ⊢
  obtain ⟨p5, pO, pd, pt⟩ := h2
  have h3 := chunk3 W3 _ _ p5 pO pd pt
  generalize after (ops_part3 (F := Ideal)) W3 = W4 at h3 ⊢
  obtain ⟨p5, pO, pe, pa, pz, pt⟩ := h3
  have h4 := chunk4 W4 _ _ p5 pO pe pa pz pt
  generalize after (ops_part4 (F := Ideal)) W4 = W5 at h4 ⊢
  obtain ⟨p5, pO, pd, pt⟩ := h4
  have h5 := chunk5 W5 _ _ p5 pO pd pt
  generalize after (ops_part5 (F := Ideal)) W5 = W6 at h5 ⊢
  obtain ⟨p5, pO, pe, pa, pz, pt⟩ := h5
  have h6 := chunk6 W6 _ _ p5 pO pe pa pz pt
  generalize after (ops_part6 (F := Ideal)) W6 = W7 at h6 ⊢
  obtain ⟨p5, pO, pd, pt⟩ := h6
  have h7 := chunk7 W7 _ _ p5 pO pd pt
  generalize after (ops_part7 (F := Ideal)) W7 = W8 at h7 ⊢
  obtain ⟨p5, pO, pe, pa, pz, pt⟩ := h7
  have h8 := chunk8 W8 _ _ p5 pO pe pa pz pt
  generalize after (ops_part8 (F := Ideal)) W8 = W9 at h8 ⊢
  obtain ⟨p5, pO, pd, pt⟩ := h8
  exact chunk9 W9 _ _ p5 pO pd pt

end Cert.ReferenceIdeal.Hand

end
-- ==== Proof.YccSame.lean ====
import proofs.«143054_j12300786336339_1_alg».proof.Proof.KI.Prefix
import proofs.«143054_j12300786336339_1_alg».proof.Proof.Gen.ReferenceIdeal
import proofs.«143054_j12300786336339_1_alg».proof.Proof.Ref.Ycc
import Idealize.ShloMosaic.PureOps.Ideal

set_option maxRecDepth 16384
noncomputable section
namespace Smooth
open Idealize.ShloMosaic

theorem dot_same : Cert.KernelIdeal.dot_S3145728x3_S3x3_S3145728x3_1_0_0_1_n_n = Cert.ReferenceIdeal.dot_S3145728x3_S3x3_S3145728x3_1_0_0_1_n_n := rfl

theorem lit0_same : Cert.KernelIdeal.lit0 = Cert.ReferenceIdeal.lit0 := by
  funext i; fin_cases i <;> rfl

theorem lit1_same : Cert.KernelIdeal.lit1 = Cert.ReferenceIdeal.lit1 := by
  funext i; fin_cases i <;> rfl

set_option maxHeartbeats 400000 in
theorem ycc_same_term (a0 : (⟨4, ![1, 3, 1536, 2048]⟩ : Shape).Idx → EReal) :
    Cert.KernelIdeal.Hand.yccK a0 =
      shapeCast Cert.ReferenceIdeal.S1x3x1536x2048
        (addf (F := Ideal) (φ := .f32)
          (Host.dotGeneral (F := Ideal) (φ₁ := .f32) (φ₂ := .f32) Cert.ReferenceIdeal.dot_S3145728x3_S3x3_S3145728x3_1_0_0_1_n_n none
            (shapeCast Cert.ReferenceIdeal.S3145728x3 a0 Cert.ReferenceIdeal.Facts₀.shapeCasts_S1x3x1536x2048_S3145728x3)
            (fun i => FloatOps.ofBits (F := Ideal) .f32 (Cert.ReferenceIdeal.lit0 (Cert.ReferenceIdeal.S3x3.rowMajor i))))
          (broadcastInDim Cert.ReferenceIdeal.S3145728x3 ![0, 1] Cert.ReferenceIdeal.Facts₀.bcast_S1x3_S3145728x3_0_1
            (broadcastInDim Cert.ReferenceIdeal.S1x3 ![1] Cert.ReferenceIdeal.Facts₀.bcast_S3_S1x3_1 (fun i => FloatOps.ofBits (F := Ideal) .f32 (Cert.ReferenceIdeal.lit1 (Cert.ReferenceIdeal.S3.rowMajor i))))))
        Cert.ReferenceIdeal.Facts₀.shapeCasts_S3145728x3_S1x3x1536x2048 := by
  unfold Cert.KernelIdeal.Hand.yccK
  rw [dot_same, lit0_same, lit1_same]

/-- both programs form the same three affine combinations of the first argument -/
theorem ycc_same (a0 : (⟨4, ![1, 3, 1536, 2048]⟩ : Shape).Idx → EReal) :
    Cert.KernelIdeal.Hand.yccK a0 = Cert.ReferenceIdeal.Hand.yccR a0 := by
  unfold Cert.ReferenceIdeal.Hand.yccR
  exact ycc_same_term a0

end Smooth
end
-- ==== Proof.Final.lean ====
import proofs.«143054_j12300786336339_1_alg».proof.Proof.Totals
import proofs.«143054_j12300786336339_1_alg».proof.Proof.RefTotal

noncomputable section

namespace Smooth

open Idealize.ShloMosaic

/-- the two orders list the same 24 terms; addition in the extended reals is commutative and associative -/
theorem kerTotal_eq_refTotal (Y O : Img) : kerTotal Y O = refTotal Y O := by
  unfold kerTotal refTotal
  ac_rfl

end Smooth

end
-- ==== Proof.lean ====
/- Both programs return Σ over the 24 displacements d ∈ {-2..2}² \ {0} of (mean over pixel pairs (p, p + d) of
   exp (σ · |Y p − Y (p + d)|²)) · (mean over pairs and channels of |O p − O (p + d)|), Y three affine combinations of the
   first argument and O the second; the kernel's masked block sums regroup the reference's slice sums term by term. -/
import proofs.«143054_j12300786336339_1_alg».proof.Defs
import proofs.«143054_j12300786336339_1_alg».proof.Proof.K.Frame
import proofs.«143054_j12300786336339_1_alg».proof.Proof.KI.Value
import proofs.«143054_j12300786336339_1_alg».proof.Proof.Ref.Run
import proofs.«143054_j12300786336339_1_alg».proof.Proof.Ref.Value
import proofs.«143054_j12300786336339_1_alg».proof.Proof.YccSame
import proofs.«143054_j12300786336339_1_alg».proof.Proof.Final
import proofs.«143054_j12300786336339_1_alg».proof.Proof.Gen.Pre_finite_inputs

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.ReferenceIdeal.Hand.frame m ρ

theorem algebraic : Cert.algebraic_KernelIdeal_ReferenceIdeal := by
  intro m ρ m' ρ' _ hagree
  refine ⟨fun c => fun _ => Smooth.kerTotal
      (Smooth.img4 (Cert.KernelIdeal.Hand.yccK (m ((c.tc : Thread Cert.KernelIdeal.nD Cert.KernelIdeal.τ).loc Cert.KernelIdeal.main_arg0))))
      (Smooth.img4 (m ((c.tc : Thread Cert.KernelIdeal.nD Cert.KernelIdeal.τ).loc Cert.KernelIdeal.main_arg1))),
    Cert.KernelIdeal.Hand.kernel_value m ρ, ?_⟩
  refine (θ_run Cert.ReferenceIdeal.defs _ _).mono (fun r h c => ⟨?_, ?_, ?_⟩) (Cert.ReferenceIdeal.Hand.run m' ρ')
  · rw [h c Cert.ReferenceIdeal.main_v437]
    funext j
    rw [ValueIdx.eq_ix0 j, Cert.ReferenceIdeal.Hand.ref_value m' c, (hagree c).1, (hagree c).2, ← Smooth.ycc_same]
    exact (Smooth.kerTotal_eq_refTotal _ _).symm
  · exact (h c Cert.ReferenceIdeal.main_arg0).trans (Cert.ReferenceIdeal.Hand.after_arg0 _)
  · exact (h c Cert.ReferenceIdeal.main_arg1).trans (Cert.ReferenceIdeal.Hand.after_arg1 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
